-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "inv_alpha" .f32 0x41200000#32 ((134217728 / 13421773 : ℝ) : EReal)
  ∧ IdealRules.named_const.Statement Cert.KernelIdeal.κ "inv_alpha" .f32 0x41200000#32 ((134217728 / 13421773 : ℝ) : EReal)
  ∧ IdealRules.named_const.Statement Cert.KernelIdeal.κ "inv_alpha" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x384 : Shape := ⟨2, ![200000, 384]⟩
abbrev S4x384x160 : Shape := ⟨3, ![4, 384, 160]⟩
abbrev S4x160 : Shape := ⟨2, ![4, 160]⟩
abbrev S4x160x128 : Shape := ⟨3, ![4, 160, 128]⟩
abbrev S4x128 : Shape := ⟨2, ![4, 128]⟩
abbrev S4x128x96 : Shape := ⟨3, ![4, 128, 96]⟩
abbrev S4x96 : Shape := ⟨2, ![4, 96]⟩
abbrev S4x96x1 : Shape := ⟨3, ![4, 96, 1]⟩
abbrev S4x1 : Shape := ⟨2, ![4, 1]⟩
abbrev S50000 : Shape := ⟨1, ![50000]⟩
abbrev S_ : Shape := ⟨0, ![]⟩

class Facts : Prop where
  bcast_S_S200000x384 : S_.BroadcastsInDim S200000x384 (![] : Fin 0 → Fin S200000x384.rank)
  reducesTo_S200000x384_S_d0_1 : S200000x384.ReducesTo [0, 1] S_
  h_S_ : 0 < S_.numel
  bcast_S_S4x384x160 : S_.BroadcastsInDim S4x384x160 (![] : Fin 0 → Fin S4x384x160.rank)
  reducesTo_S4x384x160_S_d0_1_2 : S4x384x160.ReducesTo [0, 1, 2] S_
  bcast_S_S4x160 : S_.BroadcastsInDim S4x160 (![] : Fin 0 → Fin S4x160.rank)
  reducesTo_S4x160_S_d0_1 : S4x160.ReducesTo [0, 1] S_
  bcast_S_S4x160x128 : S_.BroadcastsInDim S4x160x128 (![] : Fin 0 → Fin S4x160x128.rank)
  reducesTo_S4x160x128_S_d0_1_2 : S4x160x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x96 : S_.BroadcastsInDim S4x128x96 (![] : Fin 0 → Fin S4x128x96.rank)
  reducesTo_S4x128x96_S_d0_1_2 : S4x128x96.ReducesTo [0, 1, 2] S_
  bcast_S_S4x96 : S_.BroadcastsInDim S4x96 (![] : Fin 0 → Fin S4x96.rank)
  reducesTo_S4x96_S_d0_1 : S4x96.ReducesTo [0, 1] S_
  bcast_S_S4x96x1 : S_.BroadcastsInDim S4x96x1 (![] : Fin 0 → Fin S4x96x1.rank)
  reducesTo_S4x96x1_S_d0_1_2 : S4x96x1.ReducesTo [0, 1, 2] S_
  bcast_S_S4x1 : S_.BroadcastsInDim S4x1 (![] : Fin 0 → Fin S4x1.rank)
  reducesTo_S4x1_S_d0_1 : S4x1.ReducesTo [0, 1] S_
  bcast_S_S50000 : S_.BroadcastsInDim S50000 (![] : Fin 0 → Fin S50000.rank)
  reducesTo_S50000_S_d0 : S50000.ReducesTo [0] S_

variable [Facts]

def fn_part4 {F : FTy → Type} [FloatOps F] (main_arg12 : IVec S50000 32) (main_v64 : IVec S_ 1) (main_v66 : IVec S50000 1) (main_c_26 : IVec S_ 32) : IVec S_ 1 :=
  let main_v67 : IVec S50000 32 := broadcastInDim S50000 ![] bcast_S_S50000 main_c_26
  let main_v68 : IVec S50000 1 := cmpi .slt main_arg12 main_v67
  let main_v69 : IVec S50000 1 := andi main_v66 main_v68
  let main_c_27 : IVec S_ 1 := constantI S_ 1 1#1
  let main_v70 : IVec S_ 1 := (fun x v => Host.reduce IntOp.andi x v reducesTo_S50000_S_d0 h_S_) main_v69 main_c_27
  let main_v71 : IVec S_ 1 := andi main_v64 main_v70
  main_v71

def fn_part3 {F : FTy → Type} [FloatOps F] (main_arg10 : IVec S50000 32) (main_arg11 : IVec S50000 32) (main_arg12 : IVec S50000 32) (main_v50 : IVec S_ 1) : IVec S_ 1 :=
  let main_c_19 : IVec S_ 32 := constantI S_ 32 4294767296#32
  let main_v51 : IVec S50000 32 := broadcastInDim S50000 ![] bcast_S_S50000 main_c_19
  let main_v52 : IVec S50000 1 := cmpi .sge main_arg10 main_v51
  let main_c_20 : IVec S_ 32 := constantI S_ 32 200000#32
  let main_v53 : IVec S50000 32 := broadcastInDim S50000 ![] bcast_S_S50000 main_c_20
  let main_v54 : IVec S50000 1 := cmpi .slt main_arg10 main_v53
  let main_v55 : IVec S50000 1 := andi main_v52 main_v54
  let main_c_21 : IVec S_ 1 := constantI S_ 1 1#1
  let main_v56 : IVec S_ 1 := (fun x v => Host.reduce IntOp.andi x v reducesTo_S50000_S_d0 h_S_) main_v55 main_c_21
  let main_v57 : IVec S_ 1 := andi main_v50 main_v56
  let main_c_22 : IVec S_ 32 := constantI S_ 32 4294767296#32
  let main_v58 : IVec S50000 32 := broadcastInDim S50000 ![] bcast_S_S50000 main_c_22
  let main_v59 : IVec S50000 1 := cmpi .sge main_arg11 main_v58
  let main_c_23 : IVec S_ 32 := constantI S_ 32 200000#32
  let main_v60 : IVec S50000 32 := broadcastInDim S50000 ![] bcast_S_S50000 main_c_23
  let main_v61 : IVec S50000 1 := cmpi .slt main_arg11 main_v60
  let main_v62 : IVec S50000 1 := andi main_v59 main_v61
  let main_c_24 : IVec S_ 1 := constantI S_ 1 1#1
  let main_v63 : IVec S_ 1 := (fun x v => Host.reduce IntOp.andi x v reducesTo_S50000_S_d0 h_S_) main_v62 main_c_24
  let main_v64 : IVec S_ 1 := andi main_v57 main_v63
  let main_c_25 : IVec S_ 32 := constantI S_ 32 4294767296#32
  let main_v65 : IVec S50000 32 := broadcastInDim S50000 ![] bcast_S_S50000 main_c_25
  let main_v66 : IVec S50000 1 := cmpi .sge main_arg12 main_v65
  let main_c_26 : IVec S_ 32 := constantI S_ 32 200000#32
  fn_part4 (F := F) main_arg12 main_v64 main_v66 main_c_26

def fn_part2 {F : FTy → Type} [FloatOps F] (main_arg7 : FVec F S4x96x1 .f32) (main_arg8 : FVec F S4x1 .f32) (main_arg9 : IVec S50000 32) (main_arg10 : IVec S50000 32) (main_arg11 : IVec S50000 32) (main_arg12 : IVec S50000 32) (main_v33 : IVec S_ 1) : IVec S_ 1 :=
  let main_v34 : FVec F S4x96x1 .f32 := Host.absf main_arg7
  let main_cst_12 : FVec F S_ .f32 := constant S_ .f32 0x7F800000#32
  let main_v35 : FVec F S4x96x1 .f32 := broadcastInDim S4x96x1 ![] bcast_S_S4x96x1 main_cst_12
  let main_v36 : IVec S4x96x1 1 := cmpf .olt main_v34 main_v35
  let main_c_13 : IVec S_ 1 := constantI S_ 1 1#1
  let main_v37 : IVec S_ 1 := (fun x v => Host.reduce IntOp.andi x v reducesTo_S4x96x1_S_d0_1_2 h_S_) main_v36 main_c_13
  let main_v38 : IVec S_ 1 := andi main_v33 main_v37
  let main_v39 : FVec F S4x1 .f32 := Host.absf main_arg8
  let main_cst_14 : FVec F S_ .f32 := constant S_ .f32 0x7F800000#32
  let main_v40 : FVec F S4x1 .f32 := broadcastInDim S4x1 ![] bcast_S_S4x1 main_cst_14
  let main_v41 : IVec S4x1 1 := cmpf .olt main_v39 main_v40
  let main_c_15 : IVec S_ 1 := constantI S_ 1 1#1
  let main_v42 : IVec S_ 1 := (fun x v => Host.reduce IntOp.andi x v reducesTo_S4x1_S_d0_1 h_S_) main_v41 main_c_15
  let main_v43 : IVec S_ 1 := andi main_v38 main_v42
  let main_c_16 : IVec S_ 32 := constantI S_ 32 4294767296#32
  let main_v44 : IVec S50000 32 := broadcastInDim S50000 ![] bcast_S_S50000 main_c_16
  let main_v45 : IVec S50000 1 := cmpi .sge main_arg9 main_v44
  let main_c_17 : IVec S_ 32 := constantI S_ 32 200000#32
  let main_v46 : IVec S50000 32 := broadcastInDim S50000 ![] bcast_S_S50000 main_c_17
  let main_v47 : IVec S50000 1 := cmpi .slt main_arg9 main_v46
  let main_v48 : IVec S50000 1 := andi main_v45 main_v47
  let main_c_18 : IVec S_ 1 := constantI S_ 1 1#1
  let main_v49 : IVec S_ 1 := (fun x v => Host.reduce IntOp.andi x v reducesTo_S50000_S_d0 h_S_) main_v48 main_c_18
  let main_v50 : IVec S_ 1 := andi main_v43 main_v49
  fn_part3 (F := F) main_arg10 main_arg11 main_arg12 main_v50

def fn_part1 {F : FTy → Type} [FloatOps F] (main_arg4 : FVec F S4x128 .f32) (main_arg5 : FVec F S4x128x96 .f32) (main_arg6 : FVec F S4x96 .f32) (main_arg7 : FVec F S4x96x1 .f32) (main_arg8 : FVec F S4x1 .f32) (main_arg9 : IVec S50000 32) (main_arg10 : IVec S50000 32) (main_arg11 : IVec S50000 32) (main_arg12 : IVec S50000 32) (main_v13 : IVec S_ 1) (main_v16 : IVec S4x160x128 1) : IVec S_ 1 :=
  let main_c_5 : IVec S_ 1 := constantI S_ 1 1#1
  let main_v17 : IVec S_ 1 := (fun x v => Host.reduce IntOp.andi x v reducesTo_S4x160x128_S_d0_1_2 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128x96 .f32 := Host.absf main_arg5
  let main_cst_8 : FVec F S_ .f32 := constant S_ .f32 0x7F800000#32
  let main_v25 : FVec F S4x128x96 .f32 := broadcastInDim S4x128x96 ![] bcast_S_S4x128x96 main_cst_8
  let main_v26 : IVec S4x128x96 1 := cmpf .olt main_v24 main_v25
  let main_c_9 : IVec S_ 1 := constantI S_ 1 1#1
  let main_v27 : IVec S_ 1 := (fun x v => Host.reduce IntOp.andi x v reducesTo_S4x128x96_S_d0_1_2 h_S_) main_v26 main_c_9
  let main_v28 : IVec S_ 1 := andi main_v23 main_v27
  let main_v29 : FVec F S4x96 .f32 := Host.absf main_arg6
  let main_cst_10 : FVec F S_ .f32 := constant S_ .f32 0x7F800000#32
  let main_v30 : FVec F S4x96 .f32 := broadcastInDim S4x96 ![] bcast_S_S4x96 main_cst_10
  let main_v31 : IVec S4x96 1 := cmpf .olt main_v29 main_v30
  let main_c_11 : IVec S_ 1 := constantI S_ 1 1#1
  let main_v32 : IVec S_ 1 := (fun x v => Host.reduce IntOp.andi x v reducesTo_S4x96_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S200000x384 .f32) (main_arg1 : FVec F S4x384x160 .f32) (main_arg2 : FVec F S4x160 .f32) (main_arg3 : FVec F S4x160x128 .f32) (main_arg4 : FVec F S4x128 .f32) (main_arg5 : FVec F S4x128x96 .f32) (main_arg6 : FVec F S4x96 .f32) (main_arg7 : FVec F S4x96x1 .f32) (main_arg8 : FVec F S4x1 .f32) (main_arg9 : IVec S50000 32) (main_arg10 : IVec S50000 32) (main_arg11 : IVec S50000 32) (main_arg12 : IVec S50000 32) : IVec S_ 1 :=
  let main_v0 : FVec F S200000x384 .f32 := Host.absf main_arg0
  let main_cst : FVec F S_ .f32 := constant S_ .f32 0x7F800000#32
  let main_v1 : FVec F S200000x384 .f32 := broadcastInDim S200000x384 ![] bcast_S_S200000x384 main_cst
  let main_v2 : IVec S200000x384 1 := cmpf .olt main_v0 main_v1
  let main_c : IVec S_ 1 := constantI S_ 1 1#1
  let main_v3 : IVec S_ 1 := (fun x v => Host.reduce IntOp.andi x v reducesTo_S200000x384_S_d0_1 h_S_) main_v2 main_c
  let main_v4 : FVec F S4x384x160 .f32 := Host.absf main_arg1
  let main_cst_0 : FVec F S_ .f32 := constant S_ .f32 0x7F800000#32
  let main_v5 : FVec F S4x384x160 .f32 := broadcastInDim S4x384x160 ![] bcast_S_S4x384x160 main_cst_0
  let main_v6 : IVec S4x384x160 1 := cmpf .olt main_v4 main_v5
  let main_c_1 : IVec S_ 1 := constantI S_ 1 1#1
  let main_v7 : IVec S_ 1 := (fun x v => Host.reduce IntOp.andi x v reducesTo_S4x384x160_S_d0_1_2 h_S_) main_v6 main_c_1
  let main_v8 : IVec S_ 1 := andi main_v3 main_v7
  let main_v9 : FVec F S4x160 .f32 := Host.absf main_arg2
  let main_cst_2 : FVec F S_ .f32 := constant S_ .f32 0x7F800000#32
  let main_v10 : FVec F S4x160 .f32 := broadcastInDim S4x160 ![] bcast_S_S4x160 main_cst_2
  let main_v11 : IVec S4x160 1 := cmpf .olt main_v9 main_v10
  let main_c_3 : IVec S_ 1 := constantI S_ 1 1#1
  let main_v12 : IVec S_ 1 := (fun x v => Host.reduce IntOp.andi x v reducesTo_S4x160_S_d0_1 h_S_) main_v11 main_c_3
  let main_v13 : IVec S_ 1 := andi main_v8 main_v12
  let main_v14 : FVec F S4x160x128 .f32 := Host.absf main_arg3
  let main_cst_4 : FVec F S_ .f32 := constant S_ .f32 0x7F800000#32
  let main_v15 : FVec F S4x160x128 .f32 := broadcastInDim S4x160x128 ![] bcast_S_S4x160x128 main_cst_4
  let main_v16 : IVec S4x160x128 1 := cmpf .olt main_v14 main_v15
  fn_part1 (F := F) main_arg4 main_arg5 main_arg6 main_arg7 main_arg8 main_arg9 main_arg10 main_arg11 main_arg12 main_v13 main_v16
-- ==== Kernel.lean ====
abbrev S200000x384 : Shape := ⟨2, ![200000, 384]⟩
abbrev S4x384x160 : Shape := ⟨3, ![4, 384, 160]⟩
abbrev S4x160 : Shape := ⟨2, ![4, 160]⟩
abbrev S4x160x128 : Shape := ⟨3, ![4, 160, 128]⟩
abbrev S4x128 : Shape := ⟨2, ![4, 128]⟩
abbrev S4x128x96 : Shape := ⟨3, ![4, 128, 96]⟩
abbrev S4x96 : Shape := ⟨2, ![4, 96]⟩
abbrev S4x96x1 : Shape := ⟨3, ![4, 96, 1]⟩
abbrev S4x1 : Shape := ⟨2, ![4, 1]⟩
abbrev S50000 : Shape := ⟨1, ![50000]⟩
abbrev S200000 : Shape := ⟨1, ![200000]⟩
abbrev S_ : Shape := ⟨0, ![]⟩
abbrev S200000x1 : Shape := ⟨2, ![200000, 1]⟩
abbrev S1 : Shape := ⟨1, ![1]⟩
abbrev S1x1 : Shape := ⟨2, ![1, 1]⟩
abbrev S4x50000x384 : Shape := ⟨3, ![4, 50000, 384]⟩
abbrev S4x1x160 : Shape := ⟨3, ![4, 1, 160]⟩
abbrev S4x1x128 : Shape := ⟨3, ![4, 1, 128]⟩
abbrev S4x1x96 : Shape := ⟨3, ![4, 1, 96]⟩
abbrev S4x1x1 : Shape := ⟨3, ![4, 1, 1]⟩
abbrev S4x8x128 : Shape := ⟨3, ![4, 8, 128]⟩
abbrev S1x10000x384 : Shape := ⟨3, ![1, 10000, 384]⟩
abbrev S1x384x160 : Shape := ⟨3, ![1, 384, 160]⟩
abbrev S1x1x160 : Shape := ⟨3, ![1, 1, 160]⟩
abbrev S1x160x128 : Shape := ⟨3, ![1, 160, 128]⟩
abbrev S1x1x128 : Shape := ⟨3, ![1, 1, 128]⟩
abbrev S1x128x96 : Shape := ⟨3, ![1, 128, 96]⟩
abbrev S1x1x96 : Shape := ⟨3, ![1, 1, 96]⟩
abbrev S1x96x1 : Shape := ⟨3, ![1, 96, 1]⟩
abbrev S1x1x1 : Shape := ⟨3, ![1, 1, 1]⟩
abbrev S1x8x128 : Shape := ⟨3, ![1, 8, 128]⟩
abbrev S384x160 : Shape := ⟨2, ![384, 160]⟩
abbrev S1x160 : Shape := ⟨2, ![1, 160]⟩
abbrev S160x128 : Shape := ⟨2, ![160, 128]⟩
abbrev S1x128 : Shape := ⟨2, ![1, 128]⟩
abbrev S128x96 : Shape := ⟨2, ![128, 96]⟩
abbrev S1x96 : Shape := ⟨2, ![1, 96]⟩
abbrev S96x1 : Shape := ⟨2, ![96, 1]⟩
abbrev S1x2000x384 : Shape := ⟨3, ![1, 2000, 384]⟩
abbrev S2000x384 : Shape := ⟨2, ![2000, 384]⟩
abbrev S2000x160 : Shape := ⟨2, ![2000, 160]⟩
abbrev S2000x128 : Shape := ⟨2, ![2000, 128]⟩
abbrev S2000x96 : Shape := ⟨2, ![2000, 96]⟩
abbrev S96 : Shape := ⟨1, ![96]⟩
abbrev S4 : Shape := ⟨1, ![4]⟩

abbrev nBuf : Space → Nat
  | .hbm => 53
  | .vmem => 13
  | .smem => 0
  | _ => 0

abbrev bufTy : (tb : Table) → Fin (tcTables nBuf tb) → BufTy
  | .hbm, ⟨0, _⟩ => ⟨S200000x384, .f32⟩
  | .hbm, ⟨1, _⟩ => ⟨S4x384x160, .f32⟩
  | .hbm, ⟨2, _⟩ => ⟨S4x160, .f32⟩
  | .hbm, ⟨3, _⟩ => ⟨S4x160x128, .f32⟩
  | .hbm, ⟨4, _⟩ => ⟨S4x128, .f32⟩
  | .hbm, ⟨5, _⟩ => ⟨S4x128x96, .f32⟩
  | .hbm, ⟨6, _⟩ => ⟨S4x96, .f32⟩
  | .hbm, ⟨7, _⟩ => ⟨S4x96x1, .f32⟩
  | .hbm, ⟨8, _⟩ => ⟨S4x1, .f32⟩
  | .hbm, ⟨9, _⟩ => ⟨S50000, .i32⟩
  | .hbm, ⟨10, _⟩ => ⟨S50000, .i32⟩
  | .hbm, ⟨11, _⟩ => ⟨S50000, .i32⟩
  | .hbm, ⟨12, _⟩ => ⟨S50000, .i32⟩
  | .hbm, ⟨13, _⟩ => ⟨S200000, .i32⟩
  | .hbm, ⟨14, _⟩ => ⟨S_, .i32⟩
  | .hbm, ⟨15, _⟩ => ⟨S200000, .i32⟩
  | .hbm, ⟨16, _⟩ => ⟨S200000, .i1⟩
  | .hbm, ⟨17, _⟩ => ⟨S_, .i32⟩
  | .hbm, ⟨18, _⟩ => ⟨S200000, .i32⟩
  | .hbm, ⟨19, _⟩ => ⟨S200000, .i32⟩
  | .hbm, ⟨20, _⟩ => ⟨S200000, .i32⟩
  | .hbm, ⟨21, _⟩ => ⟨S200000x1, .i32⟩
  | .hbm, ⟨22, _⟩ => ⟨S1, .i32⟩
  | .hbm, ⟨23, _⟩ => ⟨S_, .i32⟩
  | .hbm, ⟨24, _⟩ => ⟨S200000x1, .i32⟩
  | .hbm, ⟨25, _⟩ => ⟨S200000x1, .i1⟩
  | .hbm, ⟨26, _⟩ => ⟨S1x1, .i32⟩
  | .hbm, ⟨27, _⟩ => ⟨S200000x1, .i32⟩
  | .hbm, ⟨28, _⟩ => ⟨S200000x1, .i1⟩
  | .hbm, ⟨29, _⟩ => ⟨S200000x1, .i1⟩
  | .hbm, ⟨30, _⟩ => ⟨S_, .i1⟩
  | .hbm, ⟨31, _⟩ => ⟨S200000, .i1⟩
  | .hbm, ⟨32, _⟩ => ⟨S200000x384, .f32⟩
  | .hbm, ⟨33, _⟩ => ⟨S200000x384, .i1⟩
  | .hbm, ⟨34, _⟩ => ⟨S_, .f32⟩
  | .hbm, ⟨35, _⟩ => ⟨S200000x384, .f32⟩
  | .hbm, ⟨36, _⟩ => ⟨S200000x384, .f32⟩
  | .hbm, ⟨37, _⟩ => ⟨S200000x384, .bf16⟩
  | .hbm, ⟨38, _⟩ => ⟨S4x50000x384, .bf16⟩
  | .hbm, ⟨39, _⟩ => ⟨S4x384x160, .bf16⟩
  | .hbm, ⟨40, _⟩ => ⟨S4x160x128, .bf16⟩
  | .hbm, ⟨41, _⟩ => ⟨S4x128x96, .bf16⟩
  | .hbm, ⟨42, _⟩ => ⟨S4x96x1, .bf16⟩
  | .hbm, ⟨43, _⟩ => ⟨S4x1x160, .f32⟩
  | .hbm, ⟨44, _⟩ => ⟨S4x1x128, .f32⟩
  | .hbm, ⟨45, _⟩ => ⟨S4x1x96, .f32⟩
  | .hbm, ⟨46, _⟩ => ⟨S4x1x1, .f32⟩
  | .hbm, ⟨47, _⟩ => ⟨S4x8x128, .f32⟩
  | .hbm, ⟨48, _⟩ => ⟨S4x1x1, .f32⟩
  | .hbm, ⟨49, _⟩ => ⟨S4, .f32⟩
  | .hbm, ⟨50, _⟩ => ⟨S_, .f32⟩
  | .hbm, ⟨51, _⟩ => ⟨S_, .f32⟩
  | .hbm, ⟨52, _⟩ => ⟨S1, .f32⟩
  | .local _ .vmem, ⟨0, _⟩ => ⟨S1x10000x384, .bf16⟩
  | .local _ .vmem, ⟨1, _⟩ => ⟨S1x10000x384, .bf16⟩
  | .local _ .vmem, ⟨2, _⟩ => ⟨S1x384x160, .bf16⟩
  | .local _ .vmem, ⟨3, _⟩ => ⟨S1x1x160, .f32⟩
  | .local _ .vmem, ⟨4, _⟩ => ⟨S1x160x128, .bf16⟩
  | .local _ .vmem, ⟨5, _⟩ => ⟨S1x1x128, .f32⟩
  | .local _ .vmem, ⟨6, _⟩ => ⟨S1x128x96, .bf16⟩
  | .local _ .vmem, ⟨7, _⟩ => ⟨S1x1x96, .f32⟩
  | .local _ .vmem, ⟨8, _⟩ => ⟨S1x96x1, .bf16⟩
  | .local _ .vmem, ⟨9, _⟩ => ⟨S1x1x1, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | _, _ => ⟨S200000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst : Ref sig .tc := ⟨.hbm, 50, rfl⟩
abbrev main_v15 : Ref sig .tc := ⟨.hbm, 51, rfl⟩
abbrev main_v16 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![4, 5], ![false, false]⟩

@[reducible] def k0_t1_loop : Scf.Loop 32 :=
  let c0_i32_24 : BitVec 32 := 0#32
  let c5_i32 : BitVec 32 := 5#32
  let v20 : BitVec 32 := Scalar.addi c0_i32_24 c5_i32
  let c1_i32 : BitVec 32 := 1#32
  ⟨c0_i32_24, v20, c1_i32⟩
def k0_mult1 (k0_t1 : Fin k0_t1_loop.trips) : BitVec 32 :=
  let c0_i32_24 : BitVec 32 := 0#32
  let c1_i32 : BitVec 32 := 1#32
  let arg13 : BitVec 32 := Scf.iv c0_i32_24 c1_i32 k0_t1
  let c2000_i32 : BitVec 32 := 2000#32
  let v32 : BitVec 32 := Scalar.muli arg13 c2000_i32
  v32
def k0_off1 (k0_t1 : Fin k0_t1_loop.trips) : Fin 3 → Nat :=
  let c0_33 : Index := 0#32
  let c0_i32_24 : BitVec 32 := 0#32
  let c1_i32 : BitVec 32 := 1#32
  let arg13 : BitVec 32 := Scf.iv c0_i32_24 c1_i32 k0_t1
  let c2000_i32 : BitVec 32 := 2000#32
  let v32 : BitVec 32 := Scalar.muli arg13 c2000_i32
  let v33 : BitVec 32 := v32
  let v34 : Index := Scalar.indexCast v33
  let c0_34 : Index := 0#32
  ![0, v34.toNat, 0]
def k0_cond2 (i : grid0.Coords) : BitVec 1 :=
  let arg1 : BitVec 32 := BitVec.ofNat 32 (i 1).val
  let c4_i32 : BitVec 32 := 4#32
  let v29 : BitVec 1 := Scalar.cmpi .eq arg1 c4_i32
  let v30 : BitVec 32 := Scalar.extui v29
  let c0_i32_32 : BitVec 32 := 0#32
  let v31 : BitVec 1 := Scalar.cmpi .ne v30 c0_i32_32
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10000x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x384x160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x160x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x128x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x96x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  concatenates_S50000_S50000_S50000_S50000_S200000_d0 : Shape.Concatenates [S50000, S50000, S50000, S50000] S200000 0
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x384_0 : S200000.BroadcastsInDim S200000x384 (![0] : Fin 1 → Fin S200000x384.rank)
  bcast_S_S200000x384 : S_.BroadcastsInDim S200000x384 (![] : Fin 0 → Fin S200000x384.rank)
  bitsLt_bf16_f32 : FTy.bits .bf16 < FTy.bits .f32
  shapeCasts_S200000x384_S4x50000x384 : S200000x384.ShapeCasts S4x50000x384
  shapeCasts_S4x160_S4x1x160 : S4x160.ShapeCasts S4x1x160
  shapeCasts_S4x128_S4x1x128 : S4x128.ShapeCasts S4x1x128
  shapeCasts_S4x96_S4x1x96 : S4x96.ShapeCasts S4x1x96
  shapeCasts_S4x1_S4x1x1 : S4x1.ShapeCasts S4x1x1
  inb_S1x8x128_S1x8x128_0_0_0 : ∀ a, (![0, 0, 0] : Fin 3 → Nat) a + S1x8x128.size a ≤ S1x8x128.size a
  h_S1x8x128 : 0 < S1x8x128.numel
  shapeCasts_S1x8x128_S1x8x128 : S1x8x128.ShapeCasts S1x8x128
  inb_S1x384x160_S1x384x160_0_0_0 : ∀ a, (![0, 0, 0] : Fin 3 → Nat) a + S1x384x160.size a ≤ S1x384x160.size a
  h_S1x384x160 : 0 < S1x384x160.numel
  shapeCasts_S1x384x160_S384x160 : S1x384x160.ShapeCasts S384x160
  inb_S1x1x160_S1x1x160_0_0_0 : ∀ a, (![0, 0, 0] : Fin 3 → Nat) a + S1x1x160.size a ≤ S1x1x160.size a
  h_S1x1x160 : 0 < S1x1x160.numel
  shapeCasts_S1x1x160_S1x160 : S1x1x160.ShapeCasts S1x160
  inb_S1x160x128_S1x160x128_0_0_0 : ∀ a, (![0, 0, 0] : Fin 3 → Nat) a + S1x160x128.size a ≤ S1x160x128.size a
  h_S1x160x128 : 0 < S1x160x128.numel
  shapeCasts_S1x160x128_S160x128 : S1x160x128.ShapeCasts S160x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  inb_S1x128x96_S1x128x96_0_0_0 : ∀ a, (![0, 0, 0] : Fin 3 → Nat) a + S1x128x96.size a ≤ S1x128x96.size a
  h_S1x128x96 : 0 < S1x128x96.numel
  shapeCasts_S1x128x96_S128x96 : S1x128x96.ShapeCasts S128x96
  inb_S1x1x96_S1x1x96_0_0_0 : ∀ a, (![0, 0, 0] : Fin 3 → Nat) a + S1x1x96.size a ≤ S1x1x96.size a
  h_S1x1x96 : 0 < S1x1x96.numel
  shapeCasts_S1x1x96_S1x96 : S1x1x96.ShapeCasts S1x96
  inb_S1x96x1_S1x96x1_0_0_0 : ∀ a, (![0, 0, 0] : Fin 3 → Nat) a + S1x96x1.size a ≤ S1x96x1.size a
  h_S1x96x1 : 0 < S1x96x1.numel
  shapeCasts_S1x96x1_S96x1 : S1x96x1.ShapeCasts S96x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  h_S1x2000x384 : 0 < S1x2000x384.numel
  shapeCasts_S1x2000x384_S2000x384 : S1x2000x384.ShapeCasts S2000x384
  broadcasts_S1x160_S2000x160 : S1x160.Broadcasts S2000x160
  broadcasts_S1x128_S2000x128 : S1x128.Broadcasts S2000x128
  broadcasts_S1x96_S2000x96 : S1x96.Broadcasts S2000x96
  reduces_S2000x96_S96 : S2000x96.Reduces [0] S96
  shapeCasts_S96_S1x96 : S96.ShapeCasts S1x96
  shapeCasts_S1x1_S1x1x1 : S1x1.ShapeCasts S1x1x1
  broadcasts_S1x1x1_S1x8x128 : S1x1x1.Broadcasts S1x8x128
  slices_S4x8x128_S4x1x1_0_0_0 : S4x8x128.Slices ![0, 0, 0] S4x1x1
  shapeCasts_S4x1x1_S4 : S4x1x1.ShapeCasts S4
  reducesTo_S4_S_d0 : S4.ReducesTo [0] S_
  shapeCasts_S_S1 : S_.ShapeCasts S1
  gather_S200000x384_S200000x1_S200000x384_1_0_n_n_0_1_1384_wf : GatherDims.WF S200000x384 S200000x1 S200000x384 [1] [0] [] [0] [] 1 ![1, 384]
  dot_S2000x384_S384x160_S2000x160_1_0_0_1_n_n_wf : DotDims.WF S2000x384 S384x160 S2000x160 [1] [0] [0] [1] [] []
  dot_S2000x160_S160x128_S2000x128_1_0_0_1_n_n_wf : DotDims.WF S2000x160 S160x128 S2000x128 [1] [0] [0] [1] [] []
  dot_S2000x128_S128x96_S2000x96_1_0_0_1_n_n_wf : DotDims.WF S2000x128 S128x96 S2000x96 [1] [0] [0] [1] [] []
  dot_S1x96_S96x1_S1x1_1_0_0_1_n_n_wf : DotDims.WF S1x96 S96x1 S1x1 [1] [0] [0] [1] [] []
  hrank0 : 0 < grid0.rank
  k0_t1_ok : k0_t1_loop.OK
  k0_mult1_dvd : ∀ k0_t1 : Fin k0_t1_loop.trips, 2000 ∣ (k0_mult1 k0_t1).toNat
  k0_off1_inb : ∀ k0_t1 : Fin k0_t1_loop.trips, ∀ a, (k0_off1 k0_t1) a + S1x2000x384.size a ≤ S1x10000x384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x384.size a ≤ S4x50000x384.size a
  hwx0_0 : ∀ i : grid0.Coords, EltTy.bits .bf16 = 32 ∨ (Rect.block (s := S4x50000x384) S1x10000x384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x384x160.size a ≤ S4x384x160.size a
  hwx0_1 : ∀ i : grid0.Coords, EltTy.bits .bf16 = 32 ∨ (Rect.block (s := S4x384x160) S1x384x160.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x160.size a ≤ S4x1x160.size a
  hwx0_2 : ∀ i : grid0.Coords, EltTy.bits .f32 = 32 ∨ (Rect.block (s := S4x1x160) S1x1x160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x160x128.size a ≤ S4x160x128.size a
  hwx0_3 : ∀ i : grid0.Coords, EltTy.bits .bf16 = 32 ∨ (Rect.block (s := S4x160x128) S1x160x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S4x1x128.size a
  hwx0_4 : ∀ i : grid0.Coords, EltTy.bits .f32 = 32 ∨ (Rect.block (s := S4x1x128) S1x1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128x96.size a ≤ S4x128x96.size a
  hwx0_5 : ∀ i : grid0.Coords, EltTy.bits .bf16 = 32 ∨ (Rect.block (s := S4x128x96) S1x128x96.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1x96.size a ≤ S4x1x96.size a
  hwx0_6 : ∀ i : grid0.Coords, EltTy.bits .f32 = 32 ∨ (Rect.block (s := S4x1x96) S1x1x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x96x1.size a ≤ S4x96x1.size a
  hwx0_7 : ∀ i : grid0.Coords, EltTy.bits .bf16 = 32 ∨ (Rect.block (s := S4x96x1) S1x96x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S4x1x1.size a
  hwx0_8 : ∀ i : grid0.Coords, EltTy.bits .f32 = 32 ∨ (Rect.block (s := S4x1x1) S1x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x8x128.size a ≤ S4x8x128.size a
  hwx0_9 : ∀ i : grid0.Coords, EltTy.bits .f32 = 32 ∨ (Rect.block (s := S4x8x128) S1x8x128.size (cc0_transform_9 i) (hinb0_9 i)).WholeWords (EltTy.packing .f32)

variable [Facts₀]

def gather_S200000x384_S200000x1_S200000x384_1_0_n_n_0_1_1384 : GatherDims S200000x384 S200000x1 S200000x384 where
  offsetDims := [1]
  collapsedSliceDims := [0]
  operandBatchingDims := []
  startIndicesBatchingDims := []
  startIndexMap := [0]
  indexVectorDim := 1
  sliceSizes := ![1, 384]
  wf := gather_S200000x384_S200000x1_S200000x384_1_0_n_n_0_1_1384_wf
def dot_S2000x384_S384x160_S2000x160_1_0_0_1_n_n : DotDims S2000x384 S384x160 S2000x160 where
  lhsContracting := [1]
  rhsContracting := [0]
  lhsNonContracting := [0]
  rhsNonContracting := [1]
  lhsBatch := []
  rhsBatch := []
  wf := dot_S2000x384_S384x160_S2000x160_1_0_0_1_n_n_wf
def dot_S2000x160_S160x128_S2000x128_1_0_0_1_n_n : DotDims S2000x160 S160x128 S2000x128 where
  lhsContracting := [1]
  rhsContracting := [0]
  lhsNonContracting := [0]
  rhsNonContracting := [1]
  lhsBatch := []
  rhsBatch := []
  wf := dot_S2000x160_S160x128_S2000x128_1_0_0_1_n_n_wf
def dot_S2000x128_S128x96_S2000x96_1_0_0_1_n_n : DotDims S2000x128 S128x96 S2000x96 where
  lhsContracting := [1]
  rhsContracting := [0]
  lhsNonContracting := [0]
  rhsNonContracting := [1]
  lhsBatch := []
  rhsBatch := []
  wf := dot_S2000x128_S128x96_S2000x96_1_0_0_1_n_n_wf
def dot_S1x96_S96x1_S1x1_1_0_0_1_n_n : DotDims S1x96 S96x1 S1x1 where
  lhsContracting := [1]
  rhsContracting := [0]
  lhsNonContracting := [0]
  rhsNonContracting := [1]
  lhsBatch := []
  rhsBatch := []
  wf := dot_S1x96_S96x1_S1x1_1_0_0_1_n_n_wf

abbrev win0_0 : Pipeline.Window sig grid0 :=
  Pipeline.Window.ofSpec (Memref.whole main_v3) S1x10000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x384x160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x160x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x96x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x8x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S200000x384 : Shape := ⟨2, ![200000, 384]⟩
abbrev S4x384x160 : Shape := ⟨3, ![4, 384, 160]⟩
abbrev S4x160 : Shape := ⟨2, ![4, 160]⟩
abbrev S4x160x128 : Shape := ⟨3, ![4, 160, 128]⟩
abbrev S4x128 : Shape := ⟨2, ![4, 128]⟩
abbrev S4x128x96 : Shape := ⟨3, ![4, 128, 96]⟩
abbrev S4x96 : Shape := ⟨2, ![4, 96]⟩
abbrev S4x96x1 : Shape := ⟨3, ![4, 96, 1]⟩
abbrev S4x1 : Shape := ⟨2, ![4, 1]⟩
abbrev S50000 : Shape := ⟨1, ![50000]⟩
abbrev S_ : Shape := ⟨0, ![]⟩
abbrev S200000 : Shape := ⟨1, ![200000]⟩
abbrev S50000x1 : Shape := ⟨2, ![50000, 1]⟩
abbrev S50000x384 : Shape := ⟨2, ![50000, 384]⟩
abbrev S1x384x160 : Shape := ⟨3, ![1, 384, 160]⟩
abbrev S384x160 : Shape := ⟨2, ![384, 160]⟩
abbrev S1x160 : Shape := ⟨2, ![1, 160]⟩
abbrev S160 : Shape := ⟨1, ![160]⟩
abbrev S1x160x128 : Shape := ⟨3, ![1, 160, 128]⟩
abbrev S160x128 : Shape := ⟨2, ![160, 128]⟩
abbrev S1x128 : Shape := ⟨2, ![1, 128]⟩
abbrev S128 : Shape := ⟨1, ![128]⟩
abbrev S1x128x96 : Shape := ⟨3, ![1, 128, 96]⟩
abbrev S128x96 : Shape := ⟨2, ![128, 96]⟩
abbrev S1x96 : Shape := ⟨2, ![1, 96]⟩
abbrev S96 : Shape := ⟨1, ![96]⟩
abbrev S1x96x1 : Shape := ⟨3, ![1, 96, 1]⟩
abbrev S96x1 : Shape := ⟨2, ![96, 1]⟩
abbrev S1x1 : Shape := ⟨2, ![1, 1]⟩
abbrev S1 : Shape := ⟨1, ![1]⟩
abbrev S50000x160 : Shape := ⟨2, ![50000, 160]⟩
abbrev S50000x128 : Shape := ⟨2, ![50000, 128]⟩
abbrev S50000x96 : Shape := ⟨2, ![50000, 96]⟩
abbrev S1x200000 : Shape := ⟨2, ![1, 200000]⟩

abbrev nBuf : Space → Nat
  | .hbm => 402
  | .vmem => 0
  | .smem => 0
  | _ => 0

abbrev hbmTy0_0 (i : Nat) : BufTy := match i % 128 with
  | 0 => ⟨S200000x384, .f32⟩
  | 1 => ⟨S4x384x160, .f32⟩
  | 2 => ⟨S4x160, .f32⟩
  | 3 => ⟨S4x160x128, .f32⟩
  | 4 => ⟨S4x128, .f32⟩
  | 5 => ⟨S4x128x96, .f32⟩
  | 6 => ⟨S4x96, .f32⟩
  | 7 => ⟨S4x96x1, .f32⟩
  | 8 => ⟨S4x1, .f32⟩
  | 9 => ⟨S50000, .i32⟩
  | 10 => ⟨S50000, .i32⟩
  | 11 => ⟨S50000, .i32⟩
  | 12 => ⟨S50000, .i32⟩
  | 13 => ⟨S_, .f32⟩
  | 14 => ⟨S200000, .f32⟩
  | 15 => ⟨S_, .i32⟩
  | 16 => ⟨S50000, .i32⟩
  | 17 => ⟨S50000, .i1⟩
  | 18 => ⟨S_, .i32⟩
  | 19 => ⟨S50000, .i32⟩
  | 20 => ⟨S50000, .i32⟩
  | 21 => ⟨S50000, .i32⟩
  | 22 => ⟨S50000x1, .i32⟩
  | 23 => ⟨S50000x384, .f32⟩
  | 24 => ⟨S1x384x160, .f32⟩
  | 25 => ⟨S384x160, .f32⟩
  | 26 => ⟨S1x160, .f32⟩
  | 27 => ⟨S160, .f32⟩
  | 28 => ⟨S1x160x128, .f32⟩
  | 29 => ⟨S160x128, .f32⟩
  | 30 => ⟨S1x128, .f32⟩
  | 31 => ⟨S128, .f32⟩
  | 32 => ⟨S1x128x96, .f32⟩
  | 33 => ⟨S128x96, .f32⟩
  | 34 => ⟨S1x96, .f32⟩
  | 35 => ⟨S96, .f32⟩
  | 36 => ⟨S1x96x1, .f32⟩
  | 37 => ⟨S96x1, .f32⟩
  | 38 => ⟨S1x1, .f32⟩
  | 39 => ⟨S1, .f32⟩
  | 40 => ⟨S50000x160, .f32⟩
  | 41 => ⟨S1x160, .f32⟩
  | 42 => ⟨S50000x160, .f32⟩
  | 43 => ⟨S50000x160, .f32⟩
  | 44 => ⟨S_, .f32⟩
  | 45 => ⟨S_, .f32⟩
  | 46 => ⟨S50000x160, .f32⟩
  | 47 => ⟨S50000x160, .f32⟩
  | 48 => ⟨S_, .f32⟩
  | 49 => ⟨S50000x160, .f32⟩
  | 50 => ⟨S50000x160, .f32⟩
  | 51 => ⟨S_, .f32⟩
  | 52 => ⟨S50000x160, .f32⟩
  | 53 => ⟨S50000x160, .f32⟩
  | 54 => ⟨S50000x160, .f32⟩
  | 55 => ⟨S_, .f32⟩
  | 56 => ⟨S50000x160, .f32⟩
  | 57 => ⟨S50000x160, .f32⟩
  | 58 => ⟨S50000x160, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S_, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S50000x96, .f32⟩
  | 79 => ⟨S1x96, .f32⟩
  | 80 => ⟨S50000x96, .f32⟩
  | 81 => ⟨S50000x96, .f32⟩
  | 82 => ⟨S_, .f32⟩
  | 83 => ⟨S_, .f32⟩
  | 84 => ⟨S50000x96, .f32⟩
  | 85 => ⟨S50000x96, .f32⟩
  | 86 => ⟨S_, .f32⟩
  | 87 => ⟨S50000x96, .f32⟩
  | 88 => ⟨S50000x96, .f32⟩
  | 89 => ⟨S_, .f32⟩
  | 90 => ⟨S50000x96, .f32⟩
  | 91 => ⟨S50000x96, .f32⟩
  | 92 => ⟨S50000x96, .f32⟩
  | 93 => ⟨S_, .f32⟩
  | 94 => ⟨S50000x96, .f32⟩
  | 95 => ⟨S50000x96, .f32⟩
  | 96 => ⟨S50000x96, .f32⟩
  | 97 => ⟨S50000x1, .f32⟩
  | 98 => ⟨S1x1, .f32⟩
  | 99 => ⟨S50000x1, .f32⟩
  | 100 => ⟨S50000x1, .f32⟩
  | 101 => ⟨S50000, .f32⟩
  | 102 => ⟨S_, .i32⟩
  | 103 => ⟨S50000, .i32⟩
  | 104 => ⟨S50000, .i1⟩
  | 105 => ⟨S_, .i32⟩
  | 106 => ⟨S50000, .i32⟩
  | 107 => ⟨S50000, .i32⟩
  | 108 => ⟨S50000, .i32⟩
  | 109 => ⟨S50000x1, .i32⟩
  | 110 => ⟨S200000, .f32⟩
  | 111 => ⟨S_, .i32⟩
  | 112 => ⟨S50000, .i32⟩
  | 113 => ⟨S50000, .i1⟩
  | 114 => ⟨S_, .i32⟩
  | 115 => ⟨S50000, .i32⟩
  | 116 => ⟨S50000, .i32⟩
  | 117 => ⟨S50000, .i32⟩
  | 118 => ⟨S50000x1, .i32⟩
  | 119 => ⟨S50000x384, .f32⟩
  | 120 => ⟨S1x384x160, .f32⟩
  | 121 => ⟨S384x160, .f32⟩
  | 122 => ⟨S1x160, .f32⟩
  | 123 => ⟨S160, .f32⟩
  | 124 => ⟨S1x160x128, .f32⟩
  | 125 => ⟨S160x128, .f32⟩
  | 126 => ⟨S1x128, .f32⟩
  | 127 => ⟨S128, .f32⟩
  | _ => ⟨S200000x384, .f32⟩

abbrev hbmTy0_1 (i : Nat) : BufTy := match i % 128 with
  | 0 => ⟨S1x128x96, .f32⟩
  | 1 => ⟨S128x96, .f32⟩
  | 2 => ⟨S1x96, .f32⟩
  | 3 => ⟨S96, .f32⟩
  | 4 => ⟨S1x96x1, .f32⟩
  | 5 => ⟨S96x1, .f32⟩
  | 6 => ⟨S1x1, .f32⟩
  | 7 => ⟨S1, .f32⟩
  | 8 => ⟨S50000x160, .f32⟩
  | 9 => ⟨S1x160, .f32⟩
  | 10 => ⟨S50000x160, .f32⟩
  | 11 => ⟨S50000x160, .f32⟩
  | 12 => ⟨S_, .f32⟩
  | 13 => ⟨S_, .f32⟩
  | 14 => ⟨S50000x160, .f32⟩
  | 15 => ⟨S50000x160, .f32⟩
  | 16 => ⟨S_, .f32⟩
  | 17 => ⟨S50000x160, .f32⟩
  | 18 => ⟨S50000x160, .f32⟩
  | 19 => ⟨S_, .f32⟩
  | 20 => ⟨S50000x160, .f32⟩
  | 21 => ⟨S50000x160, .f32⟩
  | 22 => ⟨S50000x160, .f32⟩
  | 23 => ⟨S_, .f32⟩
  | 24 => ⟨S50000x160, .f32⟩
  | 25 => ⟨S50000x160, .f32⟩
  | 26 => ⟨S50000x160, .f32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S_, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S50000x128, .f32⟩
  | 46 => ⟨S50000x96, .f32⟩
  | 47 => ⟨S1x96, .f32⟩
  | 48 => ⟨S50000x96, .f32⟩
  | 49 => ⟨S50000x96, .f32⟩
  | 50 => ⟨S_, .f32⟩
  | 51 => ⟨S_, .f32⟩
  | 52 => ⟨S50000x96, .f32⟩
  | 53 => ⟨S50000x96, .f32⟩
  | 54 => ⟨S_, .f32⟩
  | 55 => ⟨S50000x96, .f32⟩
  | 56 => ⟨S50000x96, .f32⟩
  | 57 => ⟨S_, .f32⟩
  | 58 => ⟨S50000x96, .f32⟩
  | 59 => ⟨S50000x96, .f32⟩
  | 60 => ⟨S50000x96, .f32⟩
  | 61 => ⟨S_, .f32⟩
  | 62 => ⟨S50000x96, .f32⟩
  | 63 => ⟨S50000x96, .f32⟩
  | 64 => ⟨S50000x96, .f32⟩
  | 65 => ⟨S50000x1, .f32⟩
  | 66 => ⟨S1x1, .f32⟩
  | 67 => ⟨S50000x1, .f32⟩
  | 68 => ⟨S50000x1, .f32⟩
  | 69 => ⟨S50000, .f32⟩
  | 70 => ⟨S_, .i32⟩
  | 71 => ⟨S50000, .i32⟩
  | 72 => ⟨S50000, .i1⟩
  | 73 => ⟨S_, .i32⟩
  | 74 => ⟨S50000, .i32⟩
  | 75 => ⟨S50000, .i32⟩
  | 76 => ⟨S50000, .i32⟩
  | 77 => ⟨S50000x1, .i32⟩
  | 78 => ⟨S200000, .f32⟩
  | 79 => ⟨S_, .i32⟩
  | 80 => ⟨S50000, .i32⟩
  | 81 => ⟨S50000, .i1⟩
  | 82 => ⟨S_, .i32⟩
  | 83 => ⟨S50000, .i32⟩
  | 84 => ⟨S50000, .i32⟩
  | 85 => ⟨S50000, .i32⟩
  | 86 => ⟨S50000x1, .i32⟩
  | 87 => ⟨S50000x384, .f32⟩
  | 88 => ⟨S1x384x160, .f32⟩
  | 89 => ⟨S384x160, .f32⟩
  | 90 => ⟨S1x160, .f32⟩
  | 91 => ⟨S160, .f32⟩
  | 92 => ⟨S1x160x128, .f32⟩
  | 93 => ⟨S160x128, .f32⟩
  | 94 => ⟨S1x128, .f32⟩
  | 95 => ⟨S128, .f32⟩
  | 96 => ⟨S1x128x96, .f32⟩
  | 97 => ⟨S128x96, .f32⟩
  | 98 => ⟨S1x96, .f32⟩
  | 99 => ⟨S96, .f32⟩
  | 100 => ⟨S1x96x1, .f32⟩
  | 101 => ⟨S96x1, .f32⟩
  | 102 => ⟨S1x1, .f32⟩
  | 103 => ⟨S1, .f32⟩
  | 104 => ⟨S50000x160, .f32⟩
  | 105 => ⟨S1x160, .f32⟩
  | 106 => ⟨S50000x160, .f32⟩
  | 107 => ⟨S50000x160, .f32⟩
  | 108 => ⟨S_, .f32⟩
  | 109 => ⟨S_, .f32⟩
  | 110 => ⟨S50000x160, .f32⟩
  | 111 => ⟨S50000x160, .f32⟩
  | 112 => ⟨S_, .f32⟩
  | 113 => ⟨S50000x160, .f32⟩
  | 114 => ⟨S50000x160, .f32⟩
  | 115 => ⟨S_, .f32⟩
  | 116 => ⟨S50000x160, .f32⟩
  | 117 => ⟨S50000x160, .f32⟩
  | 118 => ⟨S50000x160, .f32⟩
  | 119 => ⟨S_, .f32⟩
  | 120 => ⟨S50000x160, .f32⟩
  | 121 => ⟨S50000x160, .f32⟩
  | 122 => ⟨S50000x160, .f32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S200000x384, .f32⟩

abbrev hbmTy0_2 (i : Nat) : BufTy := match i % 128 with
  | 0 => ⟨S_, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S50000x128, .f32⟩
  | 14 => ⟨S50000x96, .f32⟩
  | 15 => ⟨S1x96, .f32⟩
  | 16 => ⟨S50000x96, .f32⟩
  | 17 => ⟨S50000x96, .f32⟩
  | 18 => ⟨S_, .f32⟩
  | 19 => ⟨S_, .f32⟩
  | 20 => ⟨S50000x96, .f32⟩
  | 21 => ⟨S50000x96, .f32⟩
  | 22 => ⟨S_, .f32⟩
  | 23 => ⟨S50000x96, .f32⟩
  | 24 => ⟨S50000x96, .f32⟩
  | 25 => ⟨S_, .f32⟩
  | 26 => ⟨S50000x96, .f32⟩
  | 27 => ⟨S50000x96, .f32⟩
  | 28 => ⟨S50000x96, .f32⟩
  | 29 => ⟨S_, .f32⟩
  | 30 => ⟨S50000x96, .f32⟩
  | 31 => ⟨S50000x96, .f32⟩
  | 32 => ⟨S50000x96, .f32⟩
  | 33 => ⟨S50000x1, .f32⟩
  | 34 => ⟨S1x1, .f32⟩
  | 35 => ⟨S50000x1, .f32⟩
  | 36 => ⟨S50000x1, .f32⟩
  | 37 => ⟨S50000, .f32⟩
  | 38 => ⟨S_, .i32⟩
  | 39 => ⟨S50000, .i32⟩
  | 40 => ⟨S50000, .i1⟩
  | 41 => ⟨S_, .i32⟩
  | 42 => ⟨S50000, .i32⟩
  | 43 => ⟨S50000, .i32⟩
  | 44 => ⟨S50000, .i32⟩
  | 45 => ⟨S50000x1, .i32⟩
  | 46 => ⟨S200000, .f32⟩
  | 47 => ⟨S_, .i32⟩
  | 48 => ⟨S50000, .i32⟩
  | 49 => ⟨S50000, .i1⟩
  | 50 => ⟨S_, .i32⟩
  | 51 => ⟨S50000, .i32⟩
  | 52 => ⟨S50000, .i32⟩
  | 53 => ⟨S50000, .i32⟩
  | 54 => ⟨S50000x1, .i32⟩
  | 55 => ⟨S50000x384, .f32⟩
  | 56 => ⟨S1x384x160, .f32⟩
  | 57 => ⟨S384x160, .f32⟩
  | 58 => ⟨S1x160, .f32⟩
  | 59 => ⟨S160, .f32⟩
  | 60 => ⟨S1x160x128, .f32⟩
  | 61 => ⟨S160x128, .f32⟩
  | 62 => ⟨S1x128, .f32⟩
  | 63 => ⟨S128, .f32⟩
  | 64 => ⟨S1x128x96, .f32⟩
  | 65 => ⟨S128x96, .f32⟩
  | 66 => ⟨S1x96, .f32⟩
  | 67 => ⟨S96, .f32⟩
  | 68 => ⟨S1x96x1, .f32⟩
  | 69 => ⟨S96x1, .f32⟩
  | 70 => ⟨S1x1, .f32⟩
  | 71 => ⟨S1, .f32⟩
  | 72 => ⟨S50000x160, .f32⟩
  | 73 => ⟨S1x160, .f32⟩
  | 74 => ⟨S50000x160, .f32⟩
  | 75 => ⟨S50000x160, .f32⟩
  | 76 => ⟨S_, .f32⟩
  | 77 => ⟨S_, .f32⟩
  | 78 => ⟨S50000x160, .f32⟩
  | 79 => ⟨S50000x160, .f32⟩
  | 80 => ⟨S_, .f32⟩
  | 81 => ⟨S50000x160, .f32⟩
  | 82 => ⟨S50000x160, .f32⟩
  | 83 => ⟨S_, .f32⟩
  | 84 => ⟨S50000x160, .f32⟩
  | 85 => ⟨S50000x160, .f32⟩
  | 86 => ⟨S50000x160, .f32⟩
  | 87 => ⟨S_, .f32⟩
  | 88 => ⟨S50000x160, .f32⟩
  | 89 => ⟨S50000x160, .f32⟩
  | 90 => ⟨S50000x160, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S_, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S50000x128, .f32⟩
  | 110 => ⟨S50000x96, .f32⟩
  | 111 => ⟨S1x96, .f32⟩
  | 112 => ⟨S50000x96, .f32⟩
  | 113 => ⟨S50000x96, .f32⟩
  | 114 => ⟨S_, .f32⟩
  | 115 => ⟨S_, .f32⟩
  | 116 => ⟨S50000x96, .f32⟩
  | 117 => ⟨S50000x96, .f32⟩
  | 118 => ⟨S_, .f32⟩
  | 119 => ⟨S50000x96, .f32⟩
  | 120 => ⟨S50000x96, .f32⟩
  | 121 => ⟨S_, .f32⟩
  | 122 => ⟨S50000x96, .f32⟩
  | 123 => ⟨S50000x96, .f32⟩
  | 124 => ⟨S50000x96, .f32⟩
  | 125 => ⟨S_, .f32⟩
  | 126 => ⟨S50000x96, .f32⟩
  | 127 => ⟨S50000x96, .f32⟩
  | _ => ⟨S200000x384, .f32⟩

abbrev hbmTy0_3 (i : Nat) : BufTy := match i % 128 with
  | 0 => ⟨S50000x96, .f32⟩
  | 1 => ⟨S50000x1, .f32⟩
  | 2 => ⟨S1x1, .f32⟩
  | 3 => ⟨S50000x1, .f32⟩
  | 4 => ⟨S50000x1, .f32⟩
  | 5 => ⟨S50000, .f32⟩
  | 6 => ⟨S_, .i32⟩
  | 7 => ⟨S50000, .i32⟩
  | 8 => ⟨S50000, .i1⟩
  | 9 => ⟨S_, .i32⟩
  | 10 => ⟨S50000, .i32⟩
  | 11 => ⟨S50000, .i32⟩
  | 12 => ⟨S50000, .i32⟩
  | 13 => ⟨S50000x1, .i32⟩
  | 14 => ⟨S200000, .f32⟩
  | 15 => ⟨S1x200000, .f32⟩
  | 16 => ⟨S_, .f32⟩
  | 17 => ⟨S1, .f32⟩
  | _ => ⟨S200000x384, .f32⟩

abbrev hbmTy (i : Nat) : BufTy := match i / 128 with
  | 0 => hbmTy0_0 i
  | 1 => hbmTy0_1 i
  | 2 => hbmTy0_2 i
  | 3 => hbmTy0_3 i
  | _ => ⟨S200000x384, .f32⟩

abbrev bufTy : (tb : Table) → Fin (tcTables nBuf tb) → BufTy
  | .hbm, ⟨i, _⟩ => hbmTy i
  | _, _ => ⟨S200000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_2 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_cst_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_cst_3 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_cst_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_c_4 : Ref sig .tc := ⟨.hbm, 102, rfl⟩
abbrev main_v44 : Ref sig .tc := ⟨.hbm, 103, rfl⟩
abbrev main_v45 : Ref sig .tc := ⟨.hbm, 104, rfl⟩
abbrev main_c_5 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_c_6 : Ref sig .tc := ⟨.hbm, 111, rfl⟩
abbrev main_v51 : Ref sig .tc := ⟨.hbm, 112, rfl⟩
abbrev main_v52 : Ref sig .tc := ⟨.hbm, 113, rfl⟩
abbrev main_c_7 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_cst_8 : Ref sig .tc := ⟨.hbm, 140, rfl⟩
abbrev main_call3_cst : Ref sig .tc := ⟨.hbm, 141, rfl⟩
abbrev main_call3_v0 : Ref sig .tc := ⟨.hbm, 142, rfl⟩
abbrev main_call3_v1 : Ref sig .tc := ⟨.hbm, 143, rfl⟩
abbrev main_call3_cst_0 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_call3_v5 : Ref sig .tc := ⟨.hbm, 148, rfl⟩
abbrev main_call3_v6 : Ref sig .tc := ⟨.hbm, 149, rfl⟩
abbrev main_call3_v7 : Ref sig .tc := ⟨.hbm, 150, rfl⟩
abbrev main_call3_v8 : Ref sig .tc := ⟨.hbm, 151, rfl⟩
abbrev main_call3_v9 : Ref sig .tc := ⟨.hbm, 152, rfl⟩
abbrev main_call3_v10 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_cst_9 : Ref sig .tc := ⟨.hbm, 159, rfl⟩
abbrev main_call4_cst : Ref sig .tc := ⟨.hbm, 160, rfl⟩
abbrev main_call4_v0 : Ref sig .tc := ⟨.hbm, 161, rfl⟩
abbrev main_call4_v1 : Ref sig .tc := ⟨.hbm, 162, rfl⟩
abbrev main_call4_cst_0 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_v5 : Ref sig .tc := ⟨.hbm, 167, rfl⟩
abbrev main_call4_v6 : Ref sig .tc := ⟨.hbm, 168, rfl⟩
abbrev main_call4_v7 : Ref sig .tc := ⟨.hbm, 169, rfl⟩
abbrev main_call4_v8 : Ref sig .tc := ⟨.hbm, 170, rfl⟩
abbrev main_call4_v9 : Ref sig .tc := ⟨.hbm, 171, rfl⟩
abbrev main_call4_v10 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_cst_10 : Ref sig .tc := ⟨.hbm, 178, rfl⟩
abbrev main_call5_cst : Ref sig .tc := ⟨.hbm, 179, rfl⟩
abbrev main_call5_v0 : Ref sig .tc := ⟨.hbm, 180, rfl⟩
abbrev main_call5_v1 : Ref sig .tc := ⟨.hbm, 181, rfl⟩
abbrev main_call5_cst_0 : Ref sig .tc := ⟨.hbm, 182, rfl⟩
abbrev main_call5_v2 : Ref sig .tc := ⟨.hbm, 183, rfl⟩
abbrev main_call5_v3 : Ref sig .tc := ⟨.hbm, 184, rfl⟩
abbrev main_call5_v4 : Ref sig .tc := ⟨.hbm, 185, rfl⟩
abbrev main_call5_v5 : Ref sig .tc := ⟨.hbm, 186, rfl⟩
abbrev main_call5_v6 : Ref sig .tc := ⟨.hbm, 187, rfl⟩
abbrev main_call5_v7 : Ref sig .tc := ⟨.hbm, 188, rfl⟩
abbrev main_call5_v8 : Ref sig .tc := ⟨.hbm, 189, rfl⟩
abbrev main_call5_v9 : Ref sig .tc := ⟨.hbm, 190, rfl⟩
abbrev main_call5_v10 : Ref sig .tc := ⟨.hbm, 191, rfl⟩
abbrev main_v88 : Ref sig .tc := ⟨.hbm, 192, rfl⟩
abbrev main_v89 : Ref sig .tc := ⟨.hbm, 193, rfl⟩
abbrev main_v90 : Ref sig .tc := ⟨.hbm, 194, rfl⟩
abbrev main_v91 : Ref sig .tc := ⟨.hbm, 195, rfl⟩
abbrev main_v92 : Ref sig .tc := ⟨.hbm, 196, rfl⟩
abbrev main_v93 : Ref sig .tc := ⟨.hbm, 197, rfl⟩
abbrev main_c_11 : Ref sig .tc := ⟨.hbm, 198, rfl⟩
abbrev main_v94 : Ref sig .tc := ⟨.hbm, 199, rfl⟩
abbrev main_v95 : Ref sig .tc := ⟨.hbm, 200, rfl⟩
abbrev main_c_12 : Ref sig .tc := ⟨.hbm, 201, rfl⟩
abbrev main_v96 : Ref sig .tc := ⟨.hbm, 202, rfl⟩
abbrev main_v97 : Ref sig .tc := ⟨.hbm, 203, rfl⟩
abbrev main_v98 : Ref sig .tc := ⟨.hbm, 204, rfl⟩
abbrev main_v99 : Ref sig .tc := ⟨.hbm, 205, rfl⟩
abbrev main_v100 : Ref sig .tc := ⟨.hbm, 206, rfl⟩
abbrev main_c_13 : Ref sig .tc := ⟨.hbm, 207, rfl⟩
abbrev main_v101 : Ref sig .tc := ⟨.hbm, 208, rfl⟩
abbrev main_v102 : Ref sig .tc := ⟨.hbm, 209, rfl⟩
abbrev main_c_14 : Ref sig .tc := ⟨.hbm, 210, rfl⟩
abbrev main_v103 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_v118 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_v122 : Ref sig .tc := ⟨.hbm, 230, rfl⟩
abbrev main_v123 : Ref sig .tc := ⟨.hbm, 231, rfl⟩
abbrev main_v124 : Ref sig .tc := ⟨.hbm, 232, rfl⟩
abbrev main_v125 : Ref sig .tc := ⟨.hbm, 233, rfl⟩
abbrev main_v126 : Ref sig .tc := ⟨.hbm, 234, rfl⟩
abbrev main_v127 : Ref sig .tc := ⟨.hbm, 235, rfl⟩
abbrev main_cst_15 : Ref sig .tc := ⟨.hbm, 236, rfl⟩
abbrev main_call6_cst : Ref sig .tc := ⟨.hbm, 237, rfl⟩
abbrev main_call6_v0 : Ref sig .tc := ⟨.hbm, 238, rfl⟩
abbrev main_call6_v1 : Ref sig .tc := ⟨.hbm, 239, rfl⟩
abbrev main_call6_cst_0 : Ref sig .tc := ⟨.hbm, 240, rfl⟩
abbrev main_call6_v2 : Ref sig .tc := ⟨.hbm, 241, rfl⟩
abbrev main_call6_v3 : Ref sig .tc := ⟨.hbm, 242, rfl⟩
abbrev main_call6_v4 : Ref sig .tc := ⟨.hbm, 243, rfl⟩
abbrev main_call6_v5 : Ref sig .tc := ⟨.hbm, 244, rfl⟩
abbrev main_call6_v6 : Ref sig .tc := ⟨.hbm, 245, rfl⟩
abbrev main_call6_v7 : Ref sig .tc := ⟨.hbm, 246, rfl⟩
abbrev main_call6_v8 : Ref sig .tc := ⟨.hbm, 247, rfl⟩
abbrev main_call6_v9 : Ref sig .tc := ⟨.hbm, 248, rfl⟩
abbrev main_call6_v10 : Ref sig .tc := ⟨.hbm, 249, rfl⟩
abbrev main_v128 : Ref sig .tc := ⟨.hbm, 250, rfl⟩
abbrev main_v129 : Ref sig .tc := ⟨.hbm, 251, rfl⟩
abbrev main_v130 : Ref sig .tc := ⟨.hbm, 252, rfl⟩
abbrev main_v131 : Ref sig .tc := ⟨.hbm, 253, rfl⟩
abbrev main_v132 : Ref sig .tc := ⟨.hbm, 254, rfl⟩
abbrev main_cst_16 : Ref sig .tc := ⟨.hbm, 255, rfl⟩
abbrev main_call7_cst : Ref sig .tc := ⟨.hbm, 256, rfl⟩
abbrev main_call7_v0 : Ref sig .tc := ⟨.hbm, 257, rfl⟩
abbrev main_call7_v1 : Ref sig .tc := ⟨.hbm, 258, rfl⟩
abbrev main_call7_cst_0 : Ref sig .tc := ⟨.hbm, 259, rfl⟩
abbrev main_call7_v2 : Ref sig .tc := ⟨.hbm, 260, rfl⟩
abbrev main_call7_v3 : Ref sig .tc := ⟨.hbm, 261, rfl⟩
abbrev main_call7_v4 : Ref sig .tc := ⟨.hbm, 262, rfl⟩
abbrev main_call7_v5 : Ref sig .tc := ⟨.hbm, 263, rfl⟩
abbrev main_call7_v6 : Ref sig .tc := ⟨.hbm, 264, rfl⟩
abbrev main_call7_v7 : Ref sig .tc := ⟨.hbm, 265, rfl⟩
abbrev main_call7_v8 : Ref sig .tc := ⟨.hbm, 266, rfl⟩
abbrev main_call7_v9 : Ref sig .tc := ⟨.hbm, 267, rfl⟩
abbrev main_call7_v10 : Ref sig .tc := ⟨.hbm, 268, rfl⟩
abbrev main_v133 : Ref sig .tc := ⟨.hbm, 269, rfl⟩
abbrev main_v134 : Ref sig .tc := ⟨.hbm, 270, rfl⟩
abbrev main_v135 : Ref sig .tc := ⟨.hbm, 271, rfl⟩
abbrev main_v136 : Ref sig .tc := ⟨.hbm, 272, rfl⟩
abbrev main_v137 : Ref sig .tc := ⟨.hbm, 273, rfl⟩
abbrev main_cst_17 : Ref sig .tc := ⟨.hbm, 274, rfl⟩
abbrev main_call8_cst : Ref sig .tc := ⟨.hbm, 275, rfl⟩
abbrev main_call8_v0 : Ref sig .tc := ⟨.hbm, 276, rfl⟩
abbrev main_call8_v1 : Ref sig .tc := ⟨.hbm, 277, rfl⟩
abbrev main_call8_cst_0 : Ref sig .tc := ⟨.hbm, 278, rfl⟩
abbrev main_call8_v2 : Ref sig .tc := ⟨.hbm, 279, rfl⟩
abbrev main_call8_v3 : Ref sig .tc := ⟨.hbm, 280, rfl⟩
abbrev main_call8_v4 : Ref sig .tc := ⟨.hbm, 281, rfl⟩
abbrev main_call8_v5 : Ref sig .tc := ⟨.hbm, 282, rfl⟩
abbrev main_call8_v6 : Ref sig .tc := ⟨.hbm, 283, rfl⟩
abbrev main_call8_v7 : Ref sig .tc := ⟨.hbm, 284, rfl⟩
abbrev main_call8_v8 : Ref sig .tc := ⟨.hbm, 285, rfl⟩
abbrev main_call8_v9 : Ref sig .tc := ⟨.hbm, 286, rfl⟩
abbrev main_call8_v10 : Ref sig .tc := ⟨.hbm, 287, rfl⟩
abbrev main_v138 : Ref sig .tc := ⟨.hbm, 288, rfl⟩
abbrev main_v139 : Ref sig .tc := ⟨.hbm, 289, rfl⟩
abbrev main_v140 : Ref sig .tc := ⟨.hbm, 290, rfl⟩
abbrev main_v141 : Ref sig .tc := ⟨.hbm, 291, rfl⟩
abbrev main_v142 : Ref sig .tc := ⟨.hbm, 292, rfl⟩
abbrev main_v143 : Ref sig .tc := ⟨.hbm, 293, rfl⟩
abbrev main_c_18 : Ref sig .tc := ⟨.hbm, 294, rfl⟩
abbrev main_v144 : Ref sig .tc := ⟨.hbm, 295, rfl⟩
abbrev main_v145 : Ref sig .tc := ⟨.hbm, 296, rfl⟩
abbrev main_c_19 : Ref sig .tc := ⟨.hbm, 297, rfl⟩
abbrev main_v146 : Ref sig .tc := ⟨.hbm, 298, rfl⟩
abbrev main_v147 : Ref sig .tc := ⟨.hbm, 299, rfl⟩
abbrev main_v148 : Ref sig .tc := ⟨.hbm, 300, rfl⟩
abbrev main_v149 : Ref sig .tc := ⟨.hbm, 301, rfl⟩
abbrev main_v150 : Ref sig .tc := ⟨.hbm, 302, rfl⟩
abbrev main_c_20 : Ref sig .tc := ⟨.hbm, 303, rfl⟩
abbrev main_v151 : Ref sig .tc := ⟨.hbm, 304, rfl⟩
abbrev main_v152 : Ref sig .tc := ⟨.hbm, 305, rfl⟩
abbrev main_c_21 : Ref sig .tc := ⟨.hbm, 306, rfl⟩
abbrev main_v153 : Ref sig .tc := ⟨.hbm, 307, rfl⟩
abbrev main_v154 : Ref sig .tc := ⟨.hbm, 308, rfl⟩
abbrev main_v155 : Ref sig .tc := ⟨.hbm, 309, rfl⟩
abbrev main_v156 : Ref sig .tc := ⟨.hbm, 310, rfl⟩
abbrev main_v157 : Ref sig .tc := ⟨.hbm, 311, rfl⟩
abbrev main_v158 : Ref sig .tc := ⟨.hbm, 312, rfl⟩
abbrev main_v159 : Ref sig .tc := ⟨.hbm, 313, rfl⟩
abbrev main_v160 : Ref sig .tc := ⟨.hbm, 314, rfl⟩
abbrev main_v161 : Ref sig .tc := ⟨.hbm, 315, rfl⟩
abbrev main_v162 : Ref sig .tc := ⟨.hbm, 316, rfl⟩
abbrev main_v163 : Ref sig .tc := ⟨.hbm, 317, rfl⟩
abbrev main_v164 : Ref sig .tc := ⟨.hbm, 318, rfl⟩
abbrev main_v165 : Ref sig .tc := ⟨.hbm, 319, rfl⟩
abbrev main_v166 : Ref sig .tc := ⟨.hbm, 320, rfl⟩
abbrev main_v167 : Ref sig .tc := ⟨.hbm, 321, rfl⟩
abbrev main_v168 : Ref sig .tc := ⟨.hbm, 322, rfl⟩
abbrev main_v169 : Ref sig .tc := ⟨.hbm, 323, rfl⟩
abbrev main_v170 : Ref sig .tc := ⟨.hbm, 324, rfl⟩
abbrev main_v171 : Ref sig .tc := ⟨.hbm, 325, rfl⟩
abbrev main_v172 : Ref sig .tc := ⟨.hbm, 326, rfl⟩
abbrev main_v173 : Ref sig .tc := ⟨.hbm, 327, rfl⟩
abbrev main_v174 : Ref sig .tc := ⟨.hbm, 328, rfl⟩
abbrev main_v175 : Ref sig .tc := ⟨.hbm, 329, rfl⟩
abbrev main_v176 : Ref sig .tc := ⟨.hbm, 330, rfl⟩
abbrev main_v177 : Ref sig .tc := ⟨.hbm, 331, rfl⟩
abbrev main_cst_22 : Ref sig .tc := ⟨.hbm, 332, rfl⟩
abbrev main_call9_cst : Ref sig .tc := ⟨.hbm, 333, rfl⟩
abbrev main_call9_v0 : Ref sig .tc := ⟨.hbm, 334, rfl⟩
abbrev main_call9_v1 : Ref sig .tc := ⟨.hbm, 335, rfl⟩
abbrev main_call9_cst_0 : Ref sig .tc := ⟨.hbm, 336, rfl⟩
abbrev main_call9_v2 : Ref sig .tc := ⟨.hbm, 337, rfl⟩
abbrev main_call9_v3 : Ref sig .tc := ⟨.hbm, 338, rfl⟩
abbrev main_call9_v4 : Ref sig .tc := ⟨.hbm, 339, rfl⟩
abbrev main_call9_v5 : Ref sig .tc := ⟨.hbm, 340, rfl⟩
abbrev main_call9_v6 : Ref sig .tc := ⟨.hbm, 341, rfl⟩
abbrev main_call9_v7 : Ref sig .tc := ⟨.hbm, 342, rfl⟩
abbrev main_call9_v8 : Ref sig .tc := ⟨.hbm, 343, rfl⟩
abbrev main_call9_v9 : Ref sig .tc := ⟨.hbm, 344, rfl⟩
abbrev main_call9_v10 : Ref sig .tc := ⟨.hbm, 345, rfl⟩
abbrev main_v178 : Ref sig .tc := ⟨.hbm, 346, rfl⟩
abbrev main_v179 : Ref sig .tc := ⟨.hbm, 347, rfl⟩
abbrev main_v180 : Ref sig .tc := ⟨.hbm, 348, rfl⟩
abbrev main_v181 : Ref sig .tc := ⟨.hbm, 349, rfl⟩
abbrev main_v182 : Ref sig .tc := ⟨.hbm, 350, rfl⟩
abbrev main_cst_23 : Ref sig .tc := ⟨.hbm, 351, rfl⟩
abbrev main_call10_cst : Ref sig .tc := ⟨.hbm, 352, rfl⟩
abbrev main_call10_v0 : Ref sig .tc := ⟨.hbm, 353, rfl⟩
abbrev main_call10_v1 : Ref sig .tc := ⟨.hbm, 354, rfl⟩
abbrev main_call10_cst_0 : Ref sig .tc := ⟨.hbm, 355, rfl⟩
abbrev main_call10_v2 : Ref sig .tc := ⟨.hbm, 356, rfl⟩
abbrev main_call10_v3 : Ref sig .tc := ⟨.hbm, 357, rfl⟩
abbrev main_call10_v4 : Ref sig .tc := ⟨.hbm, 358, rfl⟩
abbrev main_call10_v5 : Ref sig .tc := ⟨.hbm, 359, rfl⟩
abbrev main_call10_v6 : Ref sig .tc := ⟨.hbm, 360, rfl⟩
abbrev main_call10_v7 : Ref sig .tc := ⟨.hbm, 361, rfl⟩
abbrev main_call10_v8 : Ref sig .tc := ⟨.hbm, 362, rfl⟩
abbrev main_call10_v9 : Ref sig .tc := ⟨.hbm, 363, rfl⟩
abbrev main_call10_v10 : Ref sig .tc := ⟨.hbm, 364, rfl⟩
abbrev main_v183 : Ref sig .tc := ⟨.hbm, 365, rfl⟩
abbrev main_v184 : Ref sig .tc := ⟨.hbm, 366, rfl⟩
abbrev main_v185 : Ref sig .tc := ⟨.hbm, 367, rfl⟩
abbrev main_v186 : Ref sig .tc := ⟨.hbm, 368, rfl⟩
abbrev main_v187 : Ref sig .tc := ⟨.hbm, 369, rfl⟩
abbrev main_cst_24 : Ref sig .tc := ⟨.hbm, 370, rfl⟩
abbrev main_call11_cst : Ref sig .tc := ⟨.hbm, 371, rfl⟩
abbrev main_call11_v0 : Ref sig .tc := ⟨.hbm, 372, rfl⟩
abbrev main_call11_v1 : Ref sig .tc := ⟨.hbm, 373, rfl⟩
abbrev main_call11_cst_0 : Ref sig .tc := ⟨.hbm, 374, rfl⟩
abbrev main_call11_v2 : Ref sig .tc := ⟨.hbm, 375, rfl⟩
abbrev main_call11_v3 : Ref sig .tc := ⟨.hbm, 376, rfl⟩
abbrev main_call11_v4 : Ref sig .tc := ⟨.hbm, 377, rfl⟩
abbrev main_call11_v5 : Ref sig .tc := ⟨.hbm, 378, rfl⟩
abbrev main_call11_v6 : Ref sig .tc := ⟨.hbm, 379, rfl⟩
abbrev main_call11_v7 : Ref sig .tc := ⟨.hbm, 380, rfl⟩
abbrev main_call11_v8 : Ref sig .tc := ⟨.hbm, 381, rfl⟩
abbrev main_call11_v9 : Ref sig .tc := ⟨.hbm, 382, rfl⟩
abbrev main_call11_v10 : Ref sig .tc := ⟨.hbm, 383, rfl⟩
abbrev main_v188 : Ref sig .tc := ⟨.hbm, 384, rfl⟩
abbrev main_v189 : Ref sig .tc := ⟨.hbm, 385, rfl⟩
abbrev main_v190 : Ref sig .tc := ⟨.hbm, 386, rfl⟩
abbrev main_v191 : Ref sig .tc := ⟨.hbm, 387, rfl⟩
abbrev main_v192 : Ref sig .tc := ⟨.hbm, 388, rfl⟩
abbrev main_v193 : Ref sig .tc := ⟨.hbm, 389, rfl⟩
abbrev main_c_25 : Ref sig .tc := ⟨.hbm, 390, rfl⟩
abbrev main_v194 : Ref sig .tc := ⟨.hbm, 391, rfl⟩
abbrev main_v195 : Ref sig .tc := ⟨.hbm, 392, rfl⟩
abbrev main_c_26 : Ref sig .tc := ⟨.hbm, 393, rfl⟩
abbrev main_v196 : Ref sig .tc := ⟨.hbm, 394, rfl⟩
abbrev main_v197 : Ref sig .tc := ⟨.hbm, 395, rfl⟩
abbrev main_v198 : Ref sig .tc := ⟨.hbm, 396, rfl⟩
abbrev main_v199 : Ref sig .tc := ⟨.hbm, 397, rfl⟩
abbrev main_v200 : Ref sig .tc := ⟨.hbm, 398, rfl⟩
abbrev main_v201 : Ref sig .tc := ⟨.hbm, 399, rfl⟩
abbrev main_cst_27 : Ref sig .tc := ⟨.hbm, 400, rfl⟩
abbrev main_v202 : Ref sig .tc := ⟨.hbm, 401, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S_S50000 : S_.BroadcastsInDim S50000 (![] : Fin 0 → Fin S50000.rank)
  bcast_S50000_S50000x1_0 : S50000.BroadcastsInDim S50000x1 (![0] : Fin 1 → Fin S50000x1.rank)
  slices_S4x384x160_S1x384x160_0_0_0 : S4x384x160.Slices ![0, 0, 0] S1x384x160
  shapeCasts_S1x384x160_S384x160 : S1x384x160.ShapeCasts S384x160
  slices_S4x160_S1x160_0_0 : S4x160.Slices ![0, 0] S1x160
  shapeCasts_S1x160_S160 : S1x160.ShapeCasts S160
  slices_S4x160x128_S1x160x128_0_0_0 : S4x160x128.Slices ![0, 0, 0] S1x160x128
  shapeCasts_S1x160x128_S160x128 : S1x160x128.ShapeCasts S160x128
  slices_S4x128_S1x128_0_0 : S4x128.Slices ![0, 0] S1x128
  shapeCasts_S1x128_S128 : S1x128.ShapeCasts S128
  slices_S4x128x96_S1x128x96_0_0_0 : S4x128x96.Slices ![0, 0, 0] S1x128x96
  shapeCasts_S1x128x96_S128x96 : S1x128x96.ShapeCasts S128x96
  slices_S4x96_S1x96_0_0 : S4x96.Slices ![0, 0] S1x96
  shapeCasts_S1x96_S96 : S1x96.ShapeCasts S96
  slices_S4x96x1_S1x96x1_0_0_0 : S4x96x1.Slices ![0, 0, 0] S1x96x1
  shapeCasts_S1x96x1_S96x1 : S1x96x1.ShapeCasts S96x1
  slices_S4x1_S1x1_0_0 : S4x1.Slices ![0, 0] S1x1
  shapeCasts_S1x1_S1 : S1x1.ShapeCasts S1
  bcast_S160_S1x160_1 : S160.BroadcastsInDim S1x160 (![1] : Fin 1 → Fin S1x160.rank)
  bcast_S1x160_S50000x160_0_1 : S1x160.BroadcastsInDim S50000x160 (![0, 1] : Fin 2 → Fin S50000x160.rank)
  bcast_S_S50000x160 : S_.BroadcastsInDim S50000x160 (![] : Fin 0 → Fin S50000x160.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  slices_S4x384x160_S1x384x160_1_0_0 : S4x384x160.Slices ![1, 0, 0] S1x384x160
  slices_S4x160_S1x160_1_0 : S4x160.Slices ![1, 0] S1x160
  slices_S4x160x128_S1x160x128_1_0_0 : S4x160x128.Slices ![1, 0, 0] S1x160x128
  slices_S4x128_S1x128_1_0 : S4x128.Slices ![1, 0] S1x128
  slices_S4x128x96_S1x128x96_1_0_0 : S4x128x96.Slices ![1, 0, 0] S1x128x96
  slices_S4x96_S1x96_1_0 : S4x96.Slices ![1, 0] S1x96
  slices_S4x96x1_S1x96x1_1_0_0 : S4x96x1.Slices ![1, 0, 0] S1x96x1
  slices_S4x1_S1x1_1_0 : S4x1.Slices ![1, 0] S1x1
  slices_S4x384x160_S1x384x160_2_0_0 : S4x384x160.Slices ![2, 0, 0] S1x384x160
  slices_S4x160_S1x160_2_0 : S4x160.Slices ![2, 0] S1x160
  slices_S4x160x128_S1x160x128_2_0_0 : S4x160x128.Slices ![2, 0, 0] S1x160x128
  slices_S4x128_S1x128_2_0 : S4x128.Slices ![2, 0] S1x128
  slices_S4x128x96_S1x128x96_2_0_0 : S4x128x96.Slices ![2, 0, 0] S1x128x96
  slices_S4x96_S1x96_2_0 : S4x96.Slices ![2, 0] S1x96
  slices_S4x96x1_S1x96x1_2_0_0 : S4x96x1.Slices ![2, 0, 0] S1x96x1
  slices_S4x1_S1x1_2_0 : S4x1.Slices ![2, 0] S1x1
  slices_S4x384x160_S1x384x160_3_0_0 : S4x384x160.Slices ![3, 0, 0] S1x384x160
  slices_S4x160_S1x160_3_0 : S4x160.Slices ![3, 0] S1x160
  slices_S4x160x128_S1x160x128_3_0_0 : S4x160x128.Slices ![3, 0, 0] S1x160x128
  slices_S4x128_S1x128_3_0 : S4x128.Slices ![3, 0] S1x128
  slices_S4x128x96_S1x128x96_3_0_0 : S4x128x96.Slices ![3, 0, 0] S1x128x96
  slices_S4x96_S1x96_3_0 : S4x96.Slices ![3, 0] S1x96
  slices_S4x96x1_S1x96x1_3_0_0 : S4x96x1.Slices ![3, 0, 0] S1x96x1
  slices_S4x1_S1x1_3_0 : S4x1.Slices ![3, 0] S1x1
  bcast_S200000_S1x200000_1 : S200000.BroadcastsInDim S1x200000 (![1] : Fin 1 → Fin S1x200000.rank)
  reducesTo_S1x200000_S1_d1 : S1x200000.ReducesTo [1] S1
  h_S_ : 0 < S_.numel
  gather_S200000x384_S50000x1_S50000x384_1_0_n_n_0_1_1384_wf : GatherDims.WF S200000x384 S50000x1 S50000x384 [1] [0] [] [0] [] 1 ![1, 384]
  dot_S50000x384_S384x160_S50000x160_1_0_0_1_n_n_wf : DotDims.WF S50000x384 S384x160 S50000x160 [1] [0] [0] [1] [] []
  dot_S50000x160_S160x128_S50000x128_1_0_0_1_n_n_wf : DotDims.WF S50000x160 S160x128 S50000x128 [1] [0] [0] [1] [] []
  dot_S50000x128_S128x96_S50000x96_1_0_0_1_n_n_wf : DotDims.WF S50000x128 S128x96 S50000x96 [1] [0] [0] [1] [] []
  dot_S50000x96_S96x1_S50000x1_1_0_0_1_n_n_wf : DotDims.WF S50000x96 S96x1 S50000x1 [1] [0] [0] [1] [] []
  scatter_S200000_S50000x1_S50000_n_0_0_1_wf : ScatterDims.WF S200000 S50000x1 S50000 [] [0] [0] 1

variable [Facts₀]

def gather_S200000x384_S50000x1_S50000x384_1_0_n_n_0_1_1384 : GatherDims S200000x384 S50000x1 S50000x384 where
  offsetDims := [1]
  collapsedSliceDims := [0]
  operandBatchingDims := []
  startIndicesBatchingDims := []
  startIndexMap := [0]
  indexVectorDim := 1
  sliceSizes := ![1, 384]
  wf := gather_S200000x384_S50000x1_S50000x384_1_0_n_n_0_1_1384_wf
def dot_S50000x384_S384x160_S50000x160_1_0_0_1_n_n : DotDims S50000x384 S384x160 S50000x160 where
  lhsContracting := [1]
  rhsContracting := [0]
  lhsNonContracting := [0]
  rhsNonContracting := [1]
  lhsBatch := []
  rhsBatch := []
  wf := dot_S50000x384_S384x160_S50000x160_1_0_0_1_n_n_wf
def dot_S50000x160_S160x128_S50000x128_1_0_0_1_n_n : DotDims S50000x160 S160x128 S50000x128 where
  lhsContracting := [1]
  rhsContracting := [0]
  lhsNonContracting := [0]
  rhsNonContracting := [1]
  lhsBatch := []
  rhsBatch := []
  wf := dot_S50000x160_S160x128_S50000x128_1_0_0_1_n_n_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def dot_S50000x96_S96x1_S50000x1_1_0_0_1_n_n : DotDims S50000x96 S96x1 S50000x1 where
  lhsContracting := [1]
  rhsContracting := [0]
  lhsNonContracting := [0]
  rhsNonContracting := [1]
  lhsBatch := []
  rhsBatch := []
  wf := dot_S50000x96_S96x1_S50000x1_1_0_0_1_n_n_wf
def scatter_S200000_S50000x1_S50000_n_0_0_1 : ScatterDims S200000 S50000x1 S50000 where
  updateWindowDims := []
  insertedWindowDims := [0]
  scatterDimsToOperandDims := [0]
  indexVectorDim := 1
  wf := scatter_S200000_S50000x1_S50000_n_0_0_1_wf

class Facts : Prop extends Facts₀ where

variable [Facts]
-- ==== Proof.K.Around.lean ====
import proofs.«428131_j48885317763465_3_alg».proof.Proof.Gen.Kernel.Launch
import proofs.«428131_j48885317763465_3_alg».proof.Proof.Gen.Kernel.Skeleton
import proofs.«428131_j48885317763465_3_alg».proof.Proof.Gen.Kernel.Points
import proofs.«428131_j48885317763465_3_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) :=
  StableHlo.after (List.flatten [hostOps0, hostOps0_1, hostOps0_2]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton] <;> exact StableHlo.devRef_ne_of_ne (by decide)

abbrev args : List (Ref sig .tc) :=
  [main_arg0, main_arg1, main_arg2, main_arg3, main_arg4, main_arg5, main_arg6, main_arg7, main_arg8, main_arg9, main_arg10, main_arg11, main_arg12]

theorem all_args (P : Ref sig .tc → Prop) (h : ∀ b ∈ args, P b) :
    P main_arg0 ∧ P main_arg1 ∧ P main_arg2 ∧ P main_arg3 ∧ P main_arg4 ∧ P main_arg5 ∧ P main_arg6 ∧ P main_arg7 ∧ P main_arg8 ∧ P main_arg9 ∧ P main_arg10 ∧ P main_arg11 ∧ P main_arg12 :=
  ⟨h _ (by decide), h _ (by decide), h _ (by decide), h _ (by decide), h _ (by decide), h _ (by decide), h _ (by decide), h _ (by decide), h _ (by decide), h _ (by decide), h _ (by decide), h _ (by decide), h _ (by decide)⟩

/-- Every host line writes its own result only, and no result is an argument. -/
theorem V_arg (c : Dev nD) {b : Ref sig .tc} (hb : b ∈ args) : V m c b = m ((c : Thread nD τ).loc b) :=
  StableHlo.after_of_forall_not_mem (b := Proc.devRef .tc b) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (ne_of_mem_of_not_mem hb (by decide))))

theorem W_arg (dats : (p : Fin _) → (c : Dev nD) → Dat τ (Elt F) Unit ℕ (UR sig nD τ) ℕ (cfgs p) c) (c : Dev nD) {b : Ref sig .tc} (hb : b ∈ args) :
    Pipeline.afterTail₀ cfgs dats 0 (V0 m) [hostOps1] c b = m ((c : Thread nD τ).loc b) := by
  have h : ∀ op ∈ ([hostOps1] : List (List (HloOp τ sig (Elt F)))).flatten, Proc.devRef (τ := τ) .tc b ∉ op.writes :=
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (ne_of_mem_of_not_mem hb (by decide)))
  unfold Pipeline.afterTail₀
  rw [StableHlo.after_of_forall_not_mem (b := Proc.devRef .tc b) _ _ h,
    Pipeline.withArrays_of_ne _ c (V0 m c) _ b fun w => (ne_of_mem_of_not_mem hb ((by decide : ∀ w, Pipeline.arrRef spec0 w ∉ args) w)).symm]
  exact V_arg m c hb

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev cond0_0 (i : grid0.Coords) : Prop := (Scalar.cmpi .ne (Scalar.extui (Scalar.cmpi .eq (BitVec.ofNat 32 (i 1).val) 0#32)) 0#32) = 1#1

/-- The running sum restarts at the points `≡ 0 (mod 5)` -/
theorem hcond0_0 : ∀ t : Fin cfg0.N, cond0_0 (grid0.coords t) ↔ t.val % 5 = 0 :=
  (by decide +kernel : ∀ t : Fin grid0.N, cond0_0 (grid0.coords t) ↔ t.val % 5 = 0)

abbrev cond0_1 (i : grid0.Coords) : Prop := k0_cond2 i = 1#1

/-- and is written out at the points `≡ 4 (mod 5)`. -/
theorem hcond0_1 : ∀ t : Fin cfg0.N, cond0_1 (grid0.coords t) ↔ t.val % 5 = 4 :=
  (by decide +kernel : ∀ t : Fin grid0.N, cond0_1 (grid0.coords t) ↔ t.val % 5 = 4)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel

theorem idleAt0_9 : ∀ t : Fin cfg0.N, ¬cond0_1 (grid0.coords t) → cfg0.idle 9 (grid0.coords t) = true := by decide +kernel

theorem noFlush0_9 : ∀ t : Fin cfg0.N, ¬cond0_1 (grid0.coords t) → (cfg0.win 9).flush t = false := by decide +kernel

theorem liveAt0_9 : ∀ t : Fin cfg0.N, cond0_1 (grid0.coords t) → cfg0.idle 9 (grid0.coords t) = false := by decide +kernel

abbrev VO0_9 : View sig .tc .vmem S1x8x128 .f32 := (Memref.whole cc0_stg9_0 : Memref sig .tc .vmem S1x8x128 .f32).view
abbrev ms0_0 (t : Fin cfg0.N) : Memref sig .tc .vmem S1x10000x384 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x384x160 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x160 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x160x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x96 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x96 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x96x1 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x128 .f32 := win0_9.stage (cfg0.slots t 9)
abbrev hs0_9 (t : Fin cfg0.N) : (ms0_9 t).IsWhole := hstage0_9 ((cfg0.slots t 9).cast nbuf0_9)

abbrev scM0_0 : Memref sig .tc .vmem S1x8x128 .f32 := Memref.whole cc0_scratch0

abbrev VS0_0 : View sig .tc .vmem S1x8x128 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
import proofs.«428131_j48885317763465_3_alg».proof.Proof.K.Around

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

/-- A group's first point: the scratch is cleared and the point's sum added. -/
noncomputable def kernelRun0_A (c : Dev nD) (i : grid0.Coords) (arg2 : Memref sig .tc .vmem S1x10000x384 .bf16) (harg2 : arg2.IsWhole) (arg3 : Memref sig .tc .vmem S1x384x160 .bf16) (harg3 : arg3.IsWhole) (arg4 : Memref sig .tc .vmem S1x1x160 .f32) (harg4 : arg4.IsWhole) (arg5 : Memref sig .tc .vmem S1x160x128 .bf16) (harg5 : arg5.IsWhole) (arg6 : Memref sig .tc .vmem S1x1x128 .f32) (harg6 : arg6.IsWhole) (arg7 : Memref sig .tc .vmem S1x128x96 .bf16) (harg7 : arg7.IsWhole) (arg8 : Memref sig .tc .vmem S1x1x96 .f32) (harg8 : arg8.IsWhole) (arg9 : Memref sig .tc .vmem S1x96x1 .bf16) (harg9 : arg9.IsWhole) (arg10 : Memref sig .tc .vmem S1x1x1 .f32) (harg10 : arg10.IsWhole) (arg11 : Memref sig .tc .vmem S1x8x128 .f32) (harg11 : arg11.IsWhole) (arg12 : Memref sig .tc .vmem S1x8x128 .f32) (harg12 : arg12.IsWhole) (hc0 : cond0_0 i) (hc1 : ¬cond0_1 i)
    (x0 : Vec F S1x10000x384 .bf16) (x1 : Vec F S1x384x160 .bf16) (x2 : Vec F S1x1x160 .f32) (x3 : Vec F S1x160x128 .bf16) (x4 : Vec F S1x1x128 .f32) (x5 : Vec F S1x128x96 .bf16) (x6 : Vec F S1x1x96 .f32) (x7 : Vec F S1x96x1 .bf16) (x8 : Vec F S1x1x1 .f32) :
    Σ' (L9 : List (View.Piece (Elt F) S1x8x128 .f32)), { LS0 : List (View.Piece (Elt F) S1x8x128 .f32) //
      ∀ (xi9 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.Kernel.Hand

end
-- ==== Proof.K.RunB.lean ====
import proofs.«428131_j48885317763465_3_alg».proof.Proof.K.Around

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

/-- A middle point: the point's sum is added to the scratch. -/
noncomputable def kernelRun0_B (c : Dev nD) (i : grid0.Coords) (arg2 : Memref sig .tc .vmem S1x10000x384 .bf16) (harg2 : arg2.IsWhole) (arg3 : Memref sig .tc .vmem S1x384x160 .bf16) (harg3 : arg3.IsWhole) (arg4 : Memref sig .tc .vmem S1x1x160 .f32) (harg4 : arg4.IsWhole) (arg5 : Memref sig .tc .vmem S1x160x128 .bf16) (harg5 : arg5.IsWhole) (arg6 : Memref sig .tc .vmem S1x1x128 .f32) (harg6 : arg6.IsWhole) (arg7 : Memref sig .tc .vmem S1x128x96 .bf16) (harg7 : arg7.IsWhole) (arg8 : Memref sig .tc .vmem S1x1x96 .f32) (harg8 : arg8.IsWhole) (arg9 : Memref sig .tc .vmem S1x96x1 .bf16) (harg9 : arg9.IsWhole) (arg10 : Memref sig .tc .vmem S1x1x1 .f32) (harg10 : arg10.IsWhole) (arg11 : Memref sig .tc .vmem S1x8x128 .f32) (harg11 : arg11.IsWhole) (arg12 : Memref sig .tc .vmem S1x8x128 .f32) (harg12 : arg12.IsWhole) (hc0 : ¬cond0_0 i) (hc1 : ¬cond0_1 i)
    (x0 : Vec F S1x10000x384 .bf16) (x1 : Vec F S1x384x160 .bf16) (x2 : Vec F S1x1x160 .f32) (x3 : Vec F S1x160x128 .bf16) (x4 : Vec F S1x1x128 .f32) (x5 : Vec F S1x128x96 .bf16) (x6 : Vec F S1x1x96 .f32) (x7 : Vec F S1x96x1 .bf16) (x8 : Vec F S1x1x1 .f32) (xs0 : Vec F S1x8x128 .f32) :
    Σ' (L9 : List (View.Piece (Elt F) S1x8x128 .f32)), { LS0 : List (View.Piece (Elt F) S1x8x128 .f32) //
      ∀ (xi9 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    obtain rfl := harg11.eq_unread hf9; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.Kernel.Hand

end
-- ==== Proof.K.RunC.lean ====
import proofs.«428131_j48885317763465_3_alg».proof.Proof.K.Around

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

/-- A group's last point: the sum is added and the scratch copied to the output block. -/
noncomputable def kernelRun0_C (c : Dev nD) (i : grid0.Coords) (arg2 : Memref sig .tc .vmem S1x10000x384 .bf16) (harg2 : arg2.IsWhole) (arg3 : Memref sig .tc .vmem S1x384x160 .bf16) (harg3 : arg3.IsWhole) (arg4 : Memref sig .tc .vmem S1x1x160 .f32) (harg4 : arg4.IsWhole) (arg5 : Memref sig .tc .vmem S1x160x128 .bf16) (harg5 : arg5.IsWhole) (arg6 : Memref sig .tc .vmem S1x1x128 .f32) (harg6 : arg6.IsWhole) (arg7 : Memref sig .tc .vmem S1x128x96 .bf16) (harg7 : arg7.IsWhole) (arg8 : Memref sig .tc .vmem S1x1x96 .f32) (harg8 : arg8.IsWhole) (arg9 : Memref sig .tc .vmem S1x96x1 .bf16) (harg9 : arg9.IsWhole) (arg10 : Memref sig .tc .vmem S1x1x1 .f32) (harg10 : arg10.IsWhole) (arg11 : Memref sig .tc .vmem S1x8x128 .f32) (harg11 : arg11.IsWhole) (arg12 : Memref sig .tc .vmem S1x8x128 .f32) (harg12 : arg12.IsWhole) (hc0 : ¬cond0_0 i) (hc1 : cond0_1 i)
    (x0 : Vec F S1x10000x384 .bf16) (x1 : Vec F S1x384x160 .bf16) (x2 : Vec F S1x1x160 .f32) (x3 : Vec F S1x160x128 .bf16) (x4 : Vec F S1x1x128 .f32) (x5 : Vec F S1x128x96 .bf16) (x6 : Vec F S1x1x96 .f32) (x7 : Vec F S1x96x1 .bf16) (x8 : Vec F S1x1x1 .f32) (xs0 : Vec F S1x8x128 .f32) :
    Σ' (L9 : List (View.Piece (Elt F) S1x8x128 .f32)), { LS0 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; iexact HS0

end Cert.Kernel.Hand

end
-- ==== Proof.K.Frame.lean ====
import proofs.«428131_j48885317763465_3_alg».proof.Proof.K.RunA
import proofs.«428131_j48885317763465_3_alg».proof.Proof.K.RunB
import proofs.«428131_j48885317763465_3_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg2 : Memref sig .tc .vmem S1x10000x384 .bf16) (harg2 : arg2.IsWhole) (arg3 : Memref sig .tc .vmem S1x384x160 .bf16) (harg3 : arg3.IsWhole) (arg4 : Memref sig .tc .vmem S1x1x160 .f32) (harg4 : arg4.IsWhole) (arg5 : Memref sig .tc .vmem S1x160x128 .bf16) (harg5 : arg5.IsWhole) (arg6 : Memref sig .tc .vmem S1x1x128 .f32) (harg6 : arg6.IsWhole) (arg7 : Memref sig .tc .vmem S1x128x96 .bf16) (harg7 : arg7.IsWhole) (arg8 : Memref sig .tc .vmem S1x1x96 .f32) (harg8 : arg8.IsWhole) (arg9 : Memref sig .tc .vmem S1x96x1 .bf16) (harg9 : arg9.IsWhole) (arg10 : Memref sig .tc .vmem S1x1x1 .f32) (harg10 : arg10.IsWhole) (arg11 : Memref sig .tc .vmem S1x8x128 .f32) (harg11 : arg11.IsWhole) (arg12 : Memref sig .tc .vmem S1x8x128 .f32) (harg12 : arg12.IsWhole)
    (x0 : Vec F S1x10000x384 .bf16) (x1 : Vec F S1x384x160 .bf16) (x2 : Vec F S1x1x160 .f32) (x3 : Vec F S1x160x128 .bf16) (x4 : Vec F S1x1x128 .f32) (x5 : Vec F S1x128x96 .bf16) (x6 : Vec F S1x1x96 .f32) (x7 : Vec F S1x96x1 .bf16) (x8 : Vec F S1x1x1 .f32) (xs0 : Vec F S1x8x128 .f32)

/-- In every case the stores of a whole `1 × 8 × 128` block tile the block. -/
theorem scover0_A_0 (hc0 : cond0_0 i) (hc1 : ¬cond0_1 i) :
    ∀ y : S1x8x128.Idx, ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, y ∈ pc.1.set :=
  View.cover_of_tiledL _ S1x8x128.size (by sl_kernel_rfl)
theorem scover0_B_0 (hc0 : ¬cond0_0 i) (hc1 : ¬cond0_1 i) :
    ∀ y : S1x8x128.Idx, ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL _ S1x8x128.size (by sl_kernel_rfl)
theorem cover0_C_9 (hc0 : ¬cond0_0 i) (hc1 : cond0_1 i) :
    ∀ y : S1x8x128.Idx, ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1, y ∈ pc.1.set :=
  View.cover_of_tiledL _ S1x8x128.size (by sl_kernel_rfl)
theorem scover0_C_0 (hc0 : ¬cond0_0 i) (hc1 : cond0_1 i) :
    ∀ y : S1x8x128.Idx, ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL _ S1x8x128.size (by sl_kernel_rfl)

end

def runA (c : Dev nD) (t : Fin cfg0.N) (h0 : t.val % 5 = 0) (h1 : ¬t.val % 5 = 4) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)
def runB (c : Dev nD) (t : Fin cfg0.N) (h0 : ¬t.val % 5 = 0) (h1 : ¬t.val % 5 = 4) (xs0 : Vec F S1x8x128 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) xs0
def runC (c : Dev nD) (t : Fin cfg0.N) (h0 : ¬t.val % 5 = 0) (h1 : t.val % 5 = 4) (xs0 : Vec F S1x8x128 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) xs0

/-- What two lists of covering stores leave: the last store at each index. -/
def left {P : List (View.Piece (Elt F) S1x8x128 .f32) → List (View.Piece (Elt F) S1x8x128 .f32) → Prop} (R : Σ' L9, { LS0 // P L9 LS0 }) :
    Vec F S1x8x128 .f32 × Vec F S1x8x128 .f32 := (View.canon R.1, View.canon R.2.1)

/-- The running sum along the grid: a group of five points starts afresh and each later point adds to what the one before left. -/
def outsAt0 (c : Dev nD) : (n : ℕ) → n < cfg0.N → Vec F S1x8x128 .f32 × Vec F S1x8x128 .f32
  | 0, hn => left (runA m c ⟨0, hn⟩ (Nat.zero_mod _) (by (try dsimp only); omega))
  | n + 1, hn =>
    if h1 : (n + 1) % 5 = 4 then left (runC m c ⟨n + 1, hn⟩ (by (try dsimp only); omega) h1 (outsAt0 c n (Nat.lt_of_succ_lt hn)).2)
    else if h0 : (n + 1) % 5 = 0 then left (runA m c ⟨n + 1, hn⟩ h0 h1)
    else left (runB m c ⟨n + 1, hn⟩ h0 h1 (outsAt0 c n (Nat.lt_of_succ_lt hn)).2)

theorem outsAt0_A (c : Dev nD) (t : Fin cfg0.N) (h0 : t.val % 5 = 0) (h1 : ¬t.val % 5 = 4) :
    outsAt0 m c t.val t.isLt = left (runA m c t h0 h1) := by
  obtain ⟨n, hn⟩ := t
  cases n with
  | zero => exact rfl
  | succ n => exact (dif_neg h1).trans ((dif_pos h0).trans rfl)

theorem outsAt0_B (c : Dev nD) (t : Fin cfg0.N) (h0 : ¬t.val % 5 = 0) (h1 : ¬t.val % 5 = 4) :
    outsAt0 m c t.val t.isLt = left (runB m c t h0 h1 (outsAt0 m c (t.val - 1) (Nat.lt_of_le_of_lt (Nat.sub_le _ _) t.isLt)).2) := by
  obtain ⟨n, hn⟩ := t
  cases n with
  | zero => exact absurd (Nat.zero_mod _) h0
  | succ n => exact (dif_neg h1).trans ((dif_neg h0).trans rfl)

theorem outsAt0_C (c : Dev nD) (t : Fin cfg0.N) (h0 : ¬t.val % 5 = 0) (h1 : t.val % 5 = 4) :
    outsAt0 m c t.val t.isLt = left (runC m c t h0 h1 (outsAt0 m c (t.val - 1) (Nat.lt_of_le_of_lt (Nat.sub_le _ _) t.isLt)).2) := by
  obtain ⟨n, hn⟩ := t
  cases n with
  | zero => exact absurd (Nat.zero_mod _) h0
  | succ n => exact (dif_pos h1).trans rfl

/-- Between points the scratch block holds exactly what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

theorem PhiS_lend (c : Dev nD) (n : ℕ) (h : n ≤ cfg0.N) :
    PhiS m c n h ⊢ iprop(iprop((∃ d, owns (c : Thread nD τ) scM0_0 fullShare d)) ∗ (∃ r, prngReg c r)) := by
  cases n with
  | zero => rw [PhiS_zero m c 0 h rfl, PhiA0_eq]
  | succ n =>
    rw [PhiS_pos m c _ h (Nat.succ_ne_zero n)]
    iintro ⟨HS0, Hg⟩
    isplitl [HS0]
    · iexists _; iexact HS0
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := rfl

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl
theorem after0_4 (c : Dev nD) (t : Fin cfg0.N) : (dats m 0 c).after 4 t = iblk m c 4 t := rfl
theorem after0_5 (c : Dev nD) (t : Fin cfg0.N) : (dats m 0 c).after 5 t = iblk m c 5 t := rfl
theorem after0_6 (c : Dev nD) (t : Fin cfg0.N) : (dats m 0 c).after 6 t = iblk m c 6 t := rfl
theorem after0_7 (c : Dev nD) (t : Fin cfg0.N) : (dats m 0 c).after 7 t = iblk m c 7 t := rfl
theorem after0_8 (c : Dev nD) (t : Fin cfg0.N) : (dats m 0 c).after 8 t = iblk m c 8 t := rfl
theorem after0_9 (c : Dev nD) (t : Fin cfg0.N) : (dats m 0 c).after 9 t = (outsAt0 m c t.val t.isLt).1 := rfl

theorem before0_0 (c : Dev nD) (t : Fin cfg0.N) (d) : (dats m 0 c).before 0 t d = iblk m c 0 t :=
  (dats m 0 c).before_in_eq_fetched 0 rfl (fun _ => rfl) (fun _ _ _ => rfl) (fun _ => rfl) t d
theorem before0_1 (c : Dev nD) (t : Fin cfg0.N) (d) : (dats m 0 c).before 1 t d = iblk m c 1 t :=
  (dats m 0 c).before_in_eq_fetched 1 rfl (fun _ => rfl) (fun _ _ _ => rfl) (fun _ => rfl) t d
theorem before0_2 (c : Dev nD) (t : Fin cfg0.N) (d) : (dats m 0 c).before 2 t d = iblk m c 2 t :=
  (dats m 0 c).before_in_eq_fetched 2 rfl (fun _ => rfl) (fun _ _ _ => rfl) (fun _ => rfl) t d
theorem before0_3 (c : Dev nD) (t : Fin cfg0.N) (d) : (dats m 0 c).before 3 t d = iblk m c 3 t :=
  (dats m 0 c).before_in_eq_fetched 3 rfl (fun _ => rfl) (fun _ _ _ => rfl) (fun _ => rfl) t d
theorem before0_4 (c : Dev nD) (t : Fin cfg0.N) (d) : (dats m 0 c).before 4 t d = iblk m c 4 t :=
  (dats m 0 c).before_in_eq_fetched 4 rfl (fun _ => rfl) (fun _ _ _ => rfl) (fun _ => rfl) t d
theorem before0_5 (c : Dev nD) (t : Fin cfg0.N) (d) : (dats m 0 c).before 5 t d = iblk m c 5 t :=
  (dats m 0 c).before_in_eq_fetched 5 rfl (fun _ => rfl) (fun _ _ _ => rfl) (fun _ => rfl) t d
theorem before0_6 (c : Dev nD) (t : Fin cfg0.N) (d) : (dats m 0 c).before 6 t d = iblk m c 6 t :=
  (dats m 0 c).before_in_eq_fetched 6 rfl (fun _ => rfl) (fun _ _ _ => rfl) (fun _ => rfl) t d
theorem before0_7 (c : Dev nD) (t : Fin cfg0.N) (d) : (dats m 0 c).before 7 t d = iblk m c 7 t :=
  (dats m 0 c).before_in_eq_fetched 7 rfl (fun _ => rfl) (fun _ _ _ => rfl) (fun _ => rfl) t d
theorem before0_8 (c : Dev nD) (t : Fin cfg0.N) (d) : (dats m 0 c).before 8 t d = iblk m c 8 t :=
  (dats m 0 c).before_in_eq_fetched 8 rfl (fun _ => rfl) (fun _ _ _ => rfl) (fun _ => rfl) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in

/-- Which case runs at point `t` is read off `t mod 5`; its stores cover the scratch block, so the block ends as their last values. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ, PhiS_castSucc m c t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  by_cases h0 : t.val % 5 = 0
  · have h1 : ¬t.val % 5 = 4 := by omega
    rw [Dat.leavesExact_idle (dats m 0 c) 9 t (idleAt0_9 t (fun h => h1 ((hcond0_1 t).mp h))) (noFlush0_9 t (fun h => h1 ((hcond0_1 t).mp h)))]
    rw [outsAt0_A m c t h0 h1]
    unfold left runA; (try dsimp only)
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    icases (PhiS_lend m c _ _) $$ HP with ⟨HS0, Hg⟩
    iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)).2.2 _ Set.univ _)
    iframe H0 H1 H2 H3 H4 H5 H6 H7 H8 H9 HS0
    iintro ⟨H0, H1, H2, H3, H4, H5, H6, H7, H8, H9, ⟨%es0, HS0⟩⟩
    isplitl [HS0 Hg]
    · isplitl [HS0]
      · unfold owns; iexists _; isplitr
        swap; · iexact HS0
        ipureintro; exact View.read_writes_eq_canon _ _ _ (scover0_A_0 c _ _ _ _ _ _ _ _ _ _ _ _ _ _ _ _ _ _ _ _ _ _ _ _ _ _ _ _ _ _ _ _ _ _)
      iexact Hg
    iframe Ho H0 H1 H2 H3 H4 H5 H6 H7 H8
    iexists _; iexact H9
  · have hz : t.val ≠ 0 := fun hz => h0 (by rw [hz])
    rw [PhiS_pos m c _ _ hz]
    by_cases h1 : t.val % 5 = 4
    · rw [show (dats m 0 c).leavesExact 9 t = owns (c : Thread nD τ) (ms0_9 t) fullShare ((dats m 0 c).after 9 t) from by
        unfold Dat.leavesExact; rw [liveAt0_9 t ((hcond0_1 t).mpr h1)], after0_9]
      rw [outsAt0_C m c t h0 h1]
      unfold left runC; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) _).2.2 Set.univ _)
      iframe H0 H1 H2 H3 H4 H5 H6 H7 H8 HS0
      isplitl [H9]; · iexists _; iexact H9
      iintro ⟨H0, H1, H2, H3, H4, H5, H6, H7, H8, ⟨%e9, H9⟩, ⟨%es0, HS0⟩⟩
      isplitl [HS0 Hg]
      · isplitl [HS0]
        · unfold owns; iexists _; isplitr
          swap; · iexact HS0
          ipureintro; exact View.read_writes_eq_canon _ _ _ (scover0_C_0 c _ _ _ _ _ _ _ _ _ _ _ _ _ _ _ _ _ _ _ _ _ _ _ _ _ _ _ _ _ _ _ _ _ _ _)
        iexact Hg
      iframe Ho H0 H1 H2 H3 H4 H5 H6 H7 H8
      unfold owns; iexists _; isplitr
      swap; · iexact H9
      ipureintro; exact View.read_writes_eq_canon _ _ _ (cover0_C_9 c _ _ _ _ _ _ _ _ _ _ _ _ _ _ _ _ _ _ _ _ _ _ _ _ _ _ _ _ _ _ _ _ _ _ _)
    · rw [Dat.leavesExact_idle (dats m 0 c) 9 t (idleAt0_9 t (fun h => h1 ((hcond0_1 t).mp h))) (noFlush0_9 t (fun h => h1 ((hcond0_1 t).mp h)))]
      rw [outsAt0_B m c t h0 h1]
      unfold left runB; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) _).2.2 _ Set.univ _)
      iframe H0 H1 H2 H3 H4 H5 H6 H7 H8 H9 HS0
      iintro ⟨H0, H1, H2, H3, H4, H5, H6, H7, H8, H9, ⟨%es0, HS0⟩⟩
      isplitl [HS0 Hg]
      · isplitl [HS0]
        · unfold owns; iexists _; isplitr
          swap; · iexact HS0
          ipureintro; exact View.read_writes_eq_canon _ _ _ (scover0_B_0 c _ _ _ _ _ _ _ _ _ _ _ _ _ _ _ _ _ _ _ _ _ _ _ _ _ _ _ _ _ _ _ _ _ _ _)
        iexact Hg
      iframe Ho H0 H1 H2 H3 H4 H5 H6 H7 H8
      iexists _; iexact H9

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_lend m c _ _

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- No argument is an array of the region and no host line writes one. -/
theorem args_kept {r} (h : Pipeline.FramePost cfgs (dats m) 0 (Pipeline.afterTail₀ cfgs (dats m) 0 (V0 m) [hostOps1]) r) (c : Dev nD) :
    ∀ b ∈ args, r.2.mem ((c.tc : Thread nD τ).loc b) = m ((c.tc : Thread nD τ).loc b) := fun b hb =>
  ((h c).2 b (Pipeline.mem_restRefs_of b ((by decide : ∀ b ∈ args, b.isScoped = false) b hb)
    fun w => (ne_of_mem_of_not_mem hb ((by decide : ∀ w, (spec0 w).arr.view.ref ∉ args) w)).symm)).trans (W_arg m (dats m) c hb)

theorem frame : θ_run defs (onTc (τ := τ) (main (F := F))) ⟨m, fun _ => 0, ρ⟩
    (fun r => ∀ c : Dev nD, ∀ b ∈ args, r.2.mem ((c.tc : Thread nD τ).loc b) = m ((c.tc : Thread nD τ).loc b)) :=
  (θ_run defs _ _).mono (fun _ h => args_kept m h) (run_main m ρ)

end Cert.Kernel.Hand

end
-- ==== Proof.KI.Around.lean ====
import proofs.«428131_j48885317763465_3_alg».proof.Proof.Gen.KernelIdeal.Launch
import proofs.«428131_j48885317763465_3_alg».proof.Proof.Gen.KernelIdeal.Skeleton
import proofs.«428131_j48885317763465_3_alg».proof.Proof.Gen.KernelIdeal.Points
import proofs.«428131_j48885317763465_3_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) :=
  StableHlo.after (List.flatten [hostOps0, hostOps0_1, hostOps0_2]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton] <;> exact StableHlo.devRef_ne_of_ne (by decide)

abbrev args : List (Ref sig .tc) :=
  [main_arg0, main_arg1, main_arg2, main_arg3, main_arg4, main_arg5, main_arg6, main_arg7, main_arg8, main_arg9, main_arg10, main_arg11, main_arg12]

theorem all_args (P : Ref sig .tc → Prop) (h : ∀ b ∈ args, P b) :
    P main_arg0 ∧ P main_arg1 ∧ P main_arg2 ∧ P main_arg3 ∧ P main_arg4 ∧ P main_arg5 ∧ P main_arg6 ∧ P main_arg7 ∧ P main_arg8 ∧ P main_arg9 ∧ P main_arg10 ∧ P main_arg11 ∧ P main_arg12 :=
  ⟨h _ (by decide), h _ (by decide), h _ (by decide), h _ (by decide), h _ (by decide), h _ (by decide), h _ (by decide), h _ (by decide), h _ (by decide), h _ (by decide), h _ (by decide), h _ (by decide), h _ (by decide)⟩

/-- Every host line writes its own result only, and no result is an argument. -/
theorem V_arg (c : Dev nD) {b : Ref sig .tc} (hb : b ∈ args) : V m c b = m ((c : Thread nD τ).loc b) :=
  StableHlo.after_of_forall_not_mem (b := Proc.devRef .tc b) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (ne_of_mem_of_not_mem hb (by decide))))

theorem W_arg (dats : (p : Fin _) → (c : Dev nD) → Dat τ (Elt F) Unit ℕ (UR sig nD τ) ℕ (cfgs p) c) (c : Dev nD) {b : Ref sig .tc} (hb : b ∈ args) :
    Pipeline.afterTail₀ cfgs dats 0 (V0 m) [hostOps1] c b = m ((c : Thread nD τ).loc b) := by
  have h : ∀ op ∈ ([hostOps1] : List (List (HloOp τ sig (Elt F)))).flatten, Proc.devRef (τ := τ) .tc b ∉ op.writes :=
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (ne_of_mem_of_not_mem hb (by decide)))
  unfold Pipeline.afterTail₀
  rw [StableHlo.after_of_forall_not_mem (b := Proc.devRef .tc b) _ _ h,
    Pipeline.withArrays_of_ne _ c (V0 m c) _ b fun w => (ne_of_mem_of_not_mem hb ((by decide : ∀ w, Pipeline.arrRef spec0 w ∉ args) w)).symm]
  exact V_arg m c hb

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev cond0_0 (i : grid0.Coords) : Prop := (Scalar.cmpi .ne (Scalar.extui (Scalar.cmpi .eq (BitVec.ofNat 32 (i 1).val) 0#32)) 0#32) = 1#1

/-- The running sum restarts at the points `≡ 0 (mod 5)` -/
theorem hcond0_0 : ∀ t : Fin cfg0.N, cond0_0 (grid0.coords t) ↔ t.val % 5 = 0 :=
  (by decide +kernel : ∀ t : Fin grid0.N, cond0_0 (grid0.coords t) ↔ t.val % 5 = 0)

abbrev cond0_1 (i : grid0.Coords) : Prop := k0_cond2 i = 1#1

/-- and is written out at the points `≡ 4 (mod 5)`. -/
theorem hcond0_1 : ∀ t : Fin cfg0.N, cond0_1 (grid0.coords t) ↔ t.val % 5 = 4 :=
  (by decide +kernel : ∀ t : Fin grid0.N, cond0_1 (grid0.coords t) ↔ t.val % 5 = 4)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel

theorem idleAt0_9 : ∀ t : Fin cfg0.N, ¬cond0_1 (grid0.coords t) → cfg0.idle 9 (grid0.coords t) = true := by decide +kernel

theorem noFlush0_9 : ∀ t : Fin cfg0.N, ¬cond0_1 (grid0.coords t) → (cfg0.win 9).flush t = false := by decide +kernel

theorem liveAt0_9 : ∀ t : Fin cfg0.N, cond0_1 (grid0.coords t) → cfg0.idle 9 (grid0.coords t) = false := by decide +kernel

abbrev VO0_9 : View sig .tc .vmem S1x8x128 .f32 := (Memref.whole cc0_stg9_0 : Memref sig .tc .vmem S1x8x128 .f32).view
abbrev ms0_0 (t : Fin cfg0.N) : Memref sig .tc .vmem S1x10000x384 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x384x160 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x160 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x160x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x96 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x96 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x96x1 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x128 .f32 := win0_9.stage (cfg0.slots t 9)
abbrev hs0_9 (t : Fin cfg0.N) : (ms0_9 t).IsWhole := hstage0_9 ((cfg0.slots t 9).cast nbuf0_9)

abbrev scM0_0 : Memref sig .tc .vmem S1x8x128 .f32 := Memref.whole cc0_scratch0

abbrev VS0_0 : View sig .tc .vmem S1x8x128 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
import proofs.«428131_j48885317763465_3_alg».proof.Proof.KI.Around

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in

/-- A group's first point: the scratch is cleared and the point's sum added. -/
noncomputable def kernelRun0_A (c : Dev nD) (i : grid0.Coords) (arg2 : Memref sig .tc .vmem S1x10000x384 .bf16) (harg2 : arg2.IsWhole) (arg3 : Memref sig .tc .vmem S1x384x160 .bf16) (harg3 : arg3.IsWhole) (arg4 : Memref sig .tc .vmem S1x1x160 .f32) (harg4 : arg4.IsWhole) (arg5 : Memref sig .tc .vmem S1x160x128 .bf16) (harg5 : arg5.IsWhole) (arg6 : Memref sig .tc .vmem S1x1x128 .f32) (harg6 : arg6.IsWhole) (arg7 : Memref sig .tc .vmem S1x128x96 .bf16) (harg7 : arg7.IsWhole) (arg8 : Memref sig .tc .vmem S1x1x96 .f32) (harg8 : arg8.IsWhole) (arg9 : Memref sig .tc .vmem S1x96x1 .bf16) (harg9 : arg9.IsWhole) (arg10 : Memref sig .tc .vmem S1x1x1 .f32) (harg10 : arg10.IsWhole) (arg11 : Memref sig .tc .vmem S1x8x128 .f32) (harg11 : arg11.IsWhole) (arg12 : Memref sig .tc .vmem S1x8x128 .f32) (harg12 : arg12.IsWhole) (hc0 : cond0_0 i) (hc1 : ¬cond0_1 i)
    (x0 : Vec F S1x10000x384 .bf16) (x1 : Vec F S1x384x160 .bf16) (x2 : Vec F S1x1x160 .f32) (x3 : Vec F S1x160x128 .bf16) (x4 : Vec F S1x1x128 .f32) (x5 : Vec F S1x128x96 .bf16) (x6 : Vec F S1x1x96 .f32) (x7 : Vec F S1x96x1 .bf16) (x8 : Vec F S1x1x1 .f32) :
    Σ' (L9 : List (View.Piece (Elt F) S1x8x128 .f32)), { LS0 : List (View.Piece (Elt F) S1x8x128 .f32) //
      ∀ (xi9 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.KernelIdeal.Hand

end
-- ==== Proof.KI.RunB.lean ====
import proofs.«428131_j48885317763465_3_alg».proof.Proof.KI.Around

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in

/-- A middle point: the point's sum is added to the scratch. -/
noncomputable def kernelRun0_B (c : Dev nD) (i : grid0.Coords) (arg2 : Memref sig .tc .vmem S1x10000x384 .bf16) (harg2 : arg2.IsWhole) (arg3 : Memref sig .tc .vmem S1x384x160 .bf16) (harg3 : arg3.IsWhole) (arg4 : Memref sig .tc .vmem S1x1x160 .f32) (harg4 : arg4.IsWhole) (arg5 : Memref sig .tc .vmem S1x160x128 .bf16) (harg5 : arg5.IsWhole) (arg6 : Memref sig .tc .vmem S1x1x128 .f32) (harg6 : arg6.IsWhole) (arg7 : Memref sig .tc .vmem S1x128x96 .bf16) (harg7 : arg7.IsWhole) (arg8 : Memref sig .tc .vmem S1x1x96 .f32) (harg8 : arg8.IsWhole) (arg9 : Memref sig .tc .vmem S1x96x1 .bf16) (harg9 : arg9.IsWhole) (arg10 : Memref sig .tc .vmem S1x1x1 .f32) (harg10 : arg10.IsWhole) (arg11 : Memref sig .tc .vmem S1x8x128 .f32) (harg11 : arg11.IsWhole) (arg12 : Memref sig .tc .vmem S1x8x128 .f32) (harg12 : arg12.IsWhole) (hc0 : ¬cond0_0 i) (hc1 : ¬cond0_1 i)
    (x0 : Vec F S1x10000x384 .bf16) (x1 : Vec F S1x384x160 .bf16) (x2 : Vec F S1x1x160 .f32) (x3 : Vec F S1x160x128 .bf16) (x4 : Vec F S1x1x128 .f32) (x5 : Vec F S1x128x96 .bf16) (x6 : Vec F S1x1x96 .f32) (x7 : Vec F S1x96x1 .bf16) (x8 : Vec F S1x1x1 .f32) (xs0 : Vec F S1x8x128 .f32) :
    Σ' (L9 : List (View.Piece (Elt F) S1x8x128 .f32)), { LS0 : List (View.Piece (Elt F) S1x8x128 .f32) //
      ∀ (xi9 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    obtain rfl := harg11.eq_unread hf9; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.KernelIdeal.Hand

end
-- ==== Proof.KI.RunC.lean ====
import proofs.«428131_j48885317763465_3_alg».proof.Proof.KI.Around

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in

/-- A group's last point: the sum is added and the scratch copied to the output block. -/
noncomputable def kernelRun0_C (c : Dev nD) (i : grid0.Coords) (arg2 : Memref sig .tc .vmem S1x10000x384 .bf16) (harg2 : arg2.IsWhole) (arg3 : Memref sig .tc .vmem S1x384x160 .bf16) (harg3 : arg3.IsWhole) (arg4 : Memref sig .tc .vmem S1x1x160 .f32) (harg4 : arg4.IsWhole) (arg5 : Memref sig .tc .vmem S1x160x128 .bf16) (harg5 : arg5.IsWhole) (arg6 : Memref sig .tc .vmem S1x1x128 .f32) (harg6 : arg6.IsWhole) (arg7 : Memref sig .tc .vmem S1x128x96 .bf16) (harg7 : arg7.IsWhole) (arg8 : Memref sig .tc .vmem S1x1x96 .f32) (harg8 : arg8.IsWhole) (arg9 : Memref sig .tc .vmem S1x96x1 .bf16) (harg9 : arg9.IsWhole) (arg10 : Memref sig .tc .vmem S1x1x1 .f32) (harg10 : arg10.IsWhole) (arg11 : Memref sig .tc .vmem S1x8x128 .f32) (harg11 : arg11.IsWhole) (arg12 : Memref sig .tc .vmem S1x8x128 .f32) (harg12 : arg12.IsWhole) (hc0 : ¬cond0_0 i) (hc1 : cond0_1 i)
    (x0 : Vec F S1x10000x384 .bf16) (x1 : Vec F S1x384x160 .bf16) (x2 : Vec F S1x1x160 .f32) (x3 : Vec F S1x160x128 .bf16) (x4 : Vec F S1x1x128 .f32) (x5 : Vec F S1x128x96 .bf16) (x6 : Vec F S1x1x96 .f32) (x7 : Vec F S1x96x1 .bf16) (x8 : Vec F S1x1x1 .f32) (xs0 : Vec F S1x8x128 .f32) :
    Σ' (L9 : List (View.Piece (Elt F) S1x8x128 .f32)), { LS0 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; iexact HS0

end Cert.KernelIdeal.Hand

end
-- ==== Proof.KI.Frame.lean ====
import proofs.«428131_j48885317763465_3_alg».proof.Proof.KI.RunA
import proofs.«428131_j48885317763465_3_alg».proof.Proof.KI.RunB
import proofs.«428131_j48885317763465_3_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg2 : Memref sig .tc .vmem S1x10000x384 .bf16) (harg2 : arg2.IsWhole) (arg3 : Memref sig .tc .vmem S1x384x160 .bf16) (harg3 : arg3.IsWhole) (arg4 : Memref sig .tc .vmem S1x1x160 .f32) (harg4 : arg4.IsWhole) (arg5 : Memref sig .tc .vmem S1x160x128 .bf16) (harg5 : arg5.IsWhole) (arg6 : Memref sig .tc .vmem S1x1x128 .f32) (harg6 : arg6.IsWhole) (arg7 : Memref sig .tc .vmem S1x128x96 .bf16) (harg7 : arg7.IsWhole) (arg8 : Memref sig .tc .vmem S1x1x96 .f32) (harg8 : arg8.IsWhole) (arg9 : Memref sig .tc .vmem S1x96x1 .bf16) (harg9 : arg9.IsWhole) (arg10 : Memref sig .tc .vmem S1x1x1 .f32) (harg10 : arg10.IsWhole) (arg11 : Memref sig .tc .vmem S1x8x128 .f32) (harg11 : arg11.IsWhole) (arg12 : Memref sig .tc .vmem S1x8x128 .f32) (harg12 : arg12.IsWhole)
    (x0 : Vec F S1x10000x384 .bf16) (x1 : Vec F S1x384x160 .bf16) (x2 : Vec F S1x1x160 .f32) (x3 : Vec F S1x160x128 .bf16) (x4 : Vec F S1x1x128 .f32) (x5 : Vec F S1x128x96 .bf16) (x6 : Vec F S1x1x96 .f32) (x7 : Vec F S1x96x1 .bf16) (x8 : Vec F S1x1x1 .f32) (xs0 : Vec F S1x8x128 .f32)

/-- In every case the stores of a whole `1 × 8 × 128` block tile the block. -/
theorem scover0_A_0 (hc0 : cond0_0 i) (hc1 : ¬cond0_1 i) :
    ∀ y : S1x8x128.Idx, ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, y ∈ pc.1.set :=
  View.cover_of_tiledL _ S1x8x128.size (by sl_kernel_rfl)
theorem scover0_B_0 (hc0 : ¬cond0_0 i) (hc1 : ¬cond0_1 i) :
    ∀ y : S1x8x128.Idx, ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL _ S1x8x128.size (by sl_kernel_rfl)
theorem cover0_C_9 (hc0 : ¬cond0_0 i) (hc1 : cond0_1 i) :
    ∀ y : S1x8x128.Idx, ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1, y ∈ pc.1.set :=
  View.cover_of_tiledL _ S1x8x128.size (by sl_kernel_rfl)
theorem scover0_C_0 (hc0 : ¬cond0_0 i) (hc1 : cond0_1 i) :
    ∀ y : S1x8x128.Idx, ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL _ S1x8x128.size (by sl_kernel_rfl)

end

def runA (c : Dev nD) (t : Fin cfg0.N) (h0 : t.val % 5 = 0) (h1 : ¬t.val % 5 = 4) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)
def runB (c : Dev nD) (t : Fin cfg0.N) (h0 : ¬t.val % 5 = 0) (h1 : ¬t.val % 5 = 4) (xs0 : Vec F S1x8x128 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) xs0
def runC (c : Dev nD) (t : Fin cfg0.N) (h0 : ¬t.val % 5 = 0) (h1 : t.val % 5 = 4) (xs0 : Vec F S1x8x128 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) xs0

/-- What two lists of covering stores leave: the last store at each index. -/
def left {P : List (View.Piece (Elt F) S1x8x128 .f32) → List (View.Piece (Elt F) S1x8x128 .f32) → Prop} (R : Σ' L9, { LS0 // P L9 LS0 }) :
    Vec F S1x8x128 .f32 × Vec F S1x8x128 .f32 := (View.canon R.1, View.canon R.2.1)

/-- The running sum along the grid: a group of five points starts afresh and each later point adds to what the one before left. -/
def outsAt0 (c : Dev nD) : (n : ℕ) → n < cfg0.N → Vec F S1x8x128 .f32 × Vec F S1x8x128 .f32
  | 0, hn => left (runA m c ⟨0, hn⟩ (Nat.zero_mod _) (by (try dsimp only); omega))
  | n + 1, hn =>
    if h1 : (n + 1) % 5 = 4 then left (runC m c ⟨n + 1, hn⟩ (by (try dsimp only); omega) h1 (outsAt0 c n (Nat.lt_of_succ_lt hn)).2)
    else if h0 : (n + 1) % 5 = 0 then left (runA m c ⟨n + 1, hn⟩ h0 h1)
    else left (runB m c ⟨n + 1, hn⟩ h0 h1 (outsAt0 c n (Nat.lt_of_succ_lt hn)).2)

theorem outsAt0_A (c : Dev nD) (t : Fin cfg0.N) (h0 : t.val % 5 = 0) (h1 : ¬t.val % 5 = 4) :
    outsAt0 m c t.val t.isLt = left (runA m c t h0 h1) := by
  obtain ⟨n, hn⟩ := t
  cases n with
  | zero => exact rfl
  | succ n => exact (dif_neg h1).trans ((dif_pos h0).trans rfl)

theorem outsAt0_B (c : Dev nD) (t : Fin cfg0.N) (h0 : ¬t.val % 5 = 0) (h1 : ¬t.val % 5 = 4) :
    outsAt0 m c t.val t.isLt = left (runB m c t h0 h1 (outsAt0 m c (t.val - 1) (Nat.lt_of_le_of_lt (Nat.sub_le _ _) t.isLt)).2) := by
  obtain ⟨n, hn⟩ := t
  cases n with
  | zero => exact absurd (Nat.zero_mod _) h0
  | succ n => exact (dif_neg h1).trans ((dif_neg h0).trans rfl)

theorem outsAt0_C (c : Dev nD) (t : Fin cfg0.N) (h0 : ¬t.val % 5 = 0) (h1 : t.val % 5 = 4) :
    outsAt0 m c t.val t.isLt = left (runC m c t h0 h1 (outsAt0 m c (t.val - 1) (Nat.lt_of_le_of_lt (Nat.sub_le _ _) t.isLt)).2) := by
  obtain ⟨n, hn⟩ := t
  cases n with
  | zero => exact absurd (Nat.zero_mod _) h0
  | succ n => exact (dif_pos h1).trans rfl

/-- Between points the scratch block holds exactly what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

theorem PhiS_lend (c : Dev nD) (n : ℕ) (h : n ≤ cfg0.N) :
    PhiS m c n h ⊢ iprop(iprop((∃ d, owns (c : Thread nD τ) scM0_0 fullShare d)) ∗ (∃ r, prngReg c r)) := by
  cases n with
  | zero => rw [PhiS_zero m c 0 h rfl, PhiA0_eq]
  | succ n =>
    rw [PhiS_pos m c _ h (Nat.succ_ne_zero n)]
    iintro ⟨HS0, Hg⟩
    isplitl [HS0]
    · iexists _; iexact HS0
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := rfl

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl
theorem after0_4 (c : Dev nD) (t : Fin cfg0.N) : (dats m 0 c).after 4 t = iblk m c 4 t := rfl
theorem after0_5 (c : Dev nD) (t : Fin cfg0.N) : (dats m 0 c).after 5 t = iblk m c 5 t := rfl
theorem after0_6 (c : Dev nD) (t : Fin cfg0.N) : (dats m 0 c).after 6 t = iblk m c 6 t := rfl
theorem after0_7 (c : Dev nD) (t : Fin cfg0.N) : (dats m 0 c).after 7 t = iblk m c 7 t := rfl
theorem after0_8 (c : Dev nD) (t : Fin cfg0.N) : (dats m 0 c).after 8 t = iblk m c 8 t := rfl
theorem after0_9 (c : Dev nD) (t : Fin cfg0.N) : (dats m 0 c).after 9 t = (outsAt0 m c t.val t.isLt).1 := rfl

theorem before0_0 (c : Dev nD) (t : Fin cfg0.N) (d) : (dats m 0 c).before 0 t d = iblk m c 0 t :=
  (dats m 0 c).before_in_eq_fetched 0 rfl (fun _ => rfl) (fun _ _ _ => rfl) (fun _ => rfl) t d
theorem before0_1 (c : Dev nD) (t : Fin cfg0.N) (d) : (dats m 0 c).before 1 t d = iblk m c 1 t :=
  (dats m 0 c).before_in_eq_fetched 1 rfl (fun _ => rfl) (fun _ _ _ => rfl) (fun _ => rfl) t d
theorem before0_2 (c : Dev nD) (t : Fin cfg0.N) (d) : (dats m 0 c).before 2 t d = iblk m c 2 t :=
  (dats m 0 c).before_in_eq_fetched 2 rfl (fun _ => rfl) (fun _ _ _ => rfl) (fun _ => rfl) t d
theorem before0_3 (c : Dev nD) (t : Fin cfg0.N) (d) : (dats m 0 c).before 3 t d = iblk m c 3 t :=
  (dats m 0 c).before_in_eq_fetched 3 rfl (fun _ => rfl) (fun _ _ _ => rfl) (fun _ => rfl) t d
theorem before0_4 (c : Dev nD) (t : Fin cfg0.N) (d) : (dats m 0 c).before 4 t d = iblk m c 4 t :=
  (dats m 0 c).before_in_eq_fetched 4 rfl (fun _ => rfl) (fun _ _ _ => rfl) (fun _ => rfl) t d
theorem before0_5 (c : Dev nD) (t : Fin cfg0.N) (d) : (dats m 0 c).before 5 t d = iblk m c 5 t :=
  (dats m 0 c).before_in_eq_fetched 5 rfl (fun _ => rfl) (fun _ _ _ => rfl) (fun _ => rfl) t d
theorem before0_6 (c : Dev nD) (t : Fin cfg0.N) (d) : (dats m 0 c).before 6 t d = iblk m c 6 t :=
  (dats m 0 c).before_in_eq_fetched 6 rfl (fun _ => rfl) (fun _ _ _ => rfl) (fun _ => rfl) t d
theorem before0_7 (c : Dev nD) (t : Fin cfg0.N) (d) : (dats m 0 c).before 7 t d = iblk m c 7 t :=
  (dats m 0 c).before_in_eq_fetched 7 rfl (fun _ => rfl) (fun _ _ _ => rfl) (fun _ => rfl) t d
theorem before0_8 (c : Dev nD) (t : Fin cfg0.N) (d) : (dats m 0 c).before 8 t d = iblk m c 8 t :=
  (dats m 0 c).before_in_eq_fetched 8 rfl (fun _ => rfl) (fun _ _ _ => rfl) (fun _ => rfl) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in

/-- Which case runs at point `t` is read off `t mod 5`; its stores cover the scratch block, so the block ends as their last values. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ, PhiS_castSucc m c t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  by_cases h0 : t.val % 5 = 0
  · have h1 : ¬t.val % 5 = 4 := by omega
    rw [Dat.leavesExact_idle (dats m 0 c) 9 t (idleAt0_9 t (fun h => h1 ((hcond0_1 t).mp h))) (noFlush0_9 t (fun h => h1 ((hcond0_1 t).mp h)))]
    rw [outsAt0_A m c t h0 h1]
    unfold left runA; (try dsimp only)
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    icases (PhiS_lend m c _ _) $$ HP with ⟨HS0, Hg⟩
    iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)).2.2 _ Set.univ _)
    iframe H0 H1 H2 H3 H4 H5 H6 H7 H8 H9 HS0
    iintro ⟨H0, H1, H2, H3, H4, H5, H6, H7, H8, H9, ⟨%es0, HS0⟩⟩
    isplitl [HS0 Hg]
    · isplitl [HS0]
      · unfold owns; iexists _; isplitr
        swap; · iexact HS0
        ipureintro; exact View.read_writes_eq_canon _ _ _ (scover0_A_0 c _ _ _ _ _ _ _ _ _ _ _ _ _ _ _ _ _ _ _ _ _ _ _ _ _ _ _ _ _ _ _ _ _ _)
      iexact Hg
    iframe Ho H0 H1 H2 H3 H4 H5 H6 H7 H8
    iexists _; iexact H9
  · have hz : t.val ≠ 0 := fun hz => h0 (by rw [hz])
    rw [PhiS_pos m c _ _ hz]
    by_cases h1 : t.val % 5 = 4
    · rw [show (dats m 0 c).leavesExact 9 t = owns (c : Thread nD τ) (ms0_9 t) fullShare ((dats m 0 c).after 9 t) from by
        unfold Dat.leavesExact; rw [liveAt0_9 t ((hcond0_1 t).mpr h1)], after0_9]
      rw [outsAt0_C m c t h0 h1]
      unfold left runC; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) _).2.2 Set.univ _)
      iframe H0 H1 H2 H3 H4 H5 H6 H7 H8 HS0
      isplitl [H9]; · iexists _; iexact H9
      iintro ⟨H0, H1, H2, H3, H4, H5, H6, H7, H8, ⟨%e9, H9⟩, ⟨%es0, HS0⟩⟩
      isplitl [HS0 Hg]
      · isplitl [HS0]
        · unfold owns; iexists _; isplitr
          swap; · iexact HS0
          ipureintro; exact View.read_writes_eq_canon _ _ _ (scover0_C_0 c _ _ _ _ _ _ _ _ _ _ _ _ _ _ _ _ _ _ _ _ _ _ _ _ _ _ _ _ _ _ _ _ _ _ _)
        iexact Hg
      iframe Ho H0 H1 H2 H3 H4 H5 H6 H7 H8
      unfold owns; iexists _; isplitr
      swap; · iexact H9
      ipureintro; exact View.read_writes_eq_canon _ _ _ (cover0_C_9 c _ _ _ _ _ _ _ _ _ _ _ _ _ _ _ _ _ _ _ _ _ _ _ _ _ _ _ _ _ _ _ _ _ _ _)
    · rw [Dat.leavesExact_idle (dats m 0 c) 9 t (idleAt0_9 t (fun h => h1 ((hcond0_1 t).mp h))) (noFlush0_9 t (fun h => h1 ((hcond0_1 t).mp h)))]
      rw [outsAt0_B m c t h0 h1]
      unfold left runB; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) _).2.2 _ Set.univ _)
      iframe H0 H1 H2 H3 H4 H5 H6 H7 H8 H9 HS0
      iintro ⟨H0, H1, H2, H3, H4, H5, H6, H7, H8, H9, ⟨%es0, HS0⟩⟩
      isplitl [HS0 Hg]
      · isplitl [HS0]
        · unfold owns; iexists _; isplitr
          swap; · iexact HS0
          ipureintro; exact View.read_writes_eq_canon _ _ _ (scover0_B_0 c _ _ _ _ _ _ _ _ _ _ _ _ _ _ _ _ _ _ _ _ _ _ _ _ _ _ _ _ _ _ _ _ _ _ _)
        iexact Hg
      iframe Ho H0 H1 H2 H3 H4 H5 H6 H7 H8
      iexists _; iexact H9

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_lend m c _ _

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- No argument is an array of the region and no host line writes one. -/
theorem args_kept {r} (h : Pipeline.FramePost cfgs (dats m) 0 (Pipeline.afterTail₀ cfgs (dats m) 0 (V0 m) [hostOps1]) r) (c : Dev nD) :
    ∀ b ∈ args, r.2.mem ((c.tc : Thread nD τ).loc b) = m ((c.tc : Thread nD τ).loc b) := fun b hb =>
  ((h c).2 b (Pipeline.mem_restRefs_of b ((by decide : ∀ b ∈ args, b.isScoped = false) b hb)
    fun w => (ne_of_mem_of_not_mem hb ((by decide : ∀ w, (spec0 w).arr.view.ref ∉ args) w)).symm)).trans (W_arg m (dats m) c hb)

theorem frame : θ_run defs (onTc (τ := τ) (main (F := F))) ⟨m, fun _ => 0, ρ⟩
    (fun r => ∀ c : Dev nD, ∀ b ∈ args, r.2.mem ((c.tc : Thread nD τ).loc b) = m ((c.tc : Thread nD τ).loc b)) :=
  (θ_run defs _ _).mono (fun _ h => args_kept m h) (run_main m ρ)

end Cert.KernelIdeal.Hand

end
-- ==== Proof.KI.ValuePoints.lean ====
import proofs.«428131_j48885317763465_3_alg».proof.Proof.KI.Around
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat)
open scoped BigOperators

variable {F : FTy → Type} [FloatOps F] [Named F]

theorem N_eq : cfg0.N = 20 := N_0

theorem pt_lt (s : Fin 4) (b : Fin 5) : 5 * s.val + b.val < cfg0.N := by
  rw [N_eq]; have := s.isLt; have := b.isLt; omega

abbrev pt (s : Fin 4) (b : Fin 5) : Fin cfg0.N := ⟨5 * s.val + b.val, pt_lt s b⟩

theorem idx9_0 : ∀ t : Fin cfg0.N, win0_9.index t (0 : Fin 3) = t.val / 5 :=
  (by decide +kernel : ∀ t : Fin grid0.N, win0_9.index t (0 : Fin 3) = t.val / 5)
theorem idx9_1 : ∀ t : Fin cfg0.N, win0_9.index t (1 : Fin 3) = 0 :=
  (by decide +kernel : ∀ t : Fin grid0.N, win0_9.index t (1 : Fin 3) = 0)
theorem idx9_2 : ∀ t : Fin cfg0.N, win0_9.index t (2 : Fin 3) = 0 :=
  (by decide +kernel : ∀ t : Fin grid0.N, win0_9.index t (2 : Fin 3) = 0)

theorem mem_blk9 (t : Fin cfg0.N) (i : S4x8x128.Idx) :
    i ∈ ((cfg0.win 9).blk t).view.set ↔ ∀ a, win0_9.index t a * win0_9.size a ≤ (i a).val ∧ (i a).val < win0_9.index t a * win0_9.size a + win0_9.xsize (grid0.coords t) a := by
  show i ∈ ((View.whole main_v12).slice (win0_9.rect t)).set ↔ _
  rw [View.set_slice_whole, Rect.mem_set_unit]

theorem out_blocks_disjoint : ∀ t t' : Fin cfg0.N, (cfg0.win 9).flush t = true → (cfg0.win 9).flush t' = true → t ≠ t' →
      Disjoint ((cfg0.win 9).blk t).view.set ((cfg0.win 9).blk t').view.set := by
  intro t t' hf hf' hne
  refine Finset.disjoint_left.mpr fun i hi hi' => hne (Fin.ext ?_)
  have h4 := (flush0_9 t).mp hf
  have h4' := (flush0_9 t').mp hf'
  have h := (mem_blk9 t i).mp hi 0
  have h' := (mem_blk9 t' i).mp hi' 0
  rw [idx9_0] at h h'
  change t.val / 5 * 1 ≤ (i 0).val ∧ (i 0).val < t.val / 5 * 1 + 1 at h
  change t'.val / 5 * 1 ≤ (i 0).val ∧ (i 0).val < t'.val / 5 * 1 + 1 at h'
  omega

/-- Species `s`'s entry of the result is what the group's last point wrote: the written blocks are disjoint. -/
theorem arr_species {c : Dev nD} (dat : Dat τ (Elt F) Unit ℕ (UR sig nD τ) ℕ cfg0 c) (s : Fin 4) :
    dat.arrAt 9 cfg0.N (ix3 s (0 : Fin 8) (0 : Fin 128)) = dat.after 9 (pt s 4) (ix3 (0 : Fin 1) (0 : Fin 8) (0 : Fin 128)) := by
  have hf : (cfg0.win 9).flush (pt s 4) = true := (flush0_9 (pt s 4)).mpr (by show (5 * s.val + 4) % 5 = 4; omega)
  have h := dat.arrAt_emb_eq_flushed 9 out_blocks_disjoint (pt s 4) hf (ix3 (0 : Fin 1) (0 : Fin 8) (0 : Fin 128))
  have e : ((cfg0.win 9).blk (pt s 4)).view.emb (ix3 (0 : Fin 1) (0 : Fin 8) (0 : Fin 128)) = (ix3 s (0 : Fin 8) (0 : Fin 128) : S4x8x128.Idx) := by
    funext a
    apply Fin.ext
    match a with
    | ⟨0, _⟩ =>
      show win0_9.index (pt s 4) 0 * 1 + 1 * 0 = s.val
      rw [idx9_0]; show (5 * s.val + 4) / 5 * 1 + 1 * 0 = s.val; omega
    | ⟨1, _⟩ =>
      show win0_9.index (pt s 4) 1 * 8 + 1 * 0 = 0
      rw [idx9_1]
    | ⟨2, _⟩ =>
      show win0_9.index (pt s 4) 2 * 128 + 1 * 0 = 0
      rw [idx9_2]
  rw [e] at h
  exact h

def loopVal (c : Dev nD) (i : grid0.Coords) (arg2 : Memref sig .tc .vmem S1x10000x384 .bf16) (harg2 : arg2.IsWhole) (arg3 : Memref sig .tc .vmem S1x384x160 .bf16) (harg3 : arg3.IsWhole) (arg4 : Memref sig .tc .vmem S1x1x160 .f32) (harg4 : arg4.IsWhole) (arg5 : Memref sig .tc .vmem S1x160x128 .bf16) (harg5 : arg5.IsWhole) (arg6 : Memref sig .tc .vmem S1x1x128 .f32) (harg6 : arg6.IsWhole) (arg7 : Memref sig .tc .vmem S1x128x96 .bf16) (harg7 : arg7.IsWhole) (arg8 : Memref sig .tc .vmem S1x1x96 .f32) (harg8 : arg8.IsWhole) (arg9 : Memref sig .tc .vmem S1x96x1 .bf16) (harg9 : arg9.IsWhole) (arg10 : Memref sig .tc .vmem S1x1x1 .f32) (harg10 : arg10.IsWhole) (arg11 : Memref sig .tc .vmem S1x8x128 .f32) (harg11 : arg11.IsWhole) (arg12 : Memref sig .tc .vmem S1x8x128 .f32) (harg12 : arg12.IsWhole)
    (x0 : Vec F S1x10000x384 .bf16) (x1 : Vec F S1x384x160 .bf16) (x2 : Vec F S1x1x160 .f32) (x3 : Vec F S1x160x128 .bf16) (x4 : Vec F S1x1x128 .f32) (x5 : Vec F S1x128x96 .bf16) (x6 : Vec F S1x1x96 .f32) (x7 : Vec F S1x96x1 .bf16) (x8 : Vec F S1x1x1 .f32) : FVec F S1x1 .f32 :=
  st_k0_t1 Variants.none c none i arg2 harg2 arg3 harg3 arg4 harg4 arg5 harg5 arg6 harg6 arg7 harg7 arg8 harg8 arg9 harg9 arg10 harg10 arg11 harg11 arg12 harg12 x1 x2 x3 x4 x5 x6 x7 x8 (harg2.unread x0) k0_pay13 k0_t1_loop.trips

/-- A quantity that restarts every five points and otherwise adds the point's term is, at a group's end, the sum of the group's five terms. -/
theorem run_sum {N : ℕ} (S T : (n : ℕ) → n < N → EReal)
    (h0 : ∀ (n : ℕ) (h : n < N), n % 5 = 0 → S n h = T n h)
    (hs : ∀ (n : ℕ) (h : n + 1 < N), ¬(n + 1) % 5 = 0 → S (n + 1) h = S n (Nat.lt_of_succ_lt h) + T (n + 1) h)
    (q : ℕ) (h : 5 * q + 4 < N) :
    S (5 * q + 4) h = ∑ b : Fin 5, T (5 * q + b.val) (by have := b.isLt; omega) := by
  have e0 : S (5 * q) (by omega) = T (5 * q) (by omega) := h0 _ _ (by omega)
  have e1 := hs (5 * q) (by omega) (by omega)
  have e2 := hs (5 * q + 1) (by omega) (by omega)
  have e3 := hs (5 * q + 2) (by omega) (by omega)
  have e4 := hs (5 * q + 3) (by omega) (by omega)
  rw [Fin.sum_univ_five]
  rw [e4, e3, e2, e1, e0]
  rfl

end Cert.KernelIdeal.Hand

end
-- ==== Proof.KI.ValuePieces.lean ====
import proofs.«428131_j48885317763465_3_alg».proof.Proof.KI.Frame
import proofs.«428131_j48885317763465_3_alg».proof.Proof.KI.ValuePoints
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem hz3 : (![0, 0, 0] : Fin 3 → Nat) = fun _ => 0 := funext fun a => by fin_cases a <;> rfl

section
variable (c : Dev nD) (i : grid0.Coords) (arg2 : Memref sig .tc .vmem S1x10000x384 .bf16) (harg2 : arg2.IsWhole) (arg3 : Memref sig .tc .vmem S1x384x160 .bf16) (harg3 : arg3.IsWhole) (arg4 : Memref sig .tc .vmem S1x1x160 .f32) (harg4 : arg4.IsWhole) (arg5 : Memref sig .tc .vmem S1x160x128 .bf16) (harg5 : arg5.IsWhole) (arg6 : Memref sig .tc .vmem S1x1x128 .f32) (harg6 : arg6.IsWhole) (arg7 : Memref sig .tc .vmem S1x128x96 .bf16) (harg7 : arg7.IsWhole) (arg8 : Memref sig .tc .vmem S1x1x96 .f32) (harg8 : arg8.IsWhole) (arg9 : Memref sig .tc .vmem S1x96x1 .bf16) (harg9 : arg9.IsWhole) (arg10 : Memref sig .tc .vmem S1x1x1 .f32) (harg10 : arg10.IsWhole) (arg11 : Memref sig .tc .vmem S1x8x128 .f32) (harg11 : arg11.IsWhole) (arg12 : Memref sig .tc .vmem S1x8x128 .f32) (harg12 : arg12.IsWhole)
    (x0 : Vec F S1x10000x384 .bf16) (x1 : Vec F S1x384x160 .bf16) (x2 : Vec F S1x1x160 .f32) (x3 : Vec F S1x160x128 .bf16) (x4 : Vec F S1x1x128 .f32) (x5 : Vec F S1x128x96 .bf16) (x6 : Vec F S1x1x96 .f32) (x7 : Vec F S1x96x1 .bf16) (x8 : Vec F S1x1x1 .f32) (xs0 : Vec F S1x8x128 .f32)

/-- A group's first point stores zero and then zero plus the point's sum; -/
theorem scratch_first (hc0 : cond0_0 i) (hc1 : ¬cond0_1 i) :
    View.canon (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 = k0_pay1 (loopVal c i arg2 harg2 arg3 harg3 arg4 harg4 arg5 harg5 arg6 harg6 arg7 harg7 arg8 harg8 arg9 harg9 arg10 harg10 arg11 harg11 arg12 harg12 x0 x1 x2 x3 x4 x5 x6 x7 x8) k0_pay6 := by
  unfold kernelRun0_A
  dsimp only
  sl_unfold_words
  rw [View.canon_cons_unit_zero (S := S1x8x128) hz3]
  unfold loopVal
  simp only [View.readAt_eq_ld, harg3.read_unread, harg4.read_unread, harg5.read_unread, harg6.read_unread, harg7.read_unread, harg8.read_unread, harg9.read_unread, harg10.read_unread, harg12.read_unread,
    View.ld_unit_zero (S := S1x384x160) hz3, View.ld_unit_zero (S := S1x1x160) hz3, View.ld_unit_zero (S := S1x160x128) hz3, View.ld_unit_zero (S := S1x1x128) hz3, View.ld_unit_zero (S := S1x128x96) hz3, View.ld_unit_zero (S := S1x1x96) hz3, View.ld_unit_zero (S := S1x96x1) hz3, View.ld_unit_zero (S := S1x1x1) hz3, View.ld_unit_zero (S := S1x8x128) hz3,
    View.readCov_unit_zero (S := S1x8x128) _ hz3]

/-- every later point stores what it found plus the point's sum, -/
theorem scratch_middle (hc0 : ¬cond0_0 i) (hc1 : ¬cond0_1 i) :
    View.canon (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 = k0_pay1 (loopVal c i arg2 harg2 arg3 harg3 arg4 harg4 arg5 harg5 arg6 harg6 arg7 harg7 arg8 harg8 arg9 harg9 arg10 harg10 arg11 harg11 arg12 harg12 x0 x1 x2 x3 x4 x5 x6 x7 x8) xs0 := by
  unfold kernelRun0_B
  dsimp only
  sl_unfold_words
  rw [View.canon_unit_zero hz3]
  unfold loopVal
  simp only [View.readAt_eq_ld, harg3.read_unread, harg4.read_unread, harg5.read_unread, harg6.read_unread, harg7.read_unread, harg8.read_unread, harg9.read_unread, harg10.read_unread, harg12.read_unread,
    View.ld_unit_zero (S := S1x384x160) hz3, View.ld_unit_zero (S := S1x1x160) hz3, View.ld_unit_zero (S := S1x160x128) hz3, View.ld_unit_zero (S := S1x1x128) hz3, View.ld_unit_zero (S := S1x128x96) hz3, View.ld_unit_zero (S := S1x1x96) hz3, View.ld_unit_zero (S := S1x96x1) hz3, View.ld_unit_zero (S := S1x1x1) hz3, View.ld_unit_zero (S := S1x8x128) hz3,
    View.readCov_unit_zero (S := S1x8x128) _ hz3]

theorem scratch_last (hc0 : ¬cond0_0 i) (hc1 : cond0_1 i) :
    View.canon (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 = k0_pay1 (loopVal c i arg2 harg2 arg3 harg3 arg4 harg4 arg5 harg5 arg6 harg6 arg7 harg7 arg8 harg8 arg9 harg9 arg10 harg10 arg11 harg11 arg12 harg12 x0 x1 x2 x3 x4 x5 x6 x7 x8) xs0 := by
  unfold kernelRun0_C
  dsimp only
  sl_unfold_words
  rw [View.canon_unit_zero hz3]
  unfold loopVal
  simp only [View.readAt_eq_ld, harg3.read_unread, harg4.read_unread, harg5.read_unread, harg6.read_unread, harg7.read_unread, harg8.read_unread, harg9.read_unread, harg10.read_unread, harg12.read_unread,
    View.ld_unit_zero (S := S1x384x160) hz3, View.ld_unit_zero (S := S1x1x160) hz3, View.ld_unit_zero (S := S1x160x128) hz3, View.ld_unit_zero (S := S1x1x128) hz3, View.ld_unit_zero (S := S1x128x96) hz3, View.ld_unit_zero (S := S1x1x96) hz3, View.ld_unit_zero (S := S1x96x1) hz3, View.ld_unit_zero (S := S1x1x1) hz3, View.ld_unit_zero (S := S1x8x128) hz3,
    View.readCov_unit_zero (S := S1x8x128) _ hz3]

/-- and a group's last point copies that block out. -/
theorem out_last (hc0 : ¬cond0_0 i) (hc1 : cond0_1 i) :
    View.canon (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1 = k0_pay1 (loopVal c i arg2 harg2 arg3 harg3 arg4 harg4 arg5 harg5 arg6 harg6 arg7 harg7 arg8 harg8 arg9 harg9 arg10 harg10 arg11 harg11 arg12 harg12 x0 x1 x2 x3 x4 x5 x6 x7 x8) xs0 := by
  unfold kernelRun0_C
  dsimp only
  sl_unfold_words
  rw [View.canon_unit_zero hz3]
  unfold loopVal
  simp only [View.readAt_eq_ld, harg3.read_unread, harg4.read_unread, harg5.read_unread, harg6.read_unread, harg7.read_unread, harg8.read_unread, harg9.read_unread, harg10.read_unread, harg12.read_unread,
    View.ld_unit_zero (S := S1x384x160) hz3, View.ld_unit_zero (S := S1x1x160) hz3, View.ld_unit_zero (S := S1x160x128) hz3, View.ld_unit_zero (S := S1x1x128) hz3, View.ld_unit_zero (S := S1x128x96) hz3, View.ld_unit_zero (S := S1x1x96) hz3, View.ld_unit_zero (S := S1x96x1) hz3, View.ld_unit_zero (S := S1x1x1) hz3, View.ld_unit_zero (S := S1x8x128) hz3,
    View.readCov_unit_zero (S := S1x8x128) _ hz3]

end

end Cert.KernelIdeal.Hand

end
-- ==== Proof.KI.Blocks.lean ====
import proofs.«428131_j48885317763465_3_alg».proof.Proof.KI.Around
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx Idealize.ShloMosaic.TcCoe Idealize.SL.Sem
open Idealize.ShloMosaic.Pipeline (Dat Cfg Window)

variable {F : FTy → Type} [FloatOps F] [Named F]

variable (m : (ℓ : Loc nD τ sig) → Buf (Elt F) ℓ)

abbrev blk0 (c : Dev nD) (t : Fin cfg0.N) : Vec F S1x10000x384 .bf16 := iblk m c 0 t
abbrev blk1 (c : Dev nD) (t : Fin cfg0.N) : Vec F S1x384x160 .bf16 := iblk m c 1 t
abbrev blk2 (c : Dev nD) (t : Fin cfg0.N) : Vec F S1x1x160 .f32 := iblk m c 2 t
abbrev blk3 (c : Dev nD) (t : Fin cfg0.N) : Vec F S1x160x128 .bf16 := iblk m c 3 t
abbrev blk4 (c : Dev nD) (t : Fin cfg0.N) : Vec F S1x1x128 .f32 := iblk m c 4 t
abbrev blk5 (c : Dev nD) (t : Fin cfg0.N) : Vec F S1x128x96 .bf16 := iblk m c 5 t
abbrev blk6 (c : Dev nD) (t : Fin cfg0.N) : Vec F S1x1x96 .f32 := iblk m c 6 t
abbrev blk7 (c : Dev nD) (t : Fin cfg0.N) : Vec F S1x96x1 .bf16 := iblk m c 7 t
abbrev blk8 (c : Dev nD) (t : Fin cfg0.N) : Vec F S1x1x1 .f32 := iblk m c 8 t

def sp (t : Fin cfg0.N) : Fin 4 := ⟨t.val / 5, by have h : t.val < 20 := lt_of_lt_of_eq t.isLt (show cfg0.N = 20 from N_0); omega⟩

def bk (t : Fin cfg0.N) : Fin 5 := ⟨t.val % 5, Nat.mod_lt _ (by decide)⟩

theorem idx_facts0 : ∀ t : Fin cfg0.N, win0_0.index t (0 : Fin 3) = t.val / 5 ∧ win0_0.index t (1 : Fin 3) = t.val % 5
    ∧ win0_0.index t (2 : Fin 3) = 0 :=
  (by decide +kernel : ∀ t : Fin grid0.N, _)

theorem idx_facts1 : ∀ t : Fin cfg0.N, win0_1.index t (0 : Fin 3) = t.val / 5 ∧ win0_1.index t (1 : Fin 3) = 0
    ∧ win0_1.index t (2 : Fin 3) = 0 :=
  (by decide +kernel : ∀ t : Fin grid0.N, _)

theorem idx_facts2 : ∀ t : Fin cfg0.N, win0_2.index t (0 : Fin 3) = t.val / 5 ∧ win0_2.index t (1 : Fin 3) = 0
    ∧ win0_2.index t (2 : Fin 3) = 0 :=
  (by decide +kernel : ∀ t : Fin grid0.N, _)

theorem idx_facts3 : ∀ t : Fin cfg0.N, win0_3.index t (0 : Fin 3) = t.val / 5 ∧ win0_3.index t (1 : Fin 3) = 0
    ∧ win0_3.index t (2 : Fin 3) = 0 :=
  (by decide +kernel : ∀ t : Fin grid0.N, _)

theorem idx_facts4 : ∀ t : Fin cfg0.N, win0_4.index t (0 : Fin 3) = t.val / 5 ∧ win0_4.index t (1 : Fin 3) = 0
    ∧ win0_4.index t (2 : Fin 3) = 0 :=
  (by decide +kernel : ∀ t : Fin grid0.N, _)

theorem idx_facts5 : ∀ t : Fin cfg0.N, win0_5.index t (0 : Fin 3) = t.val / 5 ∧ win0_5.index t (1 : Fin 3) = 0
    ∧ win0_5.index t (2 : Fin 3) = 0 :=
  (by decide +kernel : ∀ t : Fin grid0.N, _)

theorem idx_facts6 : ∀ t : Fin cfg0.N, win0_6.index t (0 : Fin 3) = t.val / 5 ∧ win0_6.index t (1 : Fin 3) = 0
    ∧ win0_6.index t (2 : Fin 3) = 0 :=
  (by decide +kernel : ∀ t : Fin grid0.N, _)

theorem idx_facts7 : ∀ t : Fin cfg0.N, win0_7.index t (0 : Fin 3) = t.val / 5 ∧ win0_7.index t (1 : Fin 3) = 0
    ∧ win0_7.index t (2 : Fin 3) = 0 :=
  (by decide +kernel : ∀ t : Fin grid0.N, _)

theorem idx_facts8 : ∀ t : Fin cfg0.N, win0_8.index t (0 : Fin 3) = t.val / 5 ∧ win0_8.index t (1 : Fin 3) = 0
    ∧ win0_8.index t (2 : Fin 3) = 0 :=
  (by decide +kernel : ∀ t : Fin grid0.N, _)

/-- Row `r` of the feature block at `(s, b)` is row `10000 * b + r` of species `s`; every other block is the species' own slice. -/
theorem blk0_apply (c : Dev nD) (t : Fin cfg0.N) (r : Fin 10000) (q : Fin 384) :
    blk0 m c t (ix3 0 r q)
      = V m c main_v3 (ix3 (sp t) ⟨10000 * (bk t).val + r.val, by have := (bk t).isLt; have := r.isLt; omega⟩ q) := by
  obtain ⟨e0, e1, e2⟩ := idx_facts0 t
  have h : ((cfg0.win 0).blk t).view.emb (ix3 (0 : Fin 1) r q : S1x10000x384.Idx)
      = (ix3 (sp t) ⟨10000 * (bk t).val + r.val, by have := (bk t).isLt; have := r.isLt; omega⟩ q : S4x50000x384.Idx) := by
    funext a; apply Fin.ext
    match a with
    | ⟨0, _⟩ => show win0_0.index t (0 : Fin 3) * 1 + 1 * 0 = t.val / 5; omega
    | ⟨1, _⟩ => show win0_0.index t (1 : Fin 3) * 10000 + 1 * r.val = 10000 * (t.val % 5) + r.val; omega
    | ⟨2, _⟩ => show win0_0.index t (2 : Fin 3) * 384 + 1 * q.val = q.val; omega
  show V m c main_v3 (((cfg0.win 0).blk t).view.emb (ix3 (0 : Fin 1) r q : S1x10000x384.Idx)) = _
  rw [h]

theorem blk1_apply (c : Dev nD) (t : Fin cfg0.N) (k : Fin 384) (j : Fin 160) :
    blk1 m c t (ix3 0 k j) = V m c main_v4 (ix3 (sp t) k j) := by
  obtain ⟨e0, e1, e2⟩ := idx_facts1 t
  have h : ((cfg0.win 1).blk t).view.emb (ix3 (0 : Fin 1) k j : S1x384x160.Idx) = (ix3 (sp t) k j : S4x384x160.Idx) := by
    funext a; apply Fin.ext
    match a with
    | ⟨0, _⟩ => show win0_1.index t (0 : Fin 3) * 1 + 1 * 0 = t.val / 5; omega
    | ⟨1, _⟩ => show win0_1.index t (1 : Fin 3) * 384 + 1 * k.val = k.val; omega
    | ⟨2, _⟩ => show win0_1.index t (2 : Fin 3) * 160 + 1 * j.val = j.val; omega
  show V m c main_v4 (((cfg0.win 1).blk t).view.emb (ix3 (0 : Fin 1) k j : S1x384x160.Idx)) = _
  rw [h]

theorem blk2_apply (c : Dev nD) (t : Fin cfg0.N) (j : Fin 160) :
    blk2 m c t (ix3 0 0 j) = V m c main_v8 (ix3 (sp t) 0 j) := by
  obtain ⟨e0, e1, e2⟩ := idx_facts2 t
  have h : ((cfg0.win 2).blk t).view.emb (ix3 (0 : Fin 1) 0 j : S1x1x160.Idx) = (ix3 (sp t) 0 j : S4x1x160.Idx) := by
    funext a; apply Fin.ext
    match a with
    | ⟨0, _⟩ => show win0_2.index t (0 : Fin 3) * 1 + 1 * 0 = t.val / 5; omega
    | ⟨1, _⟩ => show win0_2.index t (1 : Fin 3) * 1 + 1 * 0 = 0; omega
    | ⟨2, _⟩ => show win0_2.index t (2 : Fin 3) * 160 + 1 * j.val = j.val; omega
  show V m c main_v8 (((cfg0.win 2).blk t).view.emb (ix3 (0 : Fin 1) 0 j : S1x1x160.Idx)) = _
  rw [h]

theorem blk3_apply (c : Dev nD) (t : Fin cfg0.N) (k : Fin 160) (j : Fin 128) :
    blk3 m c t (ix3 0 k j) = V m c main_v5 (ix3 (sp t) k j) := by
  obtain ⟨e0, e1, e2⟩ := idx_facts3 t
  have h : ((cfg0.win 3).blk t).view.emb (ix3 (0 : Fin 1) k j : S1x160x128.Idx) = (ix3 (sp t) k j : S4x160x128.Idx) := by
    funext a; apply Fin.ext
    match a with
    | ⟨0, _⟩ => show win0_3.index t (0 : Fin 3) * 1 + 1 * 0 = t.val / 5; omega
    | ⟨1, _⟩ => show win0_3.index t (1 : Fin 3) * 160 + 1 * k.val = k.val; omega
    | ⟨2, _⟩ => show win0_3.index t (2 : Fin 3) * 128 + 1 * j.val = j.val; omega
  show V m c main_v5 (((cfg0.win 3).blk t).view.emb (ix3 (0 : Fin 1) k j : S1x160x128.Idx)) = _
  rw [h]

theorem blk4_apply (c : Dev nD) (t : Fin cfg0.N) (j : Fin 128) :
    blk4 m c t (ix3 0 0 j) = V m c main_v9 (ix3 (sp t) 0 j) := by
  obtain ⟨e0, e1, e2⟩ := idx_facts4 t
  have h : ((cfg0.win 4).blk t).view.emb (ix3 (0 : Fin 1) 0 j : S1x1x128.Idx) = (ix3 (sp t) 0 j : S4x1x128.Idx) := by
    funext a; apply Fin.ext
    match a with
    | ⟨0, _⟩ => show win0_4.index t (0 : Fin 3) * 1 + 1 * 0 = t.val / 5; omega
    | ⟨1, _⟩ => show win0_4.index t (1 : Fin 3) * 1 + 1 * 0 = 0; omega
    | ⟨2, _⟩ => show win0_4.index t (2 : Fin 3) * 128 + 1 * j.val = j.val; omega
  show V m c main_v9 (((cfg0.win 4).blk t).view.emb (ix3 (0 : Fin 1) 0 j : S1x1x128.Idx)) = _
  rw [h]

theorem blk5_apply (c : Dev nD) (t : Fin cfg0.N) (k : Fin 128) (j : Fin 96) :
    blk5 m c t (ix3 0 k j) = V m c main_v6 (ix3 (sp t) k j) := by
  obtain ⟨e0, e1, e2⟩ := idx_facts5 t
  have h : ((cfg0.win 5).blk t).view.emb (ix3 (0 : Fin 1) k j : S1x128x96.Idx) = (ix3 (sp t) k j : S4x128x96.Idx) := by
    funext a; apply Fin.ext
    match a with
    | ⟨0, _⟩ => show win0_5.index t (0 : Fin 3) * 1 + 1 * 0 = t.val / 5; omega
    | ⟨1, _⟩ => show win0_5.index t (1 : Fin 3) * 128 + 1 * k.val = k.val; omega
    | ⟨2, _⟩ => show win0_5.index t (2 : Fin 3) * 96 + 1 * j.val = j.val; omega
  show V m c main_v6 (((cfg0.win 5).blk t).view.emb (ix3 (0 : Fin 1) k j : S1x128x96.Idx)) = _
  rw [h]

theorem blk6_apply (c : Dev nD) (t : Fin cfg0.N) (j : Fin 96) :
    blk6 m c t (ix3 0 0 j) = V m c main_v10 (ix3 (sp t) 0 j) := by
  obtain ⟨e0, e1, e2⟩ := idx_facts6 t
  have h : ((cfg0.win 6).blk t).view.emb (ix3 (0 : Fin 1) 0 j : S1x1x96.Idx) = (ix3 (sp t) 0 j : S4x1x96.Idx) := by
    funext a; apply Fin.ext
    match a with
    | ⟨0, _⟩ => show win0_6.index t (0 : Fin 3) * 1 + 1 * 0 = t.val / 5; omega
    | ⟨1, _⟩ => show win0_6.index t (1 : Fin 3) * 1 + 1 * 0 = 0; omega
    | ⟨2, _⟩ => show win0_6.index t (2 : Fin 3) * 96 + 1 * j.val = j.val; omega
  show V m c main_v10 (((cfg0.win 6).blk t).view.emb (ix3 (0 : Fin 1) 0 j : S1x1x96.Idx)) = _
  rw [h]

theorem blk7_apply (c : Dev nD) (t : Fin cfg0.N) (k : Fin 96) :
    blk7 m c t (ix3 0 k 0) = V m c main_v7 (ix3 (sp t) k 0) := by
  obtain ⟨e0, e1, e2⟩ := idx_facts7 t
  have h : ((cfg0.win 7).blk t).view.emb (ix3 (0 : Fin 1) k 0 : S1x96x1.Idx) = (ix3 (sp t) k 0 : S4x96x1.Idx) := by
    funext a; apply Fin.ext
    match a with
    | ⟨0, _⟩ => show win0_7.index t (0 : Fin 3) * 1 + 1 * 0 = t.val / 5; omega
    | ⟨1, _⟩ => show win0_7.index t (1 : Fin 3) * 96 + 1 * k.val = k.val; omega
    | ⟨2, _⟩ => show win0_7.index t (2 : Fin 3) * 1 + 1 * 0 = 0; omega
  show V m c main_v7 (((cfg0.win 7).blk t).view.emb (ix3 (0 : Fin 1) k 0 : S1x96x1.Idx)) = _
  rw [h]

theorem blk8_apply (c : Dev nD) (t : Fin cfg0.N)  :
    blk8 m c t (ix3 0 0 0) = V m c main_v11 (ix3 (sp t) 0 0) := by
  obtain ⟨e0, e1, e2⟩ := idx_facts8 t
  have h : ((cfg0.win 8).blk t).view.emb (ix3 (0 : Fin 1) 0 0 : S1x1x1.Idx) = (ix3 (sp t) 0 0 : S4x1x1.Idx) := by
    funext a; apply Fin.ext
    match a with
    | ⟨0, _⟩ => show win0_8.index t (0 : Fin 3) * 1 + 1 * 0 = t.val / 5; omega
    | ⟨1, _⟩ => show win0_8.index t (1 : Fin 3) * 1 + 1 * 0 = 0; omega
    | ⟨2, _⟩ => show win0_8.index t (2 : Fin 3) * 1 + 1 * 0 = 0; omega
  show V m c main_v11 (((cfg0.win 8).blk t).view.emb (ix3 (0 : Fin 1) 0 0 : S1x1x1.Idx)) = _
  rw [h]

end Cert.KernelIdeal.Hand

end
-- ==== Proof.KI.ValueAt.lean ====
import proofs.«428131_j48885317763465_3_alg».proof.Proof.KI.ValuePieces
import proofs.«428131_j48885317763465_3_alg».proof.Proof.KI.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F] [Named F]

variable (m : (ℓ : Loc nD τ sig) → Buf (Elt F) ℓ)

/-- The sum the loop ends with at grid point `t`. -/
def loopAt (c : Dev nD) (t : Fin cfg0.N) : FVec F S1x1 .f32 :=
  loopVal c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (blk0 m c t) (blk1 m c t) (blk2 m c t) (blk3 m c t) (blk4 m c t) (blk5 m c t) (blk6 m c t) (blk7 m c t) (blk8 m c t)

theorem scratch_at_first (c : Dev nD) (t : Fin cfg0.N) (h0 : t.val % 5 = 0) (h1 : ¬t.val % 5 = 4) :
    (outsAt0 m c t.val t.isLt).2 = k0_pay1 (loopAt m c t) k0_pay6 := by
  rw [outsAt0_A m c t h0 h1]; unfold left runA; dsimp only
  exact scratch_first ..

theorem scratch_at_middle (c : Dev nD) (t : Fin cfg0.N) (h0 : ¬t.val % 5 = 0) (h1 : ¬t.val % 5 = 4) :
    (outsAt0 m c t.val t.isLt).2 = k0_pay1 (loopAt m c t) (outsAt0 m c (t.val - 1) (Nat.lt_of_le_of_lt (Nat.sub_le _ _) t.isLt)).2 := by
  rw [outsAt0_B m c t h0 h1]; unfold left runB; dsimp only
  exact scratch_middle ..

theorem scratch_at_last (c : Dev nD) (t : Fin cfg0.N) (h0 : ¬t.val % 5 = 0) (h1 : t.val % 5 = 4) :
    (outsAt0 m c t.val t.isLt).2 = k0_pay1 (loopAt m c t) (outsAt0 m c (t.val - 1) (Nat.lt_of_le_of_lt (Nat.sub_le _ _) t.isLt)).2 := by
  rw [outsAt0_C m c t h0 h1]; unfold left runC; dsimp only
  exact scratch_last ..

theorem out_at_last (c : Dev nD) (t : Fin cfg0.N) (h0 : ¬t.val % 5 = 0) (h1 : t.val % 5 = 4) :
    (outsAt0 m c t.val t.isLt).1 = k0_pay1 (loopAt m c t) (outsAt0 m c (t.val - 1) (Nat.lt_of_le_of_lt (Nat.sub_le _ _) t.isLt)).2 := by
  rw [outsAt0_C m c t h0 h1]; unfold left runC; dsimp only
  exact out_last ..

end Cert.KernelIdeal.Hand

end
-- ==== Proof.KI.Trip.lean ====
import proofs.«428131_j48885317763465_3_alg».proof.Proof.Gen.KernelIdeal.Loops
import Idealize.ShloMosaic.Lib.ValueIdx
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem

variable {F : FTy → Type} [FloatOps F] [Named F]

theorem trips_eq : k0_t1_loop.trips = 5 := by decide

theorem trip_lt (k : Fin k0_t1_loop.trips) : k.val < 5 := Nat.lt_of_lt_of_eq k.isLt trips_eq

theorem lt_trips {n : ℕ} (h : n < 5) : n < k0_t1_loop.trips := Nat.lt_of_lt_of_eq h trips_eq.symm

abbrev trip (n : ℕ) (h : n < 5 := by decide) : Fin k0_t1_loop.trips := ⟨n, lt_trips h⟩

theorem row_lt (k : Fin k0_t1_loop.trips) (r : Fin 2000) : 2000 * k.val + r.val < 10000 := by
  have hk := trip_lt k
  have hr := r.isLt
  omega

def slice (arg2 : Memref sig .tc .vmem S1x10000x384 .bf16) (X_arg2 : BufTy.Contents (Elt F) arg2.view.ty)
    (k : Fin k0_t1_loop.trips) : Vec F S1x2000x384 .bf16 :=
  View.readAt (Elt F) arg2.view
    (Rect.unit (s := S1x10000x384) (k0_off1 k) S1x2000x384.size (k0_off1_inb k)).toLoadRect X_arg2

set_option maxHeartbeats 4000000 in
unseal trip_k0_t1 in

theorem tripR_eq (𝒱 : Variants) (c : Dev nD) (bd : Option 𝒱.V) (i : grid0.Coords) (arg2 : Memref sig .tc .vmem S1x10000x384 .bf16) (harg2 : arg2.IsWhole) (arg3 : Memref sig .tc .vmem S1x384x160 .bf16) (harg3 : arg3.IsWhole) (arg4 : Memref sig .tc .vmem S1x1x160 .f32) (harg4 : arg4.IsWhole) (arg5 : Memref sig .tc .vmem S1x160x128 .bf16) (harg5 : arg5.IsWhole) (arg6 : Memref sig .tc .vmem S1x1x128 .f32) (harg6 : arg6.IsWhole) (arg7 : Memref sig .tc .vmem S1x128x96 .bf16) (harg7 : arg7.IsWhole) (arg8 : Memref sig .tc .vmem S1x1x96 .f32) (harg8 : arg8.IsWhole) (arg9 : Memref sig .tc .vmem S1x96x1 .bf16) (harg9 : arg9.IsWhole) (arg10 : Memref sig .tc .vmem S1x1x1 .f32) (harg10 : arg10.IsWhole) (arg11 : Memref sig .tc .vmem S1x8x128 .f32) (harg11 : arg11.IsWhole) (arg12 : Memref sig .tc .vmem S1x8x128 .f32) (harg12 : arg12.IsWhole) (v3 : Vec F S1x384x160 .bf16) (v5 : Vec F S1x1x160 .f32) (v7 : Vec F S1x160x128 .bf16) (v9 : Vec F S1x1x128 .f32) (v11 : Vec F S1x128x96 .bf16) (v13 : Vec F S1x1x96 .f32) (v15 : Vec F S1x96x1 .bf16) (v17 : Vec F S1x1x1 .f32) (X_arg2 : BufTy.Contents (Elt F) arg2.view.ty) (k : Fin k0_t1_loop.trips) (acc : FVec F S1x1 .f32) :
    tripR_k0_t1 (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 k acc
      = k0_pay14 v15 v17 acc (k0_pay2 (k0_pay7 v3) (k0_pay8 v5) (k0_pay9 v7) (k0_pay10 v9) (k0_pay11 v11) (k0_pay12 v13) (slice arg2 X_arg2 k)) (k0_pay3 (k0_pay7 v3) (k0_pay8 v5) (k0_pay9 v7) (k0_pay10 v9) (k0_pay11 v11) (k0_pay12 v13) (slice arg2 X_arg2 k)) (k0_pay4 (k0_pay7 v3) (k0_pay8 v5) (k0_pay9 v7) (k0_pay10 v9) (k0_pay11 v11) (k0_pay12 v13) (slice arg2 X_arg2 k)) (k0_pay5 (F := F)) := by
  unfold tripR_k0_t1
  unfold trip_k0_t1
  dsimp only
  sl_unfold_run_names
  rfl

theorem slice_idx (k : Fin k0_t1_loop.trips) (r : Fin 2000) (q : Fin 384) :
    (Rect.unit (s := S1x10000x384) (k0_off1 k) S1x2000x384.size (k0_off1_inb k)).toLoadRect.idx
        (ix3 (0 : Fin 1) r q : S1x2000x384.Idx)
      = (ix3 (0 : Fin 1) (⟨2000 * k.val + r.val, row_lt k r⟩ : Fin 10000) q : S1x10000x384.Idx) := by
  have hoff := k0_off1_eq k
  funext a
  apply Fin.ext
  match a with
  | ⟨0, _⟩ =>
    show k0_off1 k (0 : Fin 3) + 1 * 0 = 0
    rw [hoff]; rfl
  | ⟨1, _⟩ =>
    show k0_off1 k (1 : Fin 3) + 1 * r.val = 2000 * k.val + r.val
    rw [hoff, Nat.one_mul]; rfl
  | ⟨2, _⟩ =>
    show k0_off1 k (2 : Fin 3) + 1 * q.val = q.val
    rw [hoff, Nat.one_mul]; exact Nat.zero_add _

theorem slice_apply_of_read (arg2 : Memref sig .tc .vmem S1x10000x384 .bf16) (X_arg2 : BufTy.Contents (Elt F) arg2.view.ty)
    (x0 : Vec F S1x10000x384 .bf16) (hX : arg2.view.read (Elt F) X_arg2 = x0)
    (k : Fin k0_t1_loop.trips) (r : Fin 2000) (q : Fin 384) :
    slice arg2 X_arg2 k (ix3 (0 : Fin 1) r q)
      = x0 (ix3 (0 : Fin 1) (⟨2000 * k.val + r.val, row_lt k r⟩ : Fin 10000) q) := by
  unfold slice
  rw [View.readAt_apply, hX, slice_idx]

/-- Entry `(0, r, q)` of trip `k`'s slice is entry `(0, 2000 * k + r, q)` of the block. -/
theorem slice_apply (arg2 : Memref sig .tc .vmem S1x10000x384 .bf16) (harg2 : arg2.IsWhole)
    (x0 : Vec F S1x10000x384 .bf16) (k : Fin k0_t1_loop.trips) (r : Fin 2000) (q : Fin 384) :
    slice arg2 (harg2.unread x0) k (ix3 (0 : Fin 1) r q)
      = x0 (ix3 (0 : Fin 1) (⟨2000 * k.val + r.val, row_lt k r⟩ : Fin 10000) q) :=
  slice_apply_of_read arg2 (harg2.unread x0) x0 (harg2.read_unread x0) k r q

/-- The loop's result is the five trips' results nested, the first innermost. -/
theorem st_five (𝒱 : Variants) (c : Dev nD) (bd : Option 𝒱.V) (i : grid0.Coords) (arg2 : Memref sig .tc .vmem S1x10000x384 .bf16) (harg2 : arg2.IsWhole) (arg3 : Memref sig .tc .vmem S1x384x160 .bf16) (harg3 : arg3.IsWhole) (arg4 : Memref sig .tc .vmem S1x1x160 .f32) (harg4 : arg4.IsWhole) (arg5 : Memref sig .tc .vmem S1x160x128 .bf16) (harg5 : arg5.IsWhole) (arg6 : Memref sig .tc .vmem S1x1x128 .f32) (harg6 : arg6.IsWhole) (arg7 : Memref sig .tc .vmem S1x128x96 .bf16) (harg7 : arg7.IsWhole) (arg8 : Memref sig .tc .vmem S1x1x96 .f32) (harg8 : arg8.IsWhole) (arg9 : Memref sig .tc .vmem S1x96x1 .bf16) (harg9 : arg9.IsWhole) (arg10 : Memref sig .tc .vmem S1x1x1 .f32) (harg10 : arg10.IsWhole) (arg11 : Memref sig .tc .vmem S1x8x128 .f32) (harg11 : arg11.IsWhole) (arg12 : Memref sig .tc .vmem S1x8x128 .f32) (harg12 : arg12.IsWhole) (v3 : Vec F S1x384x160 .bf16) (v5 : Vec F S1x1x160 .f32) (v7 : Vec F S1x160x128 .bf16) (v9 : Vec F S1x1x128 .f32) (v11 : Vec F S1x128x96 .bf16) (v13 : Vec F S1x1x96 .f32) (v15 : Vec F S1x96x1 .bf16) (v17 : Vec F S1x1x1 .f32) (X_arg2 : BufTy.Contents (Elt F) arg2.view.ty) (init : FVec F S1x1 .f32) :
    st_k0_t1 (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 init k0_t1_loop.trips
      = (tripR_k0_t1 (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 (trip 4) (tripR_k0_t1 (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 (trip 3) (tripR_k0_t1 (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 (trip 2) (tripR_k0_t1 (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 (trip 1) (tripR_k0_t1 (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 (trip 0) init))))) := by
  have h5 : st_k0_t1 (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 init k0_t1_loop.trips = st_k0_t1 (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 init 5 :=
    congrArg (st_k0_t1 (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 init ·) trips_eq
  rw [h5]
  have s0 := st_k0_t1_succ (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 init (trip 0)
  have s1 := st_k0_t1_succ (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 init (trip 1)
  have s2 := st_k0_t1_succ (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 init (trip 2)
  have s3 := st_k0_t1_succ (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 init (trip 3)
  have s4 := st_k0_t1_succ (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 init (trip 4)
  have z := st_k0_t1_zero (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 init
  change st_k0_t1 (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 init 1 = _ at s0
  change st_k0_t1 (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 init 2 = _ at s1
  change st_k0_t1 (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 init 3 = _ at s2
  change st_k0_t1 (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 init 4 = _ at s3
  change st_k0_t1 (F := F) 𝒱 c bd i arg2 harg2 arg3 harg3 arg4 harg4 arg5 harg5 arg6 harg6 arg7 harg7 arg8 harg8 arg9 harg9 arg10 harg10 arg11 harg11 arg12 harg12 v3 v5 v7 v9 v11 v13 v15 v17 X_arg2 init 5 = _ at s4
  rw [s4]; dsimp only
  rw [s3]; dsimp only
  rw [s2]; dsimp only
  rw [s1]; dsimp only
  rw [s0]; dsimp only
  rw [z]

end Cert.KernelIdeal.Hand

end
-- ==== Proof.Spec.lean ====
import Idealize.ShloMosaic.PureOps.Ideal.Laws
import Idealize.ShloMosaic.Lib.ValueIdx

noncomputable section

namespace Cert.Spec

open Idealize.ShloMosaic Idealize.ShloMosaic.ValueIdx
open scoped BigOperators

/-- The CELU scale: the value of the f32 word nearest `0.1`. -/
def α : EReal := Ideal.ofBits .f32 0x3DCCCCCD#32

/-- Its reciprocal, `2^27 / 13421773`. -/
def invα : EReal := ((134217728 / 13421773 : ℝ) : EReal)

/-- CELU with the exponent's argument multiplied by the reciprocal, -/
def celuK (z : EReal) : EReal := if 0 < z then z else α * (Ideal.exp (z * invα) - 1)

/-- and with it divided by the scale, through `max` and `min`. -/
def celuR (z : EReal) : EReal := max z 0 + α * (Ideal.exp (Ideal.div (min z 0) α) - 1)

/-- One unit of an affine layer: `(∑ k, x k * W k j) + c j`. -/
def lin {a b : ℕ} (x : Fin a → EReal) (W : Fin a → Fin b → EReal) (c : Fin b → EReal) (j : Fin b) : EReal :=
  (∑ k, x k * W k j) + c j

structure Params where
  W1 : Fin 4 → Fin 384 → Fin 160 → EReal
  b1 : Fin 4 → Fin 160 → EReal
  W2 : Fin 4 → Fin 160 → Fin 128 → EReal
  b2 : Fin 4 → Fin 128 → EReal
  W3 : Fin 4 → Fin 128 → Fin 96 → EReal
  b3 : Fin 4 → Fin 96 → EReal
  W4 : Fin 4 → Fin 96 → EReal
  b4 : Fin 4 → EReal

/-- Three affine layers, each followed by the activation. -/
def hidden (celu : EReal → EReal) (P : Params) (s : Fin 4) (x : Fin 384 → EReal) : Fin 96 → EReal :=
  fun j => celu (lin (fun j2 => celu (lin (fun j1 => celu (lin x (P.W1 s) (P.b1 s) j1)) (P.W2 s) (P.b2 s) j2))
    (P.W3 s) (P.b3 s) j)

/-- One atom's energy: the last affine layer, to one number. -/
def energyR (P : Params) (s : Fin 4) (x : Fin 384 → EReal) : EReal :=
  (∑ k, hidden celuR P s x k * P.W4 s k) + P.b4 s

/-- All atoms' energies, summed. -/
def totalR (P : Params) (x : Fin 4 → Fin 50000 → Fin 384 → EReal) : EReal :=
  ∑ s, ∑ j, energyR P s (x s j)

/-- Atom `r` of sub-block `i` of block `t`: `10000 * t + 2000 * i + r`. -/
def rowIx (t i : Fin 5) (r : Fin 2000) : Fin 50000 := ⟨10000 * t.val + 2000 * i.val + r.val, by omega⟩

/-- A sub-block's share: the hidden layer summed over its 2000 atoms first, then one product with the last weights, plus `2000` biases. -/
def contribK (P : Params) (x : Fin 4 → Fin 50000 → Fin 384 → EReal) (s : Fin 4) (t i : Fin 5) : EReal :=
  (∑ k, (∑ r : Fin 2000, hidden celuK P s (x s (rowIx t i r)) k) * P.W4 s k) + 2000 * P.b4 s

/-- The shares of all species, blocks and sub-blocks, summed. -/
def totalK (P : Params) (x : Fin 4 → Fin 50000 → Fin 384 → EReal) : EReal :=
  ∑ s, ∑ t : Fin 5, ∑ i : Fin 5, contribK P x s t i

def IsReal (v : EReal) : Prop := ∃ r : ℝ, v = (r : EReal)

structure Params.Finite (P : Params) : Prop where
  W1 : ∀ s k j, IsReal (P.W1 s k j)
  b1 : ∀ s j, IsReal (P.b1 s j)
  W2 : ∀ s k j, IsReal (P.W2 s k j)
  b2 : ∀ s j, IsReal (P.b2 s j)
  W3 : ∀ s k j, IsReal (P.W3 s k j)
  b3 : ∀ s j, IsReal (P.b3 s j)
  W4 : ∀ s k, IsReal (P.W4 s k)
  b4 : ∀ s, IsReal (P.b4 s)

/-- A negative index word counts from the end. -/
def wrapWord (x : BitVec 32) : BitVec 32 := if x.slt 0#32 then x + 200000#32 else x

/-- The row an index word in `[-200000, 200000)` names. -/
def rowOf (x : BitVec 32) : Fin 200000 := ⟨(wrapWord x).toNat % 200000, Nat.mod_lt _ (by norm_num)⟩

def paramsOf
    (A1 : (⟨3, ![4, 384, 160]⟩ : Shape).Idx → EReal) (A2 : (⟨2, ![4, 160]⟩ : Shape).Idx → EReal)
    (A3 : (⟨3, ![4, 160, 128]⟩ : Shape).Idx → EReal) (A4 : (⟨2, ![4, 128]⟩ : Shape).Idx → EReal)
    (A5 : (⟨3, ![4, 128, 96]⟩ : Shape).Idx → EReal) (A6 : (⟨2, ![4, 96]⟩ : Shape).Idx → EReal)
    (A7 : (⟨3, ![4, 96, 1]⟩ : Shape).Idx → EReal) (A8 : (⟨2, ![4, 1]⟩ : Shape).Idx → EReal) : Params where
  W1 s k j := A1 (ix3 s k j)
  b1 s j := A2 (ix2 s j)
  W2 s k j := A3 (ix3 s k j)
  b2 s j := A4 (ix2 s j)
  W3 s k j := A5 (ix3 s k j)
  b3 s j := A6 (ix2 s j)
  W4 s k := A7 (ix3 s k (0 : Fin 1))
  b4 s := A8 (ix2 s (0 : Fin 1))

def idxOf (A9 A10 A11 A12 : (⟨1, ![50000]⟩ : Shape).Idx → BitVec 32) (s : Fin 4) (j : Fin 50000) : BitVec 32 :=
  match s with
  | ⟨0, _⟩ => A9 (ix1 j)
  | ⟨1, _⟩ => A10 (ix1 j)
  | ⟨2, _⟩ => A11 (ix1 j)
  | ⟨3, _⟩ => A12 (ix1 j)

def gathered (A0 : (⟨2, ![200000, 384]⟩ : Shape).Idx → EReal)
    (A9 A10 A11 A12 : (⟨1, ![50000]⟩ : Shape).Idx → BitVec 32) : Fin 4 → Fin 50000 → Fin 384 → EReal :=
  fun s j k => A0 (ix2 (rowOf (idxOf A9 A10 A11 A12 s j)) k)

end Cert.Spec

end
-- ==== Proof.KI.Payload.lean ====
import proofs.«428131_j48885317763465_3_alg».proof.Proof.Gen.KernelIdeal.Skeleton
import proofs.«428131_j48885317763465_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

namespace Cert.KernelIdeal.Hand.Layers

open Idealize.ShloMosaic Idealize.ShloMosaic.ValueIdx Idealize.SL.Sem
open Cert.KernelIdeal Cert.KernelIdeal.Gen
open scoped BigOperators

theorem ofBits_one_f32 : Ideal.ofBits .f32 0x3F800000#32 = 1 := by
  simp [Ideal.ofBits, Ideal.ieee, -EReal.coe_mul]; norm_num

theorem ofBits_2000_f32 : Ideal.ofBits .f32 0x44FA0000#32 = 2000 := by
  simp [Ideal.ofBits, Ideal.ieee, -EReal.coe_mul]; norm_num
  first | rfl | norm_cast

theorem inv_alpha : Named.named (F := Ideal) Cert.KernelIdeal.κ "inv_alpha" (φ := .f32) 0x41200000#32 = Cert.Spec.invα :=
  IdealRules.named_const.ideal_named_scalar _ _ _ _ rfl

/-- The body's CELU, a select on `0 < z`, is `celuK`. -/
theorem celu_elem (z : EReal) :
    Scalar.select (FloatOps.cmpf (F := Ideal) (φ := .f32) .ogt z (Scalar.ofBits (F := Ideal) .f32 0x00000000#32)) z
      (FloatOps.mulf (F := Ideal) (φ := .f32) (Scalar.ofBits (F := Ideal) .f32 0x3DCCCCCD#32)
        (FloatOps.subf (F := Ideal) (φ := .f32) (FloatOps.exp (F := Ideal) (φ := .f32) (FloatOps.mulf (F := Ideal) (φ := .f32) z
          (Named.named (F := Ideal) Cert.KernelIdeal.κ "inv_alpha" (φ := .f32) 0x41200000#32)))
          (Scalar.ofBits (F := Ideal) .f32 0x3F800000#32)))
      = Cert.Spec.celuK z := by
  show Scalar.select (Ideal.cmp .ogt z (Ideal.ofBits .f32 0x00000000#32)) z
      (Ideal.ofBits .f32 0x3DCCCCCD#32 * (Ideal.exp (z * Named.named (F := Ideal) Cert.KernelIdeal.κ "inv_alpha" (φ := .f32) 0x41200000#32)
        - Ideal.ofBits .f32 0x3F800000#32)) = _
  rw [inv_alpha, ofBits_one_f32, Ideal.ofBits_zero_f32]
  unfold Cert.Spec.celuK Cert.Spec.α Scalar.select Ideal.cmp
  by_cases h : 0 < z <;> simp [h]

def celuV {s : Shape} (z : FVec Ideal s .f32) : FVec Ideal s .f32 :=
  select (cmpf .ogt z (broadcast s (Scalar.ofBits (F := Ideal) .f32 0x00000000#32))) z
    (mulf (broadcast s (Scalar.ofBits (F := Ideal) .f32 0x3DCCCCCD#32))
      (subf (exp (mulf z (broadcast s (Named.named (F := Ideal) Cert.KernelIdeal.κ "inv_alpha" (φ := .f32) 0x41200000#32))))
        (broadcast s (Scalar.ofBits (F := Ideal) .f32 0x3F800000#32))))

theorem celuV_apply {s : Shape} (z : FVec Ideal s .f32) (i : s.Idx) : celuV z i = Cert.Spec.celuK (z i) :=
  celu_elem (z i)

/-- A product into the zero block, at `(r, j)`: `∑ q, A r q * B q j`. -/
theorem matmul_rows_cols {m k n : ℕ} {φ₁ φ₂ : FTy}
    (d : DotDims ⟨2, ![m, k]⟩ ⟨2, ![k, n]⟩ ⟨2, ![m, n]⟩) (hr : d.contr.rank = 1) (hs : d.contr.size ⟨0, by omega⟩ = k)
    (l0 : ∀ (i : (⟨2, ![m, n]⟩ : Shape).Idx) (q : d.contr.Idx), (d.lhsIdx i q 0).val = (i 0).val)
    (hl : d.lhsContracting = [1])
    (hr' : d.rhsContracting = [0])
    (r1 : ∀ (i : (⟨2, ![m, n]⟩ : Shape).Idx) (q : d.contr.Idx), (d.rhsIdx i q 1).val = (i 1).val)
    (A : FVec Ideal ⟨2, ![m, k]⟩ φ₁) (B : FVec Ideal ⟨2, ![k, n]⟩ φ₂) (r : Fin m) (j : Fin n) :
    matmul d none A B (constant (F := Ideal) ⟨2, ![m, n]⟩ .f32 0x00000000#32) (ix2 r j)
      = ∑ q : Fin k, A (ix2 r q) * B (ix2 q j) := by
  simp only [matmul]
  rw [Ideal.matmul_constant_zero_apply, ← Equiv.sum_comp (contrEquiv1 d k hr hs).symm]
  refine Finset.sum_congr rfl fun q _ => ?_
  have hq := contrEquiv1_symm_val d k hr hs q
  have el : d.lhsIdx (ix2 r j) ((contrEquiv1 d k hr hs).symm q) = ix2 r q := funext fun a => Fin.ext (by
    match a with
    | ⟨0, _⟩ => exact l0 _ _
    | ⟨1, _⟩ => exact (d.lhsIdx_val_of_single hl _ _).trans hq)
  have er : d.rhsIdx (ix2 r j) ((contrEquiv1 d k hr hs).symm q) = ix2 q j := funext fun a => Fin.ext (by
    match a with
    | ⟨0, _⟩ => exact (d.rhsIdx_val_of_single hr' _ _).trans hq
    | ⟨1, _⟩ => exact r1 _ _)
  rw [el, er]

def affine {m k n : ℕ} {φ₁ : FTy} (d : DotDims ⟨2, ![m, k]⟩ ⟨2, ![k, n]⟩ ⟨2, ![m, n]⟩)
    (hb : (⟨2, ![1, n]⟩ : Shape).Broadcasts ⟨2, ![m, n]⟩)
    (X : FVec Ideal ⟨2, ![m, k]⟩ φ₁) (W : FVec Ideal ⟨2, ![k, n]⟩ .bf16) (c : FVec Ideal ⟨2, ![1, n]⟩ .f32) :
    FVec Ideal ⟨2, ![m, n]⟩ .f32 :=
  addf (matmul d none X W (constant (F := Ideal) ⟨2, ![m, n]⟩ .f32 0x00000000#32)) (broadcastTo ⟨2, ![m, n]⟩ c hb)

/-- A product plus a broadcast bias row is `lin`. -/
theorem affine_apply {m k n : ℕ} {φ₁ : FTy} (d : DotDims ⟨2, ![m, k]⟩ ⟨2, ![k, n]⟩ ⟨2, ![m, n]⟩)
    (hr : d.contr.rank = 1) (hs : d.contr.size ⟨0, by omega⟩ = k)
    (l0 : ∀ (i : (⟨2, ![m, n]⟩ : Shape).Idx) (q : d.contr.Idx), (d.lhsIdx i q 0).val = (i 0).val)
    (hl : d.lhsContracting = [1])
    (hr' : d.rhsContracting = [0])
    (r1 : ∀ (i : (⟨2, ![m, n]⟩ : Shape).Idx) (q : d.contr.Idx), (d.rhsIdx i q 1).val = (i 1).val)
    (hb : (⟨2, ![1, n]⟩ : Shape).Broadcasts ⟨2, ![m, n]⟩)
    (X : FVec Ideal ⟨2, ![m, k]⟩ φ₁) (W : FVec Ideal ⟨2, ![k, n]⟩ .bf16) (c : FVec Ideal ⟨2, ![1, n]⟩ .f32)
    (r : Fin m) (j : Fin n) :
    affine d hb X W c (ix2 r j)
      = Cert.Spec.lin (fun q => X (ix2 r q)) (fun q j' => W (ix2 q j')) (fun j' => c (ix2 (0 : Fin 1) j')) j := by
  unfold affine Cert.Spec.lin
  rw [addf_apply, matmul_rows_cols d hr hs l0 hl hr' r1, broadcastTo_1b_ab_apply]

theorem lhs1_0 (i : S2000x160.Idx) (q : dot_S2000x384_S384x160_S2000x160_1_0_0_1_n_n.contr.Idx) :
    (dot_S2000x384_S384x160_S2000x160_1_0_0_1_n_n.lhsIdx i q 0).val = (i 0).val := by
  unfold DotDims.lhsIdx
  rw [dif_neg (show ¬(0 : Fin S2000x384.rank) ∈ dot_S2000x384_S384x160_S2000x160_1_0_0_1_n_n.lhsBatch by decide), dif_pos (show (0 : Fin S2000x384.rank) ∈ dot_S2000x384_S384x160_S2000x160_1_0_0_1_n_n.lhsNonContracting by decide)]
  rfl
theorem rhs1_1 (i : S2000x160.Idx) (q : dot_S2000x384_S384x160_S2000x160_1_0_0_1_n_n.contr.Idx) :
    (dot_S2000x384_S384x160_S2000x160_1_0_0_1_n_n.rhsIdx i q 1).val = (i 1).val := by
  unfold DotDims.rhsIdx
  rw [dif_neg (show ¬(1 : Fin S384x160.rank) ∈ dot_S2000x384_S384x160_S2000x160_1_0_0_1_n_n.rhsBatch by decide), dif_pos (show (1 : Fin S384x160.rank) ∈ dot_S2000x384_S384x160_S2000x160_1_0_0_1_n_n.rhsNonContracting by decide)]
  rfl

theorem lhs2_0 (i : S2000x128.Idx) (q : dot_S2000x160_S160x128_S2000x128_1_0_0_1_n_n.contr.Idx) :
    (dot_S2000x160_S160x128_S2000x128_1_0_0_1_n_n.lhsIdx i q 0).val = (i 0).val := by
  unfold DotDims.lhsIdx
  rw [dif_neg (show ¬(0 : Fin S2000x160.rank) ∈ dot_S2000x160_S160x128_S2000x128_1_0_0_1_n_n.lhsBatch by decide), dif_pos (show (0 : Fin S2000x160.rank) ∈ dot_S2000x160_S160x128_S2000x128_1_0_0_1_n_n.lhsNonContracting by decide)]
  rfl
theorem rhs2_1 (i : S2000x128.Idx) (q : dot_S2000x160_S160x128_S2000x128_1_0_0_1_n_n.contr.Idx) :
    (dot_S2000x160_S160x128_S2000x128_1_0_0_1_n_n.rhsIdx i q 1).val = (i 1).val := by
  unfold DotDims.rhsIdx
  rw [dif_neg (show ¬(1 : Fin S160x128.rank) ∈ dot_S2000x160_S160x128_S2000x128_1_0_0_1_n_n.rhsBatch by decide), dif_pos (show (1 : Fin S160x128.rank) ∈ dot_S2000x160_S160x128_S2000x128_1_0_0_1_n_n.rhsNonContracting by decide)]
  rfl

theorem lhs3_0 (i : S2000x96.Idx) (q : dot_S2000x128_S128x96_S2000x96_1_0_0_1_n_n.contr.Idx) :
    (dot_S2000x128_S128x96_S2000x96_1_0_0_1_n_n.lhsIdx i q 0).val = (i 0).val := by
  unfold DotDims.lhsIdx
  rw [dif_neg (show ¬(0 : Fin S2000x128.rank) ∈ dot_S2000x128_S128x96_S2000x96_1_0_0_1_n_n.lhsBatch by decide), dif_pos (show (0 : Fin S2000x128.rank) ∈ dot_S2000x128_S128x96_S2000x96_1_0_0_1_n_n.lhsNonContracting by decide)]
  rfl
theorem rhs3_1 (i : S2000x96.Idx) (q : dot_S2000x128_S128x96_S2000x96_1_0_0_1_n_n.contr.Idx) :
    (dot_S2000x128_S128x96_S2000x96_1_0_0_1_n_n.rhsIdx i q 1).val = (i 1).val := by
  unfold DotDims.rhsIdx
  rw [dif_neg (show ¬(1 : Fin S128x96.rank) ∈ dot_S2000x128_S128x96_S2000x96_1_0_0_1_n_n.rhsBatch by decide), dif_pos (show (1 : Fin S128x96.rank) ∈ dot_S2000x128_S128x96_S2000x96_1_0_0_1_n_n.rhsNonContracting by decide)]
  rfl

theorem lhs4_0 (i : S1x1.Idx) (q : dot_S1x96_S96x1_S1x1_1_0_0_1_n_n.contr.Idx) :
    (dot_S1x96_S96x1_S1x1_1_0_0_1_n_n.lhsIdx i q 0).val = (i 0).val := by
  unfold DotDims.lhsIdx
  rw [dif_neg (show ¬(0 : Fin S1x96.rank) ∈ dot_S1x96_S96x1_S1x1_1_0_0_1_n_n.lhsBatch by decide), dif_pos (show (0 : Fin S1x96.rank) ∈ dot_S1x96_S96x1_S1x1_1_0_0_1_n_n.lhsNonContracting by decide)]
  rfl
theorem rhs4_1 (i : S1x1.Idx) (q : dot_S1x96_S96x1_S1x1_1_0_0_1_n_n.contr.Idx) :
    (dot_S1x96_S96x1_S1x1_1_0_0_1_n_n.rhsIdx i q 1).val = (i 1).val := by
  unfold DotDims.rhsIdx
  rw [dif_neg (show ¬(1 : Fin S96x1.rank) ∈ dot_S1x96_S96x1_S1x1_1_0_0_1_n_n.rhsBatch by decide), dif_pos (show (1 : Fin S96x1.rank) ∈ dot_S1x96_S96x1_S1x1_1_0_0_1_n_n.rhsNonContracting by decide)]
  rfl

theorem affine1_apply (X : FVec Ideal S2000x384 .bf16) (W : FVec Ideal S384x160 .bf16) (c : FVec Ideal S1x160 .f32) (r : Fin 2000) (j : Fin 160) :
    affine dot_S2000x384_S384x160_S2000x160_1_0_0_1_n_n broadcasts_S1x160_S2000x160 X W c (ix2 r j)
      = Cert.Spec.lin (fun q => X (ix2 r q)) (fun q j' => W (ix2 q j')) (fun j' => c (ix2 (0 : Fin 1) j')) j :=
  affine_apply dot_S2000x384_S384x160_S2000x160_1_0_0_1_n_n rfl rfl lhs1_0 rfl rfl rhs1_1 _ X W c r j

theorem affine2_apply (X : FVec Ideal S2000x160 .bf16) (W : FVec Ideal S160x128 .bf16) (c : FVec Ideal S1x128 .f32) (r : Fin 2000) (j : Fin 128) :
    affine dot_S2000x160_S160x128_S2000x128_1_0_0_1_n_n broadcasts_S1x128_S2000x128 X W c (ix2 r j)
      = Cert.Spec.lin (fun q => X (ix2 r q)) (fun q j' => W (ix2 q j')) (fun j' => c (ix2 (0 : Fin 1) j')) j :=
  affine_apply dot_S2000x160_S160x128_S2000x128_1_0_0_1_n_n rfl rfl lhs2_0 rfl rfl rhs2_1 _ X W c r j

theorem affine3_apply (X : FVec Ideal S2000x128 .bf16) (W : FVec Ideal S128x96 .bf16) (c : FVec Ideal S1x96 .f32) (r : Fin 2000) (j : Fin 96) :
    affine dot_S2000x128_S128x96_S2000x96_1_0_0_1_n_n broadcasts_S1x96_S2000x96 X W c (ix2 r j)
      = Cert.Spec.lin (fun q => X (ix2 r q)) (fun q j' => W (ix2 q j')) (fun j' => c (ix2 (0 : Fin 1) j')) j :=
  affine_apply dot_S2000x128_S128x96_S2000x96_1_0_0_1_n_n rfl rfl lhs3_0 rfl rfl rhs3_1 _ X W c r j

theorem matmul4_apply (A : FVec Ideal S1x96 .bf16) (B : FVec Ideal S96x1 .bf16) (r : Fin 1) (j : Fin 1) :
    matmul dot_S1x96_S96x1_S1x1_1_0_0_1_n_n none A B (constant (F := Ideal) S1x1 .f32 0x00000000#32) (ix2 r j)
      = ∑ q : Fin 96, A (ix2 r q) * B (ix2 q j) :=
  matmul_rows_cols dot_S1x96_S96x1_S1x1_1_0_0_1_n_n rfl rfl lhs4_0 rfl rfl rhs4_1 A B r j

theorem pay2_eq (w1 : FVec Ideal S384x160 .bf16) (c1 : FVec Ideal S1x160 .f32) (w2 : FVec Ideal S160x128 .bf16) (c2 : FVec Ideal S1x128 .f32)
    (w3 : FVec Ideal S128x96 .bf16) (c3 : FVec Ideal S1x96 .f32) (v35 : Vec Ideal S1x2000x384 .bf16) :
    k0_pay2 (F := Ideal) w1 c1 w2 c2 w3 c3 v35
      = affine dot_S2000x128_S128x96_S2000x96_1_0_0_1_n_n broadcasts_S1x96_S2000x96
          (truncf .bf16 (celuV (affine dot_S2000x160_S160x128_S2000x128_1_0_0_1_n_n broadcasts_S1x128_S2000x128
            (truncf .bf16 (celuV (affine (φ₁ := .bf16) dot_S2000x384_S384x160_S2000x160_1_0_0_1_n_n broadcasts_S1x160_S2000x160
              (shapeCast S2000x384 v35 shapeCasts_S1x2000x384_S2000x384 : FVec Ideal S2000x384 .bf16) w1 c1)) bitsLt_bf16_f32) w2 c2)) bitsLt_bf16_f32) w3 c3 := rfl

theorem pay7_apply (v3 : Vec Ideal S1x384x160 .bf16) (k : Fin 384) (j : Fin 160) :
    k0_pay7 (F := Ideal) v3 (ix2 k j) = v3 (ix3 (0 : Fin 1) k j) := by
  unfold k0_pay7; exact shapeCast_1ab_ab_apply v3 _ k j
theorem pay8_apply (v5 : Vec Ideal S1x1x160 .f32) (u : Fin 1) (j : Fin 160) :
    k0_pay8 (F := Ideal) v5 (ix2 u j) = v5 (ix3 (0 : Fin 1) u j) := by
  unfold k0_pay8; exact shapeCast_1ab_ab_apply v5 _ u j
theorem pay9_apply (v7 : Vec Ideal S1x160x128 .bf16) (k : Fin 160) (j : Fin 128) :
    k0_pay9 (F := Ideal) v7 (ix2 k j) = v7 (ix3 (0 : Fin 1) k j) := by
  unfold k0_pay9; exact shapeCast_1ab_ab_apply v7 _ k j
theorem pay10_apply (v9 : Vec Ideal S1x1x128 .f32) (u : Fin 1) (j : Fin 128) :
    k0_pay10 (F := Ideal) v9 (ix2 u j) = v9 (ix3 (0 : Fin 1) u j) := by
  unfold k0_pay10; exact shapeCast_1ab_ab_apply v9 _ u j
theorem pay11_apply (v11 : Vec Ideal S1x128x96 .bf16) (k : Fin 128) (j : Fin 96) :
    k0_pay11 (F := Ideal) v11 (ix2 k j) = v11 (ix3 (0 : Fin 1) k j) := by
  unfold k0_pay11; exact shapeCast_1ab_ab_apply v11 _ k j
theorem pay12_apply (v13 : Vec Ideal S1x1x96 .f32) (u : Fin 1) (j : Fin 96) :
    k0_pay12 (F := Ideal) v13 (ix2 u j) = v13 (ix3 (0 : Fin 1) u j) := by
  unfold k0_pay12; exact shapeCast_1ab_ab_apply v13 _ u j

theorem pay2_value (P : Cert.Spec.Params) (s : Fin 4)
    (v3 : Vec Ideal S1x384x160 .bf16) (v5 : Vec Ideal S1x1x160 .f32) (v7 : Vec Ideal S1x160x128 .bf16) (v9 : Vec Ideal S1x1x128 .f32)
    (v11 : Vec Ideal S1x128x96 .bf16) (v13 : Vec Ideal S1x1x96 .f32)
    (hW1 : ∀ k j, v3 (ix3 0 k j) = P.W1 s k j) (hb1 : ∀ j, v5 (ix3 0 0 j) = P.b1 s j)
    (hW2 : ∀ k j, v7 (ix3 0 k j) = P.W2 s k j) (hb2 : ∀ j, v9 (ix3 0 0 j) = P.b2 s j)
    (hW3 : ∀ k j, v11 (ix3 0 k j) = P.W3 s k j) (hb3 : ∀ j, v13 (ix3 0 0 j) = P.b3 s j)
    (v35 : Vec Ideal S1x2000x384 .bf16) (xrow : Fin 2000 → Fin 384 → EReal) (hx : ∀ r k, v35 (ix3 0 r k) = xrow r k)
    (r : Fin 2000) (j : Fin 96) :
    k0_pay2 (F := Ideal) (k0_pay7 v3) (k0_pay8 v5) (k0_pay9 v7) (k0_pay10 v9) (k0_pay11 v11) (k0_pay12 v13) v35 (ix2 r j)
      = Cert.Spec.lin (fun j2 => Cert.Spec.celuK (Cert.Spec.lin (fun j1 => Cert.Spec.celuK
          (Cert.Spec.lin (xrow r) (P.W1 s) (P.b1 s) j1)) (P.W2 s) (P.b2 s) j2)) (P.W3 s) (P.b3 s) j := by
  rw [pay2_eq, affine3_apply]
  simp only [truncf_apply, celuV_apply, affine2_apply, affine1_apply, shapeCast_1ab_ab_apply, pay7_apply, pay8_apply, pay9_apply,
    pay10_apply, pay11_apply, pay12_apply, hW1, hb1, hW2, hb2, hW3, hb3, hx]

/-- Adding the rows up gives each column's sum. -/
theorem colsum_apply (src : FVec Ideal S2000x96 .f32) (hφ : FKind.Formats .f32)
    (hacc : (0x00000000#32 : BitVec 32) = 0x00000000#32) (q : Fin 96) :
    multiReduction (F := Ideal) .add [0] S96 src 0x00000000#32 reduces_S2000x96_S96 hφ hacc (ix1 q)
      = ∑ r : Fin 2000, src (ix2 r q) := by
  refine (Ideal.multiReduction_add_single src 0x00000000#32 reduces_S2000x96_S96 hφ hacc (ix1 q)).trans ?_
  refine Finset.sum_congr rfl fun r _ => congrArg src (funext fun a => Fin.ext ?_)
  match a with
  | ⟨0, _⟩ => rfl
  | ⟨1, _⟩ => rfl

theorem pay14_eq (v15 : Vec Ideal S1x96x1 .bf16) (v17 : Vec Ideal S1x1x1 .f32) (acc : FVec Ideal S1x1 .f32)
    (v67 : FVec Ideal S2000x96 .f32) (v69 : IVec S2000x96 1) (v72 v73 : FVec Ideal S2000x96 .f32) :
    k0_pay14 (F := Ideal) v15 v17 acc v67 v69 v72 v73
      = addf acc (addf
          (matmul dot_S1x96_S96x1_S1x1_1_0_0_1_n_n none
            (truncf .bf16 (shapeCast S1x96 (multiReduction (F := Ideal) .add [0] S96
              (select v69 v67 (mulf (broadcast S2000x96 (Scalar.ofBits (F := Ideal) .f32 0x3DCCCCCD#32)) (subf v72 v73)))
              0x00000000#32 reduces_S2000x96_S96 (.inl rfl) rfl) shapeCasts_S96_S1x96) bitsLt_bf16_f32 : FVec Ideal S1x96 .bf16)
            (shapeCast S96x1 v15 shapeCasts_S1x96x1_S96x1 : FVec Ideal S96x1 .bf16)
            (constant (F := Ideal) S1x1 .f32 0x00000000#32))
          (mulf (broadcast S1x1 (Scalar.ofBits (F := Ideal) .f32 0x44FA0000#32))
            (shapeCast S1x1 v17 shapeCasts_S1x1x1_S1x1 : FVec Ideal S1x1 .f32))) := rfl

theorem tail_celu (w1 : FVec Ideal S384x160 .bf16) (c1 : FVec Ideal S1x160 .f32) (w2 : FVec Ideal S160x128 .bf16) (c2 : FVec Ideal S1x128 .f32)
    (w3 : FVec Ideal S128x96 .bf16) (c3 : FVec Ideal S1x96 .f32) (v35 : Vec Ideal S1x2000x384 .bf16) :
    select (k0_pay3 (F := Ideal) w1 c1 w2 c2 w3 c3 v35) (k0_pay2 (F := Ideal) w1 c1 w2 c2 w3 c3 v35)
        (mulf (broadcast S2000x96 (Scalar.ofBits (F := Ideal) .f32 0x3DCCCCCD#32))
          (subf (k0_pay4 (F := Ideal) w1 c1 w2 c2 w3 c3 v35) (k0_pay5 (F := Ideal))))
      = celuV (k0_pay2 (F := Ideal) w1 c1 w2 c2 w3 c3 v35) := rfl

end Cert.KernelIdeal.Hand.Layers

namespace Cert.KernelIdeal.Hand

open Idealize.ShloMosaic Idealize.ShloMosaic.ValueIdx Idealize.SL.Sem
open Cert.KernelIdeal Cert.KernelIdeal.Gen Cert.KernelIdeal.Hand.Layers
open scoped BigOperators

/-- One trip adds its sub-block's share to the carried value. -/
theorem trip_value (P : Cert.Spec.Params) (s : Fin 4)
    (v3 : Vec Ideal S1x384x160 .bf16) (v5 : Vec Ideal S1x1x160 .f32) (v7 : Vec Ideal S1x160x128 .bf16) (v9 : Vec Ideal S1x1x128 .f32)
    (v11 : Vec Ideal S1x128x96 .bf16) (v13 : Vec Ideal S1x1x96 .f32) (v15 : Vec Ideal S1x96x1 .bf16) (v17 : Vec Ideal S1x1x1 .f32)
    (hW1 : ∀ k j, v3 (ix3 0 k j) = P.W1 s k j) (hb1 : ∀ j, v5 (ix3 0 0 j) = P.b1 s j)
    (hW2 : ∀ k j, v7 (ix3 0 k j) = P.W2 s k j) (hb2 : ∀ j, v9 (ix3 0 0 j) = P.b2 s j)
    (hW3 : ∀ k j, v11 (ix3 0 k j) = P.W3 s k j) (hb3 : ∀ j, v13 (ix3 0 0 j) = P.b3 s j)
    (hW4 : ∀ k, v15 (ix3 0 k 0) = P.W4 s k) (hb4 : v17 (ix3 0 0 0) = P.b4 s)
    (v35 : Vec Ideal S1x2000x384 .bf16) (xrow : Fin 2000 → Fin 384 → EReal) (hx : ∀ r k, v35 (ix3 0 r k) = xrow r k)
    (acc : FVec Ideal S1x1 .f32) :
    Cert.KernelIdeal.Gen.k0_pay14 (F := Ideal) v15 v17 acc
        (Cert.KernelIdeal.Gen.k0_pay2 (F := Ideal) (k0_pay7 v3) (k0_pay8 v5) (k0_pay9 v7) (k0_pay10 v9) (k0_pay11 v11) (k0_pay12 v13) v35)
        (Cert.KernelIdeal.Gen.k0_pay3 (F := Ideal) (k0_pay7 v3) (k0_pay8 v5) (k0_pay9 v7) (k0_pay10 v9) (k0_pay11 v11) (k0_pay12 v13) v35)
        (Cert.KernelIdeal.Gen.k0_pay4 (F := Ideal) (k0_pay7 v3) (k0_pay8 v5) (k0_pay9 v7) (k0_pay10 v9) (k0_pay11 v11) (k0_pay12 v13) v35)
        (Cert.KernelIdeal.Gen.k0_pay5 (F := Ideal)) (ix2 0 0)
      = acc (ix2 0 0) + ((∑ k : Fin 96, (∑ r : Fin 2000, Cert.Spec.hidden Cert.Spec.celuK P s (xrow r) k) * P.W4 s k) + 2000 * P.b4 s) := by
  rw [pay14_eq, tail_celu, addf_apply, addf_apply, mulf_apply, broadcast_apply, matmul4_apply]
  refine congrArg (acc (ix2 0 0) + ·) (congrArg₂ (· + ·) (Finset.sum_congr rfl fun q _ => ?_) ?_)
  · rw [truncf_apply, shapeCast_a_1a_apply, colsum_apply, shapeCast_1ab_ab_apply, hW4]
    refine congrArg (· * P.W4 s q) (Finset.sum_congr rfl fun r _ => ?_)
    rw [celuV_apply, pay2_value P s v3 v5 v7 v9 v11 v13 hW1 hb1 hW2 hb2 hW3 hb3 v35 xrow hx r q]
    rfl
  · rw [shapeCast_1ab_ab_apply, hb4]
    exact congrArg (· * P.b4 s) ofBits_2000_f32

theorem pay1_value (v21 : FVec Ideal S1x1 .f32) (v22 : Vec Ideal S1x8x128 .f32) (a : Fin 8) (b : Fin 128) :
    Cert.KernelIdeal.Gen.k0_pay1 (F := Ideal) v21 v22 (ix3 0 a b) = v22 (ix3 0 a b) + v21 (ix2 0 0) := by
  unfold Cert.KernelIdeal.Gen.k0_pay1
  rw [shapeCast_self, addf_apply]
  refine congrArg (v22 (ix3 0 a b) + ·) ?_
  refine (broadcastTo_apply _ broadcasts_S1x1x1_S1x8x128 (ix3 0 a b) (ix3 0 0 0) (fun ax => ?_)).trans ?_
  · match ax with
    | ⟨0, _⟩ => rfl
    | ⟨1, _⟩ => rfl
    | ⟨2, _⟩ => rfl
  · exact shapeCast_ab_1ab_apply v21 _ 0 0 0

theorem pay6_value (a : Fin 8) (b : Fin 128) : Cert.KernelIdeal.Gen.k0_pay6 (F := Ideal) (ix3 0 a b) = 0 := by
  unfold Cert.KernelIdeal.Gen.k0_pay6
  rw [shapeCast_self, broadcast_apply]
  exact Ideal.ofBits_zero_f32

theorem pay13_value : Cert.KernelIdeal.Gen.k0_pay13 (F := Ideal) (ix2 0 0) = 0 := by
  unfold Cert.KernelIdeal.Gen.k0_pay13
  rw [broadcast_apply]
  exact Ideal.ofBits_zero_f32

end Cert.KernelIdeal.Hand

end
-- ==== Proof.KI.ValueLoop.lean ====
import proofs.«428131_j48885317763465_3_alg».proof.Proof.KI.Trip
import proofs.«428131_j48885317763465_3_alg».proof.Proof.KI.Payload
import proofs.«428131_j48885317763465_3_alg».proof.Proof.KI.ValuePoints
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open scoped BigOperators

/-- Five trips, each adding one sub-block's share. -/
theorem loop_value (P : Cert.Spec.Params) (s : Fin 4) (c : Dev nD) (i : grid0.Coords) (arg2 : Memref sig .tc .vmem S1x10000x384 .bf16) (harg2 : arg2.IsWhole) (arg3 : Memref sig .tc .vmem S1x384x160 .bf16) (harg3 : arg3.IsWhole) (arg4 : Memref sig .tc .vmem S1x1x160 .f32) (harg4 : arg4.IsWhole) (arg5 : Memref sig .tc .vmem S1x160x128 .bf16) (harg5 : arg5.IsWhole) (arg6 : Memref sig .tc .vmem S1x1x128 .f32) (harg6 : arg6.IsWhole) (arg7 : Memref sig .tc .vmem S1x128x96 .bf16) (harg7 : arg7.IsWhole) (arg8 : Memref sig .tc .vmem S1x1x96 .f32) (harg8 : arg8.IsWhole) (arg9 : Memref sig .tc .vmem S1x96x1 .bf16) (harg9 : arg9.IsWhole) (arg10 : Memref sig .tc .vmem S1x1x1 .f32) (harg10 : arg10.IsWhole) (arg11 : Memref sig .tc .vmem S1x8x128 .f32) (harg11 : arg11.IsWhole) (arg12 : Memref sig .tc .vmem S1x8x128 .f32) (harg12 : arg12.IsWhole)
    (x0 : Vec Ideal S1x10000x384 .bf16) (x1 : Vec Ideal S1x384x160 .bf16) (x2 : Vec Ideal S1x1x160 .f32) (x3 : Vec Ideal S1x160x128 .bf16) (x4 : Vec Ideal S1x1x128 .f32) (x5 : Vec Ideal S1x128x96 .bf16) (x6 : Vec Ideal S1x1x96 .f32) (x7 : Vec Ideal S1x96x1 .bf16) (x8 : Vec Ideal S1x1x1 .f32)
    (hW1 : ∀ k j, x1 (ix3 0 k j) = P.W1 s k j) (hb1 : ∀ j, x2 (ix3 0 0 j) = P.b1 s j)
    (hW2 : ∀ k j, x3 (ix3 0 k j) = P.W2 s k j) (hb2 : ∀ j, x4 (ix3 0 0 j) = P.b2 s j)
    (hW3 : ∀ k j, x5 (ix3 0 k j) = P.W3 s k j) (hb3 : ∀ j, x6 (ix3 0 0 j) = P.b3 s j)
    (hW4 : ∀ k, x7 (ix3 0 k 0) = P.W4 s k) (hb4 : x8 (ix3 0 0 0) = P.b4 s)
    (xrow : Fin 5 → Fin 2000 → Fin 384 → EReal)
    (hx : ∀ (n : Fin 5) (r : Fin 2000) (q : Fin 384), x0 (ix3 (0 : Fin 1) (⟨2000 * n.val + r.val, by have := n.isLt; have := r.isLt; omega⟩ : Fin 10000) q) = xrow n r q) :
    loopVal (F := Ideal) c i arg2 harg2 arg3 harg3 arg4 harg4 arg5 harg5 arg6 harg6 arg7 harg7 arg8 harg8 arg9 harg9 arg10 harg10 arg11 harg11 arg12 harg12 x0 x1 x2 x3 x4 x5 x6 x7 x8 (ix2 0 0)
      = ∑ n : Fin 5, ((∑ k : Fin 96, (∑ r : Fin 2000, Cert.Spec.hidden Cert.Spec.celuK P s (xrow n r) k) * P.W4 s k) + 2000 * P.b4 s) := by
  unfold loopVal
  rw [st_five]
  simp only [tripR_eq]
  have t4 := fun acc => trip_value P s x1 x2 x3 x4 x5 x6 x7 x8 hW1 hb1 hW2 hb2 hW3 hb3 hW4 hb4
    (slice arg2 (harg2.unread x0) (trip 4)) (xrow 4) (fun r q => (slice_apply arg2 harg2 x0 (trip 4) r q).trans (hx 4 r q)) acc
  have t3 := fun acc => trip_value P s x1 x2 x3 x4 x5 x6 x7 x8 hW1 hb1 hW2 hb2 hW3 hb3 hW4 hb4
    (slice arg2 (harg2.unread x0) (trip 3)) (xrow 3) (fun r q => (slice_apply arg2 harg2 x0 (trip 3) r q).trans (hx 3 r q)) acc
  have t2 := fun acc => trip_value P s x1 x2 x3 x4 x5 x6 x7 x8 hW1 hb1 hW2 hb2 hW3 hb3 hW4 hb4
    (slice arg2 (harg2.unread x0) (trip 2)) (xrow 2) (fun r q => (slice_apply arg2 harg2 x0 (trip 2) r q).trans (hx 2 r q)) acc
  have t1 := fun acc => trip_value P s x1 x2 x3 x4 x5 x6 x7 x8 hW1 hb1 hW2 hb2 hW3 hb3 hW4 hb4
    (slice arg2 (harg2.unread x0) (trip 1)) (xrow 1) (fun r q => (slice_apply arg2 harg2 x0 (trip 1) r q).trans (hx 1 r q)) acc
  have t0 := fun acc => trip_value P s x1 x2 x3 x4 x5 x6 x7 x8 hW1 hb1 hW2 hb2 hW3 hb3 hW4 hb4
    (slice arg2 (harg2.unread x0) (trip 0)) (xrow 0) (fun r q => (slice_apply arg2 harg2 x0 (trip 0) r q).trans (hx 0 r q)) acc
  rw [t4, t3, t2, t1, t0, pay13_value, Fin.sum_univ_five, zero_add]

end Cert.KernelIdeal.Hand

end
-- ==== Proof.KI.ValueSum.lean ====
import proofs.«428131_j48885317763465_3_alg».proof.Proof.KI.ValueAt
import proofs.«428131_j48885317763465_3_alg».proof.Proof.KI.ValueLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open scoped BigOperators

variable (m : (ℓ : Loc nD τ sig) → Buf (Elt Ideal) ℓ)

abbrev PP (c : Dev nD) : Cert.Spec.Params :=
  Cert.Spec.paramsOf (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8))

abbrev XX (c : Dev nD) : Fin 4 → Fin 50000 → Fin 384 → EReal :=
  Cert.Spec.gathered (m ((c.tc : Thread nD τ).loc main_arg0)) (m ((c.tc : Thread nD τ).loc main_arg9)) (m ((c.tc : Thread nD τ).loc main_arg10)) (m ((c.tc : Thread nD τ).loc main_arg11)) (m ((c.tc : Thread nD τ).loc main_arg12))

structure Staged (c : Dev nD) : Prop where
  feat : ∀ (s : Fin 4) (j : Fin 50000) (k : Fin 384), V m c main_v3 (ix3 s j k) = XX m c s j k
  w1 : ∀ (s : Fin 4) (k : Fin 384) (j : Fin 160), V m c main_v4 (ix3 s k j) = (PP m c).W1 s k j
  b1 : ∀ (s : Fin 4) (j : Fin 160), V m c main_v8 (ix3 s 0 j) = (PP m c).b1 s j
  w2 : ∀ (s : Fin 4) (k : Fin 160) (j : Fin 128), V m c main_v5 (ix3 s k j) = (PP m c).W2 s k j
  b2 : ∀ (s : Fin 4) (j : Fin 128), V m c main_v9 (ix3 s 0 j) = (PP m c).b2 s j
  w3 : ∀ (s : Fin 4) (k : Fin 128) (j : Fin 96), V m c main_v6 (ix3 s k j) = (PP m c).W3 s k j
  b3 : ∀ (s : Fin 4) (j : Fin 96), V m c main_v10 (ix3 s 0 j) = (PP m c).b3 s j
  w4 : ∀ (s : Fin 4) (k : Fin 96), V m c main_v7 (ix3 s k 0) = (PP m c).W4 s k
  b4 : ∀ (s : Fin 4), V m c main_v11 (ix3 s 0 0) = (PP m c).b4 s

/-- At point `t` the loop's sum is the block's five sub-blocks' shares. -/
theorem loopAt_value (c : Dev nD) (hst : Staged m c) (t : Fin cfg0.N) :
    loopAt m c t (ix2 0 0) = ∑ n : Fin 5, Cert.Spec.contribK (PP m c) (XX m c) (sp t) (bk t) n := by
  unfold loopAt
  refine (loop_value (PP m c) (sp t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (blk0 m c t) (blk1 m c t) (blk2 m c t) (blk3 m c t) (blk4 m c t) (blk5 m c t) (blk6 m c t) (blk7 m c t) (blk8 m c t)
    (fun k j => (blk1_apply m c t k j).trans (hst.w1 (sp t) k j))
    (fun j => (blk2_apply m c t j).trans (hst.b1 (sp t) j))
    (fun k j => (blk3_apply m c t k j).trans (hst.w2 (sp t) k j))
    (fun j => (blk4_apply m c t j).trans (hst.b2 (sp t) j))
    (fun k j => (blk5_apply m c t k j).trans (hst.w3 (sp t) k j))
    (fun j => (blk6_apply m c t j).trans (hst.b3 (sp t) j))
    (fun k => (blk7_apply m c t k).trans (hst.w4 (sp t) k))
    ((blk8_apply m c t).trans (hst.b4 (sp t)))
    (fun n r => XX m c (sp t) (Cert.Spec.rowIx (bk t) n r))
    (fun n r q => ?_)).trans rfl
  refine (blk0_apply m c t _ q).trans ((hst.feat (sp t) _ q).trans ?_)
  exact congrArg (fun j => XX m c (sp t) j q) (Fin.ext (by
    show 10000 * (bk t).val + (2000 * n.val + r.val) = 10000 * (bk t).val + 2000 * n.val + r.val
    omega))

def Sval (c : Dev nD) (n : ℕ) (h : n < cfg0.N) : EReal :=
  (outsAt0 m c n h).2 (ix3 (0 : Fin 1) (0 : Fin 8) (0 : Fin 128))

def Tval (c : Dev nD) (n : ℕ) (h : n < cfg0.N) : EReal :=
  loopAt m c ⟨n, h⟩ (ix2 0 0)

theorem S_first (c : Dev nD) (n : ℕ) (h : n < cfg0.N) (h0 : n % 5 = 0) : Sval m c n h = Tval m c n h := by
  unfold Sval Tval
  rw [scratch_at_first m c ⟨n, h⟩ h0 (by show ¬n % 5 = 4; omega)]
  rw [pay1_value, pay6_value, zero_add]

theorem S_step (c : Dev nD) (n : ℕ) (h : n + 1 < cfg0.N) (hne : ¬(n + 1) % 5 = 0) :
    Sval m c (n + 1) h = Sval m c n (Nat.lt_of_succ_lt h) + Tval m c (n + 1) h := by
  unfold Sval Tval
  by_cases h4 : (n + 1) % 5 = 4
  · rw [scratch_at_last m c ⟨n + 1, h⟩ hne h4, pay1_value]; rfl
  · rw [scratch_at_middle m c ⟨n + 1, h⟩ hne h4, pay1_value]; rfl

/-- After a species' last point the scratch entry is the sum of its five blocks' shares. -/
theorem scratch_species (c : Dev nD) (hst : Staged m c) (s : Fin 4) :
    Sval m c (5 * s.val + 4) (pt_lt s 4)
      = ∑ b : Fin 5, ∑ n : Fin 5, Cert.Spec.contribK (PP m c) (XX m c) s b n := by
  rw [run_sum (Sval m c) (Tval m c) (S_first m c) (S_step m c) s.val (pt_lt s 4)]
  refine Finset.sum_congr rfl fun b _ => ?_
  unfold Tval
  rw [loopAt_value m c hst]
  have es : sp (⟨5 * s.val + b.val, pt_lt s b⟩ : Fin cfg0.N) = s :=
    Fin.ext (by show (5 * s.val + b.val) / 5 = s.val; have := b.isLt; omega)
  have eb : bk (⟨5 * s.val + b.val, pt_lt s b⟩ : Fin cfg0.N) = b :=
    Fin.ext (by show (5 * s.val + b.val) % 5 = b.val; have := b.isLt; omega)
  rw [es, eb]

theorem out_species (c : Dev nD) (hst : Staged m c) (s : Fin 4) :
    (outsAt0 m c (5 * s.val + 4) (pt_lt s 4)).1 (ix3 (0 : Fin 1) (0 : Fin 8) (0 : Fin 128))
      = ∑ b : Fin 5, ∑ n : Fin 5, Cert.Spec.contribK (PP m c) (XX m c) s b n := by
  have h0 : ¬(5 * s.val + 4) % 5 = 0 := by omega
  have h4 : (5 * s.val + 4) % 5 = 4 := by omega
  have e : (outsAt0 m c (5 * s.val + 4) (pt_lt s 4)).1 = (outsAt0 m c (5 * s.val + 4) (pt_lt s 4)).2 :=
    (out_at_last m c (pt s 4) h0 h4).trans (scratch_at_last m c (pt s 4) h0 h4).symm
  rw [e]
  exact scratch_species m c hst s

end Cert.KernelIdeal.Hand

end
-- ==== Proof.LibScatterGather2.lean ====
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

section Gather

variable {α : Type} {N C M w : Nat}

theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- A gather of rows, at `(e, j)`: column `j` of the row the word names. -/
theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.KI.Prefix.lean ====
import proofs.«428131_j48885317763465_3_alg».proof.Proof.KI.Around
import proofs.«428131_j48885317763465_3_alg».proof.Proof.Spec
import proofs.«428131_j48885317763465_3_alg».proof.Proof.LibScatterGather2
import Idealize.ShloMosaic.Lib.ValueIdx
import Idealize.ShloMosaic.Lib.Pipeline.Value
import Idealize.ShloMosaic.Lib.Affine
import Idealize.ShloMosaic.PureOps.Reduce

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

namespace Prefix

theorem select_slt_eq_wrapWord (x : BitVec 32) :
    Scalar.select (IntOp.cmpi .slt x 0#32) (IntOp.addi x 200000#32) x = Cert.Spec.wrapWord x := by
  unfold Cert.Spec.wrapWord Scalar.select IntOp.cmpi IntOp.addi
  cases h : x.slt 0#32
  · simp
  · simp

theorem wrapWord_bounds (x : BitVec 32) (h : -200000 ≤ x.toInt ∧ x.toInt < 200000) :
    (Cert.Spec.wrapWord x).toNat < 200000 ∧ (Cert.Spec.wrapWord x).toInt = ((Cert.Spec.wrapWord x).toNat : ℤ) := by
  obtain ⟨h1, h2⟩ := h
  have hx := BitVec.toInt_eq_toNat_cond x
  have hlt : x.toNat < 2 ^ 32 := x.isLt
  have h0 : (0#32 : BitVec 32).toInt = 0 := by decide
  unfold Cert.Spec.wrapWord
  split
  · rename_i hs
    rw [BitVec.slt_iff_toInt_lt, h0] at hs
    have hn : (x + 200000#32).toNat = (x.toNat + 200000) % 2 ^ 32 := by
      rw [BitVec.toNat_add]; rfl
    have hi := BitVec.toInt_eq_toNat_cond (x + 200000#32)
    rw [hn] at hi ⊢
    split at hx <;> split at hi <;> omega
  · rename_i hs
    rw [BitVec.slt_iff_toInt_lt, h0] at hs
    split at hx <;> omega

section Take

variable {F : FTy → Type} [FloatOps F] [Named F]

def words (A9 A10 A11 A12 : IVec S50000 32) : IVec S200000 32 :=
  concatenate S200000 0 [⟨S50000, A9⟩, ⟨S50000, A10⟩, ⟨S50000, A11⟩, ⟨S50000, A12⟩]
    concatenates_S50000_S50000_S50000_S50000_S200000_d0

def wrapped (v : IVec S200000 32) : IVec S200000 32 :=
  select (cmpi .slt v (broadcastInDim S200000 ![] bcast_S_S200000 (constantI S_ 32 0#32)))
    (addi v (broadcastInDim S200000 ![] bcast_S_S200000 (constantI S_ 32 200000#32))) v

def column (w : IVec S200000 32) : IVec S200000x1 32 := broadcastInDim S200000x1 ![0] bcast_S200000_S200000x1_0 w

def inRange (col : IVec S200000x1 32) : IVec S200000 1 :=
  Host.reduce IntOp.andi
    (andi (cmpi .sge col (broadcastInDim S200000x1 ![] bcast_S_S200000x1 (constantI S_ 32 0#32)))
      (cmpi .sle col (broadcastInDim S200000x1 ![0, 1] bcast_S1x1_S200000x1_0_1
        (broadcastInDim S1x1 ![1] bcast_S1_S1x1_1 (constantI S1 32 199999#32)))))
    (constantI S_ 1 1#1) reducesTo_S200000x1_S200000_d1 h_S_

def taken (A0 : FVec F S200000x384 .f32) (col : IVec S200000x1 32) : FVec F S200000x384 .f32 :=
  select (broadcastInDim S200000x384 ![0] bcast_S200000_S200000x384_0 (inRange col))
    (Host.gather gather_S200000x384_S200000x1_S200000x384_1_0_n_n_0_1_1384 A0 col)
    (broadcastInDim S200000x384 ![] bcast_S_S200000x384 (constant (F := F) S_ .f32 0x7FC00000#32))

def routed (A0 : FVec F S200000x384 .f32) (A9 A10 A11 A12 : IVec S50000 32) : FVec F S4x50000x384 .bf16 :=
  shapeCast (s := S200000x384) S4x50000x384
    (truncf (F := F) (s := S200000x384) (φ := .f32) .bf16 (taken A0 (column (wrapped (words A9 A10 A11 A12))))
      bitsLt_bf16_f32)
    shapeCasts_S200000x384_S4x50000x384

set_option maxHeartbeats 4000000 in

theorem V_main_v3_term (m : (ℓ : Loc nD τ sig) → Buf (Elt F) ℓ) (c : Dev nD) :
    @Eq (FVec F S4x50000x384 .bf16) (V m c main_v3)
      (routed (m ((c : Thread nD τ).loc main_arg0)) (m ((c : Thread nD τ).loc main_arg9))
        (m ((c : Thread nD τ).loc main_arg10)) (m ((c : Thread nD τ).loc main_arg11))
        (m ((c : Thread nD τ).loc main_arg12))) := by
  dsimp only [V, V0]
  simp only [hostOps0, hostOps0_1, hostOps0_2, List.flatten_cons, List.flatten_nil, List.append_nil, List.cons_append,
    List.nil_append]
  after_results
  all_goals (try simp only [StableHlo.TRef.ofBuf, StableHlo.TRef.toBuf, cast_eq])
  all_goals rfl

end Take

def pos (s : Fin 4) (j : Fin 50000) : Fin 200000 := ⟨50000 * s.val + j.val, by omega⟩

theorem words_apply (A9 A10 A11 A12 : IVec S50000 32) (s : Fin 4) (j : Fin 50000) :
    words A9 A10 A11 A12 (ix1 (pos s j)) = Cert.Spec.idxOf A9 A10 A11 A12 s j := by
  have hi : ∀ b : Fin S50000.rank, b.cast (rfl : S50000.rank = S200000.rank) ≠ (0 : Fin S200000.rank) →
      (ix1 j b).val = (ix1 (pos s j) (b.cast (rfl : S50000.rank = S200000.rank))).val := fun b hb =>
    (hb (Fin.ext (by have h1 : b.val < 1 := b.isLt; show b.val = 0; omega))).elim
  unfold words
  match s with
  | ⟨0, hs⟩ =>
    refine concatenate_apply_piece (0 : Fin S200000.rank) _ _ (ix1 (pos ⟨0, hs⟩ j)) 0 ?_ S50000 A9 rfl rfl 0 ?_ (ix1 j)
      hi ?_
    · show 0 < 4
      omega
    · show 0 = 0
      rfl
    · show 0 + j.val = 50000 * 0 + j.val
      omega
  | ⟨1, hs⟩ =>
    refine concatenate_apply_piece (0 : Fin S200000.rank) _ _ (ix1 (pos ⟨1, hs⟩ j)) 1 ?_ S50000 A10 rfl rfl 50000 ?_ (ix1 j)
      hi ?_
    · show 1 < 4
      omega
    · show 50000 + 0 = 50000
      rfl
    · show 50000 + j.val = 50000 * 1 + j.val
      omega
  | ⟨2, hs⟩ =>
    refine concatenate_apply_piece (0 : Fin S200000.rank) _ _ (ix1 (pos ⟨2, hs⟩ j)) 2 ?_ S50000 A11 rfl rfl 100000 ?_ (ix1 j)
      hi ?_
    · show 2 < 4
      omega
    · show 50000 + (50000 + 0) = 100000
      rfl
    · show 100000 + j.val = 50000 * 2 + j.val
      omega
  | ⟨3, hs⟩ =>
    refine concatenate_apply_piece (0 : Fin S200000.rank) _ _ (ix1 (pos ⟨3, hs⟩ j)) 3 ?_ S50000 A12 rfl rfl 150000 ?_ (ix1 j)
      hi ?_
    · show 3 < 4
      omega
    · show 50000 + (50000 + (50000 + 0)) = 150000
      rfl
    · show 150000 + j.val = 50000 * 3 + j.val
      omega

theorem wrapped_apply (v : IVec S200000 32) (i : S200000.Idx) : wrapped v i = Cert.Spec.wrapWord (v i) :=
  select_slt_eq_wrapWord (v i)

theorem column_apply (w : IVec S200000 32) (e : Fin 200000) : column w (ix2 e 0) = w (ix1 e) := by
  unfold column
  refine broadcastInDim_apply _ _ _ (ix2 e 0) (ix1 e) (fun a => ?_)
  match a with
  | ⟨0, _⟩ => exact (if_neg (show ¬(200000 : ℕ) = 1 by decide)).symm

theorem foldl_andi_one {ι : Type} (x : ι → BitVec 1) (l : List ι) (h : ∀ i ∈ l, x i = 1#1) :
    l.foldl (fun r i => IntOp.andi r (x i)) 1#1 = 1#1 := by
  induction l with
  | nil => rfl
  | cons a l ih =>
    have h11 : IntOp.andi 1#1 1#1 = 1#1 := by decide
    rw [List.foldl_cons, h a (List.mem_cons_self ..), h11]
    exact ih (fun i hi => h i (List.mem_cons_of_mem _ hi))

theorem inRange_apply (col : IVec S200000x1 32) (e : Fin 200000)
    (h0 : 0 ≤ (col (ix2 e 0)).toInt) (h1 : (col (ix2 e 0)).toInt ≤ 199999) : inRange col (ix1 e) = 1#1 := by
  unfold inRange
  rw [Host.reduce_eq_foldl]
  refine foldl_andi_one _ _ (fun i hi => ?_)
  have hd : reducesTo_S200000x1_S200000_d1.drop i = ix1 e := of_decide_eq_true (List.mem_filter.mp hi).2
  have hi0 : (i 0).val = e.val := by
    rw [← Shape.ReducesTo.drop_apply_val_of_eq reducesTo_S200000x1_S200000_d1 i 0 0, hd]
  have hi1 : (i 1).val = 0 := by have h := (i 1).isLt; change (i 1).val < 1 at h; omega
  obtain rfl : i = ix2 e 0 := by
    rw [eq_ix2 i]
    exact congrArg₂ ix2 (Fin.ext hi0) (Fin.ext hi1)
  show IntOp.andi (IntOp.cmpi .sge (col (ix2 e 0)) 0#32) (IntOp.cmpi .sle (col (ix2 e 0)) 199999#32) = 1#1
  have z0 : (0#32 : BitVec 32).toInt = 0 := by decide
  have z1 : (199999#32 : BitVec 32).toInt = 199999 := by decide
  rw [IntOp.andi_eq_one, IntOp.cmpi_sge, IntOp.cmpi_sle, z0, z1]
  exact ⟨h0, h1⟩

theorem taken_apply (A0 : FVec Ideal S200000x384 .f32) (col : IVec S200000x1 32) (e : Fin 200000) (k : Fin 384)
    (h : (col (ix2 e 0)).toNat < 200000) (hr : inRange col (ix1 e) = 1#1) :
    taken A0 col (ix2 e k) = A0 (ix2 ⟨(col (ix2 e 0)).toNat, h⟩ k) := by
  have hm : broadcastInDim S200000x384 ![0] bcast_S200000_S200000x384_0 (inRange col) (ix2 e k) = 1#1 := by
    refine (broadcastInDim_apply _ _ _ (ix2 e k) (ix1 e) (fun a => ?_)).trans hr
    match a with
    | ⟨0, _⟩ => exact (if_neg (show ¬(200000 : ℕ) = 1 by decide)).symm
  unfold taken
  rw [select_apply, hm, select_one]
  exact Cert.LibScatterGather2.gather_apply _ rfl rfl rfl rfl rfl A0 col e k (by norm_num) h

/-- With the word in `[-200000, 200000)` the range mask passes and the take picks the row `rowOf` names. -/
theorem routed_apply (A0 : FVec Ideal S200000x384 .f32) (A9 A10 A11 A12 : IVec S50000 32) (s : Fin 4) (j : Fin 50000)
    (k : Fin 384)
    (h : -200000 ≤ (Cert.Spec.idxOf A9 A10 A11 A12 s j).toInt ∧ (Cert.Spec.idxOf A9 A10 A11 A12 s j).toInt < 200000) :
    routed A0 A9 A10 A11 A12 (ix3 s j k) = Cert.Spec.gathered A0 A9 A10 A11 A12 s j k := by
  obtain ⟨hlt, hint⟩ := wrapWord_bounds _ h
  have hw : column (wrapped (words A9 A10 A11 A12)) (ix2 (pos s j) 0)
      = Cert.Spec.wrapWord (Cert.Spec.idxOf A9 A10 A11 A12 s j) := by
    rw [column_apply, wrapped_apply, words_apply]
  have hpos : (S200000x384.rowMajor (ix2 (pos s j) k)).val = (S4x50000x384.rowMajor (ix3 s j k)).val := by
    rw [Shape.rowMajor_val_two, Shape.rowMajor_val_three]
    show (50000 * s.val + j.val) * 384 + k.val = (s.val * 50000 + j.val) * 384 + k.val
    omega
  unfold routed
  rw [shapeCast_apply _ _ (ix3 s j k) (ix2 (pos s j) k) hpos, truncf_apply,
    taken_apply A0 _ (pos s j) k (by rw [hw]; exact hlt)
      (inRange_apply _ (pos s j) (by rw [hw, hint]; omega) (by rw [hw, hint]; omega))]
  unfold Cert.Spec.gathered Cert.Spec.rowOf
  refine congrArg A0 (congrArg (fun r => ix2 r k) (Fin.ext ?_))
  show (column (wrapped (words A9 A10 A11 A12)) (ix2 (pos s j) 0)).toNat = _ % 200000
  rw [hw, Nat.mod_eq_of_lt hlt]

end Prefix

variable (m : (ℓ : Loc nD τ sig) → Buf (Elt Ideal) ℓ)

theorem V_main_v3 (c : Dev nD)
    (hidx : ∀ (s : Fin 4) (j : Fin 50000),
      -200000 ≤ (Cert.Spec.idxOf (m ((c : Thread nD τ).loc main_arg9)) (m ((c : Thread nD τ).loc main_arg10))
          (m ((c : Thread nD τ).loc main_arg11)) (m ((c : Thread nD τ).loc main_arg12)) s j).toInt
        ∧ (Cert.Spec.idxOf (m ((c : Thread nD τ).loc main_arg9)) (m ((c : Thread nD τ).loc main_arg10))
          (m ((c : Thread nD τ).loc main_arg11)) (m ((c : Thread nD τ).loc main_arg12)) s j).toInt < 200000)
    (s : Fin 4) (j : Fin 50000) (k : Fin 384) :
    V m c main_v3 (ix3 s j k)
      = Cert.Spec.gathered (m ((c : Thread nD τ).loc main_arg0)) (m ((c : Thread nD τ).loc main_arg9))
          (m ((c : Thread nD τ).loc main_arg10)) (m ((c : Thread nD τ).loc main_arg11))
          (m ((c : Thread nD τ).loc main_arg12)) s j k :=
  (congrFun (Prefix.V_main_v3_term m c) (ix3 s j k)).trans (Prefix.routed_apply _ _ _ _ _ s j k (hidx s j))

theorem Prefix.V_main_v4_term (c : Dev nD) :
    @Eq (S4x384x160.Idx → EReal) (V m c main_v4)
      (truncf (F := Ideal) (s := S4x384x160) (φ := .f32) .bf16 (m ((c : Thread nD τ).loc main_arg1)) bitsLt_bf16_f32) := by
  dsimp only [V, V0]
  simp only [hostOps0, hostOps0_1, hostOps0_2, List.flatten_cons, List.flatten_nil, List.append_nil, List.cons_append,
    List.nil_append]
  after_results
  all_goals rfl

theorem V_main_v4 (c : Dev nD) (s : Fin 4) (k : Fin 384) (j : Fin 160) :
    V m c main_v4 (ix3 s k j) = m ((c : Thread nD τ).loc main_arg1) (ix3 s k j) :=
  congrFun (Prefix.V_main_v4_term m c) (ix3 s k j)

theorem Prefix.V_main_v5_term (c : Dev nD) :
    @Eq (S4x160x128.Idx → EReal) (V m c main_v5)
      (truncf (F := Ideal) (s := S4x160x128) (φ := .f32) .bf16 (m ((c : Thread nD τ).loc main_arg3)) bitsLt_bf16_f32) := by
  dsimp only [V, V0]
  simp only [hostOps0, hostOps0_1, hostOps0_2, List.flatten_cons, List.flatten_nil, List.append_nil, List.cons_append,
    List.nil_append]
  after_results
  all_goals rfl

theorem V_main_v5 (c : Dev nD) (s : Fin 4) (k : Fin 160) (j : Fin 128) :
    V m c main_v5 (ix3 s k j) = m ((c : Thread nD τ).loc main_arg3) (ix3 s k j) :=
  congrFun (Prefix.V_main_v5_term m c) (ix3 s k j)

theorem Prefix.V_main_v6_term (c : Dev nD) :
    @Eq (S4x128x96.Idx → EReal) (V m c main_v6)
      (truncf (F := Ideal) (s := S4x128x96) (φ := .f32) .bf16 (m ((c : Thread nD τ).loc main_arg5)) bitsLt_bf16_f32) := by
  dsimp only [V, V0]
  simp only [hostOps0, hostOps0_1, hostOps0_2, List.flatten_cons, List.flatten_nil, List.append_nil, List.cons_append,
    List.nil_append]
  after_results
  all_goals rfl

theorem V_main_v6 (c : Dev nD) (s : Fin 4) (k : Fin 128) (j : Fin 96) :
    V m c main_v6 (ix3 s k j) = m ((c : Thread nD τ).loc main_arg5) (ix3 s k j) :=
  congrFun (Prefix.V_main_v6_term m c) (ix3 s k j)

theorem Prefix.V_main_v7_term (c : Dev nD) :
    @Eq (S4x96x1.Idx → EReal) (V m c main_v7)
      (truncf (F := Ideal) (s := S4x96x1) (φ := .f32) .bf16 (m ((c : Thread nD τ).loc main_arg7)) bitsLt_bf16_f32) := by
  dsimp only [V, V0]
  simp only [hostOps0, hostOps0_1, hostOps0_2, List.flatten_cons, List.flatten_nil, List.append_nil, List.cons_append,
    List.nil_append]
  after_results
  all_goals rfl

theorem V_main_v7 (c : Dev nD) (s : Fin 4) (k : Fin 96) :
    V m c main_v7 (ix3 s k 0) = m ((c : Thread nD τ).loc main_arg7) (ix3 s k 0) :=
  congrFun (Prefix.V_main_v7_term m c) (ix3 s k 0)

theorem Prefix.V_main_v8_term (c : Dev nD) :
    @Eq (S4x1x160.Idx → EReal) (V m c main_v8)
      (shapeCast (s := S4x160) (α := EReal) S4x1x160 (m ((c : Thread nD τ).loc main_arg2)) shapeCasts_S4x160_S4x1x160) := by
  dsimp only [V, V0]
  simp only [hostOps0, hostOps0_1, hostOps0_2, List.flatten_cons, List.flatten_nil, List.append_nil, List.cons_append,
    List.nil_append]
  after_results
  all_goals rfl

theorem V_main_v8 (c : Dev nD) (s : Fin 4) (j : Fin 160) :
    V m c main_v8 (ix3 s 0 j) = m ((c : Thread nD τ).loc main_arg2) (ix2 s j) := by
  refine (congrFun (Prefix.V_main_v8_term m c) (ix3 s 0 j)).trans ?_
  refine shapeCast_apply _ _ (ix3 s 0 j) (ix2 s j) ?_
  rw [Shape.rowMajor_val_two, Shape.rowMajor_val_three]
  show s.val * 160 + j.val = (s.val * 1 + 0) * 160 + j.val
  omega

theorem Prefix.V_main_v9_term (c : Dev nD) :
    @Eq (S4x1x128.Idx → EReal) (V m c main_v9)
      (shapeCast (s := S4x128) (α := EReal) S4x1x128 (m ((c : Thread nD τ).loc main_arg4)) shapeCasts_S4x128_S4x1x128) := by
  dsimp only [V, V0]
  simp only [hostOps0, hostOps0_1, hostOps0_2, List.flatten_cons, List.flatten_nil, List.append_nil, List.cons_append,
    List.nil_append]
  after_results
  all_goals rfl

theorem V_main_v9 (c : Dev nD) (s : Fin 4) (j : Fin 128) :
    V m c main_v9 (ix3 s 0 j) = m ((c : Thread nD τ).loc main_arg4) (ix2 s j) := by
  refine (congrFun (Prefix.V_main_v9_term m c) (ix3 s 0 j)).trans ?_
  refine shapeCast_apply _ _ (ix3 s 0 j) (ix2 s j) ?_
  rw [Shape.rowMajor_val_two, Shape.rowMajor_val_three]
  show s.val * 128 + j.val = (s.val * 1 + 0) * 128 + j.val
  omega

theorem Prefix.V_main_v10_term (c : Dev nD) :
    @Eq (S4x1x96.Idx → EReal) (V m c main_v10)
      (shapeCast (s := S4x96) (α := EReal) S4x1x96 (m ((c : Thread nD τ).loc main_arg6)) shapeCasts_S4x96_S4x1x96) := by
  dsimp only [V, V0]
  simp only [hostOps0, hostOps0_1, hostOps0_2, List.flatten_cons, List.flatten_nil, List.append_nil, List.cons_append,
    List.nil_append]
  after_results
  all_goals rfl

theorem V_main_v10 (c : Dev nD) (s : Fin 4) (j : Fin 96) :
    V m c main_v10 (ix3 s 0 j) = m ((c : Thread nD τ).loc main_arg6) (ix2 s j) := by
  refine (congrFun (Prefix.V_main_v10_term m c) (ix3 s 0 j)).trans ?_
  refine shapeCast_apply _ _ (ix3 s 0 j) (ix2 s j) ?_
  rw [Shape.rowMajor_val_two, Shape.rowMajor_val_three]
  show s.val * 96 + j.val = (s.val * 1 + 0) * 96 + j.val
  omega

theorem Prefix.V_main_v11_term (c : Dev nD) :
    @Eq (S4x1x1.Idx → EReal) (V m c main_v11)
      (shapeCast (s := S4x1) (α := EReal) S4x1x1 (m ((c : Thread nD τ).loc main_arg8)) shapeCasts_S4x1_S4x1x1) := by
  dsimp only [V, V0]
  simp only [hostOps0, hostOps0_1, hostOps0_2, List.flatten_cons, List.flatten_nil, List.append_nil, List.cons_append,
    List.nil_append]
  after_results
  all_goals rfl

theorem V_main_v11 (c : Dev nD) (s : Fin 4) :
    V m c main_v11 (ix3 s 0 0) = m ((c : Thread nD τ).loc main_arg8) (ix2 s 0) := by
  refine (congrFun (Prefix.V_main_v11_term m c) (ix3 s 0 0)).trans ?_
  refine shapeCast_apply _ _ (ix3 s 0 0) (ix2 s 0) ?_
  rw [Shape.rowMajor_val_two, Shape.rowMajor_val_three]
  show s.val * 1 + 0 = (s.val * 1 + 0) * 1 + 0
  omega

end Cert.KernelIdeal.Hand

end
-- ==== Proof.KI.ValueTail.lean ====
import proofs.«428131_j48885317763465_3_alg».proof.Proof.KI.Around
import Idealize.ShloMosaic.Lib.Pipeline.FrameSuffix
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.StableHlo
open Idealize.SL Idealize.SL.Sem
open scoped BigOperators

abbrev resArr (dats : (p : Fin 1) → (c : Dev nD) → Pipeline.Dat τ (Elt Ideal) Unit ℕ (UR sig nD τ) ℕ (cfgs p) c)
    (c : Dev nD) : Vec Ideal S4x8x128 .f32 :=
  (dats 0 c).arrAt 9 cfg0.N

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

set_option maxHeartbeats 4000000 in

/-- The returned number is `0` plus the sum over the four species of entry `(s, 0, 0)`. -/
theorem tail_value (m : (ℓ : Loc nD τ sig) → Buf (Elt Ideal) ℓ)
    (dats : (p : Fin 1) → (c : Dev nD) → Pipeline.Dat τ (Elt Ideal) Unit ℕ (UR sig nD τ) ℕ (cfgs p) c) (c : Dev nD) :
    Pipeline.afterTail₀ cfgs dats 0 (V0 m) [hostOps1] c main_v16
      = fun _ => (0 : EReal) + ∑ s : Fin 4, resArr dats c (ix3 s (0 : Fin 8) (0 : Fin 128)) := by
  unfold Pipeline.afterTail₀
  show StableHlo.after hostOps1 _ (Proc.devRef .tc main_v16) = _
  after_results

  have hW : Pipeline.withArrays (cfgs 0).spec c (V0 m c) (fun w => (dats 0 c).arrAt w (cfgs 0).N) (Proc.devRef .tc main_v12)
      = resArr dats c := Pipeline.withArrays_arr spec0 launch0.win.arr_inj c _ _ 9
  rw [hW]
  funext i
  dsimp only

  refine (shapeCast_apply (s := S_) (t := S1) _ shapeCasts_S_S1 i ix0 ?_).trans ?_
  · rw [Shape.rowMajor_val_one]
    exact (Fin.val_eq_zero _).trans (Fin.val_eq_zero _).symm

  rw [hostReduceAdd_apply, Ideal.hostReduceAdd_total reducesTo_S4_S_d0 (fun b => b.elim0)]
  refine congrArg₂ (· + ·) ?_ ?_
  ·
    rw [constant_apply, Ideal.ofBits_zero_f32]
  · rw [sum_idx1]
    refine Finset.sum_congr rfl fun s _ => ?_

    refine (shapeCast_apply (s := S4x1x1) (t := S4) _ shapeCasts_S4x1x1_S4 (ix1 s) (ix3 s (0 : Fin 1) (0 : Fin 1)) ?_).trans ?_
    · rw [Shape.rowMajor_val_three, Shape.rowMajor_val_one]
      show (s.val * 1 + 0) * 1 + 0 = s.val
      omega

    refine extractStridedSlice_apply ![0, 0, 0] (resArr dats c) slices_S4x8x128_S4x1x1_0_0_0
      (ix3 s (0 : Fin 1) (0 : Fin 1)) (ix3 s (0 : Fin 8) (0 : Fin 128)) ?_
    intro a
    match a with
    | ⟨0, _⟩ => exact (Nat.zero_add _).symm
    | ⟨1, _⟩ => rfl
    | ⟨2, _⟩ => rfl

end Cert.KernelIdeal.Hand

end
-- ==== Proof.KI.Value.lean ====
import proofs.«428131_j48885317763465_3_alg».proof.Proof.KI.ValueSum
import proofs.«428131_j48885317763465_3_alg».proof.Proof.KI.Prefix
import proofs.«428131_j48885317763465_3_alg».proof.Proof.KI.ValueTail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open scoped BigOperators

variable (m : (ℓ : Loc nD τ sig) → Buf (Elt Ideal) ℓ) (ρ : Dev nD → PrngReg)

theorem staged_of_range (c : Dev nD)
    (hidx : ∀ (s : Fin 4) (j : Fin 50000),
      -200000 ≤ (Cert.Spec.idxOf (m ((c.tc : Thread nD τ).loc main_arg9)) (m ((c.tc : Thread nD τ).loc main_arg10)) (m ((c.tc : Thread nD τ).loc main_arg11)) (m ((c.tc : Thread nD τ).loc main_arg12)) s j).toInt
        ∧ (Cert.Spec.idxOf (m ((c.tc : Thread nD τ).loc main_arg9)) (m ((c.tc : Thread nD τ).loc main_arg10)) (m ((c.tc : Thread nD τ).loc main_arg11)) (m ((c.tc : Thread nD τ).loc main_arg12)) s j).toInt < 200000) :
    Staged m c where
  feat s j k := V_main_v3 m c hidx s j k
  w1 s k j := V_main_v4 m c s k j
  b1 s j := V_main_v8 m c s j
  w2 s k j := V_main_v5 m c s k j
  b2 s j := V_main_v9 m c s j
  w3 s k j := V_main_v6 m c s k j
  b3 s j := V_main_v10 m c s j
  w4 s k := V_main_v7 m c s k
  b4 s := V_main_v11 m c s

/-- The four species' entries, added up by the host lines after the region, are `totalK`. -/
theorem result_value (c : Dev nD) (hst : Staged m c) :
    Pipeline.afterTail₀ cfgs (dats m) 0 (V0 m) [hostOps1] c main_v16
      = fun _ => Cert.Spec.totalK (PP m c) (XX m c) := by
  rw [tail_value m (dats m) c]
  funext _
  rw [zero_add]
  unfold Cert.Spec.totalK
  refine Finset.sum_congr rfl fun s _ => ?_
  refine (arr_species (dats m 0 c) s).trans ?_
  refine (congrFun (after0_9 m c (pt s 4)) _).trans ?_
  exact out_species m c hst s

/-- The kernel's run ends with `totalK` of the launched arguments in its result. -/
theorem run_value
    (hidx : ∀ (c : Dev nD) (s : Fin 4) (j : Fin 50000),
      -200000 ≤ (Cert.Spec.idxOf (m ((c.tc : Thread nD τ).loc main_arg9)) (m ((c.tc : Thread nD τ).loc main_arg10)) (m ((c.tc : Thread nD τ).loc main_arg11)) (m ((c.tc : Thread nD τ).loc main_arg12)) s j).toInt
        ∧ (Cert.Spec.idxOf (m ((c.tc : Thread nD τ).loc main_arg9)) (m ((c.tc : Thread nD τ).loc main_arg10)) (m ((c.tc : Thread nD τ).loc main_arg11)) (m ((c.tc : Thread nD τ).loc main_arg12)) s j).toInt < 200000) :
    θ_run (defs (F := Ideal)) (onTc (τ := τ) (main (F := Ideal))) ⟨m, fun _ => 0, ρ⟩ (fun r => ∀ c : Dev nD,
      r.2.mem ((c.tc : Thread nD τ).loc main_v16)
          = (fun _ => Cert.Spec.totalK
            (Cert.Spec.paramsOf (m ((c.tc : Thread nD τ).loc main_arg1)) (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7)) (m ((c.tc : Thread nD τ).loc main_arg8)))
            (Cert.Spec.gathered (m ((c.tc : Thread nD τ).loc main_arg0)) (m ((c.tc : Thread nD τ).loc main_arg9)) (m ((c.tc : Thread nD τ).loc main_arg10)) (m ((c.tc : Thread nD τ).loc main_arg11)) (m ((c.tc : Thread nD τ).loc main_arg12))))
      ∧ ∀ b ∈ args, r.2.mem ((c.tc : Thread nD τ).loc b) = m ((c.tc : Thread nD τ).loc b)) :=
  (θ_run defs _ _).mono (fun r h c =>
    ⟨((h c).2 main_v16 (Pipeline.mem_restRefs_of main_v16 (by decide) (by decide))).trans
        (result_value m c (staged_of_range m c (hidx c))), args_kept m h c⟩) (run_main m ρ)

end Cert.KernelIdeal.Hand

end
-- ==== Proof.RefRead.lean ====
import proofs.«428131_j48885317763465_3_alg».proof.Proof.RefRes
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_v0 : (⟨S200000, .f32⟩ : BufTy).Contents (Elt F) :=
  broadcastInDim S200000 ![] bcast_S_S200000 (val_main_cst (F := F))
abbrev idx_main_v0 (i : S200000.Idx) : S_.Idx := fun a => a.elim0
theorem val_main_v0_apply (i : S200000.Idx) :
    val_main_v0 (F := F) i = val_main_cst (F := F) (idx_main_v0 i) := by
  unfold val_main_v0
  generalize val_main_cst (F := F) = y
  exact broadcastInDim_apply _ bcast_S_S200000 y i (idx_main_v0 i) (fun a => a.elim0)

def val_main_c : (⟨S_, .i32⟩ : BufTy).Contents (Elt F) :=
  constantI S_ 32 0#32
def val_main_v1 : (⟨S50000, .i32⟩ : BufTy).Contents (Elt F) :=
  broadcastInDim S50000 ![] bcast_S_S50000 (val_main_c (F := F))
def val_main_v2 (x9 : (⟨S50000, .i32⟩ : BufTy).Contents (Elt F)) : (⟨S50000, .i1⟩ : BufTy).Contents (Elt F) :=
  cmpi .slt (x9) (val_main_v1 (F := F))
def val_main_c_0 : (⟨S_, .i32⟩ : BufTy).Contents (Elt F) :=
  constantI S_ 32 200000#32
def val_main_v3 : (⟨S50000, .i32⟩ : BufTy).Contents (Elt F) :=
  broadcastInDim S50000 ![] bcast_S_S50000 (val_main_c_0 (F := F))
def val_main_v4 (x9 : (⟨S50000, .i32⟩ : BufTy).Contents (Elt F)) : (⟨S50000, .i32⟩ : BufTy).Contents (Elt F) :=
  addi (x9) (val_main_v3 (F := F))
def val_main_v5 (x9 : (⟨S50000, .i32⟩ : BufTy).Contents (Elt F)) : (⟨S50000, .i32⟩ : BufTy).Contents (Elt F) :=
  select (val_main_v2 (F := F) x9) (val_main_v4 (F := F) x9) (x9)
def val_main_v6 (x9 : (⟨S50000, .i32⟩ : BufTy).Contents (Elt F)) : (⟨S50000x1, .i32⟩ : BufTy).Contents (Elt F) :=
  broadcastInDim S50000x1 ![0] bcast_S50000_S50000x1_0 (val_main_v5 (F := F) x9)
abbrev idx_main_v6 (i : S50000x1.Idx) : S50000.Idx := fun a => match a with
  | ⟨0, _⟩ => ⟨(i 0).val, (i 0).isLt⟩
theorem val_main_v6_apply (x9 : (⟨S50000, .i32⟩ : BufTy).Contents (Elt F)) (i : S50000x1.Idx) :
    val_main_v6 (F := F) x9 i = val_main_v5 (F := F) x9 (idx_main_v6 i) := by
  unfold val_main_v6
  generalize val_main_v5 (F := F) x9 = y
  exact broadcastInDim_apply _ bcast_S50000_S50000x1_0 y i (idx_main_v6 i) (fun a => match a with
    | ⟨0, _⟩ => by show (i 0).val = if (50000 : Nat) = 1 then 0 else (i 0).val; rw [if_neg (by decide)])

def val_main_v7 (x0 : (⟨S200000x384, .f32⟩ : BufTy).Contents (Elt F)) (x9 : (⟨S50000, .i32⟩ : BufTy).Contents (Elt F)) : (⟨S50000x384, .f32⟩ : BufTy).Contents (Elt F) :=
  Host.gather gather_S200000x384_S50000x1_S50000x384_1_0_n_n_0_1_1384 (x0) (val_main_v6 (F := F) x9)

def val_main_v8 (x1 : (⟨S4x384x160, .f32⟩ : BufTy).Contents (Elt F)) : (⟨S1x384x160, .f32⟩ : BufTy).Contents (Elt F) :=
  extractStridedSlice S1x384x160 ![0, 0, 0] (x1) slices_S4x384x160_S1x384x160_0_0_0
abbrev idx_main_v8 (i : S1x384x160.Idx) : S4x384x160.Idx := fun a => match a with
  | ⟨0, _⟩ => ⟨(i 0).val, by have h0 : (i 0).val < 1 := (i 0).isLt; show (i 0).val < 4; omega⟩
  | ⟨1, _⟩ => ⟨(i 1).val, (i 1).isLt⟩
  | ⟨2, _⟩ => ⟨(i 2).val, (i 2).isLt⟩
theorem val_main_v8_apply (x1 : (⟨S4x384x160, .f32⟩ : BufTy).Contents (Elt F)) (i : S1x384x160.Idx) :
    val_main_v8 (F := F) x1 i = x1 (idx_main_v8 i) := by
  unfold val_main_v8
  exact extractStridedSlice_apply ![0, 0, 0] x1 slices_S4x384x160_S1x384x160_0_0_0 i (idx_main_v8 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v9 (x1 : (⟨S4x384x160, .f32⟩ : BufTy).Contents (Elt F)) : (⟨S384x160, .f32⟩ : BufTy).Contents (Elt F) :=
  shapeCast _ (val_main_v8 (F := F) x1) shapeCasts_S1x384x160_S384x160
abbrev idx_main_v9 (i : S384x160.Idx) : S1x384x160.Idx := fun a => match a with
  | ⟨0, _⟩ => ⟨0, Nat.one_pos⟩
  | ⟨1, _⟩ => ⟨((i 0).val * 160 + (i 1).val) / 160 % 384, by have h0 : (i 0).val < 384 := (i 0).isLt; have h1 : (i 1).val < 160 := (i 1).isLt; show ((i 0).val * 160 + (i 1).val) / 160 % 384 < 384; omega⟩
  | ⟨2, _⟩ => ⟨((i 0).val * 160 + (i 1).val) % 160, by have h0 : (i 0).val < 384 := (i 0).isLt; have h1 : (i 1).val < 160 := (i 1).isLt; show ((i 0).val * 160 + (i 1).val) % 160 < 160; omega⟩
theorem val_main_v9_apply (x1 : (⟨S4x384x160, .f32⟩ : BufTy).Contents (Elt F)) (i : S384x160.Idx) :
    val_main_v9 (F := F) x1 i = val_main_v8 (F := F) x1 (idx_main_v9 i) := by
  unfold val_main_v9
  generalize val_main_v8 (F := F) x1 = y
  exact shapeCast_apply y shapeCasts_S1x384x160_S384x160 i (idx_main_v9 i)
    (by rewrite [Shape.rowMajor_val_three, Shape.rowMajor_val_two]; have h0 : (i 0).val < 384 := (i 0).isLt; have h1 : (i 1).val < 160 := (i 1).isLt; show (0 * 384 + ((i 0).val * 160 + (i 1).val) / 160 % 384) * 160 + ((i 0).val * 160 + (i 1).val) % 160 = (i 0).val * 160 + (i 1).val; omega)

def val_main_v10 (x2 : (⟨S4x160, .f32⟩ : BufTy).Contents (Elt F)) : (⟨S1x160, .f32⟩ : BufTy).Contents (Elt F) :=
  extractStridedSlice S1x160 ![0, 0] (x2) slices_S4x160_S1x160_0_0
abbrev idx_main_v10 (i : S1x160.Idx) : S4x160.Idx := fun a => match a with
  | ⟨0, _⟩ => ⟨(i 0).val, by have h0 : (i 0).val < 1 := (i 0).isLt; show (i 0).val < 4; omega⟩
  | ⟨1, _⟩ => ⟨(i 1).val, (i 1).isLt⟩
theorem val_main_v10_apply (x2 : (⟨S4x160, .f32⟩ : BufTy).Contents (Elt F)) (i : S1x160.Idx) :
    val_main_v10 (F := F) x2 i = x2 (idx_main_v10 i) := by
  unfold val_main_v10
  exact extractStridedSlice_apply ![0, 0] x2 slices_S4x160_S1x160_0_0 i (idx_main_v10 i) (fun a => match a with
    | ⟨0, _⟩ => by show (i 0).val = 0 + (i 0).val; omega
    | ⟨1, _⟩ => by show (i 1).val = 0 + (i 1).val; omega)

def val_main_v11 (x2 : (⟨S4x160, .f32⟩ : BufTy).Contents (Elt F)) : (⟨S160, .f32⟩ : BufTy).Contents (Elt F) :=
  shapeCast _ (val_main_v10 (F := F) x2) shapeCasts_S1x160_S160
abbrev idx_main_v11 (i : S160.Idx) : S1x160.Idx := fun a => match a with
  | ⟨0, _⟩ => ⟨0, Nat.one_pos⟩
  | ⟨1, _⟩ => ⟨((i 0).val) % 160, by have h0 : (i 0).val < 160 := (i 0).isLt; show ((i 0).val) % 160 < 160; omega⟩
theorem val_main_v11_apply (x2 : (⟨S4x160, .f32⟩ : BufTy).Contents (Elt F)) (i : S160.Idx) :
    val_main_v11 (F := F) x2 i = val_main_v10 (F := F) x2 (idx_main_v11 i) := by
  unfold val_main_v11
  generalize val_main_v10 (F := F) x2 = y
  exact shapeCast_apply y shapeCasts_S1x160_S160 i (idx_main_v11 i)
    (by rewrite [Shape.rowMajor_val_two, Shape.rowMajor_val_one]; have h0 : (i 0).val < 160 := (i 0).isLt; show 0 * 160 + ((i 0).val) % 160 = (i 0).val; omega)

def val_main_v12 (x3 : (⟨S4x160x128, .f32⟩ : BufTy).Contents (Elt F)) : (⟨S1x160x128, .f32⟩ : BufTy).Contents (Elt F) :=
  extractStridedSlice S1x160x128 ![0, 0, 0] (x3) slices_S4x160x128_S1x160x128_0_0_0
abbrev idx_main_v12 (i : S1x160x128.Idx) : S4x160x128.Idx := fun a => match a with
  | ⟨0, _⟩ => ⟨(i 0).val, by have h0 : (i 0).val < 1 := (i 0).isLt; show (i 0).val < 4; omega⟩
  | ⟨1, _⟩ => ⟨(i 1).val, (i 1).isLt⟩
  | ⟨2, _⟩ => ⟨(i 2).val, (i 2).isLt⟩
theorem val_main_v12_apply (x3 : (⟨S4x160x128, .f32⟩ : BufTy).Contents (Elt F)) (i : S1x160x128.Idx) :
    val_main_v12 (F := F) x3 i = x3 (idx_main_v12 i) := by
  unfold val_main_v12
  exact extractStridedSlice_apply ![0, 0, 0] x3 slices_S4x160x128_S1x160x128_0_0_0 i (idx_main_v12 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v13 (x3 : (⟨S4x160x128, .f32⟩ : BufTy).Contents (Elt F)) : (⟨S160x128, .f32⟩ : BufTy).Contents (Elt F) :=
  shapeCast _ (val_main_v12 (F := F) x3) shapeCasts_S1x160x128_S160x128
abbrev idx_main_v13 (i : S160x128.Idx) : S1x160x128.Idx := fun a => match a with
  | ⟨0, _⟩ => ⟨0, Nat.one_pos⟩
  | ⟨1, _⟩ => ⟨((i 0).val * 128 + (i 1).val) / 128 % 160, by have h0 : (i 0).val < 160 := (i 0).isLt; have h1 : (i 1).val < 128 := (i 1).isLt; show ((i 0).val * 128 + (i 1).val) / 128 % 160 < 160; omega⟩
  | ⟨2, _⟩ => ⟨((i 0).val * 128 + (i 1).val) % 128, by have h0 : (i 0).val < 160 := (i 0).isLt; have h1 : (i 1).val < 128 := (i 1).isLt; show ((i 0).val * 128 + (i 1).val) % 128 < 128; omega⟩
theorem val_main_v13_apply (x3 : (⟨S4x160x128, .f32⟩ : BufTy).Contents (Elt F)) (i : S160x128.Idx) :
    val_main_v13 (F := F) x3 i = val_main_v12 (F := F) x3 (idx_main_v13 i) := by
  unfold val_main_v13
  generalize val_main_v12 (F := F) x3 = y
  exact shapeCast_apply y shapeCasts_S1x160x128_S160x128 i (idx_main_v13 i)
    (by rewrite [Shape.rowMajor_val_three, Shape.rowMajor_val_two]; have h0 : (i 0).val < 160 := (i 0).isLt; have h1 : (i 1).val < 128 := (i 1).isLt; show (0 * 160 + ((i 0).val * 128 + (i 1).val) / 128 % 160) * 128 + ((i 0).val * 128 + (i 1).val) % 128 = (i 0).val * 128 + (i 1).val; omega)

def val_main_v14 (x4 : (⟨S4x128, .f32⟩ : BufTy).Contents (Elt F)) : (⟨S1x128, .f32⟩ : BufTy).Contents (Elt F) :=
  extractStridedSlice S1x128 ![0, 0] (x4) slices_S4x128_S1x128_0_0
abbrev idx_main_v14 (i : S1x128.Idx) : S4x128.Idx := fun a => match a with
  | ⟨0, _⟩ => ⟨(i 0).val, by have h0 : (i 0).val < 1 := (i 0).isLt; show (i 0).val < 4; omega⟩
  | ⟨1, _⟩ => ⟨(i 1).val, (i 1).isLt⟩
theorem val_main_v14_apply (x4 : (⟨S4x128, .f32⟩ : BufTy).Contents (Elt F)) (i : S1x128.Idx) :
    val_main_v14 (F := F) x4 i = x4 (idx_main_v14 i) := by
  unfold val_main_v14
  exact extractStridedSlice_apply ![0, 0] x4 slices_S4x128_S1x128_0_0 i (idx_main_v14 i) (fun a => match a with
    | ⟨0, _⟩ => by show (i 0).val = 0 + (i 0).val; omega
    | ⟨1, _⟩ => by show (i 1).val = 0 + (i 1).val; omega)

def val_main_v15 (x4 : (⟨S4x128, .f32⟩ : BufTy).Contents (Elt F)) : (⟨S128, .f32⟩ : BufTy).Contents (Elt F) :=
  shapeCast _ (val_main_v14 (F := F) x4) shapeCasts_S1x128_S128
abbrev idx_main_v15 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v15_apply (x4 : (⟨S4x128, .f32⟩ : BufTy).Contents (Elt F)) (i : S128.Idx) :
    val_main_v15 (F := F) x4 i = val_main_v14 (F := F) x4 (idx_main_v15 i) := by
  unfold val_main_v15
  generalize val_main_v14 (F := F) x4 = y
  exact shapeCast_apply y shapeCasts_S1x128_S128 i (idx_main_v15 i)
    (by rewrite [Shape.rowMajor_val_two, Shape.rowMajor_val_one]; have h0 : (i 0).val < 128 := (i 0).isLt; show 0 * 128 + ((i 0).val) % 128 = (i 0).val; omega)

def val_main_v16 (x5 : (⟨S4x128x96, .f32⟩ : BufTy).Contents (Elt F)) : (⟨S1x128x96, .f32⟩ : BufTy).Contents (Elt F) :=
  extractStridedSlice S1x128x96 ![0, 0, 0] (x5) slices_S4x128x96_S1x128x96_0_0_0
abbrev idx_main_v16 (i : S1x128x96.Idx) : S4x128x96.Idx := fun a => match a with
  | ⟨0, _⟩ => ⟨(i 0).val, by have h0 : (i 0).val < 1 := (i 0).isLt; show (i 0).val < 4; omega⟩
  | ⟨1, _⟩ => ⟨(i 1).val, (i 1).isLt⟩
  | ⟨2, _⟩ => ⟨(i 2).val, (i 2).isLt⟩
theorem val_main_v16_apply (x5 : (⟨S4x128x96, .f32⟩ : BufTy).Contents (Elt F)) (i : S1x128x96.Idx) :
    val_main_v16 (F := F) x5 i = x5 (idx_main_v16 i) := by
  unfold val_main_v16
  exact extractStridedSlice_apply ![0, 0, 0] x5 slices_S4x128x96_S1x128x96_0_0_0 i (idx_main_v16 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v17 (x5 : (⟨S4x128x96, .f32⟩ : BufTy).Contents (Elt F)) : (⟨S128x96, .f32⟩ : BufTy).Contents (Elt F) :=
  shapeCast _ (val_main_v16 (F := F) x5) shapeCasts_S1x128x96_S128x96
abbrev idx_main_v17 (i : S128x96.Idx) : S1x128x96.Idx := fun a => match a with
  | ⟨0, _⟩ => ⟨0, Nat.one_pos⟩
  | ⟨1, _⟩ => ⟨((i 0).val * 96 + (i 1).val) / 96 % 128, by have h0 : (i 0).val < 128 := (i 0).isLt; have h1 : (i 1).val < 96 := (i 1).isLt; show ((i 0).val * 96 + (i 1).val) / 96 % 128 < 128; omega⟩
  | ⟨2, _⟩ => ⟨((i 0).val * 96 + (i 1).val) % 96, by have h0 : (i 0).val < 128 := (i 0).isLt; have h1 : (i 1).val < 96 := (i 1).isLt; show ((i 0).val * 96 + (i 1).val) % 96 < 96; omega⟩
theorem val_main_v17_apply (x5 : (⟨S4x128x96, .f32⟩ : BufTy).Contents (Elt F)) (i : S128x96.Idx) :
    val_main_v17 (F := F) x5 i = val_main_v16 (F := F) x5 (idx_main_v17 i) := by
  unfold val_main_v17
  generalize val_main_v16 (F := F) x5 = y
  exact shapeCast_apply y shapeCasts_S1x128x96_S128x96 i (idx_main_v17 i)
    (by rewrite [Shape.rowMajor_val_three, Shape.rowMajor_val_two]; have h0 : (i 0).val < 128 := (i 0).isLt; have h1 : (i 1).val < 96 := (i 1).isLt; show (0 * 128 + ((i 0).val * 96 + (i 1).val) / 96 % 128) * 96 + ((i 0).val * 96 + (i 1).val) % 96 = (i 0).val * 96 + (i 1).val; omega)

def val_main_v18 (x6 : (⟨S4x96, .f32⟩ : BufTy).Contents (Elt F)) : (⟨S1x96, .f32⟩ : BufTy).Contents (Elt F) :=
  extractStridedSlice S1x96 ![0, 0] (x6) slices_S4x96_S1x96_0_0
abbrev idx_main_v18 (i : S1x96.Idx) : S4x96.Idx := fun a => match a with
  | ⟨0, _⟩ => ⟨(i 0).val, by have h0 : (i 0).val < 1 := (i 0).isLt; show (i 0).val < 4; omega⟩
  | ⟨1, _⟩ => ⟨(i 1).val, (i 1).isLt⟩
theorem val_main_v18_apply (x6 : (⟨S4x96, .f32⟩ : BufTy).Contents (Elt F)) (i : S1x96.Idx) :
    val_main_v18 (F := F) x6 i = x6 (idx_main_v18 i) := by
  unfold val_main_v18
  exact extractStridedSlice_apply ![0, 0] x6 slices_S4x96_S1x96_0_0 i (idx_main_v18 i) (fun a => match a with
    | ⟨0, _⟩ => by show (i 0).val = 0 + (i 0).val; omega
    | ⟨1, _⟩ => by show (i 1).val = 0 + (i 1).val; omega)

def val_main_v19 (x6 : (⟨S4x96, .f32⟩ : BufTy).Contents (Elt F)) : (⟨S96, .f32⟩ : BufTy).Contents (Elt F) :=
  shapeCast _ (val_main_v18 (F := F) x6) shapeCasts_S1x96_S96
abbrev idx_main_v19 (i : S96.Idx) : S1x96.Idx := fun a => match a with
  | ⟨0, _⟩ => ⟨0, Nat.one_pos⟩
  | ⟨1, _⟩ => ⟨((i 0).val) % 96, by have h0 : (i 0).val < 96 := (i 0).isLt; show ((i 0).val) % 96 < 96; omega⟩
theorem val_main_v19_apply (x6 : (⟨S4x96, .f32⟩ : BufTy).Contents (Elt F)) (i : S96.Idx) :
    val_main_v19 (F := F) x6 i = val_main_v18 (F := F) x6 (idx_main_v19 i) := by
  unfold val_main_v19
  generalize val_main_v18 (F := F) x6 = y
  exact shapeCast_apply y shapeCasts_S1x96_S96 i (idx_main_v19 i)
    (by rewrite [Shape.rowMajor_val_two, Shape.rowMajor_val_one]; have h0 : (i 0).val < 96 := (i 0).isLt; show 0 * 96 + ((i 0).val) % 96 = (i 0).val; omega)

def val_main_v20 (x7 : (⟨S4x96x1, .f32⟩ : BufTy).Contents (Elt F)) : (⟨S1x96x1, .f32⟩ : BufTy).Contents (Elt F) :=
  extractStridedSlice S1x96x1 ![0, 0, 0] (x7) slices_S4x96x1_S1x96x1_0_0_0
abbrev idx_main_v20 (i : S1x96x1.Idx) : S4x96x1.Idx := fun a => match a with
  | ⟨0, _⟩ => ⟨(i 0).val, by have h0 : (i 0).val < 1 := (i 0).isLt; show (i 0).val < 4; omega⟩
  | ⟨1, _⟩ => ⟨(i 1).val, (i 1).isLt⟩
  | ⟨2, _⟩ => ⟨(i 2).val, (i 2).isLt⟩
theorem val_main_v20_apply (x7 : (⟨S4x96x1, .f32⟩ : BufTy).Contents (Elt F)) (i : S1x96x1.Idx) :
    val_main_v20 (F := F) x7 i = x7 (idx_main_v20 i) := by
  unfold val_main_v20
  exact extractStridedSlice_apply ![0, 0, 0] x7 slices_S4x96x1_S1x96x1_0_0_0 i (idx_main_v20 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v21 (x7 : (⟨S4x96x1, .f32⟩ : BufTy).Contents (Elt F)) : (⟨S96x1, .f32⟩ : BufTy).Contents (Elt F) :=
  shapeCast _ (val_main_v20 (F := F) x7) shapeCasts_S1x96x1_S96x1
abbrev idx_main_v21 (i : S96x1.Idx) : S1x96x1.Idx := fun a => match a with
  | ⟨0, _⟩ => ⟨0, Nat.one_pos⟩
  | ⟨1, _⟩ => ⟨((i 0).val * 1 + (i 1).val) / 1 % 96, by have h0 : (i 0).val < 96 := (i 0).isLt; have h1 : (i 1).val < 1 := (i 1).isLt; show ((i 0).val * 1 + (i 1).val) / 1 % 96 < 96; omega⟩
  | ⟨2, _⟩ => ⟨0, Nat.one_pos⟩
theorem val_main_v21_apply (x7 : (⟨S4x96x1, .f32⟩ : BufTy).Contents (Elt F)) (i : S96x1.Idx) :
    val_main_v21 (F := F) x7 i = val_main_v20 (F := F) x7 (idx_main_v21 i) := by
  unfold val_main_v21
  generalize val_main_v20 (F := F) x7 = y
  exact shapeCast_apply y shapeCasts_S1x96x1_S96x1 i (idx_main_v21 i)
    (by rewrite [Shape.rowMajor_val_three, Shape.rowMajor_val_two]; have h0 : (i 0).val < 96 := (i 0).isLt; have h1 : (i 1).val < 1 := (i 1).isLt; show (0 * 96 + ((i 0).val * 1 + (i 1).val) / 1 % 96) * 1 + 0 = (i 0).val * 1 + (i 1).val; omega)

def val_main_v22 (x8 : (⟨S4x1, .f32⟩ : BufTy).Contents (Elt F)) : (⟨S1x1, .f32⟩ : BufTy).Contents (Elt F) :=
  extractStridedSlice S1x1 ![0, 0] (x8) slices_S4x1_S1x1_0_0
abbrev idx_main_v22 (i : S1x1.Idx) : S4x1.Idx := fun a => match a with
  | ⟨0, _⟩ => ⟨(i 0).val, by have h0 : (i 0).val < 1 := (i 0).isLt; show (i 0).val < 4; omega⟩
  | ⟨1, _⟩ => ⟨(i 1).val, (i 1).isLt⟩
theorem val_main_v22_apply (x8 : (⟨S4x1, .f32⟩ : BufTy).Contents (Elt F)) (i : S1x1.Idx) :
    val_main_v22 (F := F) x8 i = x8 (idx_main_v22 i) := by
  unfold val_main_v22
  exact extractStridedSlice_apply ![0, 0] x8 slices_S4x1_S1x1_0_0 i (idx_main_v22 i) (fun a => match a with
    | ⟨0, _⟩ => by show (i 0).val = 0 + (i 0).val; omega
    | ⟨1, _⟩ => by show (i 1).val = 0 + (i 1).val; omega)

def val_main_v23 (x8 : (⟨S4x1, .f32⟩ : BufTy).Contents (Elt F)) : (⟨S1, .f32⟩ : BufTy).Contents (Elt F) :=
  shapeCast _ (val_main_v22 (F := F) x8) shapeCasts_S1x1_S1
abbrev idx_main_v23 (i : S1.Idx) : S1x1.Idx := fun a => match a with
  | ⟨0, _⟩ => ⟨0, Nat.one_pos⟩
  | ⟨1, _⟩ => ⟨0, Nat.one_pos⟩
theorem val_main_v23_apply (x8 : (⟨S4x1, .f32⟩ : BufTy).Contents (Elt F)) (i : S1.Idx) :
    val_main_v23 (F := F) x8 i = val_main_v22 (F := F) x8 (idx_main_v23 i) := by
  unfold val_main_v23
  generalize val_main_v22 (F := F) x8 = y
  exact shapeCast_apply y shapeCasts_S1x1_S1 i (idx_main_v23 i)
    (by rewrite [Shape.rowMajor_val_two, Shape.rowMajor_val_one]; have h0 : (i 0).val < 1 := (i 0).isLt; show 0 * 1 + 0 = (i 0).val; omega)

def val_main_v24 (x0 : (⟨S200000x384, .f32⟩ : BufTy).Contents (Elt F)) (x1 : (⟨S4x384x160, .f32⟩ : BufTy).Contents (Elt F)) (x9 : (⟨S50000, .i32⟩ : BufTy).Contents (Elt F)) : (⟨S50000x160, .f32⟩ : BufTy).Contents (Elt F) :=
  Host.dotGeneral dot_S50000x384_S384x160_S50000x160_1_0_0_1_n_n none (val_main_v7 (F := F) x0 x9) (val_main_v9 (F := F) x1)
theorem lhs_main_v24_0 (i : S50000x160.Idx) (q : dot_S50000x384_S384x160_S50000x160_1_0_0_1_n_n.contr.Idx) :
    (dot_S50000x384_S384x160_S50000x160_1_0_0_1_n_n.lhsIdx i q 0).val = (i 0).val := by
  unfold DotDims.lhsIdx
  rw [dif_neg (show ¬(0 : Fin S50000x384.rank) ∈ dot_S50000x384_S384x160_S50000x160_1_0_0_1_n_n.lhsBatch by decide), dif_pos (show (0 : Fin S50000x384.rank) ∈ dot_S50000x384_S384x160_S50000x160_1_0_0_1_n_n.lhsNonContracting by decide)]
  rfl
theorem lhs_main_v24_1 (i : S50000x160.Idx) (q : dot_S50000x384_S384x160_S50000x160_1_0_0_1_n_n.contr.Idx) :
    (dot_S50000x384_S384x160_S50000x160_1_0_0_1_n_n.lhsIdx i q 1).val = (q ⟨0, by decide⟩).val :=
  dot_S50000x384_S384x160_S50000x160_1_0_0_1_n_n.lhsIdx_val_of_single rfl i q
theorem rhs_main_v24_0 (i : S50000x160.Idx) (q : dot_S50000x384_S384x160_S50000x160_1_0_0_1_n_n.contr.Idx) :
    (dot_S50000x384_S384x160_S50000x160_1_0_0_1_n_n.rhsIdx i q 0).val = (q ⟨0, by decide⟩).val :=
  dot_S50000x384_S384x160_S50000x160_1_0_0_1_n_n.rhsIdx_val_of_single rfl i q
theorem rhs_main_v24_1 (i : S50000x160.Idx) (q : dot_S50000x384_S384x160_S50000x160_1_0_0_1_n_n.contr.Idx) :
    (dot_S50000x384_S384x160_S50000x160_1_0_0_1_n_n.rhsIdx i q 1).val = (i 1).val := by
  unfold DotDims.rhsIdx
  rw [dif_neg (show ¬(1 : Fin S384x160.rank) ∈ dot_S50000x384_S384x160_S50000x160_1_0_0_1_n_n.rhsBatch by decide), dif_pos (show (1 : Fin S384x160.rank) ∈ dot_S50000x384_S384x160_S50000x160_1_0_0_1_n_n.rhsNonContracting by decide)]
  rfl
abbrev lidx_main_v24 (i : S50000x160.Idx) (k : Fin 384) : S50000x384.Idx := fun a => match a with
  | ⟨0, _⟩ => ⟨(i 0).val, (i 0).isLt⟩
  | ⟨1, _⟩ => ⟨k.val, k.isLt⟩
abbrev ridx_main_v24 (i : S50000x160.Idx) (k : Fin 384) : S384x160.Idx := fun a => match a with
  | ⟨0, _⟩ => ⟨k.val, k.isLt⟩
  | ⟨1, _⟩ => ⟨(i 1).val, (i 1).isLt⟩

theorem val_main_v24_apply (x0 : (⟨S200000x384, .f32⟩ : BufTy).Contents (Elt Ideal)) (x1 : (⟨S4x384x160, .f32⟩ : BufTy).Contents (Elt Ideal)) (x9 : (⟨S50000, .i32⟩ : BufTy).Contents (Elt Ideal)) (i : S50000x160.Idx) :
    val_main_v24 (F := Ideal) x0 x1 x9 i = ∑ k : Fin 384, (val_main_v7 (F := Ideal) x0 x9) (lidx_main_v24 i k) * (val_main_v9 (F := Ideal) x1) (ridx_main_v24 i k) := by
  unfold val_main_v24
  generalize val_main_v7 (F := Ideal) x0 x9 = y0
  generalize val_main_v9 (F := Ideal) x1 = y1
  simp only [Host.dotGeneral]
  rw [Ideal.dotGeneral_apply, ← Equiv.sum_comp (ValueIdx.contrEquiv1 dot_S50000x384_S384x160_S50000x160_1_0_0_1_n_n 384 rfl rfl).symm]
  refine Finset.sum_congr rfl fun k _ => ?_
  have hk := ValueIdx.contrEquiv1_symm_val dot_S50000x384_S384x160_S50000x160_1_0_0_1_n_n 384 rfl rfl k
  have el : dot_S50000x384_S384x160_S50000x160_1_0_0_1_n_n.lhsIdx i ((ValueIdx.contrEquiv1 dot_S50000x384_S384x160_S50000x160_1_0_0_1_n_n 384 rfl rfl).symm k) = lidx_main_v24 i k := funext fun a => Fin.ext (by
    match a with
    | ⟨0, _⟩ => exact lhs_main_v24_0 _ _
    | ⟨1, _⟩ => exact (lhs_main_v24_1 _ _).trans hk)
  have er : dot_S50000x384_S384x160_S50000x160_1_0_0_1_n_n.rhsIdx i ((ValueIdx.contrEquiv1 dot_S50000x384_S384x160_S50000x160_1_0_0_1_n_n 384 rfl rfl).symm k) = ridx_main_v24 i k := funext fun a => Fin.ext (by
    match a with
    | ⟨0, _⟩ => exact (rhs_main_v24_0 _ _).trans hk
    | ⟨1, _⟩ => exact rhs_main_v24_1 _ _)
  rw [el, er]

def val_main_v25 (x2 : (⟨S4x160, .f32⟩ : BufTy).Contents (Elt F)) : (⟨S1x160, .f32⟩ : BufTy).Contents (Elt F) :=
  broadcastInDim S1x160 ![1] bcast_S160_S1x160_1 (val_main_v11 (F := F) x2)
abbrev idx_main_v25 (i : S1x160.Idx) : S160.Idx := fun a => match a with
  | ⟨0, _⟩ => ⟨(i 1).val, (i 1).isLt⟩
theorem val_main_v25_apply (x2 : (⟨S4x160, .f32⟩ : BufTy).Contents (Elt F)) (i : S1x160.Idx) :
    val_main_v25 (F := F) x2 i = val_main_v11 (F := F) x2 (idx_main_v25 i) := by
  unfold val_main_v25
  generalize val_main_v11 (F := F) x2 = y
  exact broadcastInDim_apply _ bcast_S160_S1x160_1 y i (idx_main_v25 i) (fun a => match a with
    | ⟨0, _⟩ => by show (i 1).val = if (160 : Nat) = 1 then 0 else (i 1).val; rw [if_neg (by decide)])

def val_main_v26 (x2 : (⟨S4x160, .f32⟩ : BufTy).Contents (Elt F)) : (⟨S50000x160, .f32⟩ : BufTy).Contents (Elt F) :=
  broadcastInDim S50000x160 ![0, 1] bcast_S1x160_S50000x160_0_1 (val_main_v25 (F := F) x2)
abbrev idx_main_v26 (i : S50000x160.Idx) : S1x160.Idx := fun a => match a with
  | ⟨0, _⟩ => ⟨0, Nat.one_pos⟩
  | ⟨1, _⟩ => ⟨(i 1).val, (i 1).isLt⟩
theorem val_main_v26_apply (x2 : (⟨S4x160, .f32⟩ : BufTy).Contents (Elt F)) (i : S50000x160.Idx) :
    val_main_v26 (F := F) x2 i = val_main_v25 (F := F) x2 (idx_main_v26 i) := by
  unfold val_main_v26
  generalize val_main_v25 (F := F) x2 = y
  exact broadcastInDim_apply _ bcast_S1x160_S50000x160_0_1 y i (idx_main_v26 i) (fun a => match a with
    | ⟨0, _⟩ => by show 0 = if (1 : Nat) = 1 then 0 else (i 0).val; rw [if_pos rfl]
    | ⟨1, _⟩ => by show (i 1).val = if (160 : Nat) = 1 then 0 else (i 1).val; rw [if_neg (by decide)])

def val_main_v27 (x0 : (⟨S200000x384, .f32⟩ : BufTy).Contents (Elt F)) (x1 : (⟨S4x384x160, .f32⟩ : BufTy).Contents (Elt F)) (x2 : (⟨S4x160, .f32⟩ : BufTy).Contents (Elt F)) (x9 : (⟨S50000, .i32⟩ : BufTy).Contents (Elt F)) : (⟨S50000x160, .f32⟩ : BufTy).Contents (Elt F) :=
  addf (val_main_v24 (F := F) x0 x1 x9) (val_main_v26 (F := F) x2)
def val_main_cst_1 : (⟨S_, .f32⟩ : BufTy).Contents (Elt F) :=
  constant S_ .f32 0x3DCCCCCD#32
def val_main_call0_cst : (⟨S_, .f32⟩ : BufTy).Contents (Elt F) :=
  constant S_ .f32 0x00000000#32
def val_main_call0_v0 : (⟨S50000x160, .f32⟩ : BufTy).Contents (Elt F) :=
  broadcastInDim S50000x160 ![] bcast_S_S50000x160 (val_main_call0_cst (F := F))
def val_main_call0_v1 (x0 : (⟨S200000x384, .f32⟩ : BufTy).Contents (Elt F)) (x1 : (⟨S4x384x160, .f32⟩ : BufTy).Contents (Elt F)) (x2 : (⟨S4x160, .f32⟩ : BufTy).Contents (Elt F)) (x9 : (⟨S50000, .i32⟩ : BufTy).Contents (Elt F)) : (⟨S50000x160, .f32⟩ : BufTy).Contents (Elt F) :=
  maximumf (val_main_v27 (F := F) x0 x1 x2 x9) (val_main_call0_v0 (F := F))
def val_main_call0_cst_0 : (⟨S_, .f32⟩ : BufTy).Contents (Elt F) :=
  constant S_ .f32 0x00000000#32
def val_main_call0_v2 : (⟨S50000x160, .f32⟩ : BufTy).Contents (Elt F) :=
  broadcastInDim S50000x160 ![] bcast_S_S50000x160 (val_main_call0_cst_0 (F := F))
def val_main_call0_v3 (x0 : (⟨S200000x384, .f32⟩ : BufTy).Contents (Elt F)) (x1 : (⟨S4x384x160, .f32⟩ : BufTy).Contents (Elt F)) (x2 : (⟨S4x160, .f32⟩ : BufTy).Contents (Elt F)) (x9 : (⟨S50000, .i32⟩ : BufTy).Contents (Elt F)) : (⟨S50000x160, .f32⟩ : BufTy).Contents (Elt F) :=
  minimumf (val_main_v27 (F := F) x0 x1 x2 x9) (val_main_call0_v2 (F := F))
def val_main_call0_v4 : (⟨S_, .f32⟩ : BufTy).Contents (Elt F) :=
  id (val_main_cst_1 (F := F))
def val_main_call0_v5 : (⟨S50000x160, .f32⟩ : BufTy).Contents (Elt F) :=
  broadcastInDim S50000x160 ![] bcast_S_S50000x160 (val_main_call0_v4 (F := F))
def val_main_call0_v6 (x0 : (⟨S200000x384, .f32⟩ : BufTy).Contents (Elt F)) (x1 : (⟨S4x384x160, .f32⟩ : BufTy).Contents (Elt F)) (x2 : (⟨S4x160, .f32⟩ : BufTy).Contents (Elt F)) (x9 : (⟨S50000, .i32⟩ : BufTy).Contents (Elt F)) : (⟨S50000x160, .f32⟩ : BufTy).Contents (Elt F) :=
  Host.divf (val_main_call0_v3 (F := F) x0 x1 x2 x9) (val_main_call0_v5 (F := F))
def val_main_call0_v7 (x0 : (⟨S200000x384, .f32⟩ : BufTy).Contents (Elt F)) (x1 : (⟨S4x384x160, .f32⟩ : BufTy).Contents (Elt F)) (x2 : (⟨S4x160, .f32⟩ : BufTy).Contents (Elt F)) (x9 : (⟨S50000, .i32⟩ : BufTy).Contents (Elt F)) : (⟨S50000x160, .f32⟩ : BufTy).Contents (Elt F) :=
  Host.expm1 (val_main_call0_v6 (F := F) x0 x1 x2 x9)
def val_main_call0_v8 : (⟨S_, .f32⟩ : BufTy).Contents (Elt F) :=
  id (val_main_cst_1 (F := F))
def val_main_call0_v9 : (⟨S50000x160, .f32⟩ : BufTy).Contents (Elt F) :=
  broadcastInDim S50000x160 ![] bcast_S_S50000x160 (val_main_call0_v8 (F := F))
def val_main_call0_v10 (x0 : (⟨S200000x384, .f32⟩ : BufTy).Contents (Elt F)) (x1 : (⟨S4x384x160, .f32⟩ : BufTy).Contents (Elt F)) (x2 : (⟨S4x160, .f32⟩ : BufTy).Contents (Elt F)) (x9 : (⟨S50000, .i32⟩ : BufTy).Contents (Elt F)) : (⟨S50000x160, .f32⟩ : BufTy).Contents (Elt F) :=
  mulf (val_main_call0_v9 (F := F)) (val_main_call0_v7 (F := F) x0 x1 x2 x9)
def val_main_v28 (x0 : (⟨S200000x384, .f32⟩ : BufTy).Contents (Elt F)) (x1 : (⟨S4x384x160, .f32⟩ : BufTy).Contents (Elt F)) (x2 : (⟨S4x160, .f32⟩ : BufTy).Contents (Elt F)) (x9 : (⟨S50000, .i32⟩ : BufTy).Contents (Elt F)) : (⟨S50000x160, .f32⟩ : BufTy).Contents (Elt F) :=
  addf (val_main_call0_v1 (F := F) x0 x1 x2 x9) (val_main_call0_v10 (F := F) x0 x1 x2 x9)
def val_main_v29 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x9 : (⟨S50000, .i32⟩ : BufTy).Contents (Elt F)) : (⟨S50000x128, .f32⟩ : BufTy).Contents (Elt F) :=
  Host.dotGeneral dot_S50000x160_S160x128_S50000x128_1_0_0_1_n_n none (val_main_v28 (F := F) x0 x1 x2 x9) (val_main_v13 (F := F) x3)
theorem lhs_main_v29_0 (i : S50000x128.Idx) (q : dot_S50000x160_S160x128_S50000x128_1_0_0_1_n_n.contr.Idx) :
    (dot_S50000x160_S160x128_S50000x128_1_0_0_1_n_n.lhsIdx i q 0).val = (i 0).val := by
  unfold DotDims.lhsIdx
  rw [dif_neg (show ¬(0 : Fin S50000x160.rank) ∈ dot_S50000x160_S160x128_S50000x128_1_0_0_1_n_n.lhsBatch by decide), dif_pos (show (0 : Fin S50000x160.rank) ∈ dot_S50000x160_S160x128_S50000x128_1_0_0_1_n_n.lhsNonContracting by decide)]
  rfl
theorem lhs_main_v29_1 (i : S50000x128.Idx) (q : dot_S50000x160_S160x128_S50000x128_1_0_0_1_n_n.contr.Idx) :
    (dot_S50000x160_S160x128_S50000x128_1_0_0_1_n_n.lhsIdx i q 1).val = (q ⟨0, by decide⟩).val :=
  dot_S50000x160_S160x128_S50000x128_1_0_0_1_n_n.lhsIdx_val_of_single rfl i q
theorem rhs_main_v29_0 (i : S50000x128.Idx) (q : dot_S50000x160_S160x128_S50000x128_1_0_0_1_n_n.contr.Idx) :
    (dot_S50000x160_S160x128_S50000x128_1_0_0_1_n_n.rhsIdx i q 0).val = (q ⟨0, by decide⟩).val :=
  dot_S50000x160_S160x128_S50000x128_1_0_0_1_n_n.rhsIdx_val_of_single rfl i q
theorem rhs_main_v29_1 (i : S50000x128.Idx) (q : dot_S50000x160_S160x128_S50000x128_1_0_0_1_n_n.contr.Idx) :
    (dot_S50000x160_S160x128_S50000x128_1_0_0_1_n_n.rhsIdx i q 1).val = (i 1).val := by
  unfold DotDims.rhsIdx
  rw [dif_neg (show ¬(1 : Fin S160x128.rank) ∈ dot_S50000x160_S160x128_S50000x128_1_0_0_1_n_n.rhsBatch by decide), dif_pos (show (1 : Fin S160x128.rank) ∈ dot_S50000x160_S160x128_S50000x128_1_0_0_1_n_n.rhsNonContracting by decide)]
  rfl
abbrev lidx_main_v29 (i : S50000x128.Idx) (k : Fin 160) : S50000x160.Idx := fun a => match a with
  | ⟨0, _⟩ => ⟨(i 0).val, (i 0).isLt⟩
  | ⟨1, _⟩ => ⟨k.val, k.isLt⟩
abbrev ridx_main_v29 (i : S50000x128.Idx) (k : Fin 160) : S160x128.Idx := fun a => match a with
  | ⟨0, _⟩ => ⟨k.val, k.isLt⟩
  | ⟨1, _⟩ => ⟨(i 1).val, (i 1).isLt⟩

theorem val_main_v29_apply (x0 : (⟨S200000x384, .f32⟩ : BufTy).Contents (Elt Ideal)) (x1 : (⟨S4x384x160, .f32⟩ : BufTy).Contents (Elt Ideal)) (x2 : (⟨S4x160, .f32⟩ : BufTy).Contents (Elt Ideal)) (x3 : (⟨S4x160x128, .f32⟩ : BufTy).Contents (Elt Ideal)) (x9 : (⟨S50000, .i32⟩ : BufTy).Contents (Elt Ideal)) (i : S50000x128.Idx) :
    val_main_v29 (F := Ideal) x0 x1 x2 x3 x9 i = ∑ k : Fin 160, (val_main_v28 (F := Ideal) x0 x1 x2 x9) (lidx_main_v29 i k) * (val_main_v13 (F := Ideal) x3) (ridx_main_v29 i k) := by
  unfold val_main_v29
  generalize val_main_v28 (F := Ideal) x0 x1 x2 x9 = y0
  generalize val_main_v13 (F := Ideal) x3 = y1
  simp only [Host.dotGeneral]
  rw [Ideal.dotGeneral_apply, ← Equiv.sum_comp (ValueIdx.contrEquiv1 dot_S50000x160_S160x128_S50000x128_1_0_0_1_n_n 160 rfl rfl).symm]
  refine Finset.sum_congr rfl fun k _ => ?_
  have hk := ValueIdx.contrEquiv1_symm_val dot_S50000x160_S160x128_S50000x128_1_0_0_1_n_n 160 rfl rfl k
  have el : dot_S50000x160_S160x128_S50000x128_1_0_0_1_n_n.lhsIdx i ((ValueIdx.contrEquiv1 dot_S50000x160_S160x128_S50000x128_1_0_0_1_n_n 160 rfl rfl).symm k) = lidx_main_v29 i k := funext fun a => Fin.ext (by
    match a with
    | ⟨0, _⟩ => exact lhs_main_v29_0 _ _
    | ⟨1, _⟩ => exact (lhs_main_v29_1 _ _).trans hk)
  have er : dot_S50000x160_S160x128_S50000x128_1_0_0_1_n_n.rhsIdx i ((ValueIdx.contrEquiv1 dot_S50000x160_S160x128_S50000x128_1_0_0_1_n_n 160 rfl rfl).symm k) = ridx_main_v29 i k := funext fun a => Fin.ext (by
    match a with
    | ⟨0, _⟩ => exact (rhs_main_v29_0 _ _).trans hk
    | ⟨1, _⟩ => exact rhs_main_v29_1 _ _)
  rw [el, er]

def val_main_v30 (x4 : (⟨S4x128, .f32⟩ : BufTy).Contents (Elt F)) : (⟨S1x128, .f32⟩ : BufTy).Contents (Elt F) :=
  broadcastInDim S1x128 ![1] bcast_S128_S1x128_1 (val_main_v15 (F := F) x4)
abbrev idx_main_v30 (i : S1x128.Idx) : S128.Idx := fun a => match a with
  | ⟨0, _⟩ => ⟨(i 1).val, (i 1).isLt⟩
theorem val_main_v30_apply (x4 : (⟨S4x128, .f32⟩ : BufTy).Contents (Elt F)) (i : S1x128.Idx) :
    val_main_v30 (F := F) x4 i = val_main_v15 (F := F) x4 (idx_main_v30 i) := by
  unfold val_main_v30
  generalize val_main_v15 (F := F) x4 = y
  exact broadcastInDim_apply _ bcast_S128_S1x128_1 y i (idx_main_v30 i) (fun a => match a with
    | ⟨0, _⟩ => by show (i 1).val = if (128 : Nat) = 1 then 0 else (i 1).val; rw [if_neg (by decide)])

def val_main_v31 (x4 : (⟨S4x128, .f32⟩ : BufTy).Contents (Elt F)) : (⟨S50000x128, .f32⟩ : BufTy).Contents (Elt F) :=
  broadcastInDim S50000x128 ![0, 1] bcast_S1x128_S50000x128_0_1 (val_main_v30 (F := F) x4)
abbrev idx_main_v31 (i : S50000x128.Idx) : S1x128.Idx := fun a => match a with
  | ⟨0, _⟩ => ⟨0, Nat.one_pos⟩
  | ⟨1, _⟩ => ⟨(i 1).val, (i 1).isLt⟩
theorem val_main_v31_apply (x4 : (⟨S4x128, .f32⟩ : BufTy).Contents (Elt F)) (i : S50000x128.Idx) :
    val_main_v31 (F := F) x4 i = val_main_v30 (F := F) x4 (idx_main_v31 i) := by
  unfold val_main_v31
  generalize val_main_v30 (F := F) x4 = y
  exact broadcastInDim_apply _ bcast_S1x128_S50000x128_0_1 y i (idx_main_v31 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v32 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x9 : (⟨S50000, .i32⟩ : BufTy).Contents (Elt F)) : (⟨S50000x128, .f32⟩ : BufTy).Contents (Elt F) :=
  addf (val_main_v29 (F := F) x0 x1 x2 x3 x9) (val_main_v31 (F := F) x4)
def val_main_cst_2 : (⟨S_, .f32⟩ : BufTy).Contents (Elt F) :=
  constant S_ .f32 0x3DCCCCCD#32
def val_main_call1_cst : (⟨S_, .f32⟩ : BufTy).Contents (Elt F) :=
  constant S_ .f32 0x00000000#32
def val_main_call1_v0 : (⟨S50000x128, .f32⟩ : BufTy).Contents (Elt F) :=
  broadcastInDim S50000x128 ![] bcast_S_S50000x128 (val_main_call1_cst (F := F))
def val_main_call1_v1 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x9 : (⟨S50000, .i32⟩ : BufTy).Contents (Elt F)) : (⟨S50000x128, .f32⟩ : BufTy).Contents (Elt F) :=
  maximumf (val_main_v32 (F := F) x0 x1 x2 x3 x4 x9) (val_main_call1_v0 (F := F))
def val_main_call1_cst_0 : (⟨S_, .f32⟩ : BufTy).Contents (Elt F) :=
  constant S_ .f32 0x00000000#32
def val_main_call1_v2 : (⟨S50000x128, .f32⟩ : BufTy).Contents (Elt F) :=
  broadcastInDim S50000x128 ![] bcast_S_S50000x128 (val_main_call1_cst_0 (F := F))
def val_main_call1_v3 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x9 : (⟨S50000, .i32⟩ : BufTy).Contents (Elt F)) : (⟨S50000x128, .f32⟩ : BufTy).Contents (Elt F) :=
  minimumf (val_main_v32 (F := F) x0 x1 x2 x3 x4 x9) (val_main_call1_v2 (F := F))
def val_main_call1_v4 : (⟨S_, .f32⟩ : BufTy).Contents (Elt F) :=
  id (val_main_cst_2 (F := F))
def val_main_call1_v5 : (⟨S50000x128, .f32⟩ : BufTy).Contents (Elt F) :=
  broadcastInDim S50000x128 ![] bcast_S_S50000x128 (val_main_call1_v4 (F := F))
def val_main_call1_v6 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x9 : (⟨S50000, .i32⟩ : BufTy).Contents (Elt F)) : (⟨S50000x128, .f32⟩ : BufTy).Contents (Elt F) :=
  Host.divf (val_main_call1_v3 (F := F) x0 x1 x2 x3 x4 x9) (val_main_call1_v5 (F := F))
def val_main_call1_v7 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x9 : (⟨S50000, .i32⟩ : BufTy).Contents (Elt F)) : (⟨S50000x128, .f32⟩ : BufTy).Contents (Elt F) :=
  Host.expm1 (val_main_call1_v6 (F := F) x0 x1 x2 x3 x4 x9)
def val_main_call1_v8 : (⟨S_, .f32⟩ : BufTy).Contents (Elt F) :=
  id (val_main_cst_2 (F := F))
def val_main_call1_v9 : (⟨S50000x128, .f32⟩ : BufTy).Contents (Elt F) :=
  broadcastInDim S50000x128 ![] bcast_S_S50000x128 (val_main_call1_v8 (F := F))
def val_main_call1_v10 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x9 : (⟨S50000, .i32⟩ : BufTy).Contents (Elt F)) : (⟨S50000x128, .f32⟩ : BufTy).Contents (Elt F) :=
  mulf (val_main_call1_v9 (F := F)) (val_main_call1_v7 (F := F) x0 x1 x2 x3 x4 x9)
def val_main_v33 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x9 : (⟨S50000, .i32⟩ : BufTy).Contents (Elt F)) : (⟨S50000x128, .f32⟩ : BufTy).Contents (Elt F) :=
  addf (val_main_call1_v1 (F := F) x0 x1 x2 x3 x4 x9) (val_main_call1_v10 (F := F) x0 x1 x2 x3 x4 x9)
def val_main_v34 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x9 : (⟨S50000, .i32⟩ : BufTy).Contents (Elt F)) : (⟨S50000x96, .f32⟩ : BufTy).Contents (Elt F) :=
  Host.dotGeneral dot_S50000x128_S128x96_S50000x96_1_0_0_1_n_n none (val_main_v33 (F := F) x0 x1 x2 x3 x4 x9) (val_main_v17 (F := F) x5)
theorem lhs_main_v34_0 (i : S50000x96.Idx) (q : dot_S50000x128_S128x96_S50000x96_1_0_0_1_n_n.contr.Idx) :
    (dot_S50000x128_S128x96_S50000x96_1_0_0_1_n_n.lhsIdx i q 0).val = (i 0).val := by
  unfold DotDims.lhsIdx
  rw [dif_neg (show ¬(0 : Fin S50000x128.rank) ∈ dot_S50000x128_S128x96_S50000x96_1_0_0_1_n_n.lhsBatch by decide), dif_pos (show (0 : Fin S50000x128.rank) ∈ dot_S50000x128_S128x96_S50000x96_1_0_0_1_n_n.lhsNonContracting by decide)]
  rfl
theorem lhs_main_v34_1 (i : S50000x96.Idx) (q : dot_S50000x128_S128x96_S50000x96_1_0_0_1_n_n.contr.Idx) :
    (dot_S50000x128_S128x96_S50000x96_1_0_0_1_n_n.lhsIdx i q 1).val = (q ⟨0, by decide⟩).val :=
  dot_S50000x128_S128x96_S50000x96_1_0_0_1_n_n.lhsIdx_val_of_single rfl i q
theorem rhs_main_v34_0 (i : S50000x96.Idx) (q : dot_S50000x128_S128x96_S50000x96_1_0_0_1_n_n.contr.Idx) :
    (dot_S50000x128_S128x96_S50000x96_1_0_0_1_n_n.rhsIdx i q 0).val = (q ⟨0, by decide⟩).val :=
  dot_S50000x128_S128x96_S50000x96_1_0_0_1_n_n.rhsIdx_val_of_single rfl i q
theorem rhs_main_v34_1 (i : S50000x96.Idx) (q : dot_S50000x128_S128x96_S50000x96_1_0_0_1_n_n.contr.Idx) :
    (dot_S50000x128_S128x96_S50000x96_1_0_0_1_n_n.rhsIdx i q 1).val = (i 1).val := by
  unfold DotDims.rhsIdx
  rw [dif_neg (show ¬(1 : Fin S128x96.rank) ∈ dot_S50000x128_S128x96_S50000x96_1_0_0_1_n_n.rhsBatch by decide), dif_pos (show (1 : Fin S128x96.rank) ∈ dot_S50000x128_S128x96_S50000x96_1_0_0_1_n_n.rhsNonContracting by decide)]
  rfl
abbrev lidx_main_v34 (i : S50000x96.Idx) (k : Fin 128) : S50000x128.Idx := fun a => match a with
  | ⟨0, _⟩ => ⟨(i 0).val, (i 0).isLt⟩
  | ⟨1, _⟩ => ⟨k.val, k.isLt⟩
abbrev ridx_main_v34 (i : S50000x96.Idx) (k : Fin 128) : S128x96.Idx := fun a => match a with
  | ⟨0, _⟩ => ⟨k.val, k.isLt⟩
  | ⟨1, _⟩ => ⟨(i 1).val, (i 1).isLt⟩

theorem val_main_v34_apply (x0 : (⟨S200000x384, .f32⟩ : BufTy).Contents (Elt Ideal)) (x1 : (⟨S4x384x160, .f32⟩ : BufTy).Contents (Elt Ideal)) (x2 : (⟨S4x160, .f32⟩ : BufTy).Contents (Elt Ideal)) (x3 : (⟨S4x160x128, .f32⟩ : BufTy).Contents (Elt Ideal)) (x4 : (⟨S4x128, .f32⟩ : BufTy).Contents (Elt Ideal)) (x5 : (⟨S4x128x96, .f32⟩ : BufTy).Contents (Elt Ideal)) (x9 : (⟨S50000, .i32⟩ : BufTy).Contents (Elt Ideal)) (i : S50000x96.Idx) :
    val_main_v34 (F := Ideal) x0 x1 x2 x3 x4 x5 x9 i = ∑ k : Fin 128, (val_main_v33 (F := Ideal) x0 x1 x2 x3 x4 x9) (lidx_main_v34 i k) * (val_main_v17 (F := Ideal) x5) (ridx_main_v34 i k) := by
  unfold val_main_v34
  generalize val_main_v33 (F := Ideal) x0 x1 x2 x3 x4 x9 = y0
  generalize val_main_v17 (F := Ideal) x5 = y1
  simp only [Host.dotGeneral]
  rw [Ideal.dotGeneral_apply, ← Equiv.sum_comp (ValueIdx.contrEquiv1 dot_S50000x128_S128x96_S50000x96_1_0_0_1_n_n 128 rfl rfl).symm]
  refine Finset.sum_congr rfl fun k _ => ?_
  have hk := ValueIdx.contrEquiv1_symm_val dot_S50000x128_S128x96_S50000x96_1_0_0_1_n_n 128 rfl rfl k
  have el : dot_S50000x128_S128x96_S50000x96_1_0_0_1_n_n.lhsIdx i ((ValueIdx.contrEquiv1 dot_S50000x128_S128x96_S50000x96_1_0_0_1_n_n 128 rfl rfl).symm k) = lidx_main_v34 i k := funext fun a => Fin.ext (by
    match a with
    | ⟨0, _⟩ => exact lhs_main_v34_0 _ _
    | ⟨1, _⟩ => exact (lhs_main_v34_1 _ _).trans hk)
  have er : dot_S50000x128_S128x96_S50000x96_1_0_0_1_n_n.rhsIdx i ((ValueIdx.contrEquiv1 dot_S50000x128_S128x96_S50000x96_1_0_0_1_n_n 128 rfl rfl).symm k) = ridx_main_v34 i k := funext fun a => Fin.ext (by
    match a with
    | ⟨0, _⟩ => exact (rhs_main_v34_0 _ _).trans hk
    | ⟨1, _⟩ => exact rhs_main_v34_1 _ _)
  rw [el, er]

def val_main_v35 (x6 : (⟨S4x96, .f32⟩ : BufTy).Contents (Elt F)) : (⟨S1x96, .f32⟩ : BufTy).Contents (Elt F) :=
  broadcastInDim S1x96 ![1] bcast_S96_S1x96_1 (val_main_v19 (F := F) x6)
abbrev idx_main_v35 (i : S1x96.Idx) : S96.Idx := fun a => match a with
  | ⟨0, _⟩ => ⟨(i 1).val, (i 1).isLt⟩
theorem val_main_v35_apply (x6 : (⟨S4x96, .f32⟩ : BufTy).Contents (Elt F)) (i : S1x96.Idx) :
    val_main_v35 (F := F) x6 i = val_main_v19 (F := F) x6 (idx_main_v35 i) := by
  unfold val_main_v35
  generalize val_main_v19 (F := F) x6 = y
  exact broadcastInDim_apply _ bcast_S96_S1x96_1 y i (idx_main_v35 i) (fun a => match a with
    | ⟨0, _⟩ => by show (i 1).val = if (96 : Nat) = 1 then 0 else (i 1).val; rw [if_neg (by decide)])

def val_main_v36 (x6 : (⟨S4x96, .f32⟩ : BufTy).Contents (Elt F)) : (⟨S50000x96, .f32⟩ : BufTy).Contents (Elt F) :=
  broadcastInDim S50000x96 ![0, 1] bcast_S1x96_S50000x96_0_1 (val_main_v35 (F := F) x6)
abbrev idx_main_v36 (i : S50000x96.Idx) : S1x96.Idx := fun a => match a with
  | ⟨0, _⟩ => ⟨0, Nat.one_pos⟩
  | ⟨1, _⟩ => ⟨(i 1).val, (i 1).isLt⟩
theorem val_main_v36_apply (x6 : (⟨S4x96, .f32⟩ : BufTy).Contents (Elt F)) (i : S50000x96.Idx) :
    val_main_v36 (F := F) x6 i = val_main_v35 (F := F) x6 (idx_main_v36 i) := by
  unfold val_main_v36
  generalize val_main_v35 (F := F) x6 = y
  exact broadcastInDim_apply _ bcast_S1x96_S50000x96_0_1 y i (idx_main_v36 i) (fun a => match a with
    | ⟨0, _⟩ => by show 0 = if (1 : Nat) = 1 then 0 else (i 0).val; rw [if_pos rfl]
    | ⟨1, _⟩ => by show (i 1).val = if (96 : Nat) = 1 then 0 else (i 1).val; rw [if_neg (by decide)])

def val_main_v37 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x9 : (⟨S50000, .i32⟩ : BufTy).Contents (Elt F)) : (⟨S50000x96, .f32⟩ : BufTy).Contents (Elt F) :=
  addf (val_main_v34 (F := F) x0 x1 x2 x3 x4 x5 x9) (val_main_v36 (F := F) x6)
def val_main_cst_3 : (⟨S_, .f32⟩ : BufTy).Contents (Elt F) :=
  constant S_ .f32 0x3DCCCCCD#32
def val_main_call2_cst : (⟨S_, .f32⟩ : BufTy).Contents (Elt F) :=
  constant S_ .f32 0x00000000#32
def val_main_call2_v0 : (⟨S50000x96, .f32⟩ : BufTy).Contents (Elt F) :=
  broadcastInDim S50000x96 ![] bcast_S_S50000x96 (val_main_call2_cst (F := F))
def val_main_call2_v1 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x9 : (⟨S50000, .i32⟩ : BufTy).Contents (Elt F)) : (⟨S50000x96, .f32⟩ : BufTy).Contents (Elt F) :=
  maximumf (val_main_v37 (F := F) x0 x1 x2 x3 x4 x5 x6 x9) (val_main_call2_v0 (F := F))
def val_main_call2_cst_0 : (⟨S_, .f32⟩ : BufTy).Contents (Elt F) :=
  constant S_ .f32 0x00000000#32
def val_main_call2_v2 : (⟨S50000x96, .f32⟩ : BufTy).Contents (Elt F) :=
  broadcastInDim S50000x96 ![] bcast_S_S50000x96 (val_main_call2_cst_0 (F := F))
def val_main_call2_v3 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x9 : (⟨S50000, .i32⟩ : BufTy).Contents (Elt F)) : (⟨S50000x96, .f32⟩ : BufTy).Contents (Elt F) :=
  minimumf (val_main_v37 (F := F) x0 x1 x2 x3 x4 x5 x6 x9) (val_main_call2_v2 (F := F))
def val_main_call2_v4 : (⟨S_, .f32⟩ : BufTy).Contents (Elt F) :=
  id (val_main_cst_3 (F := F))
def val_main_call2_v5 : (⟨S50000x96, .f32⟩ : BufTy).Contents (Elt F) :=
  broadcastInDim S50000x96 ![] bcast_S_S50000x96 (val_main_call2_v4 (F := F))
def val_main_call2_v6 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x9 : (⟨S50000, .i32⟩ : BufTy).Contents (Elt F)) : (⟨S50000x96, .f32⟩ : BufTy).Contents (Elt F) :=
  Host.divf (val_main_call2_v3 (F := F) x0 x1 x2 x3 x4 x5 x6 x9) (val_main_call2_v5 (F := F))
def val_main_call2_v7 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x9 : (⟨S50000, .i32⟩ : BufTy).Contents (Elt F)) : (⟨S50000x96, .f32⟩ : BufTy).Contents (Elt F) :=
  Host.expm1 (val_main_call2_v6 (F := F) x0 x1 x2 x3 x4 x5 x6 x9)
def val_main_call2_v8 : (⟨S_, .f32⟩ : BufTy).Contents (Elt F) :=
  id (val_main_cst_3 (F := F))
def val_main_call2_v9 : (⟨S50000x96, .f32⟩ : BufTy).Contents (Elt F) :=
  broadcastInDim S50000x96 ![] bcast_S_S50000x96 (val_main_call2_v8 (F := F))
def val_main_call2_v10 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x9 : (⟨S50000, .i32⟩ : BufTy).Contents (Elt F)) : (⟨S50000x96, .f32⟩ : BufTy).Contents (Elt F) :=
  mulf (val_main_call2_v9 (F := F)) (val_main_call2_v7 (F := F) x0 x1 x2 x3 x4 x5 x6 x9)
def val_main_v38 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x9 : (⟨S50000, .i32⟩ : BufTy).Contents (Elt F)) : (⟨S50000x96, .f32⟩ : BufTy).Contents (Elt F) :=
  addf (val_main_call2_v1 (F := F) x0 x1 x2 x3 x4 x5 x6 x9) (val_main_call2_v10 (F := F) x0 x1 x2 x3 x4 x5 x6 x9)
def val_main_v39 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x9 : (⟨S50000, .i32⟩ : BufTy).Contents (Elt F)) : (⟨S50000x1, .f32⟩ : BufTy).Contents (Elt F) :=
  Host.dotGeneral dot_S50000x96_S96x1_S50000x1_1_0_0_1_n_n none (val_main_v38 (F := F) x0 x1 x2 x3 x4 x5 x6 x9) (val_main_v21 (F := F) x7)
theorem lhs_main_v39_0 (i : S50000x1.Idx) (q : dot_S50000x96_S96x1_S50000x1_1_0_0_1_n_n.contr.Idx) :
    (dot_S50000x96_S96x1_S50000x1_1_0_0_1_n_n.lhsIdx i q 0).val = (i 0).val := by
  unfold DotDims.lhsIdx
  rw [dif_neg (show ¬(0 : Fin S50000x96.rank) ∈ dot_S50000x96_S96x1_S50000x1_1_0_0_1_n_n.lhsBatch by decide), dif_pos (show (0 : Fin S50000x96.rank) ∈ dot_S50000x96_S96x1_S50000x1_1_0_0_1_n_n.lhsNonContracting by decide)]
  rfl
theorem lhs_main_v39_1 (i : S50000x1.Idx) (q : dot_S50000x96_S96x1_S50000x1_1_0_0_1_n_n.contr.Idx) :
    (dot_S50000x96_S96x1_S50000x1_1_0_0_1_n_n.lhsIdx i q 1).val = (q ⟨0, by decide⟩).val :=
  dot_S50000x96_S96x1_S50000x1_1_0_0_1_n_n.lhsIdx_val_of_single rfl i q
theorem rhs_main_v39_0 (i : S50000x1.Idx) (q : dot_S50000x96_S96x1_S50000x1_1_0_0_1_n_n.contr.Idx) :
    (dot_S50000x96_S96x1_S50000x1_1_0_0_1_n_n.rhsIdx i q 0).val = (q ⟨0, by decide⟩).val :=
  dot_S50000x96_S96x1_S50000x1_1_0_0_1_n_n.rhsIdx_val_of_single rfl i q
theorem rhs_main_v39_1 (i : S50000x1.Idx) (q : dot_S50000x96_S96x1_S50000x1_1_0_0_1_n_n.contr.Idx) :
    (dot_S50000x96_S96x1_S50000x1_1_0_0_1_n_n.rhsIdx i q 1).val = (i 1).val := by
  unfold DotDims.rhsIdx
  rw [dif_neg (show ¬(1 : Fin S96x1.rank) ∈ dot_S50000x96_S96x1_S50000x1_1_0_0_1_n_n.rhsBatch by decide), dif_pos (show (1 : Fin S96x1.rank) ∈ dot_S50000x96_S96x1_S50000x1_1_0_0_1_n_n.rhsNonContracting by decide)]
  rfl
abbrev lidx_main_v39 (i : S50000x1.Idx) (k : Fin 96) : S50000x96.Idx := fun a => match a with
  | ⟨0, _⟩ => ⟨(i 0).val, (i 0).isLt⟩
  | ⟨1, _⟩ => ⟨k.val, k.isLt⟩
abbrev ridx_main_v39 (i : S50000x1.Idx) (k : Fin 96) : S96x1.Idx := fun a => match a with
  | ⟨0, _⟩ => ⟨k.val, k.isLt⟩
  | ⟨1, _⟩ => ⟨(i 1).val, (i 1).isLt⟩

theorem val_main_v39_apply (x0 : (⟨S200000x384, .f32⟩ : BufTy).Contents (Elt Ideal)) (x1 : (⟨S4x384x160, .f32⟩ : BufTy).Contents (Elt Ideal)) (x2 : (⟨S4x160, .f32⟩ : BufTy).Contents (Elt Ideal)) (x3 : (⟨S4x160x128, .f32⟩ : BufTy).Contents (Elt Ideal)) (x4 : (⟨S4x128, .f32⟩ : BufTy).Contents (Elt Ideal)) (x5 : (⟨S4x128x96, .f32⟩ : BufTy).Contents (Elt Ideal)) (x6 : (⟨S4x96, .f32⟩ : BufTy).Contents (Elt Ideal)) (x7 : (⟨S4x96x1, .f32⟩ : BufTy).Contents (Elt Ideal)) (x9 : (⟨S50000, .i32⟩ : BufTy).Contents (Elt Ideal)) (i : S50000x1.Idx) :
    val_main_v39 (F := Ideal) x0 x1 x2 x3 x4 x5 x6 x7 x9 i = ∑ k : Fin 96, (val_main_v38 (F := Ideal) x0 x1 x2 x3 x4 x5 x6 x9) (lidx_main_v39 i k) * (val_main_v21 (F := Ideal) x7) (ridx_main_v39 i k) := by
  unfold val_main_v39
  generalize val_main_v38 (F := Ideal) x0 x1 x2 x3 x4 x5 x6 x9 = y0
  generalize val_main_v21 (F := Ideal) x7 = y1
  simp only [Host.dotGeneral]
  rw [Ideal.dotGeneral_apply, ← Equiv.sum_comp (ValueIdx.contrEquiv1 dot_S50000x96_S96x1_S50000x1_1_0_0_1_n_n 96 rfl rfl).symm]
  refine Finset.sum_congr rfl fun k _ => ?_
  have hk := ValueIdx.contrEquiv1_symm_val dot_S50000x96_S96x1_S50000x1_1_0_0_1_n_n 96 rfl rfl k
  have el : dot_S50000x96_S96x1_S50000x1_1_0_0_1_n_n.lhsIdx i ((ValueIdx.contrEquiv1 dot_S50000x96_S96x1_S50000x1_1_0_0_1_n_n 96 rfl rfl).symm k) = lidx_main_v39 i k := funext fun a => Fin.ext (by
    match a with
    | ⟨0, _⟩ => exact lhs_main_v39_0 _ _
    | ⟨1, _⟩ => exact (lhs_main_v39_1 _ _).trans hk)
  have er : dot_S50000x96_S96x1_S50000x1_1_0_0_1_n_n.rhsIdx i ((ValueIdx.contrEquiv1 dot_S50000x96_S96x1_S50000x1_1_0_0_1_n_n 96 rfl rfl).symm k) = ridx_main_v39 i k := funext fun a => Fin.ext (by
    match a with
    | ⟨0, _⟩ => exact (rhs_main_v39_0 _ _).trans hk
    | ⟨1, _⟩ => exact rhs_main_v39_1 _ _)
  rw [el, er]

def val_main_v40 (x8 : (⟨S4x1, .f32⟩ : BufTy).Contents (Elt F)) : (⟨S1x1, .f32⟩ : BufTy).Contents (Elt F) :=
  broadcastInDim S1x1 ![1] bcast_S1_S1x1_1 (val_main_v23 (F := F) x8)
abbrev idx_main_v40 (i : S1x1.Idx) : S1.Idx := fun a => match a with
  | ⟨0, _⟩ => ⟨0, Nat.one_pos⟩
theorem val_main_v40_apply (x8 : (⟨S4x1, .f32⟩ : BufTy).Contents (Elt F)) (i : S1x1.Idx) :
    val_main_v40 (F := F) x8 i = val_main_v23 (F := F) x8 (idx_main_v40 i) := by
  unfold val_main_v40
  generalize val_main_v23 (F := F) x8 = y
  exact broadcastInDim_apply _ bcast_S1_S1x1_1 y i (idx_main_v40 i) (fun a => match a with
    | ⟨0, _⟩ => by show 0 = if (1 : Nat) = 1 then 0 else (i 1).val; rw [if_pos rfl])

def val_main_v41 (x8 : (⟨S4x1, .f32⟩ : BufTy).Contents (Elt F)) : (⟨S50000x1, .f32⟩ : BufTy).Contents (Elt F) :=
  broadcastInDim S50000x1 ![0, 1] bcast_S1x1_S50000x1_0_1 (val_main_v40 (F := F) x8)
abbrev idx_main_v41 (i : S50000x1.Idx) : S1x1.Idx := fun a => match a with
  | ⟨0, _⟩ => ⟨0, Nat.one_pos⟩
  | ⟨1, _⟩ => ⟨0, Nat.one_pos⟩
theorem val_main_v41_apply (x8 : (⟨S4x1, .f32⟩ : BufTy).Contents (Elt F)) (i : S50000x1.Idx) :
    val_main_v41 (F := F) x8 i = val_main_v40 (F := F) x8 (idx_main_v41 i) := by
  unfold val_main_v41
  generalize val_main_v40 (F := F) x8 = y
  exact broadcastInDim_apply _ bcast_S1x1_S50000x1_0_1 y i (idx_main_v41 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v42 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x8 : (⟨S4x1, .f32⟩ : BufTy).Contents (Elt F)) (x9 : (⟨S50000, .i32⟩ : BufTy).Contents (Elt F)) : (⟨S50000x1, .f32⟩ : BufTy).Contents (Elt F) :=
  addf (val_main_v39 (F := F) x0 x1 x2 x3 x4 x5 x6 x7 x9) (val_main_v41 (F := F) x8)
def val_main_v43 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x8 : (⟨S4x1, .f32⟩ : BufTy).Contents (Elt F)) (x9 : (⟨S50000, .i32⟩ : BufTy).Contents (Elt F)) : (⟨S50000, .f32⟩ : BufTy).Contents (Elt F) :=
  shapeCast _ (val_main_v42 (F := F) x0 x1 x2 x3 x4 x5 x6 x7 x8 x9) shapeCasts_S50000x1_S50000
abbrev idx_main_v43 (i : S50000.Idx) : S50000x1.Idx := fun a => match a with
  | ⟨0, _⟩ => ⟨((i 0).val) / 1, by have h0 : (i 0).val < 50000 := (i 0).isLt; show ((i 0).val) / 1 < 50000; omega⟩
  | ⟨1, _⟩ => ⟨0, Nat.one_pos⟩
theorem val_main_v43_apply (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x8 : (⟨S4x1, .f32⟩ : BufTy).Contents (Elt F)) (x9 : (⟨S50000, .i32⟩ : BufTy).Contents (Elt F)) (i : S50000.Idx) :
    val_main_v43 (F := F) x0 x1 x2 x3 x4 x5 x6 x7 x8 x9 i = val_main_v42 (F := F) x0 x1 x2 x3 x4 x5 x6 x7 x8 x9 (idx_main_v43 i) := by
  unfold val_main_v43
  generalize val_main_v42 (F := F) x0 x1 x2 x3 x4 x5 x6 x7 x8 x9 = y
  exact shapeCast_apply y shapeCasts_S50000x1_S50000 i (idx_main_v43 i)
    (by rewrite [Shape.rowMajor_val_two, Shape.rowMajor_val_one]; have h0 : (i 0).val < 50000 := (i 0).isLt; show ((i 0).val) / 1 * 1 + 0 = (i 0).val; omega)

def val_main_c_4 : (⟨S_, .i32⟩ : BufTy).Contents (Elt F) :=
  constantI S_ 32 0#32
def val_main_v44 : (⟨S50000, .i32⟩ : BufTy).Contents (Elt F) :=
  broadcastInDim S50000 ![] bcast_S_S50000 (val_main_c_4 (F := F))
def val_main_v45 (x9 : (⟨S50000, .i32⟩ : BufTy).Contents (Elt F)) : (⟨S50000, .i1⟩ : BufTy).Contents (Elt F) :=
  cmpi .slt (x9) (val_main_v44 (F := F))
def val_main_c_5 : (⟨S_, .i32⟩ : BufTy).Contents (Elt F) :=
  constantI S_ 32 200000#32
def val_main_v46 : (⟨S50000, .i32⟩ : BufTy).Contents (Elt F) :=
  broadcastInDim S50000 ![] bcast_S_S50000 (val_main_c_5 (F := F))
def val_main_v47 (x9 : (⟨S50000, .i32⟩ : BufTy).Contents (Elt F)) : (⟨S50000, .i32⟩ : BufTy).Contents (Elt F) :=
  addi (x9) (val_main_v46 (F := F))
def val_main_v48 (x9 : (⟨S50000, .i32⟩ : BufTy).Contents (Elt F)) : (⟨S50000, .i32⟩ : BufTy).Contents (Elt F) :=
  select (val_main_v45 (F := F) x9) (val_main_v47 (F := F) x9) (x9)
def val_main_v49 (x9 : (⟨S50000, .i32⟩ : BufTy).Contents (Elt F)) : (⟨S50000x1, .i32⟩ : BufTy).Contents (Elt F) :=
  broadcastInDim S50000x1 ![0] bcast_S50000_S50000x1_0 (val_main_v48 (F := F) x9)
abbrev idx_main_v49 (i : S50000x1.Idx) : S50000.Idx := fun a => match a with
  | ⟨0, _⟩ => ⟨(i 0).val, (i 0).isLt⟩
theorem val_main_v49_apply (x9 : (⟨S50000, .i32⟩ : BufTy).Contents (Elt F)) (i : S50000x1.Idx) :
    val_main_v49 (F := F) x9 i = val_main_v48 (F := F) x9 (idx_main_v49 i) := by
  unfold val_main_v49
  generalize val_main_v48 (F := F) x9 = y
  exact broadcastInDim_apply _ bcast_S50000_S50000x1_0 y i (idx_main_v49 i) (fun a => match a with
    | ⟨0, _⟩ => by show (i 0).val = if (50000 : Nat) = 1 then 0 else (i 0).val; rw [if_neg (by decide)])

def val_main_v50 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x8 : (⟨S4x1, .f32⟩ : BufTy).Contents (Elt F)) (x9 : (⟨S50000, .i32⟩ : BufTy).Contents (Elt F)) : (⟨S200000, .f32⟩ : BufTy).Contents (Elt F) :=
  Host.scatterAdd scatter_S200000_S50000x1_S50000_n_0_0_1 (val_main_v0 (F := F)) (val_main_v49 (F := F) x9) (val_main_v43 (F := F) x0 x1 x2 x3 x4 x5 x6 x7 x8 x9)

def val_main_c_6 : (⟨S_, .i32⟩ : BufTy).Contents (Elt F) :=
  constantI S_ 32 0#32
def val_main_v51 : (⟨S50000, .i32⟩ : BufTy).Contents (Elt F) :=
  broadcastInDim S50000 ![] bcast_S_S50000 (val_main_c_6 (F := F))
def val_main_v52 (x10 : (⟨S50000, .i32⟩ : BufTy).Contents (Elt F)) : (⟨S50000, .i1⟩ : BufTy).Contents (Elt F) :=
  cmpi .slt (x10) (val_main_v51 (F := F))
def val_main_c_7 : (⟨S_, .i32⟩ : BufTy).Contents (Elt F) :=
  constantI S_ 32 200000#32
def val_main_v53 : (⟨S50000, .i32⟩ : BufTy).Contents (Elt F) :=
  broadcastInDim S50000 ![] bcast_S_S50000 (val_main_c_7 (F := F))
def val_main_v54 (x10 : (⟨S50000, .i32⟩ : BufTy).Contents (Elt F)) : (⟨S50000, .i32⟩ : BufTy).Contents (Elt F) :=
  addi (x10) (val_main_v53 (F := F))
def val_main_v55 (x10 : (⟨S50000, .i32⟩ : BufTy).Contents (Elt F)) : (⟨S50000, .i32⟩ : BufTy).Contents (Elt F) :=
  select (val_main_v52 (F := F) x10) (val_main_v54 (F := F) x10) (x10)
def val_main_v56 (x10 : (⟨S50000, .i32⟩ : BufTy).Contents (Elt F)) : (⟨S50000x1, .i32⟩ : BufTy).Contents (Elt F) :=
  broadcastInDim S50000x1 ![0] bcast_S50000_S50000x1_0 (val_main_v55 (F := F) x10)
abbrev idx_main_v56 (i : S50000x1.Idx) : S50000.Idx := fun a => match a with
  | ⟨0, _⟩ => ⟨(i 0).val, (i 0).isLt⟩
theorem val_main_v56_apply (x10 : (⟨S50000, .i32⟩ : BufTy).Contents (Elt F)) (i : S50000x1.Idx) :
    val_main_v56 (F := F) x10 i = val_main_v55 (F := F) x10 (idx_main_v56 i) := by
  unfold val_main_v56
  generalize val_main_v55 (F := F) x10 = y
  exact broadcastInDim_apply _ bcast_S50000_S50000x1_0 y i (idx_main_v56 i) (fun a => match a with
    | ⟨0, _⟩ => by show (i 0).val = if (50000 : Nat) = 1 then 0 else (i 0).val; rw [if_neg (by decide)])

def val_main_v57 (x0 : (⟨S200000x384, .f32⟩ : BufTy).Contents (Elt F)) (x10 : (⟨S50000, .i32⟩ : BufTy).Contents (Elt F)) : (⟨S50000x384, .f32⟩ : BufTy).Contents (Elt F) :=
  Host.gather gather_S200000x384_S50000x1_S50000x384_1_0_n_n_0_1_1384 (x0) (val_main_v56 (F := F) x10)

def val_main_v58 (x1 : (⟨S4x384x160, .f32⟩ : BufTy).Contents (Elt F)) : (⟨S1x384x160, .f32⟩ : BufTy).Contents (Elt F) :=
  extractStridedSlice S1x384x160 ![1, 0, 0] (x1) slices_S4x384x160_S1x384x160_1_0_0
abbrev idx_main_v58 (i : S1x384x160.Idx) : S4x384x160.Idx := fun a => match a with
  | ⟨0, _⟩ => ⟨1 + (i 0).val, by have h0 : (i 0).val < 1 := (i 0).isLt; show 1 + (i 0).val < 4; omega⟩
  | ⟨1, _⟩ => ⟨(i 1).val, (i 1).isLt⟩
  | ⟨2, _⟩ => ⟨(i 2).val, (i 2).isLt⟩
theorem val_main_v58_apply (x1 : (⟨S4x384x160, .f32⟩ : BufTy).Contents (Elt F)) (i : S1x384x160.Idx) :
    val_main_v58 (F := F) x1 i = x1 (idx_main_v58 i) := by
  unfold val_main_v58
  exact extractStridedSlice_apply ![1, 0, 0] x1 slices_S4x384x160_S1x384x160_1_0_0 i (idx_main_v58 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v59 (x1 : (⟨S4x384x160, .f32⟩ : BufTy).Contents (Elt F)) : (⟨S384x160, .f32⟩ : BufTy).Contents (Elt F) :=
  shapeCast _ (val_main_v58 (F := F) x1) shapeCasts_S1x384x160_S384x160
abbrev idx_main_v59 (i : S384x160.Idx) : S1x384x160.Idx := fun a => match a with
  | ⟨0, _⟩ => ⟨0, Nat.one_pos⟩
  | ⟨1, _⟩ => ⟨((i 0).val * 160 + (i 1).val) / 160 % 384, by have h0 : (i 0).val < 384 := (i 0).isLt; have h1 : (i 1).val < 160 := (i 1).isLt; show ((i 0).val * 160 + (i 1).val) / 160 % 384 < 384; omega⟩
  | ⟨2, _⟩ => ⟨((i 0).val * 160 + (i 1).val) % 160, by have h0 : (i 0).val < 384 := (i 0).isLt; have h1 : (i 1).val < 160 := (i 1).isLt; show ((i 0).val * 160 + (i 1).val) % 160 < 160; omega⟩
theorem val_main_v59_apply (x1 : (⟨S4x384x160, .f32⟩ : BufTy).Contents (Elt F)) (i : S384x160.Idx) :
    val_main_v59 (F := F) x1 i = val_main_v58 (F := F) x1 (idx_main_v59 i) := by
  unfold val_main_v59
  generalize val_main_v58 (F := F) x1 = y
  exact shapeCast_apply y shapeCasts_S1x384x160_S384x160 i (idx_main_v59 i)
    (by rewrite [Shape.rowMajor_val_three, Shape.rowMajor_val_two]; have h0 : (i 0).val < 384 := (i 0).isLt; have h1 : (i 1).val < 160 := (i 1).isLt; show (0 * 384 + ((i 0).val * 160 + (i 1).val) / 160 % 384) * 160 + ((i 0).val * 160 + (i 1).val) % 160 = (i 0).val * 160 + (i 1).val; omega)

def val_main_v60 (x2 : (⟨S4x160, .f32⟩ : BufTy).Contents (Elt F)) : (⟨S1x160, .f32⟩ : BufTy).Contents (Elt F) :=
  extractStridedSlice S1x160 ![1, 0] (x2) slices_S4x160_S1x160_1_0
abbrev idx_main_v60 (i : S1x160.Idx) : S4x160.Idx := fun a => match a with
  | ⟨0, _⟩ => ⟨1 + (i 0).val, by have h0 : (i 0).val < 1 := (i 0).isLt; show 1 + (i 0).val < 4; omega⟩
  | ⟨1, _⟩ => ⟨(i 1).val, (i 1).isLt⟩
theorem val_main_v60_apply (x2 : (⟨S4x160, .f32⟩ : BufTy).Contents (Elt F)) (i : S1x160.Idx) :
    val_main_v60 (F := F) x2 i = x2 (idx_main_v60 i) := by
  unfold val_main_v60
  exact extractStridedSlice_apply ![1, 0] x2 slices_S4x160_S1x160_1_0 i (idx_main_v60 i) (fun a => match a with
    | ⟨0, _⟩ => by show 1 + (i 0).val = 1 + (i 0).val; omega
    | ⟨1, _⟩ => by show (i 1).val = 0 + (i 1).val; omega)

def val_main_v61 (x2 : (⟨S4x160, .f32⟩ : BufTy).Contents (Elt F)) : (⟨S160, .f32⟩ : BufTy).Contents (Elt F) :=
  shapeCast _ (val_main_v60 (F := F) x2) shapeCasts_S1x160_S160
abbrev idx_main_v61 (i : S160.Idx) : S1x160.Idx := fun a => match a with
  | ⟨0, _⟩ => ⟨0, Nat.one_pos⟩
  | ⟨1, _⟩ => ⟨((i 0).val) % 160, by have h0 : (i 0).val < 160 := (i 0).isLt; show ((i 0).val) % 160 < 160; omega⟩
theorem val_main_v61_apply (x2 : (⟨S4x160, .f32⟩ : BufTy).Contents (Elt F)) (i : S160.Idx) :
    val_main_v61 (F := F) x2 i = val_main_v60 (F := F) x2 (idx_main_v61 i) := by
  unfold val_main_v61
  generalize val_main_v60 (F := F) x2 = y
  exact shapeCast_apply y shapeCasts_S1x160_S160 i (idx_main_v61 i)
    (by rewrite [Shape.rowMajor_val_two, Shape.rowMajor_val_one]; have h0 : (i 0).val < 160 := (i 0).isLt; show 0 * 160 + ((i 0).val) % 160 = (i 0).val; omega)

def val_main_v62 (x3 : (⟨S4x160x128, .f32⟩ : BufTy).Contents (Elt F)) : (⟨S1x160x128, .f32⟩ : BufTy).Contents (Elt F) :=
  extractStridedSlice S1x160x128 ![1, 0, 0] (x3) slices_S4x160x128_S1x160x128_1_0_0
abbrev idx_main_v62 (i : S1x160x128.Idx) : S4x160x128.Idx := fun a => match a with
  | ⟨0, _⟩ => ⟨1 + (i 0).val, by have h0 : (i 0).val < 1 := (i 0).isLt; show 1 + (i 0).val < 4; omega⟩
  | ⟨1, _⟩ => ⟨(i 1).val, (i 1).isLt⟩
  | ⟨2, _⟩ => ⟨(i 2).val, (i 2).isLt⟩
theorem val_main_v62_apply (x3 : (⟨S4x160x128, .f32⟩ : BufTy).Contents (Elt F)) (i : S1x160x128.Idx) :
    val_main_v62 (F := F) x3 i = x3 (idx_main_v62 i) := by
  unfold val_main_v62
  exact extractStridedSlice_apply ![1, 0, 0] x3 slices_S4x160x128_S1x160x128_1_0_0 i (idx_main_v62 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v63 (x3 : (⟨S4x160x128, .f32⟩ : BufTy).Contents (Elt F)) : (⟨S160x128, .f32⟩ : BufTy).Contents (Elt F) :=
  shapeCast _ (val_main_v62 (F := F) x3) shapeCasts_S1x160x128_S160x128
abbrev idx_main_v63 (i : S160x128.Idx) : S1x160x128.Idx := fun a => match a with
  | ⟨0, _⟩ => ⟨0, Nat.one_pos⟩
  | ⟨1, _⟩ => ⟨((i 0).val * 128 + (i 1).val) / 128 % 160, by have h0 : (i 0).val < 160 := (i 0).isLt; have h1 : (i 1).val < 128 := (i 1).isLt; show ((i 0).val * 128 + (i 1).val) / 128 % 160 < 160; omega⟩
  | ⟨2, _⟩ => ⟨((i 0).val * 128 + (i 1).val) % 128, by have h0 : (i 0).val < 160 := (i 0).isLt; have h1 : (i 1).val < 128 := (i 1).isLt; show ((i 0).val * 128 + (i 1).val) % 128 < 128; omega⟩
theorem val_main_v63_apply (x3 : (⟨S4x160x128, .f32⟩ : BufTy).Contents (Elt F)) (i : S160x128.Idx) :
    val_main_v63 (F := F) x3 i = val_main_v62 (F := F) x3 (idx_main_v63 i) := by
  unfold val_main_v63
  generalize val_main_v62 (F := F) x3 = y
  exact shapeCast_apply y shapeCasts_S1x160x128_S160x128 i (idx_main_v63 i)
    (by rewrite [Shape.rowMajor_val_three, Shape.rowMajor_val_two]; have h0 : (i 0).val < 160 := (i 0).isLt; have h1 : (i 1).val < 128 := (i 1).isLt; show (0 * 160 + ((i 0).val * 128 + (i 1).val) / 128 % 160) * 128 + ((i 0).val * 128 + (i 1).val) % 128 = (i 0).val * 128 + (i 1).val; omega)

def val_main_v64 (x4 : (⟨S4x128, .f32⟩ : BufTy).Contents (Elt F)) : (⟨S1x128, .f32⟩ : BufTy).Contents (Elt F) :=
  extractStridedSlice S1x128 ![1, 0] (x4) slices_S4x128_S1x128_1_0
abbrev idx_main_v64 (i : S1x128.Idx) : S4x128.Idx := fun a => match a with
  | ⟨0, _⟩ => ⟨1 + (i 0).val, by have h0 : (i 0).val < 1 := (i 0).isLt; show 1 + (i 0).val < 4; omega⟩
  | ⟨1, _⟩ => ⟨(i 1).val, (i 1).isLt⟩
theorem val_main_v64_apply (x4 : (⟨S4x128, .f32⟩ : BufTy).Contents (Elt F)) (i : S1x128.Idx) :
    val_main_v64 (F := F) x4 i = x4 (idx_main_v64 i) := by
  unfold val_main_v64
  exact extractStridedSlice_apply ![1, 0] x4 slices_S4x128_S1x128_1_0 i (idx_main_v64 i) (fun a => match a with
    | ⟨0, _⟩ => by show 1 + (i 0).val = 1 + (i 0).val; omega
    | ⟨1, _⟩ => by show (i 1).val = 0 + (i 1).val; omega)

def val_main_v65 (x4 : (⟨S4x128, .f32⟩ : BufTy).Contents (Elt F)) : (⟨S128, .f32⟩ : BufTy).Contents (Elt F) :=
  shapeCast _ (val_main_v64 (F := F) x4) shapeCasts_S1x128_S128
abbrev idx_main_v65 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v65_apply (x4 : (⟨S4x128, .f32⟩ : BufTy).Contents (Elt F)) (i : S128.Idx) :
    val_main_v65 (F := F) x4 i = val_main_v64 (F := F) x4 (idx_main_v65 i) := by
  unfold val_main_v65
  generalize val_main_v64 (F := F) x4 = y
  exact shapeCast_apply y shapeCasts_S1x128_S128 i (idx_main_v65 i)
    (by rewrite [Shape.rowMajor_val_two, Shape.rowMajor_val_one]; have h0 : (i 0).val < 128 := (i 0).isLt; show 0 * 128 + ((i 0).val) % 128 = (i 0).val; omega)

def val_main_v66 (x5 : (⟨S4x128x96, .f32⟩ : BufTy).Contents (Elt F)) : (⟨S1x128x96, .f32⟩ : BufTy).Contents (Elt F) :=
  extractStridedSlice S1x128x96 ![1, 0, 0] (x5) slices_S4x128x96_S1x128x96_1_0_0
abbrev idx_main_v66 (i : S1x128x96.Idx) : S4x128x96.Idx := fun a => match a with
  | ⟨0, _⟩ => ⟨1 + (i 0).val, by have h0 : (i 0).val < 1 := (i 0).isLt; show 1 + (i 0).val < 4; omega⟩
  | ⟨1, _⟩ => ⟨(i 1).val, (i 1).isLt⟩
  | ⟨2, _⟩ => ⟨(i 2).val, (i 2).isLt⟩
theorem val_main_v66_apply (x5 : (⟨S4x128x96, .f32⟩ : BufTy).Contents (Elt F)) (i : S1x128x96.Idx) :
    val_main_v66 (F := F) x5 i = x5 (idx_main_v66 i) := by
  unfold val_main_v66
  exact extractStridedSlice_apply ![1, 0, 0] x5 slices_S4x128x96_S1x128x96_1_0_0 i (idx_main_v66 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v67 (x5 : (⟨S4x128x96, .f32⟩ : BufTy).Contents (Elt F)) : (⟨S128x96, .f32⟩ : BufTy).Contents (Elt F) :=
  shapeCast _ (val_main_v66 (F := F) x5) shapeCasts_S1x128x96_S128x96
abbrev idx_main_v67 (i : S128x96.Idx) : S1x128x96.Idx := fun a => match a with
  | ⟨0, _⟩ => ⟨0, Nat.one_pos⟩
  | ⟨1, _⟩ => ⟨((i 0).val * 96 + (i 1).val) / 96 % 128, by have h0 : (i 0).val < 128 := (i 0).isLt; have h1 : (i 1).val < 96 := (i 1).isLt; show ((i 0).val * 96 + (i 1).val) / 96 % 128 < 128; omega⟩
  | ⟨2, _⟩ => ⟨((i 0).val * 96 + (i 1).val) % 96, by have h0 : (i 0).val < 128 := (i 0).isLt; have h1 : (i 1).val < 96 := (i 1).isLt; show ((i 0).val * 96 + (i 1).val) % 96 < 96; omega⟩
theorem val_main_v67_apply (x5 : (⟨S4x128x96, .f32⟩ : BufTy).Contents (Elt F)) (i : S128x96.Idx) :
    val_main_v67 (F := F) x5 i = val_main_v66 (F := F) x5 (idx_main_v67 i) := by
  unfold val_main_v67
  generalize val_main_v66 (F := F) x5 = y
  exact shapeCast_apply y shapeCasts_S1x128x96_S128x96 i (idx_main_v67 i)
    (by rewrite [Shape.rowMajor_val_three, Shape.rowMajor_val_two]; have h0 : (i 0).val < 128 := (i 0).isLt; have h1 : (i 1).val < 96 := (i 1).isLt; show (0 * 128 + ((i 0).val * 96 + (i 1).val) / 96 % 128) * 96 + ((i 0).val * 96 + (i 1).val) % 96 = (i 0).val * 96 + (i 1).val; omega)

def val_main_v68 (x6 : (⟨S4x96, .f32⟩ : BufTy).Contents (Elt F)) : (⟨S1x96, .f32⟩ : BufTy).Contents (Elt F) :=
  extractStridedSlice S1x96 ![1, 0] (x6) slices_S4x96_S1x96_1_0
abbrev idx_main_v68 (i : S1x96.Idx) : S4x96.Idx := fun a => match a with
  | ⟨0, _⟩ => ⟨1 + (i 0).val, by have h0 : (i 0).val < 1 := (i 0).isLt; show 1 + (i 0).val < 4; omega⟩
  | ⟨1, _⟩ => ⟨(i 1).val, (i 1).isLt⟩
theorem val_main_v68_apply (x6 : (⟨S4x96, .f32⟩ : BufTy).Contents (Elt F)) (i : S1x96.Idx) :
    val_main_v68 (F := F) x6 i = x6 (idx_main_v68 i) := by
  unfold val_main_v68
  exact extractStridedSlice_apply ![1, 0] x6 slices_S4x96_S1x96_1_0 i (idx_main_v68 i) (fun a => match a with
    | ⟨0, _⟩ => by show 1 + (i 0).val = 1 + (i 0).val; omega
    | ⟨1, _⟩ => by show (i 1).val = 0 + (i 1).val; omega)

def val_main_v69 (x6 : (⟨S4x96, .f32⟩ : BufTy).Contents (Elt F)) : (⟨S96, .f32⟩ : BufTy).Contents (Elt F) :=
  shapeCast _ (val_main_v68 (F := F) x6) shapeCasts_S1x96_S96
abbrev idx_main_v69 (i : S96.Idx) : S1x96.Idx := fun a => match a with
  | ⟨0, _⟩ => ⟨0, Nat.one_pos⟩
  | ⟨1, _⟩ => ⟨((i 0).val) % 96, by have h0 : (i 0).val < 96 := (i 0).isLt; show ((i 0).val) % 96 < 96; omega⟩
theorem val_main_v69_apply (x6 : (⟨S4x96, .f32⟩ : BufTy).Contents (Elt F)) (i : S96.Idx) :
    val_main_v69 (F := F) x6 i = val_main_v68 (F := F) x6 (idx_main_v69 i) := by
  unfold val_main_v69
  generalize val_main_v68 (F := F) x6 = y
  exact shapeCast_apply y shapeCasts_S1x96_S96 i (idx_main_v69 i)
    (by rewrite [Shape.rowMajor_val_two, Shape.rowMajor_val_one]; have h0 : (i 0).val < 96 := (i 0).isLt; show 0 * 96 + ((i 0).val) % 96 = (i 0).val; omega)

def val_main_v70 (x7 : (⟨S4x96x1, .f32⟩ : BufTy).Contents (Elt F)) : (⟨S1x96x1, .f32⟩ : BufTy).Contents (Elt F) :=
  extractStridedSlice S1x96x1 ![1, 0, 0] (x7) slices_S4x96x1_S1x96x1_1_0_0
abbrev idx_main_v70 (i : S1x96x1.Idx) : S4x96x1.Idx := fun a => match a with
  | ⟨0, _⟩ => ⟨1 + (i 0).val, by have h0 : (i 0).val < 1 := (i 0).isLt; show 1 + (i 0).val < 4; omega⟩
  | ⟨1, _⟩ => ⟨(i 1).val, (i 1).isLt⟩
  | ⟨2, _⟩ => ⟨(i 2).val, (i 2).isLt⟩
theorem val_main_v70_apply (x7 : (⟨S4x96x1, .f32⟩ : BufTy).Contents (Elt F)) (i : S1x96x1.Idx) :
    val_main_v70 (F := F) x7 i = x7 (idx_main_v70 i) := by
  unfold val_main_v70
  exact extractStridedSlice_apply ![1, 0, 0] x7 slices_S4x96x1_S1x96x1_1_0_0 i (idx_main_v70 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v71 (x7 : (⟨S4x96x1, .f32⟩ : BufTy).Contents (Elt F)) : (⟨S96x1, .f32⟩ : BufTy).Contents (Elt F) :=
  shapeCast _ (val_main_v70 (F := F) x7) shapeCasts_S1x96x1_S96x1
abbrev idx_main_v71 (i : S96x1.Idx) : S1x96x1.Idx := fun a => match a with
  | ⟨0, _⟩ => ⟨0, Nat.one_pos⟩
  | ⟨1, _⟩ => ⟨((i 0).val * 1 + (i 1).val) / 1 % 96, by have h0 : (i 0).val < 96 := (i 0).isLt; have h1 : (i 1).val < 1 := (i 1).isLt; show ((i 0).val * 1 + (i 1).val) / 1 % 96 < 96; omega⟩
  | ⟨2, _⟩ => ⟨0, Nat.one_pos⟩
theorem val_main_v71_apply (x7 : (⟨S4x96x1, .f32⟩ : BufTy).Contents (Elt F)) (i : S96x1.Idx) :
    val_main_v71 (F := F) x7 i = val_main_v70 (F := F) x7 (idx_main_v71 i) := by
  unfold val_main_v71
  generalize val_main_v70 (F := F) x7 = y
  exact shapeCast_apply y shapeCasts_S1x96x1_S96x1 i (idx_main_v71 i)
    (by rewrite [Shape.rowMajor_val_three, Shape.rowMajor_val_two]; have h0 : (i 0).val < 96 := (i 0).isLt; have h1 : (i 1).val < 1 := (i 1).isLt; show (0 * 96 + ((i 0).val * 1 + (i 1).val) / 1 % 96) * 1 + 0 = (i 0).val * 1 + (i 1).val; omega)

def val_main_v72 (x8 : (⟨S4x1, .f32⟩ : BufTy).Contents (Elt F)) : (⟨S1x1, .f32⟩ : BufTy).Contents (Elt F) :=
  extractStridedSlice S1x1 ![1, 0] (x8) slices_S4x1_S1x1_1_0
abbrev idx_main_v72 (i : S1x1.Idx) : S4x1.Idx := fun a => match a with
  | ⟨0, _⟩ => ⟨1 + (i 0).val, by have h0 : (i 0).val < 1 := (i 0).isLt; show 1 + (i 0).val < 4; omega⟩
  | ⟨1, _⟩ => ⟨(i 1).val, (i 1).isLt⟩
theorem val_main_v72_apply (x8 : (⟨S4x1, .f32⟩ : BufTy).Contents (Elt F)) (i : S1x1.Idx) :
    val_main_v72 (F := F) x8 i = x8 (idx_main_v72 i) := by
  unfold val_main_v72
  exact extractStridedSlice_apply ![1, 0] x8 slices_S4x1_S1x1_1_0 i (idx_main_v72 i) (fun a => match a with
    | ⟨0, _⟩ => by show 1 + (i 0).val = 1 + (i 0).val; omega
    | ⟨1, _⟩ => by show (i 1).val = 0 + (i 1).val; omega)

def val_main_v73 (x8 : (⟨S4x1, .f32⟩ : BufTy).Contents (Elt F)) : (⟨S1, .f32⟩ : BufTy).Contents (Elt F) :=
  shapeCast _ (val_main_v72 (F := F) x8) shapeCasts_S1x1_S1
abbrev idx_main_v73 (i : S1.Idx) : S1x1.Idx := fun a => match a with
  | ⟨0, _⟩ => ⟨0, Nat.one_pos⟩
  | ⟨1, _⟩ => ⟨0, Nat.one_pos⟩
theorem val_main_v73_apply (x8 : (⟨S4x1, .f32⟩ : BufTy).Contents (Elt F)) (i : S1.Idx) :
    val_main_v73 (F := F) x8 i = val_main_v72 (F := F) x8 (idx_main_v73 i) := by
  unfold val_main_v73
  generalize val_main_v72 (F := F) x8 = y
  exact shapeCast_apply y shapeCasts_S1x1_S1 i (idx_main_v73 i)
    (by rewrite [Shape.rowMajor_val_two, Shape.rowMajor_val_one]; have h0 : (i 0).val < 1 := (i 0).isLt; show 0 * 1 + 0 = (i 0).val; omega)

def val_main_v74 (x0 : (⟨S200000x384, .f32⟩ : BufTy).Contents (Elt F)) (x1 : (⟨S4x384x160, .f32⟩ : BufTy).Contents (Elt F)) (x10 : (⟨S50000, .i32⟩ : BufTy).Contents (Elt F)) : (⟨S50000x160, .f32⟩ : BufTy).Contents (Elt F) :=
  Host.dotGeneral dot_S50000x384_S384x160_S50000x160_1_0_0_1_n_n none (val_main_v57 (F := F) x0 x10) (val_main_v59 (F := F) x1)
theorem lhs_main_v74_0 (i : S50000x160.Idx) (q : dot_S50000x384_S384x160_S50000x160_1_0_0_1_n_n.contr.Idx) :
    (dot_S50000x384_S384x160_S50000x160_1_0_0_1_n_n.lhsIdx i q 0).val = (i 0).val := by
  unfold DotDims.lhsIdx
  rw [dif_neg (show ¬(0 : Fin S50000x384.rank) ∈ dot_S50000x384_S384x160_S50000x160_1_0_0_1_n_n.lhsBatch by decide), dif_pos (show (0 : Fin S50000x384.rank) ∈ dot_S50000x384_S384x160_S50000x160_1_0_0_1_n_n.lhsNonContracting by decide)]
  rfl
theorem lhs_main_v74_1 (i : S50000x160.Idx) (q : dot_S50000x384_S384x160_S50000x160_1_0_0_1_n_n.contr.Idx) :
    (dot_S50000x384_S384x160_S50000x160_1_0_0_1_n_n.lhsIdx i q 1).val = (q ⟨0, by decide⟩).val :=
  dot_S50000x384_S384x160_S50000x160_1_0_0_1_n_n.lhsIdx_val_of_single rfl i q
theorem rhs_main_v74_0 (i : S50000x160.Idx) (q : dot_S50000x384_S384x160_S50000x160_1_0_0_1_n_n.contr.Idx) :
    (dot_S50000x384_S384x160_S50000x160_1_0_0_1_n_n.rhsIdx i q 0).val = (q ⟨0, by decide⟩).val :=
  dot_S50000x384_S384x160_S50000x160_1_0_0_1_n_n.rhsIdx_val_of_single rfl i q
theorem rhs_main_v74_1 (i : S50000x160.Idx) (q : dot_S50000x384_S384x160_S50000x160_1_0_0_1_n_n.contr.Idx) :
    (dot_S50000x384_S384x160_S50000x160_1_0_0_1_n_n.rhsIdx i q 1).val = (i 1).val := by
  unfold DotDims.rhsIdx
  rw [dif_neg (show ¬(1 : Fin S384x160.rank) ∈ dot_S50000x384_S384x160_S50000x160_1_0_0_1_n_n.rhsBatch by decide), dif_pos (show (1 : Fin S384x160.rank) ∈ dot_S50000x384_S384x160_S50000x160_1_0_0_1_n_n.rhsNonContracting by decide)]
  rfl
abbrev lidx_main_v74 (i : S50000x160.Idx) (k : Fin 384) : S50000x384.Idx := fun a => match a with
  | ⟨0, _⟩ => ⟨(i 0).val, (i 0).isLt⟩
  | ⟨1, _⟩ => ⟨k.val, k.isLt⟩
abbrev ridx_main_v74 (i : S50000x160.Idx) (k : Fin 384) : S384x160.Idx := fun a => match a with
  | ⟨0, _⟩ => ⟨k.val, k.isLt⟩
  | ⟨1, _⟩ => ⟨(i 1).val, (i 1).isLt⟩

theorem val_main_v74_apply (x0 : (⟨S200000x384, .f32⟩ : BufTy).Contents (Elt Ideal)) (x1 : (⟨S4x384x160, .f32⟩ : BufTy).Contents (Elt Ideal)) (x10 : (⟨S50000, .i32⟩ : BufTy).Contents (Elt Ideal)) (i : S50000x160.Idx) :
    val_main_v74 (F := Ideal) x0 x1 x10 i = ∑ k : Fin 384, (val_main_v57 (F := Ideal) x0 x10) (lidx_main_v74 i k) * (val_main_v59 (F := Ideal) x1) (ridx_main_v74 i k) := by
  unfold val_main_v74
  generalize val_main_v57 (F := Ideal) x0 x10 = y0
  generalize val_main_v59 (F := Ideal) x1 = y1
  simp only [Host.dotGeneral]
  rw [Ideal.dotGeneral_apply, ← Equiv.sum_comp (ValueIdx.contrEquiv1 dot_S50000x384_S384x160_S50000x160_1_0_0_1_n_n 384 rfl rfl).symm]
  refine Finset.sum_congr rfl fun k _ => ?_
  have hk := ValueIdx.contrEquiv1_symm_val dot_S50000x384_S384x160_S50000x160_1_0_0_1_n_n 384 rfl rfl k
  have el : dot_S50000x384_S384x160_S50000x160_1_0_0_1_n_n.lhsIdx i ((ValueIdx.contrEquiv1 dot_S50000x384_S384x160_S50000x160_1_0_0_1_n_n 384 rfl rfl).symm k) = lidx_main_v74 i k := funext fun a => Fin.ext (by
    match a with
    | ⟨0, _⟩ => exact lhs_main_v74_0 _ _
    | ⟨1, _⟩ => exact (lhs_main_v74_1 _ _).trans hk)
  have er : dot_S50000x384_S384x160_S50000x160_1_0_0_1_n_n.rhsIdx i ((ValueIdx.contrEquiv1 dot_S50000x384_S384x160_S50000x160_1_0_0_1_n_n 384 rfl rfl).symm k) = ridx_main_v74 i k := funext fun a => Fin.ext (by
    match a with
    | ⟨0, _⟩ => exact (rhs_main_v74_0 _ _).trans hk
    | ⟨1, _⟩ => exact rhs_main_v74_1 _ _)
  rw [el, er]

def val_main_v75 (x2 : (⟨S4x160, .f32⟩ : BufTy).Contents (Elt F)) : (⟨S1x160, .f32⟩ : BufTy).Contents (Elt F) :=
  broadcastInDim S1x160 ![1] bcast_S160_S1x160_1 (val_main_v61 (F := F) x2)
abbrev idx_main_v75 (i : S1x160.Idx) : S160.Idx := fun a => match a with
  | ⟨0, _⟩ => ⟨(i 1).val, (i 1).isLt⟩
theorem val_main_v75_apply (x2 : (⟨S4x160, .f32⟩ : BufTy).Contents (Elt F)) (i : S1x160.Idx) :
    val_main_v75 (F := F) x2 i = val_main_v61 (F := F) x2 (idx_main_v75 i) := by
  unfold val_main_v75
  generalize val_main_v61 (F := F) x2 = y
  exact broadcastInDim_apply _ bcast_S160_S1x160_1 y i (idx_main_v75 i) (fun a => match a with
    | ⟨0, _⟩ => by show (i 1).val = if (160 : Nat) = 1 then 0 else (i 1).val; rw [if_neg (by decide)])

def val_main_v76 (x2 : (⟨S4x160, .f32⟩ : BufTy).Contents (Elt F)) : (⟨S50000x160, .f32⟩ : BufTy).Contents (Elt F) :=
  broadcastInDim S50000x160 ![0, 1] bcast_S1x160_S50000x160_0_1 (val_main_v75 (F := F) x2)
abbrev idx_main_v76 (i : S50000x160.Idx) : S1x160.Idx := fun a => match a with
  | ⟨0, _⟩ => ⟨0, Nat.one_pos⟩
  | ⟨1, _⟩ => ⟨(i 1).val, (i 1).isLt⟩
theorem val_main_v76_apply (x2 : (⟨S4x160, .f32⟩ : BufTy).Contents (Elt F)) (i : S50000x160.Idx) :
    val_main_v76 (F := F) x2 i = val_main_v75 (F := F) x2 (idx_main_v76 i) := by
  unfold val_main_v76
  generalize val_main_v75 (F := F) x2 = y
  exact broadcastInDim_apply _ bcast_S1x160_S50000x160_0_1 y i (idx_main_v76 i) (fun a => match a with
    | ⟨0, _⟩ => by show 0 = if (1 : Nat) = 1 then 0 else (i 0).val; rw [if_pos rfl]
    | ⟨1, _⟩ => by show (i 1).val = if (160 : Nat) = 1 then 0 else (i 1).val; rw [if_neg (by decide)])

def val_main_v77 (x0 : (⟨S200000x384, .f32⟩ : BufTy).Contents (Elt F)) (x1 : (⟨S4x384x160, .f32⟩ : BufTy).Contents (Elt F)) (x2 : (⟨S4x160, .f32⟩ : BufTy).Contents (Elt F)) (x10 : (⟨S50000, .i32⟩ : BufTy).Contents (Elt F)) : (⟨S50000x160, .f32⟩ : BufTy).Contents (Elt F) :=
  addf (val_main_v74 (F := F) x0 x1 x10) (val_main_v76 (F := F) x2)
def val_main_cst_8 : (⟨S_, .f32⟩ : BufTy).Contents (Elt F) :=
  constant S_ .f32 0x3DCCCCCD#32
def val_main_call3_cst : (⟨S_, .f32⟩ : BufTy).Contents (Elt F) :=
  constant S_ .f32 0x00000000#32
def val_main_call3_v0 : (⟨S50000x160, .f32⟩ : BufTy).Contents (Elt F) :=
  broadcastInDim S50000x160 ![] bcast_S_S50000x160 (val_main_call3_cst (F := F))
def val_main_call3_v1 (x0 : (⟨S200000x384, .f32⟩ : BufTy).Contents (Elt F)) (x1 : (⟨S4x384x160, .f32⟩ : BufTy).Contents (Elt F)) (x2 : (⟨S4x160, .f32⟩ : BufTy).Contents (Elt F)) (x10 : (⟨S50000, .i32⟩ : BufTy).Contents (Elt F)) : (⟨S50000x160, .f32⟩ : BufTy).Contents (Elt F) :=
  maximumf (val_main_v77 (F := F) x0 x1 x2 x10) (val_main_call3_v0 (F := F))
def val_main_call3_cst_0 : (⟨S_, .f32⟩ : BufTy).Contents (Elt F) :=
  constant S_ .f32 0x00000000#32
def val_main_call3_v2 : (⟨S50000x160, .f32⟩ : BufTy).Contents (Elt F) :=
  broadcastInDim S50000x160 ![] bcast_S_S50000x160 (val_main_call3_cst_0 (F := F))
def val_main_call3_v3 (x0 : (⟨S200000x384, .f32⟩ : BufTy).Contents (Elt F)) (x1 : (⟨S4x384x160, .f32⟩ : BufTy).Contents (Elt F)) (x2 : (⟨S4x160, .f32⟩ : BufTy).Contents (Elt F)) (x10 : (⟨S50000, .i32⟩ : BufTy).Contents (Elt F)) : (⟨S50000x160, .f32⟩ : BufTy).Contents (Elt F) :=
  minimumf (val_main_v77 (F := F) x0 x1 x2 x10) (val_main_call3_v2 (F := F))
def val_main_call3_v4 : (⟨S_, .f32⟩ : BufTy).Contents (Elt F) :=
  id (val_main_cst_8 (F := F))
def val_main_call3_v5 : (⟨S50000x160, .f32⟩ : BufTy).Contents (Elt F) :=
  broadcastInDim S50000x160 ![] bcast_S_S50000x160 (val_main_call3_v4 (F := F))
def val_main_call3_v6 (x0 : (⟨S200000x384, .f32⟩ : BufTy).Contents (Elt F)) (x1 : (⟨S4x384x160, .f32⟩ : BufTy).Contents (Elt F)) (x2 : (⟨S4x160, .f32⟩ : BufTy).Contents (Elt F)) (x10 : (⟨S50000, .i32⟩ : BufTy).Contents (Elt F)) : (⟨S50000x160, .f32⟩ : BufTy).Contents (Elt F) :=
  Host.divf (val_main_call3_v3 (F := F) x0 x1 x2 x10) (val_main_call3_v5 (F := F))
def val_main_call3_v7 (x0 : (⟨S200000x384, .f32⟩ : BufTy).Contents (Elt F)) (x1 : (⟨S4x384x160, .f32⟩ : BufTy).Contents (Elt F)) (x2 : (⟨S4x160, .f32⟩ : BufTy).Contents (Elt F)) (x10 : (⟨S50000, .i32⟩ : BufTy).Contents (Elt F)) : (⟨S50000x160, .f32⟩ : BufTy).Contents (Elt F) :=
  Host.expm1 (val_main_call3_v6 (F := F) x0 x1 x2 x10)
def val_main_call3_v8 : (⟨S_, .f32⟩ : BufTy).Contents (Elt F) :=
  id (val_main_cst_8 (F := F))
def val_main_call3_v9 : (⟨S50000x160, .f32⟩ : BufTy).Contents (Elt F) :=
  broadcastInDim S50000x160 ![] bcast_S_S50000x160 (val_main_call3_v8 (F := F))
def val_main_call3_v10 (x0 : (⟨S200000x384, .f32⟩ : BufTy).Contents (Elt F)) (x1 : (⟨S4x384x160, .f32⟩ : BufTy).Contents (Elt F)) (x2 : (⟨S4x160, .f32⟩ : BufTy).Contents (Elt F)) (x10 : (⟨S50000, .i32⟩ : BufTy).Contents (Elt F)) : (⟨S50000x160, .f32⟩ : BufTy).Contents (Elt F) :=
  mulf (val_main_call3_v9 (F := F)) (val_main_call3_v7 (F := F) x0 x1 x2 x10)
def val_main_v78 (x0 : (⟨S200000x384, .f32⟩ : BufTy).Contents (Elt F)) (x1 : (⟨S4x384x160, .f32⟩ : BufTy).Contents (Elt F)) (x2 : (⟨S4x160, .f32⟩ : BufTy).Contents (Elt F)) (x10 : (⟨S50000, .i32⟩ : BufTy).Contents (Elt F)) : (⟨S50000x160, .f32⟩ : BufTy).Contents (Elt F) :=
  addf (val_main_call3_v1 (F := F) x0 x1 x2 x10) (val_main_call3_v10 (F := F) x0 x1 x2 x10)
def val_main_v79 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x10 : (⟨S50000, .i32⟩ : BufTy).Contents (Elt F)) : (⟨S50000x128, .f32⟩ : BufTy).Contents (Elt F) :=
  Host.dotGeneral dot_S50000x160_S160x128_S50000x128_1_0_0_1_n_n none (val_main_v78 (F := F) x0 x1 x2 x10) (val_main_v63 (F := F) x3)
theorem lhs_main_v79_0 (i : S50000x128.Idx) (q : dot_S50000x160_S160x128_S50000x128_1_0_0_1_n_n.contr.Idx) :
    (dot_S50000x160_S160x128_S50000x128_1_0_0_1_n_n.lhsIdx i q 0).val = (i 0).val := by
  unfold DotDims.lhsIdx
  rw [dif_neg (show ¬(0 : Fin S50000x160.rank) ∈ dot_S50000x160_S160x128_S50000x128_1_0_0_1_n_n.lhsBatch by decide), dif_pos (show (0 : Fin S50000x160.rank) ∈ dot_S50000x160_S160x128_S50000x128_1_0_0_1_n_n.lhsNonContracting by decide)]
  rfl
theorem lhs_main_v79_1 (i : S50000x128.Idx) (q : dot_S50000x160_S160x128_S50000x128_1_0_0_1_n_n.contr.Idx) :
    (dot_S50000x160_S160x128_S50000x128_1_0_0_1_n_n.lhsIdx i q 1).val = (q ⟨0, by decide⟩).val :=
  dot_S50000x160_S160x128_S50000x128_1_0_0_1_n_n.lhsIdx_val_of_single rfl i q
theorem rhs_main_v79_0 (i : S50000x128.Idx) (q : dot_S50000x160_S160x128_S50000x128_1_0_0_1_n_n.contr.Idx) :
    (dot_S50000x160_S160x128_S50000x128_1_0_0_1_n_n.rhsIdx i q 0).val = (q ⟨0, by decide⟩).val :=
  dot_S50000x160_S160x128_S50000x128_1_0_0_1_n_n.rhsIdx_val_of_single rfl i q
theorem rhs_main_v79_1 (i : S50000x128.Idx) (q : dot_S50000x160_S160x128_S50000x128_1_0_0_1_n_n.contr.Idx) :
    (dot_S50000x160_S160x128_S50000x128_1_0_0_1_n_n.rhsIdx i q 1).val = (i 1).val := by
  unfold DotDims.rhsIdx
  rw [dif_neg (show ¬(1 : Fin S160x128.rank) ∈ dot_S50000x160_S160x128_S50000x128_1_0_0_1_n_n.rhsBatch by decide), dif_pos (show (1 : Fin S160x128.rank) ∈ dot_S50000x160_S160x128_S50000x128_1_0_0_1_n_n.rhsNonContracting by decide)]
  rfl
abbrev lidx_main_v79 (i : S50000x128.Idx) (k : Fin 160) : S50000x160.Idx := fun a => match a with
  | ⟨0, _⟩ => ⟨(i 0).val, (i 0).isLt⟩
  | ⟨1, _⟩ => ⟨k.val, k.isLt⟩
abbrev ridx_main_v79 (i : S50000x128.Idx) (k : Fin 160) : S160x128.Idx := fun a => match a with
  | ⟨0, _⟩ => ⟨k.val, k.isLt⟩
  | ⟨1, _⟩ => ⟨(i 1).val, (i 1).isLt⟩

theorem val_main_v79_apply (x0 : (⟨S200000x384, .f32⟩ : BufTy).Contents (Elt Ideal)) (x1 : (⟨S4x384x160, .f32⟩ : BufTy).Contents (Elt Ideal)) (x2 : (⟨S4x160, .f32⟩ : BufTy).Contents (Elt Ideal)) (x3 : (⟨S4x160x128, .f32⟩ : BufTy).Contents (Elt Ideal)) (x10 : (⟨S50000, .i32⟩ : BufTy).Contents (Elt Ideal)) (i : S50000x128.Idx) :
    val_main_v79 (F := Ideal) x0 x1 x2 x3 x10 i = ∑ k : Fin 160, (val_main_v78 (F := Ideal) x0 x1 x2 x10) (lidx_main_v79 i k) * (val_main_v63 (F := Ideal) x3) (ridx_main_v79 i k) := by
  unfold val_main_v79
  generalize val_main_v78 (F := Ideal) x0 x1 x2 x10 = y0
  generalize val_main_v63 (F := Ideal) x3 = y1
  simp only [Host.dotGeneral]
  rw [Ideal.dotGeneral_apply, ← Equiv.sum_comp (ValueIdx.contrEquiv1 dot_S50000x160_S160x128_S50000x128_1_0_0_1_n_n 160 rfl rfl).symm]
  refine Finset.sum_congr rfl fun k _ => ?_
  have hk := ValueIdx.contrEquiv1_symm_val dot_S50000x160_S160x128_S50000x128_1_0_0_1_n_n 160 rfl rfl k
  have el : dot_S50000x160_S160x128_S50000x128_1_0_0_1_n_n.lhsIdx i ((ValueIdx.contrEquiv1 dot_S50000x160_S160x128_S50000x128_1_0_0_1_n_n 160 rfl rfl).symm k) = lidx_main_v79 i k := funext fun a => Fin.ext (by
    match a with
    | ⟨0, _⟩ => exact lhs_main_v79_0 _ _
    | ⟨1, _⟩ => exact (lhs_main_v79_1 _ _).trans hk)
  have er : dot_S50000x160_S160x128_S50000x128_1_0_0_1_n_n.rhsIdx i ((ValueIdx.contrEquiv1 dot_S50000x160_S160x128_S50000x128_1_0_0_1_n_n 160 rfl rfl).symm k) = ridx_main_v79 i k := funext fun a => Fin.ext (by
    match a with
    | ⟨0, _⟩ => exact (rhs_main_v79_0 _ _).trans hk
    | ⟨1, _⟩ => exact rhs_main_v79_1 _ _)
  rw [el, er]

def val_main_v80 (x4 : (⟨S4x128, .f32⟩ : BufTy).Contents (Elt F)) : (⟨S1x128, .f32⟩ : BufTy).Contents (Elt F) :=
  broadcastInDim S1x128 ![1] bcast_S128_S1x128_1 (val_main_v65 (F := F) x4)
abbrev idx_main_v80 (i : S1x128.Idx) : S128.Idx := fun a => match a with
  | ⟨0, _⟩ => ⟨(i 1).val, (i 1).isLt⟩
theorem val_main_v80_apply (x4 : (⟨S4x128, .f32⟩ : BufTy).Contents (Elt F)) (i : S1x128.Idx) :
    val_main_v80 (F := F) x4 i = val_main_v65 (F := F) x4 (idx_main_v80 i) := by
  unfold val_main_v80
  generalize val_main_v65 (F := F) x4 = y
  exact broadcastInDim_apply _ bcast_S128_S1x128_1 y i (idx_main_v80 i) (fun a => match a with
    | ⟨0, _⟩ => by show (i 1).val = if (128 : Nat) = 1 then 0 else (i 1).val; rw [if_neg (by decide)])

def val_main_v81 (x4 : (⟨S4x128, .f32⟩ : BufTy).Contents (Elt F)) : (⟨S50000x128, .f32⟩ : BufTy).Contents (Elt F) :=
  broadcastInDim S50000x128 ![0, 1] bcast_S1x128_S50000x128_0_1 (val_main_v80 (F := F) x4)
abbrev idx_main_v81 (i : S50000x128.Idx) : S1x128.Idx := fun a => match a with
  | ⟨0, _⟩ => ⟨0, Nat.one_pos⟩
  | ⟨1, _⟩ => ⟨(i 1).val, (i 1).isLt⟩
theorem val_main_v81_apply (x4 : (⟨S4x128, .f32⟩ : BufTy).Contents (Elt F)) (i : S50000x128.Idx) :
    val_main_v81 (F := F) x4 i = val_main_v80 (F := F) x4 (idx_main_v81 i) := by
  unfold val_main_v81
  generalize val_main_v80 (F := F) x4 = y
  exact broadcastInDim_apply _ bcast_S1x128_S50000x128_0_1 y i (idx_main_v81 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v82 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x10 : (⟨S50000, .i32⟩ : BufTy).Contents (Elt F)) : (⟨S50000x128, .f32⟩ : BufTy).Contents (Elt F) :=
  addf (val_main_v79 (F := F) x0 x1 x2 x3 x10) (val_main_v81 (F := F) x4)
def val_main_cst_9 : (⟨S_, .f32⟩ : BufTy).Contents (Elt F) :=
  constant S_ .f32 0x3DCCCCCD#32
def val_main_call4_cst : (⟨S_, .f32⟩ : BufTy).Contents (Elt F) :=
  constant S_ .f32 0x00000000#32
def val_main_call4_v0 : (⟨S50000x128, .f32⟩ : BufTy).Contents (Elt F) :=
  broadcastInDim S50000x128 ![] bcast_S_S50000x128 (val_main_call4_cst (F := F))
def val_main_call4_v1 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x10 : (⟨S50000, .i32⟩ : BufTy).Contents (Elt F)) : (⟨S50000x128, .f32⟩ : BufTy).Contents (Elt F) :=
  maximumf (val_main_v82 (F := F) x0 x1 x2 x3 x4 x10) (val_main_call4_v0 (F := F))
def val_main_call4_cst_0 : (⟨S_, .f32⟩ : BufTy).Contents (Elt F) :=
  constant S_ .f32 0x00000000#32
def val_main_call4_v2 : (⟨S50000x128, .f32⟩ : BufTy).Contents (Elt F) :=
  broadcastInDim S50000x128 ![] bcast_S_S50000x128 (val_main_call4_cst_0 (F := F))
def val_main_call4_v3 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x10 : (⟨S50000, .i32⟩ : BufTy).Contents (Elt F)) : (⟨S50000x128, .f32⟩ : BufTy).Contents (Elt F) :=
  minimumf (val_main_v82 (F := F) x0 x1 x2 x3 x4 x10) (val_main_call4_v2 (F := F))
def val_main_call4_v4 : (⟨S_, .f32⟩ : BufTy).Contents (Elt F) :=
  id (val_main_cst_9 (F := F))
def val_main_call4_v5 : (⟨S50000x128, .f32⟩ : BufTy).Contents (Elt F) :=
  broadcastInDim S50000x128 ![] bcast_S_S50000x128 (val_main_call4_v4 (F := F))
def val_main_call4_v6 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x10 : (⟨S50000, .i32⟩ : BufTy).Contents (Elt F)) : (⟨S50000x128, .f32⟩ : BufTy).Contents (Elt F) :=
  Host.divf (val_main_call4_v3 (F := F) x0 x1 x2 x3 x4 x10) (val_main_call4_v5 (F := F))
def val_main_call4_v7 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x10 : (⟨S50000, .i32⟩ : BufTy).Contents (Elt F)) : (⟨S50000x128, .f32⟩ : BufTy).Contents (Elt F) :=
  Host.expm1 (val_main_call4_v6 (F := F) x0 x1 x2 x3 x4 x10)
def val_main_call4_v8 : (⟨S_, .f32⟩ : BufTy).Contents (Elt F) :=
  id (val_main_cst_9 (F := F))
def val_main_call4_v9 : (⟨S50000x128, .f32⟩ : BufTy).Contents (Elt F) :=
  broadcastInDim S50000x128 ![] bcast_S_S50000x128 (val_main_call4_v8 (F := F))
def val_main_call4_v10 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x10 : (⟨S50000, .i32⟩ : BufTy).Contents (Elt F)) : (⟨S50000x128, .f32⟩ : BufTy).Contents (Elt F) :=
  mulf (val_main_call4_v9 (F := F)) (val_main_call4_v7 (F := F) x0 x1 x2 x3 x4 x10)
def val_main_v83 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x10 : (⟨S50000, .i32⟩ : BufTy).Contents (Elt F)) : (⟨S50000x128, .f32⟩ : BufTy).Contents (Elt F) :=
  addf (val_main_call4_v1 (F := F) x0 x1 x2 x3 x4 x10) (val_main_call4_v10 (F := F) x0 x1 x2 x3 x4 x10)
def val_main_v84 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x10 : (⟨S50000, .i32⟩ : BufTy).Contents (Elt F)) : (⟨S50000x96, .f32⟩ : BufTy).Contents (Elt F) :=
  Host.dotGeneral dot_S50000x128_S128x96_S50000x96_1_0_0_1_n_n none (val_main_v83 (F := F) x0 x1 x2 x3 x4 x10) (val_main_v67 (F := F) x5)
theorem lhs_main_v84_0 (i : S50000x96.Idx) (q : dot_S50000x128_S128x96_S50000x96_1_0_0_1_n_n.contr.Idx) :
    (dot_S50000x128_S128x96_S50000x96_1_0_0_1_n_n.lhsIdx i q 0).val = (i 0).val := by
  unfold DotDims.lhsIdx
  rw [dif_neg (show ¬(0 : Fin S50000x128.rank) ∈ dot_S50000x128_S128x96_S50000x96_1_0_0_1_n_n.lhsBatch by decide), dif_pos (show (0 : Fin S50000x128.rank) ∈ dot_S50000x128_S128x96_S50000x96_1_0_0_1_n_n.lhsNonContracting by decide)]
  rfl
theorem lhs_main_v84_1 (i : S50000x96.Idx) (q : dot_S50000x128_S128x96_S50000x96_1_0_0_1_n_n.contr.Idx) :
    (dot_S50000x128_S128x96_S50000x96_1_0_0_1_n_n.lhsIdx i q 1).val = (q ⟨0, by decide⟩).val :=
  dot_S50000x128_S128x96_S50000x96_1_0_0_1_n_n.lhsIdx_val_of_single rfl i q
theorem rhs_main_v84_0 (i : S50000x96.Idx) (q : dot_S50000x128_S128x96_S50000x96_1_0_0_1_n_n.contr.Idx) :
    (dot_S50000x128_S128x96_S50000x96_1_0_0_1_n_n.rhsIdx i q 0).val = (q ⟨0, by decide⟩).val :=
  dot_S50000x128_S128x96_S50000x96_1_0_0_1_n_n.rhsIdx_val_of_single rfl i q
theorem rhs_main_v84_1 (i : S50000x96.Idx) (q : dot_S50000x128_S128x96_S50000x96_1_0_0_1_n_n.contr.Idx) :
    (dot_S50000x128_S128x96_S50000x96_1_0_0_1_n_n.rhsIdx i q 1).val = (i 1).val := by
  unfold DotDims.rhsIdx
  rw [dif_neg (show ¬(1 : Fin S128x96.rank) ∈ dot_S50000x128_S128x96_S50000x96_1_0_0_1_n_n.rhsBatch by decide), dif_pos (show (1 : Fin S128x96.rank) ∈ dot_S50000x128_S128x96_S50000x96_1_0_0_1_n_n.rhsNonContracting by decide)]
  rfl
abbrev lidx_main_v84 (i : S50000x96.Idx) (k : Fin 128) : S50000x128.Idx := fun a => match a with
  | ⟨0, _⟩ => ⟨(i 0).val, (i 0).isLt⟩
  | ⟨1, _⟩ => ⟨k.val, k.isLt⟩
abbrev ridx_main_v84 (i : S50000x96.Idx) (k : Fin 128) : S128x96.Idx := fun a => match a with
  | ⟨0, _⟩ => ⟨k.val, k.isLt⟩
  | ⟨1, _⟩ => ⟨(i 1).val, (i 1).isLt⟩

theorem val_main_v84_apply (x0 : (⟨S200000x384, .f32⟩ : BufTy).Contents (Elt Ideal)) (x1 : (⟨S4x384x160, .f32⟩ : BufTy).Contents (Elt Ideal)) (x2 : (⟨S4x160, .f32⟩ : BufTy).Contents (Elt Ideal)) (x3 : (⟨S4x160x128, .f32⟩ : BufTy).Contents (Elt Ideal)) (x4 : (⟨S4x128, .f32⟩ : BufTy).Contents (Elt Ideal)) (x5 : (⟨S4x128x96, .f32⟩ : BufTy).Contents (Elt Ideal)) (x10 : (⟨S50000, .i32⟩ : BufTy).Contents (Elt Ideal)) (i : S50000x96.Idx) :
    val_main_v84 (F := Ideal) x0 x1 x2 x3 x4 x5 x10 i = ∑ k : Fin 128, (val_main_v83 (F := Ideal) x0 x1 x2 x3 x4 x10) (lidx_main_v84 i k) * (val_main_v67 (F := Ideal) x5) (ridx_main_v84 i k) := by
  unfold val_main_v84
  generalize val_main_v83 (F := Ideal) x0 x1 x2 x3 x4 x10 = y0
  generalize val_main_v67 (F := Ideal) x5 = y1
  simp only [Host.dotGeneral]
  rw [Ideal.dotGeneral_apply, ← Equiv.sum_comp (ValueIdx.contrEquiv1 dot_S50000x128_S128x96_S50000x96_1_0_0_1_n_n 128 rfl rfl).symm]
  refine Finset.sum_congr rfl fun k _ => ?_
  have hk := ValueIdx.contrEquiv1_symm_val dot_S50000x128_S128x96_S50000x96_1_0_0_1_n_n 128 rfl rfl k
  have el : dot_S50000x128_S128x96_S50000x96_1_0_0_1_n_n.lhsIdx i ((ValueIdx.contrEquiv1 dot_S50000x128_S128x96_S50000x96_1_0_0_1_n_n 128 rfl rfl).symm k) = lidx_main_v84 i k := funext fun a => Fin.ext (by
    match a with
    | ⟨0, _⟩ => exact lhs_main_v84_0 _ _
    | ⟨1, _⟩ => exact (lhs_main_v84_1 _ _).trans hk)
  have er : dot_S50000x128_S128x96_S50000x96_1_0_0_1_n_n.rhsIdx i ((ValueIdx.contrEquiv1 dot_S50000x128_S128x96_S50000x96_1_0_0_1_n_n 128 rfl rfl).symm k) = ridx_main_v84 i k := funext fun a => Fin.ext (by
    match a with
    | ⟨0, _⟩ => exact (rhs_main_v84_0 _ _).trans hk
    | ⟨1, _⟩ => exact rhs_main_v84_1 _ _)
  rw [el, er]

def val_main_v85 (x6 : (⟨S4x96, .f32⟩ : BufTy).Contents (Elt F)) : (⟨S1x96, .f32⟩ : BufTy).Contents (Elt F) :=
  broadcastInDim S1x96 ![1] bcast_S96_S1x96_1 (val_main_v69 (F := F) x6)
abbrev idx_main_v85 (i : S1x96.Idx) : S96.Idx := fun a => match a with
  | ⟨0, _⟩ => ⟨(i 1).val, (i 1).isLt⟩
theorem val_main_v85_apply (x6 : (⟨S4x96, .f32⟩ : BufTy).Contents (Elt F)) (i : S1x96.Idx) :
    val_main_v85 (F := F) x6 i = val_main_v69 (F := F) x6 (idx_main_v85 i) := by
  unfold val_main_v85
  generalize val_main_v69 (F := F) x6 = y
  exact broadcastInDim_apply _ bcast_S96_S1x96_1 y i (idx_main_v85 i) (fun a => match a with
    | ⟨0, _⟩ => by show (i 1).val = if (96 : Nat) = 1 then 0 else (i 1).val; rw [if_neg (by decide)])

def val_main_v86 (x6 : (⟨S4x96, .f32⟩ : BufTy).Contents (Elt F)) : (⟨S50000x96, .f32⟩ : BufTy).Contents (Elt F) :=
  broadcastInDim S50000x96 ![0, 1] bcast_S1x96_S50000x96_0_1 (val_main_v85 (F := F) x6)
abbrev idx_main_v86 (i : S50000x96.Idx) : S1x96.Idx := fun a => match a with
  | ⟨0, _⟩ => ⟨0, Nat.one_pos⟩
  | ⟨1, _⟩ => ⟨(i 1).val, (i 1).isLt⟩
theorem val_main_v86_apply (x6 : (⟨S4x96, .f32⟩ : BufTy).Contents (Elt F)) (i : S50000x96.Idx) :
    val_main_v86 (F := F) x6 i = val_main_v85 (F := F) x6 (idx_main_v86 i) := by
  unfold val_main_v86
  generalize val_main_v85 (F := F) x6 = y
  exact broadcastInDim_apply _ bcast_S1x96_S50000x96_0_1 y i (idx_main_v86 i) (fun a => match a with
    | ⟨0, _⟩ => by show 0 = if (1 : Nat) = 1 then 0 else (i 0).val; rw [if_pos rfl]
    | ⟨1, _⟩ => by show (i 1).val = if (96 : Nat) = 1 then 0 else (i 1).val; rw [if_neg (by decide)])

def val_main_v87 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x10 : (⟨S50000, .i32⟩ : BufTy).Contents (Elt F)) : (⟨S50000x96, .f32⟩ : BufTy).Contents (Elt F) :=
  addf (val_main_v84 (F := F) x0 x1 x2 x3 x4 x5 x10) (val_main_v86 (F := F) x6)
def val_main_cst_10 : (⟨S_, .f32⟩ : BufTy).Contents (Elt F) :=
  constant S_ .f32 0x3DCCCCCD#32
def val_main_call5_cst : (⟨S_, .f32⟩ : BufTy).Contents (Elt F) :=
  constant S_ .f32 0x00000000#32
def val_main_call5_v0 : (⟨S50000x96, .f32⟩ : BufTy).Contents (Elt F) :=
  broadcastInDim S50000x96 ![] bcast_S_S50000x96 (val_main_call5_cst (F := F))
def val_main_call5_v1 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x10 : (⟨S50000, .i32⟩ : BufTy).Contents (Elt F)) : (⟨S50000x96, .f32⟩ : BufTy).Contents (Elt F) :=
  maximumf (val_main_v87 (F := F) x0 x1 x2 x3 x4 x5 x6 x10) (val_main_call5_v0 (F := F))
def val_main_call5_cst_0 : (⟨S_, .f32⟩ : BufTy).Contents (Elt F) :=
  constant S_ .f32 0x00000000#32
def val_main_call5_v2 : (⟨S50000x96, .f32⟩ : BufTy).Contents (Elt F) :=
  broadcastInDim S50000x96 ![] bcast_S_S50000x96 (val_main_call5_cst_0 (F := F))
def val_main_call5_v3 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x10 : (⟨S50000, .i32⟩ : BufTy).Contents (Elt F)) : (⟨S50000x96, .f32⟩ : BufTy).Contents (Elt F) :=
  minimumf (val_main_v87 (F := F) x0 x1 x2 x3 x4 x5 x6 x10) (val_main_call5_v2 (F := F))
def val_main_call5_v4 : (⟨S_, .f32⟩ : BufTy).Contents (Elt F) :=
  id (val_main_cst_10 (F := F))
def val_main_call5_v5 : (⟨S50000x96, .f32⟩ : BufTy).Contents (Elt F) :=
  broadcastInDim S50000x96 ![] bcast_S_S50000x96 (val_main_call5_v4 (F := F))
def val_main_call5_v6 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x10 : (⟨S50000, .i32⟩ : BufTy).Contents (Elt F)) : (⟨S50000x96, .f32⟩ : BufTy).Contents (Elt F) :=
  Host.divf (val_main_call5_v3 (F := F) x0 x1 x2 x3 x4 x5 x6 x10) (val_main_call5_v5 (F := F))
def val_main_call5_v7 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x10 : (⟨S50000, .i32⟩ : BufTy).Contents (Elt F)) : (⟨S50000x96, .f32⟩ : BufTy).Contents (Elt F) :=
  Host.expm1 (val_main_call5_v6 (F := F) x0 x1 x2 x3 x4 x5 x6 x10)
def val_main_call5_v8 : (⟨S_, .f32⟩ : BufTy).Contents (Elt F) :=
  id (val_main_cst_10 (F := F))
def val_main_call5_v9 : (⟨S50000x96, .f32⟩ : BufTy).Contents (Elt F) :=
  broadcastInDim S50000x96 ![] bcast_S_S50000x96 (val_main_call5_v8 (F := F))
def val_main_call5_v10 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x10 : (⟨S50000, .i32⟩ : BufTy).Contents (Elt F)) : (⟨S50000x96, .f32⟩ : BufTy).Contents (Elt F) :=
  mulf (val_main_call5_v9 (F := F)) (val_main_call5_v7 (F := F) x0 x1 x2 x3 x4 x5 x6 x10)
def val_main_v88 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x10 : (⟨S50000, .i32⟩ : BufTy).Contents (Elt F)) : (⟨S50000x96, .f32⟩ : BufTy).Contents (Elt F) :=
  addf (val_main_call5_v1 (F := F) x0 x1 x2 x3 x4 x5 x6 x10) (val_main_call5_v10 (F := F) x0 x1 x2 x3 x4 x5 x6 x10)
def val_main_v89 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x10 : (⟨S50000, .i32⟩ : BufTy).Contents (Elt F)) : (⟨S50000x1, .f32⟩ : BufTy).Contents (Elt F) :=
  Host.dotGeneral dot_S50000x96_S96x1_S50000x1_1_0_0_1_n_n none (val_main_v88 (F := F) x0 x1 x2 x3 x4 x5 x6 x10) (val_main_v71 (F := F) x7)
theorem lhs_main_v89_0 (i : S50000x1.Idx) (q : dot_S50000x96_S96x1_S50000x1_1_0_0_1_n_n.contr.Idx) :
    (dot_S50000x96_S96x1_S50000x1_1_0_0_1_n_n.lhsIdx i q 0).val = (i 0).val := by
  unfold DotDims.lhsIdx
  rw [dif_neg (show ¬(0 : Fin S50000x96.rank) ∈ dot_S50000x96_S96x1_S50000x1_1_0_0_1_n_n.lhsBatch by decide), dif_pos (show (0 : Fin S50000x96.rank) ∈ dot_S50000x96_S96x1_S50000x1_1_0_0_1_n_n.lhsNonContracting by decide)]
  rfl
theorem lhs_main_v89_1 (i : S50000x1.Idx) (q : dot_S50000x96_S96x1_S50000x1_1_0_0_1_n_n.contr.Idx) :
    (dot_S50000x96_S96x1_S50000x1_1_0_0_1_n_n.lhsIdx i q 1).val = (q ⟨0, by decide⟩).val :=
  dot_S50000x96_S96x1_S50000x1_1_0_0_1_n_n.lhsIdx_val_of_single rfl i q
theorem rhs_main_v89_0 (i : S50000x1.Idx) (q : dot_S50000x96_S96x1_S50000x1_1_0_0_1_n_n.contr.Idx) :
    (dot_S50000x96_S96x1_S50000x1_1_0_0_1_n_n.rhsIdx i q 0).val = (q ⟨0, by decide⟩).val :=
  dot_S50000x96_S96x1_S50000x1_1_0_0_1_n_n.rhsIdx_val_of_single rfl i q
theorem rhs_main_v89_1 (i : S50000x1.Idx) (q : dot_S50000x96_S96x1_S50000x1_1_0_0_1_n_n.contr.Idx) :
    (dot_S50000x96_S96x1_S50000x1_1_0_0_1_n_n.rhsIdx i q 1).val = (i 1).val := by
  unfold DotDims.rhsIdx
  rw [dif_neg (show ¬(1 : Fin S96x1.rank) ∈ dot_S50000x96_S96x1_S50000x1_1_0_0_1_n_n.rhsBatch by decide), dif_pos (show (1 : Fin S96x1.rank) ∈ dot_S50000x96_S96x1_S50000x1_1_0_0_1_n_n.rhsNonContracting by decide)]
  rfl
abbrev lidx_main_v89 (i : S50000x1.Idx) (k : Fin 96) : S50000x96.Idx := fun a => match a with
  | ⟨0, _⟩ => ⟨(i 0).val, (i 0).isLt⟩
  | ⟨1, _⟩ => ⟨k.val, k.isLt⟩
abbrev ridx_main_v89 (i : S50000x1.Idx) (k : Fin 96) : S96x1.Idx := fun a => match a with
  | ⟨0, _⟩ => ⟨k.val, k.isLt⟩
  | ⟨1, _⟩ => ⟨(i 1).val, (i 1).isLt⟩

theorem val_main_v89_apply (x0 : (⟨S200000x384, .f32⟩ : BufTy).Contents (Elt Ideal)) (x1 : (⟨S4x384x160, .f32⟩ : BufTy).Contents (Elt Ideal)) (x2 : (⟨S4x160, .f32⟩ : BufTy).Contents (Elt Ideal)) (x3 : (⟨S4x160x128, .f32⟩ : BufTy).Contents (Elt Ideal)) (x4 : (⟨S4x128, .f32⟩ : BufTy).Contents (Elt Ideal)) (x5 : (⟨S4x128x96, .f32⟩ : BufTy).Contents (Elt Ideal)) (x6 : (⟨S4x96, .f32⟩ : BufTy).Contents (Elt Ideal)) (x7 : (⟨S4x96x1, .f32⟩ : BufTy).Contents (Elt Ideal)) (x10 : (⟨S50000, .i32⟩ : BufTy).Contents (Elt Ideal)) (i : S50000x1.Idx) :
    val_main_v89 (F := Ideal) x0 x1 x2 x3 x4 x5 x6 x7 x10 i = ∑ k : Fin 96, (val_main_v88 (F := Ideal) x0 x1 x2 x3 x4 x5 x6 x10) (lidx_main_v89 i k) * (val_main_v71 (F := Ideal) x7) (ridx_main_v89 i k) := by
  unfold val_main_v89
  generalize val_main_v88 (F := Ideal) x0 x1 x2 x3 x4 x5 x6 x10 = y0
  generalize val_main_v71 (F := Ideal) x7 = y1
  simp only [Host.dotGeneral]
  rw [Ideal.dotGeneral_apply, ← Equiv.sum_comp (ValueIdx.contrEquiv1 dot_S50000x96_S96x1_S50000x1_1_0_0_1_n_n 96 rfl rfl).symm]
  refine Finset.sum_congr rfl fun k _ => ?_
  have hk := ValueIdx.contrEquiv1_symm_val dot_S50000x96_S96x1_S50000x1_1_0_0_1_n_n 96 rfl rfl k
  have el : dot_S50000x96_S96x1_S50000x1_1_0_0_1_n_n.lhsIdx i ((ValueIdx.contrEquiv1 dot_S50000x96_S96x1_S50000x1_1_0_0_1_n_n 96 rfl rfl).symm k) = lidx_main_v89 i k := funext fun a => Fin.ext (by
    match a with
    | ⟨0, _⟩ => exact lhs_main_v89_0 _ _
    | ⟨1, _⟩ => exact (lhs_main_v89_1 _ _).trans hk)
  have er : dot_S50000x96_S96x1_S50000x1_1_0_0_1_n_n.rhsIdx i ((ValueIdx.contrEquiv1 dot_S50000x96_S96x1_S50000x1_1_0_0_1_n_n 96 rfl rfl).symm k) = ridx_main_v89 i k := funext fun a => Fin.ext (by
    match a with
    | ⟨0, _⟩ => exact (rhs_main_v89_0 _ _).trans hk
    | ⟨1, _⟩ => exact rhs_main_v89_1 _ _)
  rw [el, er]

def val_main_v90 (x8 : (⟨S4x1, .f32⟩ : BufTy).Contents (Elt F)) : (⟨S1x1, .f32⟩ : BufTy).Contents (Elt F) :=
  broadcastInDim S1x1 ![1] bcast_S1_S1x1_1 (val_main_v73 (F := F) x8)
abbrev idx_main_v90 (i : S1x1.Idx) : S1.Idx := fun a => match a with
  | ⟨0, _⟩ => ⟨0, Nat.one_pos⟩
theorem val_main_v90_apply (x8 : (⟨S4x1, .f32⟩ : BufTy).Contents (Elt F)) (i : S1x1.Idx) :
    val_main_v90 (F := F) x8 i = val_main_v73 (F := F) x8 (idx_main_v90 i) := by
  unfold val_main_v90
  generalize val_main_v73 (F := F) x8 = y
  exact broadcastInDim_apply _ bcast_S1_S1x1_1 y i (idx_main_v90 i) (fun a => match a with
    | ⟨0, _⟩ => by show 0 = if (1 : Nat) = 1 then 0 else (i 1).val; rw [if_pos rfl])

def val_main_v91 (x8 : (⟨S4x1, .f32⟩ : BufTy).Contents (Elt F)) : (⟨S50000x1, .f32⟩ : BufTy).Contents (Elt F) :=
  broadcastInDim S50000x1 ![0, 1] bcast_S1x1_S50000x1_0_1 (val_main_v90 (F := F) x8)
abbrev idx_main_v91 (i : S50000x1.Idx) : S1x1.Idx := fun a => match a with
  | ⟨0, _⟩ => ⟨0, Nat.one_pos⟩
  | ⟨1, _⟩ => ⟨0, Nat.one_pos⟩
theorem val_main_v91_apply (x8 : (⟨S4x1, .f32⟩ : BufTy).Contents (Elt F)) (i : S50000x1.Idx) :
    val_main_v91 (F := F) x8 i = val_main_v90 (F := F) x8 (idx_main_v91 i) := by
  unfold val_main_v91
  generalize val_main_v90 (F := F) x8 = y
  exact broadcastInDim_apply _ bcast_S1x1_S50000x1_0_1 y i (idx_main_v91 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v92 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x8 : (⟨S4x1, .f32⟩ : BufTy).Contents (Elt F)) (x10 : (⟨S50000, .i32⟩ : BufTy).Contents (Elt F)) : (⟨S50000x1, .f32⟩ : BufTy).Contents (Elt F) :=
  addf (val_main_v89 (F := F) x0 x1 x2 x3 x4 x5 x6 x7 x10) (val_main_v91 (F := F) x8)
def val_main_v93 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x8 : (⟨S4x1, .f32⟩ : BufTy).Contents (Elt F)) (x10 : (⟨S50000, .i32⟩ : BufTy).Contents (Elt F)) : (⟨S50000, .f32⟩ : BufTy).Contents (Elt F) :=
  shapeCast _ (val_main_v92 (F := F) x0 x1 x2 x3 x4 x5 x6 x7 x8 x10) shapeCasts_S50000x1_S50000
abbrev idx_main_v93 (i : S50000.Idx) : S50000x1.Idx := fun a => match a with
  | ⟨0, _⟩ => ⟨((i 0).val) / 1, by have h0 : (i 0).val < 50000 := (i 0).isLt; show ((i 0).val) / 1 < 50000; omega⟩
  | ⟨1, _⟩ => ⟨0, Nat.one_pos⟩
theorem val_main_v93_apply (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x8 : (⟨S4x1, .f32⟩ : BufTy).Contents (Elt F)) (x10 : (⟨S50000, .i32⟩ : BufTy).Contents (Elt F)) (i : S50000.Idx) :
    val_main_v93 (F := F) x0 x1 x2 x3 x4 x5 x6 x7 x8 x10 i = val_main_v92 (F := F) x0 x1 x2 x3 x4 x5 x6 x7 x8 x10 (idx_main_v93 i) := by
  unfold val_main_v93
  generalize val_main_v92 (F := F) x0 x1 x2 x3 x4 x5 x6 x7 x8 x10 = y
  exact shapeCast_apply y shapeCasts_S50000x1_S50000 i (idx_main_v93 i)
    (by rewrite [Shape.rowMajor_val_two, Shape.rowMajor_val_one]; have h0 : (i 0).val < 50000 := (i 0).isLt; show ((i 0).val) / 1 * 1 + 0 = (i 0).val; omega)

def val_main_c_11 : (⟨S_, .i32⟩ : BufTy).Contents (Elt F) :=
  constantI S_ 32 0#32
def val_main_v94 : (⟨S50000, .i32⟩ : BufTy).Contents (Elt F) :=
  broadcastInDim S50000 ![] bcast_S_S50000 (val_main_c_11 (F := F))
def val_main_v95 (x10 : (⟨S50000, .i32⟩ : BufTy).Contents (Elt F)) : (⟨S50000, .i1⟩ : BufTy).Contents (Elt F) :=
  cmpi .slt (x10) (val_main_v94 (F := F))
def val_main_c_12 : (⟨S_, .i32⟩ : BufTy).Contents (Elt F) :=
  constantI S_ 32 200000#32
def val_main_v96 : (⟨S50000, .i32⟩ : BufTy).Contents (Elt F) :=
  broadcastInDim S50000 ![] bcast_S_S50000 (val_main_c_12 (F := F))
def val_main_v97 (x10 : (⟨S50000, .i32⟩ : BufTy).Contents (Elt F)) : (⟨S50000, .i32⟩ : BufTy).Contents (Elt F) :=
  addi (x10) (val_main_v96 (F := F))
def val_main_v98 (x10 : (⟨S50000, .i32⟩ : BufTy).Contents (Elt F)) : (⟨S50000, .i32⟩ : BufTy).Contents (Elt F) :=
  select (val_main_v95 (F := F) x10) (val_main_v97 (F := F) x10) (x10)
def val_main_v99 (x10 : (⟨S50000, .i32⟩ : BufTy).Contents (Elt F)) : (⟨S50000x1, .i32⟩ : BufTy).Contents (Elt F) :=
  broadcastInDim S50000x1 ![0] bcast_S50000_S50000x1_0 (val_main_v98 (F := F) x10)
abbrev idx_main_v99 (i : S50000x1.Idx) : S50000.Idx := fun a => match a with
  | ⟨0, _⟩ => ⟨(i 0).val, (i 0).isLt⟩
theorem val_main_v99_apply (x10 : (⟨S50000, .i32⟩ : BufTy).Contents (Elt F)) (i : S50000x1.Idx) :
    val_main_v99 (F := F) x10 i = val_main_v98 (F := F) x10 (idx_main_v99 i) := by
  unfold val_main_v99
  generalize val_main_v98 (F := F) x10 = y
  exact broadcastInDim_apply _ bcast_S50000_S50000x1_0 y i (idx_main_v99 i) (fun a => match a with
    | ⟨0, _⟩ => by show (i 0).val = if (50000 : Nat) = 1 then 0 else (i 0).val; rw [if_neg (by decide)])

def val_main_v100 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x8 : (⟨S4x1, .f32⟩ : BufTy).Contents (Elt F)) (x9 x10 : (⟨S50000, .i32⟩ : BufTy).Contents (Elt F)) : (⟨S200000, .f32⟩ : BufTy).Contents (Elt F) :=
  Host.scatterAdd scatter_S200000_S50000x1_S50000_n_0_0_1 (val_main_v50 (F := F) x0 x1 x2 x3 x4 x5 x6 x7 x8 x9) (val_main_v99 (F := F) x10) (val_main_v93 (F := F) x0 x1 x2 x3 x4 x5 x6 x7 x8 x10)

def val_main_c_13 : (⟨S_, .i32⟩ : BufTy).Contents (Elt F) :=
  constantI S_ 32 0#32
def val_main_v101 : (⟨S50000, .i32⟩ : BufTy).Contents (Elt F) :=
  broadcastInDim S50000 ![] bcast_S_S50000 (val_main_c_13 (F := F))
def val_main_v102 (x11 : (⟨S50000, .i32⟩ : BufTy).Contents (Elt F)) : (⟨S50000, .i1⟩ : BufTy).Contents (Elt F) :=
  cmpi .slt (x11) (val_main_v101 (F := F))
def val_main_c_14 : (⟨S_, .i32⟩ : BufTy).Contents (Elt F) :=
  constantI S_ 32 200000#32
def val_main_v103 : (⟨S50000, .i32⟩ : BufTy).Contents (Elt F) :=
  broadcastInDim S50000 ![] bcast_S_S50000 (val_main_c_14 (F := F))
def val_main_v104 (x11 : (⟨S50000, .i32⟩ : BufTy).Contents (Elt F)) : (⟨S50000, .i32⟩ : BufTy).Contents (Elt F) :=
  addi (x11) (val_main_v103 (F := F))
def val_main_v105 (x11 : (⟨S50000, .i32⟩ : BufTy).Contents (Elt F)) : (⟨S50000, .i32⟩ : BufTy).Contents (Elt F) :=
  select (val_main_v102 (F := F) x11) (val_main_v104 (F := F) x11) (x11)
def val_main_v106 (x11 : (⟨S50000, .i32⟩ : BufTy).Contents (Elt F)) : (⟨S50000x1, .i32⟩ : BufTy).Contents (Elt F) :=
  broadcastInDim S50000x1 ![0] bcast_S50000_S50000x1_0 (val_main_v105 (F := F) x11)
abbrev idx_main_v106 (i : S50000x1.Idx) : S50000.Idx := fun a => match a with
  | ⟨0, _⟩ => ⟨(i 0).val, (i 0).isLt⟩
theorem val_main_v106_apply (x11 : (⟨S50000, .i32⟩ : BufTy).Contents (Elt F)) (i : S50000x1.Idx) :
    val_main_v106 (F := F) x11 i = val_main_v105 (F := F) x11 (idx_main_v106 i) := by
  unfold val_main_v106
  generalize val_main_v105 (F := F) x11 = y
  exact broadcastInDim_apply _ bcast_S50000_S50000x1_0 y i (idx_main_v106 i) (fun a => match a with
    | ⟨0, _⟩ => by show (i 0).val = if (50000 : Nat) = 1 then 0 else (i 0).val; rw [if_neg (by decide)])

def val_main_v107 (x0 : (⟨S200000x384, .f32⟩ : BufTy).Contents (Elt F)) (x11 : (⟨S50000, .i32⟩ : BufTy).Contents (Elt F)) : (⟨S50000x384, .f32⟩ : BufTy).Contents (Elt F) :=
  Host.gather gather_S200000x384_S50000x1_S50000x384_1_0_n_n_0_1_1384 (x0) (val_main_v106 (F := F) x11)

def val_main_v108 (x1 : (⟨S4x384x160, .f32⟩ : BufTy).Contents (Elt F)) : (⟨S1x384x160, .f32⟩ : BufTy).Contents (Elt F) :=
  extractStridedSlice S1x384x160 ![2, 0, 0] (x1) slices_S4x384x160_S1x384x160_2_0_0
abbrev idx_main_v108 (i : S1x384x160.Idx) : S4x384x160.Idx := fun a => match a with
  | ⟨0, _⟩ => ⟨2 + (i 0).val, by have h0 : (i 0).val < 1 := (i 0).isLt; show 2 + (i 0).val < 4; omega⟩
  | ⟨1, _⟩ => ⟨(i 1).val, (i 1).isLt⟩
  | ⟨2, _⟩ => ⟨(i 2).val, (i 2).isLt⟩
theorem val_main_v108_apply (x1 : (⟨S4x384x160, .f32⟩ : BufTy).Contents (Elt F)) (i : S1x384x160.Idx) :
    val_main_v108 (F := F) x1 i = x1 (idx_main_v108 i) := by
  unfold val_main_v108
  exact extractStridedSlice_apply ![2, 0, 0] x1 slices_S4x384x160_S1x384x160_2_0_0 i (idx_main_v108 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)

def val_main_v109 (x1 : (⟨S4x384x160, .f32⟩ : BufTy).Contents (Elt F)) : (⟨S384x160, .f32⟩ : BufTy).Contents (Elt F) :=
  shapeCast _ (val_main_v108 (F := F) x1) shapeCasts_S1x384x160_S384x160
abbrev idx_main_v109 (i : S384x160.Idx) : S1x384x160.Idx := fun a => match a with
  | ⟨0, _⟩ => ⟨0, Nat.one_pos⟩
  | ⟨1, _⟩ => ⟨((i 0).val * 160 + (i 1).val) / 160 % 384, by have h0 : (i 0).val < 384 := (i 0).isLt; have h1 : (i 1).val < 160 := (i 1).isLt; show ((i 0).val * 160 + (i 1).val) / 160 % 384 < 384; omega⟩
  | ⟨2, _⟩ => ⟨((i 0).val * 160 + (i 1).val) % 160, by have h0 : (i 0).val < 384 := (i 0).isLt; have h1 : (i 1).val < 160 := (i 1).isLt; show ((i 0).val * 160 + (i 1).val) % 160 < 160; omega⟩
theorem val_main_v109_apply (x1 : (⟨S4x384x160, .f32⟩ : BufTy).Contents (Elt F)) (i : S384x160.Idx) :
    val_main_v109 (F := F) x1 i = val_main_v108 (F := F) x1 (idx_main_v109 i) := by
  unfold val_main_v109
  generalize val_main_v108 (F := F) x1 = y
  exact shapeCast_apply y shapeCasts_S1x384x160_S384x160 i (idx_main_v109 i)
    (by rewrite [Shape.rowMajor_val_three, Shape.rowMajor_val_two]; have h0 : (i 0).val < 384 := (i 0).isLt; have h1 : (i 1).val < 160 := (i 1).isLt; show (0 * 384 + ((i 0).val * 160 + (i 1).val) / 160 % 384) * 160 + ((i 0).val * 160 + (i 1).val) % 160 = (i 0).val * 160 + (i 1).val; omega)

def val_main_v110 (x2 : (⟨S4x160, .f32⟩ : BufTy).Contents (Elt F)) : (⟨S1x160, .f32⟩ : BufTy).Contents (Elt F) :=
  extractStridedSlice S1x160 ![2, 0] (x2) slices_S4x160_S1x160_2_0
abbrev idx_main_v110 (i : S1x160.Idx) : S4x160.Idx := fun a => match a with
  | ⟨0, _⟩ => ⟨2 + (i 0).val, by have h0 : (i 0).val < 1 := (i 0).isLt; show 2 + (i 0).val < 4; omega⟩
  | ⟨1, _⟩ => ⟨(i 1).val, (i 1).isLt⟩
theorem val_main_v110_apply (x2 : (⟨S4x160, .f32⟩ : BufTy).Contents (Elt F)) (i : S1x160.Idx) :
    val_main_v110 (F := F) x2 i = x2 (idx_main_v110 i) := by
  unfold val_main_v110
  exact extractStridedSlice_apply ![2, 0] x2 slices_S4x160_S1x160_2_0 i (idx_main_v110 i) (fun a => match a with
    | ⟨0, _⟩ => by show 2 + (i 0).val = 2 + (i 0).val; omega
    | ⟨1, _⟩ => by show (i 1).val = 0 + (i 1).val; omega)

def val_main_v111 (x2 : (⟨S4x160, .f32⟩ : BufTy).Contents (Elt F)) : (⟨S160, .f32⟩ : BufTy).Contents (Elt F) :=
  shapeCast _ (val_main_v110 (F := F) x2) shapeCasts_S1x160_S160
abbrev idx_main_v111 (i : S160.Idx) : S1x160.Idx := fun a => match a with
  | ⟨0, _⟩ => ⟨0, Nat.one_pos⟩
  | ⟨1, _⟩ => ⟨((i 0).val) % 160, by have h0 : (i 0).val < 160 := (i 0).isLt; show ((i 0).val) % 160 < 160; omega⟩
theorem val_main_v111_apply (x2 : (⟨S4x160, .f32⟩ : BufTy).Contents (Elt F)) (i : S160.Idx) :
    val_main_v111 (F := F) x2 i = val_main_v110 (F := F) x2 (idx_main_v111 i) := by
  unfold val_main_v111
  generalize val_main_v110 (F := F) x2 = y
  exact shapeCast_apply y shapeCasts_S1x160_S160 i (idx_main_v111 i)
    (by rewrite [Shape.rowMajor_val_two, Shape.rowMajor_val_one]; have h0 : (i 0).val < 160 := (i 0).isLt; show 0 * 160 + ((i 0).val) % 160 = (i 0).val; omega)

def val_main_v112 (x3 : (⟨S4x160x128, .f32⟩ : BufTy).Contents (Elt F)) : (⟨S1x160x128, .f32⟩ : BufTy).Contents (Elt F) :=
  extractStridedSlice S1x160x128 ![2, 0, 0] (x3) slices_S4x160x128_S1x160x128_2_0_0
abbrev idx_main_v112 (i : S1x160x128.Idx) : S4x160x128.Idx := fun a => match a with
  | ⟨0, _⟩ => ⟨2 + (i 0).val, by have h0 : (i 0).val < 1 := (i 0).isLt; show 2 + (i 0).val < 4; omega⟩
  | ⟨1, _⟩ => ⟨(i 1).val, (i 1).isLt⟩
  | ⟨2, _⟩ => ⟨(i 2).val, (i 2).isLt⟩
theorem val_main_v112_apply (x3 : (⟨S4x160x128, .f32⟩ : BufTy).Contents (Elt F)) (i : S1x160x128.Idx) :
    val_main_v112 (F := F) x3 i = x3 (idx_main_v112 i) := by
  unfold val_main_v112
  exact extractStridedSlice_apply ![2, 0, 0] x3 slices_S4x160x128_S1x160x128_2_0_0 i (idx_main_v112 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)

def val_main_v113 (x3 : (⟨S4x160x128, .f32⟩ : BufTy).Contents (Elt F)) : (⟨S160x128, .f32⟩ : BufTy).Contents (Elt F) :=
  shapeCast _ (val_main_v112 (F := F) x3) shapeCasts_S1x160x128_S160x128
abbrev idx_main_v113 (i : S160x128.Idx) : S1x160x128.Idx := fun a => match a with
  | ⟨0, _⟩ => ⟨0, Nat.one_pos⟩
  | ⟨1, _⟩ => ⟨((i 0).val * 128 + (i 1).val) / 128 % 160, by have h0 : (i 0).val < 160 := (i 0).isLt; have h1 : (i 1).val < 128 := (i 1).isLt; show ((i 0).val * 128 + (i 1).val) / 128 % 160 < 160; omega⟩
  | ⟨2, _⟩ => ⟨((i 0).val * 128 + (i 1).val) % 128, by have h0 : (i 0).val < 160 := (i 0).isLt; have h1 : (i 1).val < 128 := (i 1).isLt; show ((i 0).val * 128 + (i 1).val) % 128 < 128; omega⟩
theorem val_main_v113_apply (x3 : (⟨S4x160x128, .f32⟩ : BufTy).Contents (Elt F)) (i : S160x128.Idx) :
    val_main_v113 (F := F) x3 i = val_main_v112 (F := F) x3 (idx_main_v113 i) := by
  unfold val_main_v113
  generalize val_main_v112 (F := F) x3 = y
  exact shapeCast_apply y shapeCasts_S1x160x128_S160x128 i (idx_main_v113 i)
    (by rewrite [Shape.rowMajor_val_three, Shape.rowMajor_val_two]; have h0 : (i 0).val < 160 := (i 0).isLt; have h1 : (i 1).val < 128 := (i 1).isLt; show (0 * 160 + ((i 0).val * 128 + (i 1).val) / 128 % 160) * 128 + ((i 0).val * 128 + (i 1).val) % 128 = (i 0).val * 128 + (i 1).val; omega)

def val_main_v114 (x4 : (⟨S4x128, .f32⟩ : BufTy).Contents (Elt F)) : (⟨S1x128, .f32⟩ : BufTy).Contents (Elt F) :=
  extractStridedSlice S1x128 ![2, 0] (x4) slices_S4x128_S1x128_2_0
abbrev idx_main_v114 (i : S1x128.Idx) : S4x128.Idx := fun a => match a with
  | ⟨0, _⟩ => ⟨2 + (i 0).val, by have h0 : (i 0).val < 1 := (i 0).isLt; show 2 + (i 0).val < 4; omega⟩
  | ⟨1, _⟩ => ⟨(i 1).val, (i 1).isLt⟩
theorem val_main_v114_apply (x4 : (⟨S4x128, .f32⟩ : BufTy).Contents (Elt F)) (i : S1x128.Idx) :
    val_main_v114 (F := F) x4 i = x4 (idx_main_v114 i) := by
  unfold val_main_v114
  exact extractStridedSlice_apply ![2, 0] x4 slices_S4x128_S1x128_2_0 i (idx_main_v114 i) (fun a => match a with
    | ⟨0, _⟩ => by show 2 + (i 0).val = 2 + (i 0).val; omega
    | ⟨1, _⟩ => by show (i 1).val = 0 + (i 1).val; omega)

def val_main_v115 (x4 : (⟨S4x128, .f32⟩ : BufTy).Contents (Elt F)) : (⟨S128, .f32⟩ : BufTy).Contents (Elt F) :=
  shapeCast _ (val_main_v114 (F := F) x4) shapeCasts_S1x128_S128
abbrev idx_main_v115 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v115_apply (x4 : (⟨S4x128, .f32⟩ : BufTy).Contents (Elt F)) (i : S128.Idx) :
    val_main_v115 (F := F) x4 i = val_main_v114 (F := F) x4 (idx_main_v115 i) := by
  unfold val_main_v115
  generalize val_main_v114 (F := F) x4 = y
  exact shapeCast_apply y shapeCasts_S1x128_S128 i (idx_main_v115 i)
    (by rewrite [Shape.rowMajor_val_two, Shape.rowMajor_val_one]; have h0 : (i 0).val < 128 := (i 0).isLt; show 0 * 128 + ((i 0).val) % 128 = (i 0).val; omega)

def val_main_v116 (x5 : (⟨S4x128x96, .f32⟩ : BufTy).Contents (Elt F)) : (⟨S1x128x96, .f32⟩ : BufTy).Contents (Elt F) :=
  extractStridedSlice S1x128x96 ![2, 0, 0] (x5) slices_S4x128x96_S1x128x96_2_0_0
abbrev idx_main_v116 (i : S1x128x96.Idx) : S4x128x96.Idx := fun a => match a with
  | ⟨0, _⟩ => ⟨2 + (i 0).val, by have h0 : (i 0).val < 1 := (i 0).isLt; show 2 + (i 0).val < 4; omega⟩
  | ⟨1, _⟩ => ⟨(i 1).val, (i 1).isLt⟩
  | ⟨2, _⟩ => ⟨(i 2).val, (i 2).isLt⟩
theorem val_main_v116_apply (x5 : (⟨S4x128x96, .f32⟩ : BufTy).Contents (Elt F)) (i : S1x128x96.Idx) :
    val_main_v116 (F := F) x5 i = x5 (idx_main_v116 i) := by
  unfold val_main_v116
  exact extractStridedSlice_apply ![2, 0, 0] x5 slices_S4x128x96_S1x128x96_2_0_0 i (idx_main_v116 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)

def val_main_v117 (x5 : (⟨S4x128x96, .f32⟩ : BufTy).Contents (Elt F)) : (⟨S128x96, .f32⟩ : BufTy).Contents (Elt F) :=
  shapeCast _ (val_main_v116 (F := F) x5) shapeCasts_S1x128x96_S128x96
abbrev idx_main_v117 (i : S128x96.Idx) : S1x128x96.Idx := fun a => match a with
  | ⟨0, _⟩ => ⟨0, Nat.one_pos⟩
  | ⟨1, _⟩ => ⟨((i 0).val * 96 + (i 1).val) / 96 % 128, by have h0 : (i 0).val < 128 := (i 0).isLt; have h1 : (i 1).val < 96 := (i 1).isLt; show ((i 0).val * 96 + (i 1).val) / 96 % 128 < 128; omega⟩
  | ⟨2, _⟩ => ⟨((i 0).val * 96 + (i 1).val) % 96, by have h0 : (i 0).val < 128 := (i 0).isLt; have h1 : (i 1).val < 96 := (i 1).isLt; show ((i 0).val * 96 + (i 1).val) % 96 < 96; omega⟩
theorem val_main_v117_apply (x5 : (⟨S4x128x96, .f32⟩ : BufTy).Contents (Elt F)) (i : S128x96.Idx) :
    val_main_v117 (F := F) x5 i = val_main_v116 (F := F) x5 (idx_main_v117 i) := by
  unfold val_main_v117
  generalize val_main_v116 (F := F) x5 = y
  exact shapeCast_apply y shapeCasts_S1x128x96_S128x96 i (idx_main_v117 i)
    (by rewrite [Shape.rowMajor_val_three, Shape.rowMajor_val_two]; have h0 : (i 0).val < 128 := (i 0).isLt; have h1 : (i 1).val < 96 := (i 1).isLt; show (0 * 128 + ((i 0).val * 96 + (i 1).val) / 96 % 128) * 96 + ((i 0).val * 96 + (i 1).val) % 96 = (i 0).val * 96 + (i 1).val; omega)

def val_main_v118 (x6 : (⟨S4x96, .f32⟩ : BufTy).Contents (Elt F)) : (⟨S1x96, .f32⟩ : BufTy).Contents (Elt F) :=
  extractStridedSlice S1x96 ![2, 0] (x6) slices_S4x96_S1x96_2_0
abbrev idx_main_v118 (i : S1x96.Idx) : S4x96.Idx := fun a => match a with
  | ⟨0, _⟩ => ⟨2 + (i 0).val, by have h0 : (i 0).val < 1 := (i 0).isLt; show 2 + (i 0).val < 4; omega⟩
  | ⟨1, _⟩ => ⟨(i 1).val, (i 1).isLt⟩
theorem val_main_v118_apply (x6 : (⟨S4x96, .f32⟩ : BufTy).Contents (Elt F)) (i : S1x96.Idx) :
    val_main_v118 (F := F) x6 i = x6 (idx_main_v118 i) := by
  unfold val_main_v118
  exact extractStridedSlice_apply ![2, 0] x6 slices_S4x96_S1x96_2_0 i (idx_main_v118 i) (fun a => match a with
    | ⟨0, _⟩ => by show 2 + (i 0).val = 2 + (i 0).val; omega
    | ⟨1, _⟩ => by show (i 1).val = 0 + (i 1).val; omega)

def val_main_v119 (x6 : (⟨S4x96, .f32⟩ : BufTy).Contents (Elt F)) : (⟨S96, .f32⟩ : BufTy).Contents (Elt F) :=
  shapeCast _ (val_main_v118 (F := F) x6) shapeCasts_S1x96_S96
abbrev idx_main_v119 (i : S96.Idx) : S1x96.Idx := fun a => match a with
  | ⟨0, _⟩ => ⟨0, Nat.one_pos⟩
  | ⟨1, _⟩ => ⟨((i 0).val) % 96, by have h0 : (i 0).val < 96 := (i 0).isLt; show ((i 0).val) % 96 < 96; omega⟩
theorem val_main_v119_apply (x6 : (⟨S4x96, .f32⟩ : BufTy).Contents (Elt F)) (i : S96.Idx) :
    val_main_v119 (F := F) x6 i = val_main_v118 (F := F) x6 (idx_main_v119 i) := by
  unfold val_main_v119
  generalize val_main_v118 (F := F) x6 = y
  exact shapeCast_apply y shapeCasts_S1x96_S96 i (idx_main_v119 i)
    (by rewrite [Shape.rowMajor_val_two, Shape.rowMajor_val_one]; have h0 : (i 0).val < 96 := (i 0).isLt; show 0 * 96 + ((i 0).val) % 96 = (i 0).val; omega)

def val_main_v120 (x7 : (⟨S4x96x1, .f32⟩ : BufTy).Contents (Elt F)) : (⟨S1x96x1, .f32⟩ : BufTy).Contents (Elt F) :=
  extractStridedSlice S1x96x1 ![2, 0, 0] (x7) slices_S4x96x1_S1x96x1_2_0_0
abbrev idx_main_v120 (i : S1x96x1.Idx) : S4x96x1.Idx := fun a => match a with
  | ⟨0, _⟩ => ⟨2 + (i 0).val, by have h0 : (i 0).val < 1 := (i 0).isLt; show 2 + (i 0).val < 4; omega⟩
  | ⟨1, _⟩ => ⟨(i 1).val, (i 1).isLt⟩
  | ⟨2, _⟩ => ⟨(i 2).val, (i 2).isLt⟩
theorem val_main_v120_apply (x7 : (⟨S4x96x1, .f32⟩ : BufTy).Contents (Elt F)) (i : S1x96x1.Idx) :
    val_main_v120 (F := F) x7 i = x7 (idx_main_v120 i) := by
  unfold val_main_v120
  exact extractStridedSlice_apply ![2, 0, 0] x7 slices_S4x96x1_S1x96x1_2_0_0 i (idx_main_v120 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)

def val_main_v121 (x7 : (⟨S4x96x1, .f32⟩ : BufTy).Contents (Elt F)) : (⟨S96x1, .f32⟩ : BufTy).Contents (Elt F) :=
  shapeCast _ (val_main_v120 (F := F) x7) shapeCasts_S1x96x1_S96x1
abbrev idx_main_v121 (i : S96x1.Idx) : S1x96x1.Idx := fun a => match a with
  | ⟨0, _⟩ => ⟨0, Nat.one_pos⟩
  | ⟨1, _⟩ => ⟨((i 0).val * 1 + (i 1).val) / 1 % 96, by have h0 : (i 0).val < 96 := (i 0).isLt; have h1 : (i 1).val < 1 := (i 1).isLt; show ((i 0).val * 1 + (i 1).val) / 1 % 96 < 96; omega⟩
  | ⟨2, _⟩ => ⟨0, Nat.one_pos⟩
theorem val_main_v121_apply (x7 : (⟨S4x96x1, .f32⟩ : BufTy).Contents (Elt F)) (i : S96x1.Idx) :
    val_main_v121 (F := F) x7 i = val_main_v120 (F := F) x7 (idx_main_v121 i) := by
  unfold val_main_v121
  generalize val_main_v120 (F := F) x7 = y
  exact shapeCast_apply y shapeCasts_S1x96x1_S96x1 i (idx_main_v121 i)
    (by rewrite [Shape.rowMajor_val_three, Shape.rowMajor_val_two]; have h0 : (i 0).val < 96 := (i 0).isLt; have h1 : (i 1).val < 1 := (i 1).isLt; show (0 * 96 + ((i 0).val * 1 + (i 1).val) / 1 % 96) * 1 + 0 = (i 0).val * 1 + (i 1).val; omega)

def val_main_v122 (x8 : (⟨S4x1, .f32⟩ : BufTy).Contents (Elt F)) : (⟨S1x1, .f32⟩ : BufTy).Contents (Elt F) :=
  extractStridedSlice S1x1 ![2, 0] (x8) slices_S4x1_S1x1_2_0
abbrev idx_main_v122 (i : S1x1.Idx) : S4x1.Idx := fun a => match a with
  | ⟨0, _⟩ => ⟨2 + (i 0).val, by have h0 : (i 0).val < 1 := (i 0).isLt; show 2 + (i 0).val < 4; omega⟩
  | ⟨1, _⟩ => ⟨(i 1).val, (i 1).isLt⟩
theorem val_main_v122_apply (x8 : (⟨S4x1, .f32⟩ : BufTy).Contents (Elt F)) (i : S1x1.Idx) :
    val_main_v122 (F := F) x8 i = x8 (idx_main_v122 i) := by
  unfold val_main_v122
  exact extractStridedSlice_apply ![2, 0] x8 slices_S4x1_S1x1_2_0 i (idx_main_v122 i) (fun a => match a with
    | ⟨0, _⟩ => by show 2 + (i 0).val = 2 + (i 0).val; omega
    | ⟨1, _⟩ => by show (i 1).val = 0 + (i 1).val; omega)

def val_main_v123 (x8 : (⟨S4x1, .f32⟩ : BufTy).Contents (Elt F)) : (⟨S1, .f32⟩ : BufTy).Contents (Elt F) :=
  shapeCast _ (val_main_v122 (F := F) x8) shapeCasts_S1x1_S1
abbrev idx_main_v123 (i : S1.Idx) : S1x1.Idx := fun a => match a with
  | ⟨0, _⟩ => ⟨0, Nat.one_pos⟩
  | ⟨1, _⟩ => ⟨0, Nat.one_pos⟩
theorem val_main_v123_apply (x8 : (⟨S4x1, .f32⟩ : BufTy).Contents (Elt F)) (i : S1.Idx) :
    val_main_v123 (F := F) x8 i = val_main_v122 (F := F) x8 (idx_main_v123 i) := by
  unfold val_main_v123
  generalize val_main_v122 (F := F) x8 = y
  exact shapeCast_apply y shapeCasts_S1x1_S1 i (idx_main_v123 i)
    (by rewrite [Shape.rowMajor_val_two, Shape.rowMajor_val_one]; have h0 : (i 0).val < 1 := (i 0).isLt; show 0 * 1 + 0 = (i 0).val; omega)

def val_main_v124 (x0 : (⟨S200000x384, .f32⟩ : BufTy).Contents (Elt F)) (x1 : (⟨S4x384x160, .f32⟩ : BufTy).Contents (Elt F)) (x11 : (⟨S50000, .i32⟩ : BufTy).Contents (Elt F)) : (⟨S50000x160, .f32⟩ : BufTy).Contents (Elt F) :=
  Host.dotGeneral dot_S50000x384_S384x160_S50000x160_1_0_0_1_n_n none (val_main_v107 (F := F) x0 x11) (val_main_v109 (F := F) x1)
theorem lhs_main_v124_0 (i : S50000x160.Idx) (q : dot_S50000x384_S384x160_S50000x160_1_0_0_1_n_n.contr.Idx) :
    (dot_S50000x384_S384x160_S50000x160_1_0_0_1_n_n.lhsIdx i q 0).val = (i 0).val := by
  unfold DotDims.lhsIdx
  rw [dif_neg (show ¬(0 : Fin S50000x384.rank) ∈ dot_S50000x384_S384x160_S50000x160_1_0_0_1_n_n.lhsBatch by decide), dif_pos (show (0 : Fin S50000x384.rank) ∈ dot_S50000x384_S384x160_S50000x160_1_0_0_1_n_n.lhsNonContracting by decide)]
  rfl
theorem lhs_main_v124_1 (i : S50000x160.Idx) (q : dot_S50000x384_S384x160_S50000x160_1_0_0_1_n_n.contr.Idx) :
    (dot_S50000x384_S384x160_S50000x160_1_0_0_1_n_n.lhsIdx i q 1).val = (q ⟨0, by decide⟩).val :=
  dot_S50000x384_S384x160_S50000x160_1_0_0_1_n_n.lhsIdx_val_of_single rfl i q
theorem rhs_main_v124_0 (i : S50000x160.Idx) (q : dot_S50000x384_S384x160_S50000x160_1_0_0_1_n_n.contr.Idx) :
    (dot_S50000x384_S384x160_S50000x160_1_0_0_1_n_n.rhsIdx i q 0).val = (q ⟨0, by decide⟩).val :=
  dot_S50000x384_S384x160_S50000x160_1_0_0_1_n_n.rhsIdx_val_of_single rfl i q
theorem rhs_main_v124_1 (i : S50000x160.Idx) (q : dot_S50000x384_S384x160_S50000x160_1_0_0_1_n_n.contr.Idx) :
    (dot_S50000x384_S384x160_S50000x160_1_0_0_1_n_n.rhsIdx i q 1).val = (i 1).val := by
  unfold DotDims.rhsIdx
  rw [dif_neg (show ¬(1 : Fin S384x160.rank) ∈ dot_S50000x384_S384x160_S50000x160_1_0_0_1_n_n.rhsBatch by decide), dif_pos (show (1 : Fin S384x160.rank) ∈ dot_S50000x384_S384x160_S50000x160_1_0_0_1_n_n.rhsNonContracting by decide)]
  rfl
abbrev lidx_main_v124 (i : S50000x160.Idx) (k : Fin 384) : S50000x384.Idx := fun a => match a with
  | ⟨0, _⟩ => ⟨(i 0).val, (i 0).isLt⟩
  | ⟨1, _⟩ => ⟨k.val, k.isLt⟩
abbrev ridx_main_v124 (i : S50000x160.Idx) (k : Fin 384) : S384x160.Idx := fun a => match a with
  | ⟨0, _⟩ => ⟨k.val, k.isLt⟩
  | ⟨1, _⟩ => ⟨(i 1).val, (i 1).isLt⟩

theorem val_main_v124_apply (x0 : (⟨S200000x384, .f32⟩ : BufTy).Contents (Elt Ideal)) (x1 : (⟨S4x384x160, .f32⟩ : BufTy).Contents (Elt Ideal)) (x11 : (⟨S50000, .i32⟩ : BufTy).Contents (Elt Ideal)) (i : S50000x160.Idx) :
    val_main_v124 (F := Ideal) x0 x1 x11 i = ∑ k : Fin 384, (val_main_v107 (F := Ideal) x0 x11) (lidx_main_v124 i k) * (val_main_v109 (F := Ideal) x1) (ridx_main_v124 i k) := by
  unfold val_main_v124
  generalize val_main_v107 (F := Ideal) x0 x11 = y0
  generalize val_main_v109 (F := Ideal) x1 = y1
  simp only [Host.dotGeneral]
  rw [Ideal.dotGeneral_apply, ← Equiv.sum_comp (ValueIdx.contrEquiv1 dot_S50000x384_S384x160_S50000x160_1_0_0_1_n_n 384 rfl rfl).symm]
  refine Finset.sum_congr rfl fun k _ => ?_
  have hk := ValueIdx.contrEquiv1_symm_val dot_S50000x384_S384x160_S50000x160_1_0_0_1_n_n 384 rfl rfl k
  have el : dot_S50000x384_S384x160_S50000x160_1_0_0_1_n_n.lhsIdx i ((ValueIdx.contrEquiv1 dot_S50000x384_S384x160_S50000x160_1_0_0_1_n_n 384 rfl rfl).symm k) = lidx_main_v124 i k := funext fun a => Fin.ext (by
    match a with
    | ⟨0, _⟩ => exact lhs_main_v124_0 _ _
    | ⟨1, _⟩ => exact (lhs_main_v124_1 _ _).trans hk)
  have er : dot_S50000x384_S384x160_S50000x160_1_0_0_1_n_n.rhsIdx i ((ValueIdx.contrEquiv1 dot_S50000x384_S384x160_S50000x160_1_0_0_1_n_n 384 rfl rfl).symm k) = ridx_main_v124 i k := funext fun a => Fin.ext (by
    match a with
    | ⟨0, _⟩ => exact (rhs_main_v124_0 _ _).trans hk
    | ⟨1, _⟩ => exact rhs_main_v124_1 _ _)
  rw [el, er]

def val_main_v125 (x2 : (⟨S4x160, .f32⟩ : BufTy).Contents (Elt F)) : (⟨S1x160, .f32⟩ : BufTy).Contents (Elt F) :=
  broadcastInDim S1x160 ![1] bcast_S160_S1x160_1 (val_main_v111 (F := F) x2)
abbrev idx_main_v125 (i : S1x160.Idx) : S160.Idx := fun a => match a with
  | ⟨0, _⟩ => ⟨(i 1).val, (i 1).isLt⟩
theorem val_main_v125_apply (x2 : (⟨S4x160, .f32⟩ : BufTy).Contents (Elt F)) (i : S1x160.Idx) :
    val_main_v125 (F := F) x2 i = val_main_v111 (F := F) x2 (idx_main_v125 i) := by
  unfold val_main_v125
  generalize val_main_v111 (F := F) x2 = y
  exact broadcastInDim_apply _ bcast_S160_S1x160_1 y i (idx_main_v125 i) (fun a => match a with
    | ⟨0, _⟩ => by show (i 1).val = if (160 : Nat) = 1 then 0 else (i 1).val; rw [if_neg (by decide)])

def val_main_v126 (x2 : (⟨S4x160, .f32⟩ : BufTy).Contents (Elt F)) : (⟨S50000x160, .f32⟩ : BufTy).Contents (Elt F) :=
  broadcastInDim S50000x160 ![0, 1] bcast_S1x160_S50000x160_0_1 (val_main_v125 (F := F) x2)
abbrev idx_main_v126 (i : S50000x160.Idx) : S1x160.Idx := fun a => match a with
  | ⟨0, _⟩ => ⟨0, Nat.one_pos⟩
  | ⟨1, _⟩ => ⟨(i 1).val, (i 1).isLt⟩
theorem val_main_v126_apply (x2 : (⟨S4x160, .f32⟩ : BufTy).Contents (Elt F)) (i : S50000x160.Idx) :
    val_main_v126 (F := F) x2 i = val_main_v125 (F := F) x2 (idx_main_v126 i) := by
  unfold val_main_v126
  generalize val_main_v125 (F := F) x2 = y
  exact broadcastInDim_apply _ bcast_S1x160_S50000x160_0_1 y i (idx_main_v126 i) (fun a => match a with
    | ⟨0, _⟩ => by show 0 = if (1 : Nat) = 1 then 0 else (i 0).val; rw [if_pos rfl]
    | ⟨1, _⟩ => by show (i 1).val = if (160 : Nat) = 1 then 0 else (i 1).val; rw [if_neg (by decide)])

def val_main_v127 (x0 : (⟨S200000x384, .f32⟩ : BufTy).Contents (Elt F)) (x1 : (⟨S4x384x160, .f32⟩ : BufTy).Contents (Elt F)) (x2 : (⟨S4x160, .f32⟩ : BufTy).Contents (Elt F)) (x11 : (⟨S50000, .i32⟩ : BufTy).Contents (Elt F)) : (⟨S50000x160, .f32⟩ : BufTy).Contents (Elt F) :=
  addf (val_main_v124 (F := F) x0 x1 x11) (val_main_v126 (F := F) x2)
def val_main_cst_15 : (⟨S_, .f32⟩ : BufTy).Contents (Elt F) :=
  constant S_ .f32 0x3DCCCCCD#32
def val_main_call6_cst : (⟨S_, .f32⟩ : BufTy).Contents (Elt F) :=
  constant S_ .f32 0x00000000#32
def val_main_call6_v0 : (⟨S50000x160, .f32⟩ : BufTy).Contents (Elt F) :=
  broadcastInDim S50000x160 ![] bcast_S_S50000x160 (val_main_call6_cst (F := F))
def val_main_call6_v1 (x0 : (⟨S200000x384, .f32⟩ : BufTy).Contents (Elt F)) (x1 : (⟨S4x384x160, .f32⟩ : BufTy).Contents (Elt F)) (x2 : (⟨S4x160, .f32⟩ : BufTy).Contents (Elt F)) (x11 : (⟨S50000, .i32⟩ : BufTy).Contents (Elt F)) : (⟨S50000x160, .f32⟩ : BufTy).Contents (Elt F) :=
  maximumf (val_main_v127 (F := F) x0 x1 x2 x11) (val_main_call6_v0 (F := F))
def val_main_call6_cst_0 : (⟨S_, .f32⟩ : BufTy).Contents (Elt F) :=
  constant S_ .f32 0x00000000#32
def val_main_call6_v2 : (⟨S50000x160, .f32⟩ : BufTy).Contents (Elt F) :=
  broadcastInDim S50000x160 ![] bcast_S_S50000x160 (val_main_call6_cst_0 (F := F))
def val_main_call6_v3 (x0 : (⟨S200000x384, .f32⟩ : BufTy).Contents (Elt F)) (x1 : (⟨S4x384x160, .f32⟩ : BufTy).Contents (Elt F)) (x2 : (⟨S4x160, .f32⟩ : BufTy).Contents (Elt F)) (x11 : (⟨S50000, .i32⟩ : BufTy).Contents (Elt F)) : (⟨S50000x160, .f32⟩ : BufTy).Contents (Elt F) :=
  minimumf (val_main_v127 (F := F) x0 x1 x2 x11) (val_main_call6_v2 (F := F))
def val_main_call6_v4 : (⟨S_, .f32⟩ : BufTy).Contents (Elt F) :=
  id (val_main_cst_15 (F := F))
def val_main_call6_v5 : (⟨S50000x160, .f32⟩ : BufTy).Contents (Elt F) :=
  broadcastInDim S50000x160 ![] bcast_S_S50000x160 (val_main_call6_v4 (F := F))
def val_main_call6_v6 (x0 : (⟨S200000x384, .f32⟩ : BufTy).Contents (Elt F)) (x1 : (⟨S4x384x160, .f32⟩ : BufTy).Contents (Elt F)) (x2 : (⟨S4x160, .f32⟩ : BufTy).Contents (Elt F)) (x11 : (⟨S50000, .i32⟩ : BufTy).Contents (Elt F)) : (⟨S50000x160, .f32⟩ : BufTy).Contents (Elt F) :=
  Host.divf (val_main_call6_v3 (F := F) x0 x1 x2 x11) (val_main_call6_v5 (F := F))
def val_main_call6_v7 (x0 : (⟨S200000x384, .f32⟩ : BufTy).Contents (Elt F)) (x1 : (⟨S4x384x160, .f32⟩ : BufTy).Contents (Elt F)) (x2 : (⟨S4x160, .f32⟩ : BufTy).Contents (Elt F)) (x11 : (⟨S50000, .i32⟩ : BufTy).Contents (Elt F)) : (⟨S50000x160, .f32⟩ : BufTy).Contents (Elt F) :=
  Host.expm1 (val_main_call6_v6 (F := F) x0 x1 x2 x11)
def val_main_call6_v8 : (⟨S_, .f32⟩ : BufTy).Contents (Elt F) :=
  id (val_main_cst_15 (F := F))
def val_main_call6_v9 : (⟨S50000x160, .f32⟩ : BufTy).Contents (Elt F) :=
  broadcastInDim S50000x160 ![] bcast_S_S50000x160 (val_main_call6_v8 (F := F))
def val_main_call6_v10 (x0 : (⟨S200000x384, .f32⟩ : BufTy).Contents (Elt F)) (x1 : (⟨S4x384x160, .f32⟩ : BufTy).Contents (Elt F)) (x2 : (⟨S4x160, .f32⟩ : BufTy).Contents (Elt F)) (x11 : (⟨S50000, .i32⟩ : BufTy).Contents (Elt F)) : (⟨S50000x160, .f32⟩ : BufTy).Contents (Elt F) :=
  mulf (val_main_call6_v9 (F := F)) (val_main_call6_v7 (F := F) x0 x1 x2 x11)
def val_main_v128 (x0 : (⟨S200000x384, .f32⟩ : BufTy).Contents (Elt F)) (x1 : (⟨S4x384x160, .f32⟩ : BufTy).Contents (Elt F)) (x2 : (⟨S4x160, .f32⟩ : BufTy).Contents (Elt F)) (x11 : (⟨S50000, .i32⟩ : BufTy).Contents (Elt F)) : (⟨S50000x160, .f32⟩ : BufTy).Contents (Elt F) :=
  addf (val_main_call6_v1 (F := F) x0 x1 x2 x11) (val_main_call6_v10 (F := F) x0 x1 x2 x11)
def val_main_v129 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x11 : (⟨S50000, .i32⟩ : BufTy).Contents (Elt F)) : (⟨S50000x128, .f32⟩ : BufTy).Contents (Elt F) :=
  Host.dotGeneral dot_S50000x160_S160x128_S50000x128_1_0_0_1_n_n none (val_main_v128 (F := F) x0 x1 x2 x11) (val_main_v113 (F := F) x3)
theorem lhs_main_v129_0 (i : S50000x128.Idx) (q : dot_S50000x160_S160x128_S50000x128_1_0_0_1_n_n.contr.Idx) :
    (dot_S50000x160_S160x128_S50000x128_1_0_0_1_n_n.lhsIdx i q 0).val = (i 0).val := by
  unfold DotDims.lhsIdx
  rw [dif_neg (show ¬(0 : Fin S50000x160.rank) ∈ dot_S50000x160_S160x128_S50000x128_1_0_0_1_n_n.lhsBatch by decide), dif_pos (show (0 : Fin S50000x160.rank) ∈ dot_S50000x160_S160x128_S50000x128_1_0_0_1_n_n.lhsNonContracting by decide)]
  rfl
theorem lhs_main_v129_1 (i : S50000x128.Idx) (q : dot_S50000x160_S160x128_S50000x128_1_0_0_1_n_n.contr.Idx) :
    (dot_S50000x160_S160x128_S50000x128_1_0_0_1_n_n.lhsIdx i q 1).val = (q ⟨0, by decide⟩).val :=
  dot_S50000x160_S160x128_S50000x128_1_0_0_1_n_n.lhsIdx_val_of_single rfl i q
theorem rhs_main_v129_0 (i : S50000x128.Idx) (q : dot_S50000x160_S160x128_S50000x128_1_0_0_1_n_n.contr.Idx) :
    (dot_S50000x160_S160x128_S50000x128_1_0_0_1_n_n.rhsIdx i q 0).val = (q ⟨0, by decide⟩).val :=
  dot_S50000x160_S160x128_S50000x128_1_0_0_1_n_n.rhsIdx_val_of_single rfl i q
theorem rhs_main_v129_1 (i : S50000x128.Idx) (q : dot_S50000x160_S160x128_S50000x128_1_0_0_1_n_n.contr.Idx) :
    (dot_S50000x160_S160x128_S50000x128_1_0_0_1_n_n.rhsIdx i q 1).val = (i 1).val := by
  unfold DotDims.rhsIdx
  rw [dif_neg (show ¬(1 : Fin S160x128.rank) ∈ dot_S50000x160_S160x128_S50000x128_1_0_0_1_n_n.rhsBatch by decide), dif_pos (show (1 : Fin S160x128.rank) ∈ dot_S50000x160_S160x128_S50000x128_1_0_0_1_n_n.rhsNonContracting by decide)]
  rfl
abbrev lidx_main_v129 (i : S50000x128.Idx) (k : Fin 160) : S50000x160.Idx := fun a => match a with
  | ⟨0, _⟩ => ⟨(i 0).val, (i 0).isLt⟩
  | ⟨1, _⟩ => ⟨k.val, k.isLt⟩
abbrev ridx_main_v129 (i : S50000x128.Idx) (k : Fin 160) : S160x128.Idx := fun a => match a with
  | ⟨0, _⟩ => ⟨k.val, k.isLt⟩
  | ⟨1, _⟩ => ⟨(i 1).val, (i 1).isLt⟩

theorem val_main_v129_apply (x0 : (⟨S200000x384, .f32⟩ : BufTy).Contents (Elt Ideal)) (x1 : (⟨S4x384x160, .f32⟩ : BufTy).Contents (Elt Ideal)) (x2 : (⟨S4x160, .f32⟩ : BufTy).Contents (Elt Ideal)) (x3 : (⟨S4x160x128, .f32⟩ : BufTy).Contents (Elt Ideal)) (x11 : (⟨S50000, .i32⟩ : BufTy).Contents (Elt Ideal)) (i : S50000x128.Idx) :
    val_main_v129 (F := Ideal) x0 x1 x2 x3 x11 i = ∑ k : Fin 160, (val_main_v128 (F := Ideal) x0 x1 x2 x11) (lidx_main_v129 i k) * (val_main_v113 (F := Ideal) x3) (ridx_main_v129 i k) := by
  unfold val_main_v129
  generalize val_main_v128 (F := Ideal) x0 x1 x2 x11 = y0
  generalize val_main_v113 (F := Ideal) x3 = y1
  simp only [Host.dotGeneral]
  rw [Ideal.dotGeneral_apply, ← Equiv.sum_comp (ValueIdx.contrEquiv1 dot_S50000x160_S160x128_S50000x128_1_0_0_1_n_n 160 rfl rfl).symm]
  refine Finset.sum_congr rfl fun k _ => ?_
  have hk := ValueIdx.contrEquiv1_symm_val dot_S50000x160_S160x128_S50000x128_1_0_0_1_n_n 160 rfl rfl k
  have el : dot_S50000x160_S160x128_S50000x128_1_0_0_1_n_n.lhsIdx i ((ValueIdx.contrEquiv1 dot_S50000x160_S160x128_S50000x128_1_0_0_1_n_n 160 rfl rfl).symm k) = lidx_main_v129 i k := funext fun a => Fin.ext (by
    match a with
    | ⟨0, _⟩ => exact lhs_main_v129_0 _ _
    | ⟨1, _⟩ => exact (lhs_main_v129_1 _ _).trans hk)
  have er : dot_S50000x160_S160x128_S50000x128_1_0_0_1_n_n.rhsIdx i ((ValueIdx.contrEquiv1 dot_S50000x160_S160x128_S50000x128_1_0_0_1_n_n 160 rfl rfl).symm k) = ridx_main_v129 i k := funext fun a => Fin.ext (by
    match a with
    | ⟨0, _⟩ => exact (rhs_main_v129_0 _ _).trans hk
    | ⟨1, _⟩ => exact rhs_main_v129_1 _ _)
  rw [el, er]

def val_main_v130 (x4 : (⟨S4x128, .f32⟩ : BufTy).Contents (Elt F)) : (⟨S1x128, .f32⟩ : BufTy).Contents (Elt F) :=
  broadcastInDim S1x128 ![1] bcast_S128_S1x128_1 (val_main_v115 (F := F) x4)
abbrev idx_main_v130 (i : S1x128.Idx) : S128.Idx := fun a => match a with
  | ⟨0, _⟩ => ⟨(i 1).val, (i 1).isLt⟩
theorem val_main_v130_apply (x4 : (⟨S4x128, .f32⟩ : BufTy).Contents (Elt F)) (i : S1x128.Idx) :
    val_main_v130 (F := F) x4 i = val_main_v115 (F := F) x4 (idx_main_v130 i) := by
  unfold val_main_v130
  generalize val_main_v115 (F := F) x4 = y
  exact broadcastInDim_apply _ bcast_S128_S1x128_1 y i (idx_main_v130 i) (fun a => match a with
    | ⟨0, _⟩ => by show (i 1).val = if (128 : Nat) = 1 then 0 else (i 1).val; rw [if_neg (by decide)])

def val_main_v131 (x4 : (⟨S4x128, .f32⟩ : BufTy).Contents (Elt F)) : (⟨S50000x128, .f32⟩ : BufTy).Contents (Elt F) :=
  broadcastInDim S50000x128 ![0, 1] bcast_S1x128_S50000x128_0_1 (val_main_v130 (F := F) x4)
abbrev idx_main_v131 (i : S50000x128.Idx) : S1x128.Idx := fun a => match a with
  | ⟨0, _⟩ => ⟨0, Nat.one_pos⟩
  | ⟨1, _⟩ => ⟨(i 1).val, (i 1).isLt⟩
theorem val_main_v131_apply (x4 : (⟨S4x128, .f32⟩ : BufTy).Contents (Elt F)) (i : S50000x128.Idx) :
    val_main_v131 (F := F) x4 i = val_main_v130 (F := F) x4 (idx_main_v131 i) := by
  unfold val_main_v131
  generalize val_main_v130 (F := F) x4 = y
  exact broadcastInDim_apply _ bcast_S1x128_S50000x128_0_1 y i (idx_main_v131 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v132 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x11 : (⟨S50000, .i32⟩ : BufTy).Contents (Elt F)) : (⟨S50000x128, .f32⟩ : BufTy).Contents (Elt F) :=
  addf (val_main_v129 (F := F) x0 x1 x2 x3 x11) (val_main_v131 (F := F) x4)
def val_main_cst_16 : (⟨S_, .f32⟩ : BufTy).Contents (Elt F) :=
  constant S_ .f32 0x3DCCCCCD#32
def val_main_call7_cst : (⟨S_, .f32⟩ : BufTy).Contents (Elt F) :=
  constant S_ .f32 0x00000000#32
def val_main_call7_v0 : (⟨S50000x128, .f32⟩ : BufTy).Contents (Elt F) :=
  broadcastInDim S50000x128 ![] bcast_S_S50000x128 (val_main_call7_cst (F := F))
def val_main_call7_v1 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x11 : (⟨S50000, .i32⟩ : BufTy).Contents (Elt F)) : (⟨S50000x128, .f32⟩ : BufTy).Contents (Elt F) :=
  maximumf (val_main_v132 (F := F) x0 x1 x2 x3 x4 x11) (val_main_call7_v0 (F := F))
def val_main_call7_cst_0 : (⟨S_, .f32⟩ : BufTy).Contents (Elt F) :=
  constant S_ .f32 0x00000000#32
def val_main_call7_v2 : (⟨S50000x128, .f32⟩ : BufTy).Contents (Elt F) :=
  broadcastInDim S50000x128 ![] bcast_S_S50000x128 (val_main_call7_cst_0 (F := F))
def val_main_call7_v3 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x11 : (⟨S50000, .i32⟩ : BufTy).Contents (Elt F)) : (⟨S50000x128, .f32⟩ : BufTy).Contents (Elt F) :=
  minimumf (val_main_v132 (F := F) x0 x1 x2 x3 x4 x11) (val_main_call7_v2 (F := F))
def val_main_call7_v4 : (⟨S_, .f32⟩ : BufTy).Contents (Elt F) :=
  id (val_main_cst_16 (F := F))
def val_main_call7_v5 : (⟨S50000x128, .f32⟩ : BufTy).Contents (Elt F) :=
  broadcastInDim S50000x128 ![] bcast_S_S50000x128 (val_main_call7_v4 (F := F))
def val_main_call7_v6 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x11 : (⟨S50000, .i32⟩ : BufTy).Contents (Elt F)) : (⟨S50000x128, .f32⟩ : BufTy).Contents (Elt F) :=
  Host.divf (val_main_call7_v3 (F := F) x0 x1 x2 x3 x4 x11) (val_main_call7_v5 (F := F))
def val_main_call7_v7 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x11 : (⟨S50000, .i32⟩ : BufTy).Contents (Elt F)) : (⟨S50000x128, .f32⟩ : BufTy).Contents (Elt F) :=
  Host.expm1 (val_main_call7_v6 (F := F) x0 x1 x2 x3 x4 x11)
def val_main_call7_v8 : (⟨S_, .f32⟩ : BufTy).Contents (Elt F) :=
  id (val_main_cst_16 (F := F))
def val_main_call7_v9 : (⟨S50000x128, .f32⟩ : BufTy).Contents (Elt F) :=
  broadcastInDim S50000x128 ![] bcast_S_S50000x128 (val_main_call7_v8 (F := F))
def val_main_call7_v10 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x11 : (⟨S50000, .i32⟩ : BufTy).Contents (Elt F)) : (⟨S50000x128, .f32⟩ : BufTy).Contents (Elt F) :=
  mulf (val_main_call7_v9 (F := F)) (val_main_call7_v7 (F := F) x0 x1 x2 x3 x4 x11)
def val_main_v133 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x11 : (⟨S50000, .i32⟩ : BufTy).Contents (Elt F)) : (⟨S50000x128, .f32⟩ : BufTy).Contents (Elt F) :=
  addf (val_main_call7_v1 (F := F) x0 x1 x2 x3 x4 x11) (val_main_call7_v10 (F := F) x0 x1 x2 x3 x4 x11)
def val_main_v134 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x11 : (⟨S50000, .i32⟩ : BufTy).Contents (Elt F)) : (⟨S50000x96, .f32⟩ : BufTy).Contents (Elt F) :=
  Host.dotGeneral dot_S50000x128_S128x96_S50000x96_1_0_0_1_n_n none (val_main_v133 (F := F) x0 x1 x2 x3 x4 x11) (val_main_v117 (F := F) x5)
theorem lhs_main_v134_0 (i : S50000x96.Idx) (q : dot_S50000x128_S128x96_S50000x96_1_0_0_1_n_n.contr.Idx) :
    (dot_S50000x128_S128x96_S50000x96_1_0_0_1_n_n.lhsIdx i q 0).val = (i 0).val := by
  unfold DotDims.lhsIdx
  rw [dif_neg (show ¬(0 : Fin S50000x128.rank) ∈ dot_S50000x128_S128x96_S50000x96_1_0_0_1_n_n.lhsBatch by decide), dif_pos (show (0 : Fin S50000x128.rank) ∈ dot_S50000x128_S128x96_S50000x96_1_0_0_1_n_n.lhsNonContracting by decide)]
  rfl
theorem lhs_main_v134_1 (i : S50000x96.Idx) (q : dot_S50000x128_S128x96_S50000x96_1_0_0_1_n_n.contr.Idx) :
    (dot_S50000x128_S128x96_S50000x96_1_0_0_1_n_n.lhsIdx i q 1).val = (q ⟨0, by decide⟩).val :=
  dot_S50000x128_S128x96_S50000x96_1_0_0_1_n_n.lhsIdx_val_of_single rfl i q
theorem rhs_main_v134_0 (i : S50000x96.Idx) (q : dot_S50000x128_S128x96_S50000x96_1_0_0_1_n_n.contr.Idx) :
    (dot_S50000x128_S128x96_S50000x96_1_0_0_1_n_n.rhsIdx i q 0).val = (q ⟨0, by decide⟩).val :=
  dot_S50000x128_S128x96_S50000x96_1_0_0_1_n_n.rhsIdx_val_of_single rfl i q
theorem rhs_main_v134_1 (i : S50000x96.Idx) (q : dot_S50000x128_S128x96_S50000x96_1_0_0_1_n_n.contr.Idx) :
    (dot_S50000x128_S128x96_S50000x96_1_0_0_1_n_n.rhsIdx i q 1).val = (i 1).val := by
  unfold DotDims.rhsIdx
  rw [dif_neg (show ¬(1 : Fin S128x96.rank) ∈ dot_S50000x128_S128x96_S50000x96_1_0_0_1_n_n.rhsBatch by decide), dif_pos (show (1 : Fin S128x96.rank) ∈ dot_S50000x128_S128x96_S50000x96_1_0_0_1_n_n.rhsNonContracting by decide)]
  rfl
abbrev lidx_main_v134 (i : S50000x96.Idx) (k : Fin 128) : S50000x128.Idx := fun a => match a with
  | ⟨0, _⟩ => ⟨(i 0).val, (i 0).isLt⟩
  | ⟨1, _⟩ => ⟨k.val, k.isLt⟩
abbrev ridx_main_v134 (i : S50000x96.Idx) (k : Fin 128) : S128x96.Idx := fun a => match a with
  | ⟨0, _⟩ => ⟨k.val, k.isLt⟩
  | ⟨1, _⟩ => ⟨(i 1).val, (i 1).isLt⟩

theorem val_main_v134_apply (x0 : (⟨S200000x384, .f32⟩ : BufTy).Contents (Elt Ideal)) (x1 : (⟨S4x384x160, .f32⟩ : BufTy).Contents (Elt Ideal)) (x2 : (⟨S4x160, .f32⟩ : BufTy).Contents (Elt Ideal)) (x3 : (⟨S4x160x128, .f32⟩ : BufTy).Contents (Elt Ideal)) (x4 : (⟨S4x128, .f32⟩ : BufTy).Contents (Elt Ideal)) (x5 : (⟨S4x128x96, .f32⟩ : BufTy).Contents (Elt Ideal)) (x11 : (⟨S50000, .i32⟩ : BufTy).Contents (Elt Ideal)) (i : S50000x96.Idx) :
    val_main_v134 (F := Ideal) x0 x1 x2 x3 x4 x5 x11 i = ∑ k : Fin 128, (val_main_v133 (F := Ideal) x0 x1 x2 x3 x4 x11) (lidx_main_v134 i k) * (val_main_v117 (F := Ideal) x5) (ridx_main_v134 i k) := by
  unfold val_main_v134
  generalize val_main_v133 (F := Ideal) x0 x1 x2 x3 x4 x11 = y0
  generalize val_main_v117 (F := Ideal) x5 = y1
  simp only [Host.dotGeneral]
  rw [Ideal.dotGeneral_apply, ← Equiv.sum_comp (ValueIdx.contrEquiv1 dot_S50000x128_S128x96_S50000x96_1_0_0_1_n_n 128 rfl rfl).symm]
  refine Finset.sum_congr rfl fun k _ => ?_
  have hk := ValueIdx.contrEquiv1_symm_val dot_S50000x128_S128x96_S50000x96_1_0_0_1_n_n 128 rfl rfl k
  have el : dot_S50000x128_S128x96_S50000x96_1_0_0_1_n_n.lhsIdx i ((ValueIdx.contrEquiv1 dot_S50000x128_S128x96_S50000x96_1_0_0_1_n_n 128 rfl rfl).symm k) = lidx_main_v134 i k := funext fun a => Fin.ext (by
    match a with
    | ⟨0, _⟩ => exact lhs_main_v134_0 _ _
    | ⟨1, _⟩ => exact (lhs_main_v134_1 _ _).trans hk)
  have er : dot_S50000x128_S128x96_S50000x96_1_0_0_1_n_n.rhsIdx i ((ValueIdx.contrEquiv1 dot_S50000x128_S128x96_S50000x96_1_0_0_1_n_n 128 rfl rfl).symm k) = ridx_main_v134 i k := funext fun a => Fin.ext (by
    match a with
    | ⟨0, _⟩ => exact (rhs_main_v134_0 _ _).trans hk
    | ⟨1, _⟩ => exact rhs_main_v134_1 _ _)
  rw [el, er]

def val_main_v135 (x6 : (⟨S4x96, .f32⟩ : BufTy).Contents (Elt F)) : (⟨S1x96, .f32⟩ : BufTy).Contents (Elt F) :=
  broadcastInDim S1x96 ![1] bcast_S96_S1x96_1 (val_main_v119 (F := F) x6)
abbrev idx_main_v135 (i : S1x96.Idx) : S96.Idx := fun a => match a with
  | ⟨0, _⟩ => ⟨(i 1).val, (i 1).isLt⟩
theorem val_main_v135_apply (x6 : (⟨S4x96, .f32⟩ : BufTy).Contents (Elt F)) (i : S1x96.Idx) :
    val_main_v135 (F := F) x6 i = val_main_v119 (F := F) x6 (idx_main_v135 i) := by
  unfold val_main_v135
  generalize val_main_v119 (F := F) x6 = y
  exact broadcastInDim_apply _ bcast_S96_S1x96_1 y i (idx_main_v135 i) (fun a => match a with
    | ⟨0, _⟩ => by show (i 1).val = if (96 : Nat) = 1 then 0 else (i 1).val; rw [if_neg (by decide)])

def val_main_v136 (x6 : (⟨S4x96, .f32⟩ : BufTy).Contents (Elt F)) : (⟨S50000x96, .f32⟩ : BufTy).Contents (Elt F) :=
  broadcastInDim S50000x96 ![0, 1] bcast_S1x96_S50000x96_0_1 (val_main_v135 (F := F) x6)
abbrev idx_main_v136 (i : S50000x96.Idx) : S1x96.Idx := fun a => match a with
  | ⟨0, _⟩ => ⟨0, Nat.one_pos⟩
  | ⟨1, _⟩ => ⟨(i 1).val, (i 1).isLt⟩
theorem val_main_v136_apply (x6 : (⟨S4x96, .f32⟩ : BufTy).Contents (Elt F)) (i : S50000x96.Idx) :
    val_main_v136 (F := F) x6 i = val_main_v135 (F := F) x6 (idx_main_v136 i) := by
  unfold val_main_v136
  generalize val_main_v135 (F := F) x6 = y
  exact broadcastInDim_apply _ bcast_S1x96_S50000x96_0_1 y i (idx_main_v136 i) (fun a => match a with
    | ⟨0, _⟩ => by show 0 = if (1 : Nat) = 1 then 0 else (i 0).val; rw [if_pos rfl]
    | ⟨1, _⟩ => by show (i 1).val = if (96 : Nat) = 1 then 0 else (i 1).val; rw [if_neg (by decide)])

def val_main_v137 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x11 : (⟨S50000, .i32⟩ : BufTy).Contents (Elt F)) : (⟨S50000x96, .f32⟩ : BufTy).Contents (Elt F) :=
  addf (val_main_v134 (F := F) x0 x1 x2 x3 x4 x5 x11) (val_main_v136 (F := F) x6)
def val_main_cst_17 : (⟨S_, .f32⟩ : BufTy).Contents (Elt F) :=
  constant S_ .f32 0x3DCCCCCD#32
def val_main_call8_cst : (⟨S_, .f32⟩ : BufTy).Contents (Elt F) :=
  constant S_ .f32 0x00000000#32
def val_main_call8_v0 : (⟨S50000x96, .f32⟩ : BufTy).Contents (Elt F) :=
  broadcastInDim S50000x96 ![] bcast_S_S50000x96 (val_main_call8_cst (F := F))
def val_main_call8_v1 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x11 : (⟨S50000, .i32⟩ : BufTy).Contents (Elt F)) : (⟨S50000x96, .f32⟩ : BufTy).Contents (Elt F) :=
  maximumf (val_main_v137 (F := F) x0 x1 x2 x3 x4 x5 x6 x11) (val_main_call8_v0 (F := F))
def val_main_call8_cst_0 : (⟨S_, .f32⟩ : BufTy).Contents (Elt F) :=
  constant S_ .f32 0x00000000#32
def val_main_call8_v2 : (⟨S50000x96, .f32⟩ : BufTy).Contents (Elt F) :=
  broadcastInDim S50000x96 ![] bcast_S_S50000x96 (val_main_call8_cst_0 (F := F))
def val_main_call8_v3 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x11 : (⟨S50000, .i32⟩ : BufTy).Contents (Elt F)) : (⟨S50000x96, .f32⟩ : BufTy).Contents (Elt F) :=
  minimumf (val_main_v137 (F := F) x0 x1 x2 x3 x4 x5 x6 x11) (val_main_call8_v2 (F := F))
def val_main_call8_v4 : (⟨S_, .f32⟩ : BufTy).Contents (Elt F) :=
  id (val_main_cst_17 (F := F))
def val_main_call8_v5 : (⟨S50000x96, .f32⟩ : BufTy).Contents (Elt F) :=
  broadcastInDim S50000x96 ![] bcast_S_S50000x96 (val_main_call8_v4 (F := F))
def val_main_call8_v6 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x11 : (⟨S50000, .i32⟩ : BufTy).Contents (Elt F)) : (⟨S50000x96, .f32⟩ : BufTy).Contents (Elt F) :=
  Host.divf (val_main_call8_v3 (F := F) x0 x1 x2 x3 x4 x5 x6 x11) (val_main_call8_v5 (F := F))
def val_main_call8_v7 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x11 : (⟨S50000, .i32⟩ : BufTy).Contents (Elt F)) : (⟨S50000x96, .f32⟩ : BufTy).Contents (Elt F) :=
  Host.expm1 (val_main_call8_v6 (F := F) x0 x1 x2 x3 x4 x5 x6 x11)
def val_main_call8_v8 : (⟨S_, .f32⟩ : BufTy).Contents (Elt F) :=
  id (val_main_cst_17 (F := F))
def val_main_call8_v9 : (⟨S50000x96, .f32⟩ : BufTy).Contents (Elt F) :=
  broadcastInDim S50000x96 ![] bcast_S_S50000x96 (val_main_call8_v8 (F := F))
def val_main_call8_v10 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x11 : (⟨S50000, .i32⟩ : BufTy).Contents (Elt F)) : (⟨S50000x96, .f32⟩ : BufTy).Contents (Elt F) :=
  mulf (val_main_call8_v9 (F := F)) (val_main_call8_v7 (F := F) x0 x1 x2 x3 x4 x5 x6 x11)
def val_main_v138 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x11 : (⟨S50000, .i32⟩ : BufTy).Contents (Elt F)) : (⟨S50000x96, .f32⟩ : BufTy).Contents (Elt F) :=
  addf (val_main_call8_v1 (F := F) x0 x1 x2 x3 x4 x5 x6 x11) (val_main_call8_v10 (F := F) x0 x1 x2 x3 x4 x5 x6 x11)
def val_main_v139 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x11 : (⟨S50000, .i32⟩ : BufTy).Contents (Elt F)) : (⟨S50000x1, .f32⟩ : BufTy).Contents (Elt F) :=
  Host.dotGeneral dot_S50000x96_S96x1_S50000x1_1_0_0_1_n_n none (val_main_v138 (F := F) x0 x1 x2 x3 x4 x5 x6 x11) (val_main_v121 (F := F) x7)
theorem lhs_main_v139_0 (i : S50000x1.Idx) (q : dot_S50000x96_S96x1_S50000x1_1_0_0_1_n_n.contr.Idx) :
    (dot_S50000x96_S96x1_S50000x1_1_0_0_1_n_n.lhsIdx i q 0).val = (i 0).val := by
  unfold DotDims.lhsIdx
  rw [dif_neg (show ¬(0 : Fin S50000x96.rank) ∈ dot_S50000x96_S96x1_S50000x1_1_0_0_1_n_n.lhsBatch by decide), dif_pos (show (0 : Fin S50000x96.rank) ∈ dot_S50000x96_S96x1_S50000x1_1_0_0_1_n_n.lhsNonContracting by decide)]
  rfl
theorem lhs_main_v139_1 (i : S50000x1.Idx) (q : dot_S50000x96_S96x1_S50000x1_1_0_0_1_n_n.contr.Idx) :
    (dot_S50000x96_S96x1_S50000x1_1_0_0_1_n_n.lhsIdx i q 1).val = (q ⟨0, by decide⟩).val :=
  dot_S50000x96_S96x1_S50000x1_1_0_0_1_n_n.lhsIdx_val_of_single rfl i q
theorem rhs_main_v139_0 (i : S50000x1.Idx) (q : dot_S50000x96_S96x1_S50000x1_1_0_0_1_n_n.contr.Idx) :
    (dot_S50000x96_S96x1_S50000x1_1_0_0_1_n_n.rhsIdx i q 0).val = (q ⟨0, by decide⟩).val :=
  dot_S50000x96_S96x1_S50000x1_1_0_0_1_n_n.rhsIdx_val_of_single rfl i q
theorem rhs_main_v139_1 (i : S50000x1.Idx) (q : dot_S50000x96_S96x1_S50000x1_1_0_0_1_n_n.contr.Idx) :
    (dot_S50000x96_S96x1_S50000x1_1_0_0_1_n_n.rhsIdx i q 1).val = (i 1).val := by
  unfold DotDims.rhsIdx
  rw [dif_neg (show ¬(1 : Fin S96x1.rank) ∈ dot_S50000x96_S96x1_S50000x1_1_0_0_1_n_n.rhsBatch by decide), dif_pos (show (1 : Fin S96x1.rank) ∈ dot_S50000x96_S96x1_S50000x1_1_0_0_1_n_n.rhsNonContracting by decide)]
  rfl
abbrev lidx_main_v139 (i : S50000x1.Idx) (k : Fin 96) : S50000x96.Idx := fun a => match a with
  | ⟨0, _⟩ => ⟨(i 0).val, (i 0).isLt⟩
  | ⟨1, _⟩ => ⟨k.val, k.isLt⟩
abbrev ridx_main_v139 (i : S50000x1.Idx) (k : Fin 96) : S96x1.Idx := fun a => match a with
  | ⟨0, _⟩ => ⟨k.val, k.isLt⟩
  | ⟨1, _⟩ => ⟨(i 1).val, (i 1).isLt⟩

theorem val_main_v139_apply (x0 : (⟨S200000x384, .f32⟩ : BufTy).Contents (Elt Ideal)) (x1 : (⟨S4x384x160, .f32⟩ : BufTy).Contents (Elt Ideal)) (x2 : (⟨S4x160, .f32⟩ : BufTy).Contents (Elt Ideal)) (x3 : (⟨S4x160x128, .f32⟩ : BufTy).Contents (Elt Ideal)) (x4 : (⟨S4x128, .f32⟩ : BufTy).Contents (Elt Ideal)) (x5 : (⟨S4x128x96, .f32⟩ : BufTy).Contents (Elt Ideal)) (x6 : (⟨S4x96, .f32⟩ : BufTy).Contents (Elt Ideal)) (x7 : (⟨S4x96x1, .f32⟩ : BufTy).Contents (Elt Ideal)) (x11 : (⟨S50000, .i32⟩ : BufTy).Contents (Elt Ideal)) (i : S50000x1.Idx) :
    val_main_v139 (F := Ideal) x0 x1 x2 x3 x4 x5 x6 x7 x11 i = ∑ k : Fin 96, (val_main_v138 (F := Ideal) x0 x1 x2 x3 x4 x5 x6 x11) (lidx_main_v139 i k) * (val_main_v121 (F := Ideal) x7) (ridx_main_v139 i k) := by
  unfold val_main_v139
  generalize val_main_v138 (F := Ideal) x0 x1 x2 x3 x4 x5 x6 x11 = y0
  generalize val_main_v121 (F := Ideal) x7 = y1
  simp only [Host.dotGeneral]
  rw [Ideal.dotGeneral_apply, ← Equiv.sum_comp (ValueIdx.contrEquiv1 dot_S50000x96_S96x1_S50000x1_1_0_0_1_n_n 96 rfl rfl).symm]
  refine Finset.sum_congr rfl fun k _ => ?_
  have hk := ValueIdx.contrEquiv1_symm_val dot_S50000x96_S96x1_S50000x1_1_0_0_1_n_n 96 rfl rfl k
  have el : dot_S50000x96_S96x1_S50000x1_1_0_0_1_n_n.lhsIdx i ((ValueIdx.contrEquiv1 dot_S50000x96_S96x1_S50000x1_1_0_0_1_n_n 96 rfl rfl).symm k) = lidx_main_v139 i k := funext fun a => Fin.ext (by
    match a with
    | ⟨0, _⟩ => exact lhs_main_v139_0 _ _
    | ⟨1, _⟩ => exact (lhs_main_v139_1 _ _).trans hk)
  have er : dot_S50000x96_S96x1_S50000x1_1_0_0_1_n_n.rhsIdx i ((ValueIdx.contrEquiv1 dot_S50000x96_S96x1_S50000x1_1_0_0_1_n_n 96 rfl rfl).symm k) = ridx_main_v139 i k := funext fun a => Fin.ext (by
    match a with
    | ⟨0, _⟩ => exact (rhs_main_v139_0 _ _).trans hk
    | ⟨1, _⟩ => exact rhs_main_v139_1 _ _)
  rw [el, er]

def val_main_v140 (x8 : (⟨S4x1, .f32⟩ : BufTy).Contents (Elt F)) : (⟨S1x1, .f32⟩ : BufTy).Contents (Elt F) :=
  broadcastInDim S1x1 ![1] bcast_S1_S1x1_1 (val_main_v123 (F := F) x8)
abbrev idx_main_v140 (i : S1x1.Idx) : S1.Idx := fun a => match a with
  | ⟨0, _⟩ => ⟨0, Nat.one_pos⟩
theorem val_main_v140_apply (x8 : (⟨S4x1, .f32⟩ : BufTy).Contents (Elt F)) (i : S1x1.Idx) :
    val_main_v140 (F := F) x8 i = val_main_v123 (F := F) x8 (idx_main_v140 i) := by
  unfold val_main_v140
  generalize val_main_v123 (F := F) x8 = y
  exact broadcastInDim_apply _ bcast_S1_S1x1_1 y i (idx_main_v140 i) (fun a => match a with
    | ⟨0, _⟩ => by show 0 = if (1 : Nat) = 1 then 0 else (i 1).val; rw [if_pos rfl])

def val_main_v141 (x8 : (⟨S4x1, .f32⟩ : BufTy).Contents (Elt F)) : (⟨S50000x1, .f32⟩ : BufTy).Contents (Elt F) :=
  broadcastInDim S50000x1 ![0, 1] bcast_S1x1_S50000x1_0_1 (val_main_v140 (F := F) x8)
abbrev idx_main_v141 (i : S50000x1.Idx) : S1x1.Idx := fun a => match a with
  | ⟨0, _⟩ => ⟨0, Nat.one_pos⟩
  | ⟨1, _⟩ => ⟨0, Nat.one_pos⟩
theorem val_main_v141_apply (x8 : (⟨S4x1, .f32⟩ : BufTy).Contents (Elt F)) (i : S50000x1.Idx) :
    val_main_v141 (F := F) x8 i = val_main_v140 (F := F) x8 (idx_main_v141 i) := by
  unfold val_main_v141
  generalize val_main_v140 (F := F) x8 = y
  exact broadcastInDim_apply _ bcast_S1x1_S50000x1_0_1 y i (idx_main_v141 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v142 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x8 : (⟨S4x1, .f32⟩ : BufTy).Contents (Elt F)) (x11 : (⟨S50000, .i32⟩ : BufTy).Contents (Elt F)) : (⟨S50000x1, .f32⟩ : BufTy).Contents (Elt F) :=
  addf (val_main_v139 (F := F) x0 x1 x2 x3 x4 x5 x6 x7 x11) (val_main_v141 (F := F) x8)
def val_main_v143 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x8 : (⟨S4x1, .f32⟩ : BufTy).Contents (Elt F)) (x11 : (⟨S50000, .i32⟩ : BufTy).Contents (Elt F)) : (⟨S50000, .f32⟩ : BufTy).Contents (Elt F) :=
  shapeCast _ (val_main_v142 (F := F) x0 x1 x2 x3 x4 x5 x6 x7 x8 x11) shapeCasts_S50000x1_S50000
abbrev idx_main_v143 (i : S50000.Idx) : S50000x1.Idx := fun a => match a with
  | ⟨0, _⟩ => ⟨((i 0).val) / 1, by have h0 : (i 0).val < 50000 := (i 0).isLt; show ((i 0).val) / 1 < 50000; omega⟩
  | ⟨1, _⟩ => ⟨0, Nat.one_pos⟩
theorem val_main_v143_apply (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x8 : (⟨S4x1, .f32⟩ : BufTy).Contents (Elt F)) (x11 : (⟨S50000, .i32⟩ : BufTy).Contents (Elt F)) (i : S50000.Idx) :
    val_main_v143 (F := F) x0 x1 x2 x3 x4 x5 x6 x7 x8 x11 i = val_main_v142 (F := F) x0 x1 x2 x3 x4 x5 x6 x7 x8 x11 (idx_main_v143 i) := by
  unfold val_main_v143
  generalize val_main_v142 (F := F) x0 x1 x2 x3 x4 x5 x6 x7 x8 x11 = y
  exact shapeCast_apply y shapeCasts_S50000x1_S50000 i (idx_main_v143 i)
    (by rewrite [Shape.rowMajor_val_two, Shape.rowMajor_val_one]; have h0 : (i 0).val < 50000 := (i 0).isLt; show ((i 0).val) / 1 * 1 + 0 = (i 0).val; omega)

def val_main_c_18 : (⟨S_, .i32⟩ : BufTy).Contents (Elt F) :=
  constantI S_ 32 0#32
def val_main_v144 : (⟨S50000, .i32⟩ : BufTy).Contents (Elt F) :=
  broadcastInDim S50000 ![] bcast_S_S50000 (val_main_c_18 (F := F))
def val_main_v145 (x11 : (⟨S50000, .i32⟩ : BufTy).Contents (Elt F)) : (⟨S50000, .i1⟩ : BufTy).Contents (Elt F) :=
  cmpi .slt (x11) (val_main_v144 (F := F))
def val_main_c_19 : (⟨S_, .i32⟩ : BufTy).Contents (Elt F) :=
  constantI S_ 32 200000#32
def val_main_v146 : (⟨S50000, .i32⟩ : BufTy).Contents (Elt F) :=
  broadcastInDim S50000 ![] bcast_S_S50000 (val_main_c_19 (F := F))
def val_main_v147 (x11 : (⟨S50000, .i32⟩ : BufTy).Contents (Elt F)) : (⟨S50000, .i32⟩ : BufTy).Contents (Elt F) :=
  addi (x11) (val_main_v146 (F := F))
def val_main_v148 (x11 : (⟨S50000, .i32⟩ : BufTy).Contents (Elt F)) : (⟨S50000, .i32⟩ : BufTy).Contents (Elt F) :=
  select (val_main_v145 (F := F) x11) (val_main_v147 (F := F) x11) (x11)
def val_main_v149 (x11 : (⟨S50000, .i32⟩ : BufTy).Contents (Elt F)) : (⟨S50000x1, .i32⟩ : BufTy).Contents (Elt F) :=
  broadcastInDim S50000x1 ![0] bcast_S50000_S50000x1_0 (val_main_v148 (F := F) x11)
abbrev idx_main_v149 (i : S50000x1.Idx) : S50000.Idx := fun a => match a with
  | ⟨0, _⟩ => ⟨(i 0).val, (i 0).isLt⟩
theorem val_main_v149_apply (x11 : (⟨S50000, .i32⟩ : BufTy).Contents (Elt F)) (i : S50000x1.Idx) :
    val_main_v149 (F := F) x11 i = val_main_v148 (F := F) x11 (idx_main_v149 i) := by
  unfold val_main_v149
  generalize val_main_v148 (F := F) x11 = y
  exact broadcastInDim_apply _ bcast_S50000_S50000x1_0 y i (idx_main_v149 i) (fun a => match a with
    | ⟨0, _⟩ => by show (i 0).val = if (50000 : Nat) = 1 then 0 else (i 0).val; rw [if_neg (by decide)])

def val_main_v150 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x8 : (⟨S4x1, .f32⟩ : BufTy).Contents (Elt F)) (x9 x10 x11 : (⟨S50000, .i32⟩ : BufTy).Contents (Elt F)) : (⟨S200000, .f32⟩ : BufTy).Contents (Elt F) :=
  Host.scatterAdd scatter_S200000_S50000x1_S50000_n_0_0_1 (val_main_v100 (F := F) x0 x1 x2 x3 x4 x5 x6 x7 x8 x9 x10) (val_main_v149 (F := F) x11) (val_main_v143 (F := F) x0 x1 x2 x3 x4 x5 x6 x7 x8 x11)

def val_main_c_20 : (⟨S_, .i32⟩ : BufTy).Contents (Elt F) :=
  constantI S_ 32 0#32
def val_main_v151 : (⟨S50000, .i32⟩ : BufTy).Contents (Elt F) :=
  broadcastInDim S50000 ![] bcast_S_S50000 (val_main_c_20 (F := F))
def val_main_v152 (x12 : (⟨S50000, .i32⟩ : BufTy).Contents (Elt F)) : (⟨S50000, .i1⟩ : BufTy).Contents (Elt F) :=
  cmpi .slt (x12) (val_main_v151 (F := F))
def val_main_c_21 : (⟨S_, .i32⟩ : BufTy).Contents (Elt F) :=
  constantI S_ 32 200000#32
def val_main_v153 : (⟨S50000, .i32⟩ : BufTy).Contents (Elt F) :=
  broadcastInDim S50000 ![] bcast_S_S50000 (val_main_c_21 (F := F))
def val_main_v154 (x12 : (⟨S50000, .i32⟩ : BufTy).Contents (Elt F)) : (⟨S50000, .i32⟩ : BufTy).Contents (Elt F) :=
  addi (x12) (val_main_v153 (F := F))
def val_main_v155 (x12 : (⟨S50000, .i32⟩ : BufTy).Contents (Elt F)) : (⟨S50000, .i32⟩ : BufTy).Contents (Elt F) :=
  select (val_main_v152 (F := F) x12) (val_main_v154 (F := F) x12) (x12)
def val_main_v156 (x12 : (⟨S50000, .i32⟩ : BufTy).Contents (Elt F)) : (⟨S50000x1, .i32⟩ : BufTy).Contents (Elt F) :=
  broadcastInDim S50000x1 ![0] bcast_S50000_S50000x1_0 (val_main_v155 (F := F) x12)
abbrev idx_main_v156 (i : S50000x1.Idx) : S50000.Idx := fun a => match a with
  | ⟨0, _⟩ => ⟨(i 0).val, (i 0).isLt⟩
theorem val_main_v156_apply (x12 : (⟨S50000, .i32⟩ : BufTy).Contents (Elt F)) (i : S50000x1.Idx) :
    val_main_v156 (F := F) x12 i = val_main_v155 (F := F) x12 (idx_main_v156 i) := by
  unfold val_main_v156
  generalize val_main_v155 (F := F) x12 = y
  exact broadcastInDim_apply _ bcast_S50000_S50000x1_0 y i (idx_main_v156 i) (fun a => match a with
    | ⟨0, _⟩ => by show (i 0).val = if (50000 : Nat) = 1 then 0 else (i 0).val; rw [if_neg (by decide)])

def val_main_v157 (x0 : (⟨S200000x384, .f32⟩ : BufTy).Contents (Elt F)) (x12 : (⟨S50000, .i32⟩ : BufTy).Contents (Elt F)) : (⟨S50000x384, .f32⟩ : BufTy).Contents (Elt F) :=
  Host.gather gather_S200000x384_S50000x1_S50000x384_1_0_n_n_0_1_1384 (x0) (val_main_v156 (F := F) x12)

def val_main_v158 (x1 : (⟨S4x384x160, .f32⟩ : BufTy).Contents (Elt F)) : (⟨S1x384x160, .f32⟩ : BufTy).Contents (Elt F) :=
  extractStridedSlice S1x384x160 ![3, 0, 0] (x1) slices_S4x384x160_S1x384x160_3_0_0
abbrev idx_main_v158 (i : S1x384x160.Idx) : S4x384x160.Idx := fun a => match a with
  | ⟨0, _⟩ => ⟨3 + (i 0).val, by have h0 : (i 0).val < 1 := (i 0).isLt; show 3 + (i 0).val < 4; omega⟩
  | ⟨1, _⟩ => ⟨(i 1).val, (i 1).isLt⟩
  | ⟨2, _⟩ => ⟨(i 2).val, (i 2).isLt⟩
theorem val_main_v158_apply (x1 : (⟨S4x384x160, .f32⟩ : BufTy).Contents (Elt F)) (i : S1x384x160.Idx) :
    val_main_v158 (F := F) x1 i = x1 (idx_main_v158 i) := by
  unfold val_main_v158
  exact extractStridedSlice_apply ![3, 0, 0] x1 slices_S4x384x160_S1x384x160_3_0_0 i (idx_main_v158 i) (fun a => match a with
    | ⟨0, _⟩ => by show 3 + (i 0).val = 3 + (i 0).val; omega
    | ⟨1, _⟩ => by show (i 1).val = 0 + (i 1).val; omega
    | ⟨2, _⟩ => by show (i 2).val = 0 + (i 2).val; omega)

def val_main_v159 (x1 : (⟨S4x384x160, .f32⟩ : BufTy).Contents (Elt F)) : (⟨S384x160, .f32⟩ : BufTy).Contents (Elt F) :=
  shapeCast _ (val_main_v158 (F := F) x1) shapeCasts_S1x384x160_S384x160
abbrev idx_main_v159 (i : S384x160.Idx) : S1x384x160.Idx := fun a => match a with
  | ⟨0, _⟩ => ⟨0, Nat.one_pos⟩
  | ⟨1, _⟩ => ⟨((i 0).val * 160 + (i 1).val) / 160 % 384, by have h0 : (i 0).val < 384 := (i 0).isLt; have h1 : (i 1).val < 160 := (i 1).isLt; show ((i 0).val * 160 + (i 1).val) / 160 % 384 < 384; omega⟩
  | ⟨2, _⟩ => ⟨((i 0).val * 160 + (i 1).val) % 160, by have h0 : (i 0).val < 384 := (i 0).isLt; have h1 : (i 1).val < 160 := (i 1).isLt; show ((i 0).val * 160 + (i 1).val) % 160 < 160; omega⟩
theorem val_main_v159_apply (x1 : (⟨S4x384x160, .f32⟩ : BufTy).Contents (Elt F)) (i : S384x160.Idx) :
    val_main_v159 (F := F) x1 i = val_main_v158 (F := F) x1 (idx_main_v159 i) := by
  unfold val_main_v159
  generalize val_main_v158 (F := F) x1 = y
  exact shapeCast_apply y shapeCasts_S1x384x160_S384x160 i (idx_main_v159 i)
    (by rewrite [Shape.rowMajor_val_three, Shape.rowMajor_val_two]; have h0 : (i 0).val < 384 := (i 0).isLt; have h1 : (i 1).val < 160 := (i 1).isLt; show (0 * 384 + ((i 0).val * 160 + (i 1).val) / 160 % 384) * 160 + ((i 0).val * 160 + (i 1).val) % 160 = (i 0).val * 160 + (i 1).val; omega)

def val_main_v160 (x2 : (⟨S4x160, .f32⟩ : BufTy).Contents (Elt F)) : (⟨S1x160, .f32⟩ : BufTy).Contents (Elt F) :=
  extractStridedSlice S1x160 ![3, 0] (x2) slices_S4x160_S1x160_3_0
abbrev idx_main_v160 (i : S1x160.Idx) : S4x160.Idx := fun a => match a with
  | ⟨0, _⟩ => ⟨3 + (i 0).val, by have h0 : (i 0).val < 1 := (i 0).isLt; show 3 + (i 0).val < 4; omega⟩
  | ⟨1, _⟩ => ⟨(i 1).val, (i 1).isLt⟩
theorem val_main_v160_apply (x2 : (⟨S4x160, .f32⟩ : BufTy).Contents (Elt F)) (i : S1x160.Idx) :
    val_main_v160 (F := F) x2 i = x2 (idx_main_v160 i) := by
  unfold val_main_v160
  exact extractStridedSlice_apply ![3, 0] x2 slices_S4x160_S1x160_3_0 i (idx_main_v160 i) (fun a => match a with
    | ⟨0, _⟩ => by show 3 + (i 0).val = 3 + (i 0).val; omega
    | ⟨1, _⟩ => by show (i 1).val = 0 + (i 1).val; omega)

def val_main_v161 (x2 : (⟨S4x160, .f32⟩ : BufTy).Contents (Elt F)) : (⟨S160, .f32⟩ : BufTy).Contents (Elt F) :=
  shapeCast _ (val_main_v160 (F := F) x2) shapeCasts_S1x160_S160
abbrev idx_main_v161 (i : S160.Idx) : S1x160.Idx := fun a => match a with
  | ⟨0, _⟩ => ⟨0, Nat.one_pos⟩
  | ⟨1, _⟩ => ⟨((i 0).val) % 160, by have h0 : (i 0).val < 160 := (i 0).isLt; show ((i 0).val) % 160 < 160; omega⟩
theorem val_main_v161_apply (x2 : (⟨S4x160, .f32⟩ : BufTy).Contents (Elt F)) (i : S160.Idx) :
    val_main_v161 (F := F) x2 i = val_main_v160 (F := F) x2 (idx_main_v161 i) := by
  unfold val_main_v161
  generalize val_main_v160 (F := F) x2 = y
  exact shapeCast_apply y shapeCasts_S1x160_S160 i (idx_main_v161 i)
    (by rewrite [Shape.rowMajor_val_two, Shape.rowMajor_val_one]; have h0 : (i 0).val < 160 := (i 0).isLt; show 0 * 160 + ((i 0).val) % 160 = (i 0).val; omega)

def val_main_v162 (x3 : (⟨S4x160x128, .f32⟩ : BufTy).Contents (Elt F)) : (⟨S1x160x128, .f32⟩ : BufTy).Contents (Elt F) :=
  extractStridedSlice S1x160x128 ![3, 0, 0] (x3) slices_S4x160x128_S1x160x128_3_0_0
abbrev idx_main_v162 (i : S1x160x128.Idx) : S4x160x128.Idx := fun a => match a with
  | ⟨0, _⟩ => ⟨3 + (i 0).val, by have h0 : (i 0).val < 1 := (i 0).isLt; show 3 + (i 0).val < 4; omega⟩
  | ⟨1, _⟩ => ⟨(i 1).val, (i 1).isLt⟩
  | ⟨2, _⟩ => ⟨(i 2).val, (i 2).isLt⟩
theorem val_main_v162_apply (x3 : (⟨S4x160x128, .f32⟩ : BufTy).Contents (Elt F)) (i : S1x160x128.Idx) :
    val_main_v162 (F := F) x3 i = x3 (idx_main_v162 i) := by
  unfold val_main_v162
  exact extractStridedSlice_apply ![3, 0, 0] x3 slices_S4x160x128_S1x160x128_3_0_0 i (idx_main_v162 i) (fun a => match a with
    | ⟨0, _⟩ => by show 3 + (i 0).val = 3 + (i 0).val; omega
    | ⟨1, _⟩ => by show (i 1).val = 0 + (i 1).val; omega
    | ⟨2, _⟩ => by show (i 2).val = 0 + (i 2).val; omega)

def val_main_v163 (x3 : (⟨S4x160x128, .f32⟩ : BufTy).Contents (Elt F)) : (⟨S160x128, .f32⟩ : BufTy).Contents (Elt F) :=
  shapeCast _ (val_main_v162 (F := F) x3) shapeCasts_S1x160x128_S160x128
abbrev idx_main_v163 (i : S160x128.Idx) : S1x160x128.Idx := fun a => match a with
  | ⟨0, _⟩ => ⟨0, Nat.one_pos⟩
  | ⟨1, _⟩ => ⟨((i 0).val * 128 + (i 1).val) / 128 % 160, by have h0 : (i 0).val < 160 := (i 0).isLt; have h1 : (i 1).val < 128 := (i 1).isLt; show ((i 0).val * 128 + (i 1).val) / 128 % 160 < 160; omega⟩
  | ⟨2, _⟩ => ⟨((i 0).val * 128 + (i 1).val) % 128, by have h0 : (i 0).val < 160 := (i 0).isLt; have h1 : (i 1).val < 128 := (i 1).isLt; show ((i 0).val * 128 + (i 1).val) % 128 < 128; omega⟩
theorem val_main_v163_apply (x3 : (⟨S4x160x128, .f32⟩ : BufTy).Contents (Elt F)) (i : S160x128.Idx) :
    val_main_v163 (F := F) x3 i = val_main_v162 (F := F) x3 (idx_main_v163 i) := by
  unfold val_main_v163
  generalize val_main_v162 (F := F) x3 = y
  exact shapeCast_apply y shapeCasts_S1x160x128_S160x128 i (idx_main_v163 i)
    (by rewrite [Shape.rowMajor_val_three, Shape.rowMajor_val_two]; have h0 : (i 0).val < 160 := (i 0).isLt; have h1 : (i 1).val < 128 := (i 1).isLt; show (0 * 160 + ((i 0).val * 128 + (i 1).val) / 128 % 160) * 128 + ((i 0).val * 128 + (i 1).val) % 128 = (i 0).val * 128 + (i 1).val; omega)

def val_main_v164 (x4 : (⟨S4x128, .f32⟩ : BufTy).Contents (Elt F)) : (⟨S1x128, .f32⟩ : BufTy).Contents (Elt F) :=
  extractStridedSlice S1x128 ![3, 0] (x4) slices_S4x128_S1x128_3_0
abbrev idx_main_v164 (i : S1x128.Idx) : S4x128.Idx := fun a => match a with
  | ⟨0, _⟩ => ⟨3 + (i 0).val, by have h0 : (i 0).val < 1 := (i 0).isLt; show 3 + (i 0).val < 4; omega⟩
  | ⟨1, _⟩ => ⟨(i 1).val, (i 1).isLt⟩
theorem val_main_v164_apply (x4 : (⟨S4x128, .f32⟩ : BufTy).Contents (Elt F)) (i : S1x128.Idx) :
    val_main_v164 (F := F) x4 i = x4 (idx_main_v164 i) := by
  unfold val_main_v164
  exact extractStridedSlice_apply ![3, 0] x4 slices_S4x128_S1x128_3_0 i (idx_main_v164 i) (fun a => match a with
    | ⟨0, _⟩ => by show 3 + (i 0).val = 3 + (i 0).val; omega
    | ⟨1, _⟩ => by show (i 1).val = 0 + (i 1).val; omega)

def val_main_v165 (x4 : (⟨S4x128, .f32⟩ : BufTy).Contents (Elt F)) : (⟨S128, .f32⟩ : BufTy).Contents (Elt F) :=
  shapeCast _ (val_main_v164 (F := F) x4) shapeCasts_S1x128_S128
abbrev idx_main_v165 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v165_apply (x4 : (⟨S4x128, .f32⟩ : BufTy).Contents (Elt F)) (i : S128.Idx) :
    val_main_v165 (F := F) x4 i = val_main_v164 (F := F) x4 (idx_main_v165 i) := by
  unfold val_main_v165
  generalize val_main_v164 (F := F) x4 = y
  exact shapeCast_apply y shapeCasts_S1x128_S128 i (idx_main_v165 i)
    (by rewrite [Shape.rowMajor_val_two, Shape.rowMajor_val_one]; have h0 : (i 0).val < 128 := (i 0).isLt; show 0 * 128 + ((i 0).val) % 128 = (i 0).val; omega)

def val_main_v166 (x5 : (⟨S4x128x96, .f32⟩ : BufTy).Contents (Elt F)) : (⟨S1x128x96, .f32⟩ : BufTy).Contents (Elt F) :=
  extractStridedSlice S1x128x96 ![3, 0, 0] (x5) slices_S4x128x96_S1x128x96_3_0_0
abbrev idx_main_v166 (i : S1x128x96.Idx) : S4x128x96.Idx := fun a => match a with
  | ⟨0, _⟩ => ⟨3 + (i 0).val, by have h0 : (i 0).val < 1 := (i 0).isLt; show 3 + (i 0).val < 4; omega⟩
  | ⟨1, _⟩ => ⟨(i 1).val, (i 1).isLt⟩
  | ⟨2, _⟩ => ⟨(i 2).val, (i 2).isLt⟩
theorem val_main_v166_apply (x5 : (⟨S4x128x96, .f32⟩ : BufTy).Contents (Elt F)) (i : S1x128x96.Idx) :
    val_main_v166 (F := F) x5 i = x5 (idx_main_v166 i) := by
  unfold val_main_v166
  exact extractStridedSlice_apply ![3, 0, 0] x5 slices_S4x128x96_S1x128x96_3_0_0 i (idx_main_v166 i) (fun a => match a with
    | ⟨0, _⟩ => by show 3 + (i 0).val = 3 + (i 0).val; omega
    | ⟨1, _⟩ => by show (i 1).val = 0 + (i 1).val; omega
    | ⟨2, _⟩ => by show (i 2).val = 0 + (i 2).val; omega)

def val_main_v167 (x5 : (⟨S4x128x96, .f32⟩ : BufTy).Contents (Elt F)) : (⟨S128x96, .f32⟩ : BufTy).Contents (Elt F) :=
  shapeCast _ (val_main_v166 (F := F) x5) shapeCasts_S1x128x96_S128x96
abbrev idx_main_v167 (i : S128x96.Idx) : S1x128x96.Idx := fun a => match a with
  | ⟨0, _⟩ => ⟨0, Nat.one_pos⟩
  | ⟨1, _⟩ => ⟨((i 0).val * 96 + (i 1).val) / 96 % 128, by have h0 : (i 0).val < 128 := (i 0).isLt; have h1 : (i 1).val < 96 := (i 1).isLt; show ((i 0).val * 96 + (i 1).val) / 96 % 128 < 128; omega⟩
  | ⟨2, _⟩ => ⟨((i 0).val * 96 + (i 1).val) % 96, by have h0 : (i 0).val < 128 := (i 0).isLt; have h1 : (i 1).val < 96 := (i 1).isLt; show ((i 0).val * 96 + (i 1).val) % 96 < 96; omega⟩
theorem val_main_v167_apply (x5 : (⟨S4x128x96, .f32⟩ : BufTy).Contents (Elt F)) (i : S128x96.Idx) :
    val_main_v167 (F := F) x5 i = val_main_v166 (F := F) x5 (idx_main_v167 i) := by
  unfold val_main_v167
  generalize val_main_v166 (F := F) x5 = y
  exact shapeCast_apply y shapeCasts_S1x128x96_S128x96 i (idx_main_v167 i)
    (by rewrite [Shape.rowMajor_val_three, Shape.rowMajor_val_two]; have h0 : (i 0).val < 128 := (i 0).isLt; have h1 : (i 1).val < 96 := (i 1).isLt; show (0 * 128 + ((i 0).val * 96 + (i 1).val) / 96 % 128) * 96 + ((i 0).val * 96 + (i 1).val) % 96 = (i 0).val * 96 + (i 1).val; omega)

def val_main_v168 (x6 : (⟨S4x96, .f32⟩ : BufTy).Contents (Elt F)) : (⟨S1x96, .f32⟩ : BufTy).Contents (Elt F) :=
  extractStridedSlice S1x96 ![3, 0] (x6) slices_S4x96_S1x96_3_0
abbrev idx_main_v168 (i : S1x96.Idx) : S4x96.Idx := fun a => match a with
  | ⟨0, _⟩ => ⟨3 + (i 0).val, by have h0 : (i 0).val < 1 := (i 0).isLt; show 3 + (i 0).val < 4; omega⟩
  | ⟨1, _⟩ => ⟨(i 1).val, (i 1).isLt⟩
theorem val_main_v168_apply (x6 : (⟨S4x96, .f32⟩ : BufTy).Contents (Elt F)) (i : S1x96.Idx) :
    val_main_v168 (F := F) x6 i = x6 (idx_main_v168 i) := by
  unfold val_main_v168
  exact extractStridedSlice_apply ![3, 0] x6 slices_S4x96_S1x96_3_0 i (idx_main_v168 i) (fun a => match a with
    | ⟨0, _⟩ => by show 3 + (i 0).val = 3 + (i 0).val; omega
    | ⟨1, _⟩ => by show (i 1).val = 0 + (i 1).val; omega)

def val_main_v169 (x6 : (⟨S4x96, .f32⟩ : BufTy).Contents (Elt F)) : (⟨S96, .f32⟩ : BufTy).Contents (Elt F) :=
  shapeCast _ (val_main_v168 (F := F) x6) shapeCasts_S1x96_S96
abbrev idx_main_v169 (i : S96.Idx) : S1x96.Idx := fun a => match a with
  | ⟨0, _⟩ => ⟨0, Nat.one_pos⟩
  | ⟨1, _⟩ => ⟨((i 0).val) % 96, by have h0 : (i 0).val < 96 := (i 0).isLt; show ((i 0).val) % 96 < 96; omega⟩
theorem val_main_v169_apply (x6 : (⟨S4x96, .f32⟩ : BufTy).Contents (Elt F)) (i : S96.Idx) :
    val_main_v169 (F := F) x6 i = val_main_v168 (F := F) x6 (idx_main_v169 i) := by
  unfold val_main_v169
  generalize val_main_v168 (F := F) x6 = y
  exact shapeCast_apply y shapeCasts_S1x96_S96 i (idx_main_v169 i)
    (by rewrite [Shape.rowMajor_val_two, Shape.rowMajor_val_one]; have h0 : (i 0).val < 96 := (i 0).isLt; show 0 * 96 + ((i 0).val) % 96 = (i 0).val; omega)

def val_main_v170 (x7 : (⟨S4x96x1, .f32⟩ : BufTy).Contents (Elt F)) : (⟨S1x96x1, .f32⟩ : BufTy).Contents (Elt F) :=
  extractStridedSlice S1x96x1 ![3, 0, 0] (x7) slices_S4x96x1_S1x96x1_3_0_0
abbrev idx_main_v170 (i : S1x96x1.Idx) : S4x96x1.Idx := fun a => match a with
  | ⟨0, _⟩ => ⟨3 + (i 0).val, by have h0 : (i 0).val < 1 := (i 0).isLt; show 3 + (i 0).val < 4; omega⟩
  | ⟨1, _⟩ => ⟨(i 1).val, (i 1).isLt⟩
  | ⟨2, _⟩ => ⟨(i 2).val, (i 2).isLt⟩
theorem val_main_v170_apply (x7 : (⟨S4x96x1, .f32⟩ : BufTy).Contents (Elt F)) (i : S1x96x1.Idx) :
    val_main_v170 (F := F) x7 i = x7 (idx_main_v170 i) := by
  unfold val_main_v170
  exact extractStridedSlice_apply ![3, 0, 0] x7 slices_S4x96x1_S1x96x1_3_0_0 i (idx_main_v170 i) (fun a => match a with
    | ⟨0, _⟩ => by show 3 + (i 0).val = 3 + (i 0).val; omega
    | ⟨1, _⟩ => by show (i 1).val = 0 + (i 1).val; omega
    | ⟨2, _⟩ => by show (i 2).val = 0 + (i 2).val; omega)

def val_main_v171 (x7 : (⟨S4x96x1, .f32⟩ : BufTy).Contents (Elt F)) : (⟨S96x1, .f32⟩ : BufTy).Contents (Elt F) :=
  shapeCast _ (val_main_v170 (F := F) x7) shapeCasts_S1x96x1_S96x1
abbrev idx_main_v171 (i : S96x1.Idx) : S1x96x1.Idx := fun a => match a with
  | ⟨0, _⟩ => ⟨0, Nat.one_pos⟩
  | ⟨1, _⟩ => ⟨((i 0).val * 1 + (i 1).val) / 1 % 96, by have h0 : (i 0).val < 96 := (i 0).isLt; have h1 : (i 1).val < 1 := (i 1).isLt; show ((i 0).val * 1 + (i 1).val) / 1 % 96 < 96; omega⟩
  | ⟨2, _⟩ => ⟨0, Nat.one_pos⟩
theorem val_main_v171_apply (x7 : (⟨S4x96x1, .f32⟩ : BufTy).Contents (Elt F)) (i : S96x1.Idx) :
    val_main_v171 (F := F) x7 i = val_main_v170 (F := F) x7 (idx_main_v171 i) := by
  unfold val_main_v171
  generalize val_main_v170 (F := F) x7 = y
  exact shapeCast_apply y shapeCasts_S1x96x1_S96x1 i (idx_main_v171 i)
    (by rewrite [Shape.rowMajor_val_three, Shape.rowMajor_val_two]; have h0 : (i 0).val < 96 := (i 0).isLt; have h1 : (i 1).val < 1 := (i 1).isLt; show (0 * 96 + ((i 0).val * 1 + (i 1).val) / 1 % 96) * 1 + 0 = (i 0).val * 1 + (i 1).val; omega)

def val_main_v172 (x8 : (⟨S4x1, .f32⟩ : BufTy).Contents (Elt F)) : (⟨S1x1, .f32⟩ : BufTy).Contents (Elt F) :=
  extractStridedSlice S1x1 ![3, 0] (x8) slices_S4x1_S1x1_3_0
abbrev idx_main_v172 (i : S1x1.Idx) : S4x1.Idx := fun a => match a with
  | ⟨0, _⟩ => ⟨3 + (i 0).val, by have h0 : (i 0).val < 1 := (i 0).isLt; show 3 + (i 0).val < 4; omega⟩
  | ⟨1, _⟩ => ⟨(i 1).val, (i 1).isLt⟩
theorem val_main_v172_apply (x8 : (⟨S4x1, .f32⟩ : BufTy).Contents (Elt F)) (i : S1x1.Idx) :
    val_main_v172 (F := F) x8 i = x8 (idx_main_v172 i) := by
  unfold val_main_v172
  exact extractStridedSlice_apply ![3, 0] x8 slices_S4x1_S1x1_3_0 i (idx_main_v172 i) (fun a => match a with
    | ⟨0, _⟩ => by show 3 + (i 0).val = 3 + (i 0).val; omega
    | ⟨1, _⟩ => by show (i 1).val = 0 + (i 1).val; omega)

def val_main_v173 (x8 : (⟨S4x1, .f32⟩ : BufTy).Contents (Elt F)) : (⟨S1, .f32⟩ : BufTy).Contents (Elt F) :=
  shapeCast _ (val_main_v172 (F := F) x8) shapeCasts_S1x1_S1
abbrev idx_main_v173 (i : S1.Idx) : S1x1.Idx := fun a => match a with
  | ⟨0, _⟩ => ⟨0, Nat.one_pos⟩
  | ⟨1, _⟩ => ⟨0, Nat.one_pos⟩
theorem val_main_v173_apply (x8 : (⟨S4x1, .f32⟩ : BufTy).Contents (Elt F)) (i : S1.Idx) :
    val_main_v173 (F := F) x8 i = val_main_v172 (F := F) x8 (idx_main_v173 i) := by
  unfold val_main_v173
  generalize val_main_v172 (F := F) x8 = y
  exact shapeCast_apply y shapeCasts_S1x1_S1 i (idx_main_v173 i)
    (by rewrite [Shape.rowMajor_val_two, Shape.rowMajor_val_one]; have h0 : (i 0).val < 1 := (i 0).isLt; show 0 * 1 + 0 = (i 0).val; omega)

def val_main_v174 (x0 : (⟨S200000x384, .f32⟩ : BufTy).Contents (Elt F)) (x1 : (⟨S4x384x160, .f32⟩ : BufTy).Contents (Elt F)) (x12 : (⟨S50000, .i32⟩ : BufTy).Contents (Elt F)) : (⟨S50000x160, .f32⟩ : BufTy).Contents (Elt F) :=
  Host.dotGeneral dot_S50000x384_S384x160_S50000x160_1_0_0_1_n_n none (val_main_v157 (F := F) x0 x12) (val_main_v159 (F := F) x1)
theorem lhs_main_v174_0 (i : S50000x160.Idx) (q : dot_S50000x384_S384x160_S50000x160_1_0_0_1_n_n.contr.Idx) :
    (dot_S50000x384_S384x160_S50000x160_1_0_0_1_n_n.lhsIdx i q 0).val = (i 0).val := by
  unfold DotDims.lhsIdx
  rw [dif_neg (show ¬(0 : Fin S50000x384.rank) ∈ dot_S50000x384_S384x160_S50000x160_1_0_0_1_n_n.lhsBatch by decide), dif_pos (show (0 : Fin S50000x384.rank) ∈ dot_S50000x384_S384x160_S50000x160_1_0_0_1_n_n.lhsNonContracting by decide)]
  rfl
theorem lhs_main_v174_1 (i : S50000x160.Idx) (q : dot_S50000x384_S384x160_S50000x160_1_0_0_1_n_n.contr.Idx) :
    (dot_S50000x384_S384x160_S50000x160_1_0_0_1_n_n.lhsIdx i q 1).val = (q ⟨0, by decide⟩).val :=
  dot_S50000x384_S384x160_S50000x160_1_0_0_1_n_n.lhsIdx_val_of_single rfl i q
theorem rhs_main_v174_0 (i : S50000x160.Idx) (q : dot_S50000x384_S384x160_S50000x160_1_0_0_1_n_n.contr.Idx) :
    (dot_S50000x384_S384x160_S50000x160_1_0_0_1_n_n.rhsIdx i q 0).val = (q ⟨0, by decide⟩).val :=
  dot_S50000x384_S384x160_S50000x160_1_0_0_1_n_n.rhsIdx_val_of_single rfl i q
theorem rhs_main_v174_1 (i : S50000x160.Idx) (q : dot_S50000x384_S384x160_S50000x160_1_0_0_1_n_n.contr.Idx) :
    (dot_S50000x384_S384x160_S50000x160_1_0_0_1_n_n.rhsIdx i q 1).val = (i 1).val := by
  unfold DotDims.rhsIdx
  rw [dif_neg (show ¬(1 : Fin S384x160.rank) ∈ dot_S50000x384_S384x160_S50000x160_1_0_0_1_n_n.rhsBatch by decide), dif_pos (show (1 : Fin S384x160.rank) ∈ dot_S50000x384_S384x160_S50000x160_1_0_0_1_n_n.rhsNonContracting by decide)]
  rfl
abbrev lidx_main_v174 (i : S50000x160.Idx) (k : Fin 384) : S50000x384.Idx := fun a => match a with
  | ⟨0, _⟩ => ⟨(i 0).val, (i 0).isLt⟩
  | ⟨1, _⟩ => ⟨k.val, k.isLt⟩
abbrev ridx_main_v174 (i : S50000x160.Idx) (k : Fin 384) : S384x160.Idx := fun a => match a with
  | ⟨0, _⟩ => ⟨k.val, k.isLt⟩
  | ⟨1, _⟩ => ⟨(i 1).val, (i 1).isLt⟩

theorem val_main_v174_apply (x0 : (⟨S200000x384, .f32⟩ : BufTy).Contents (Elt Ideal)) (x1 : (⟨S4x384x160, .f32⟩ : BufTy).Contents (Elt Ideal)) (x12 : (⟨S50000, .i32⟩ : BufTy).Contents (Elt Ideal)) (i : S50000x160.Idx) :
    val_main_v174 (F := Ideal) x0 x1 x12 i = ∑ k : Fin 384, (val_main_v157 (F := Ideal) x0 x12) (lidx_main_v174 i k) * (val_main_v159 (F := Ideal) x1) (ridx_main_v174 i k) := by
  unfold val_main_v174
  generalize val_main_v157 (F := Ideal) x0 x12 = y0
  generalize val_main_v159 (F := Ideal) x1 = y1
  simp only [Host.dotGeneral]
  rw [Ideal.dotGeneral_apply, ← Equiv.sum_comp (ValueIdx.contrEquiv1 dot_S50000x384_S384x160_S50000x160_1_0_0_1_n_n 384 rfl rfl).symm]
  refine Finset.sum_congr rfl fun k _ => ?_
  have hk := ValueIdx.contrEquiv1_symm_val dot_S50000x384_S384x160_S50000x160_1_0_0_1_n_n 384 rfl rfl k
  have el : dot_S50000x384_S384x160_S50000x160_1_0_0_1_n_n.lhsIdx i ((ValueIdx.contrEquiv1 dot_S50000x384_S384x160_S50000x160_1_0_0_1_n_n 384 rfl rfl).symm k) = lidx_main_v174 i k := funext fun a => Fin.ext (by
    match a with
    | ⟨0, _⟩ => exact lhs_main_v174_0 _ _
    | ⟨1, _⟩ => exact (lhs_main_v174_1 _ _).trans hk)
  have er : dot_S50000x384_S384x160_S50000x160_1_0_0_1_n_n.rhsIdx i ((ValueIdx.contrEquiv1 dot_S50000x384_S384x160_S50000x160_1_0_0_1_n_n 384 rfl rfl).symm k) = ridx_main_v174 i k := funext fun a => Fin.ext (by
    match a with
    | ⟨0, _⟩ => exact (rhs_main_v174_0 _ _).trans hk
    | ⟨1, _⟩ => exact rhs_main_v174_1 _ _)
  rw [el, er]

def val_main_v175 (x2 : (⟨S4x160, .f32⟩ : BufTy).Contents (Elt F)) : (⟨S1x160, .f32⟩ : BufTy).Contents (Elt F) :=
  broadcastInDim S1x160 ![1] bcast_S160_S1x160_1 (val_main_v161 (F := F) x2)
abbrev idx_main_v175 (i : S1x160.Idx) : S160.Idx := fun a => match a with
  | ⟨0, _⟩ => ⟨(i 1).val, (i 1).isLt⟩
theorem val_main_v175_apply (x2 : (⟨S4x160, .f32⟩ : BufTy).Contents (Elt F)) (i : S1x160.Idx) :
    val_main_v175 (F := F) x2 i = val_main_v161 (F := F) x2 (idx_main_v175 i) := by
  unfold val_main_v175
  generalize val_main_v161 (F := F) x2 = y
  exact broadcastInDim_apply _ bcast_S160_S1x160_1 y i (idx_main_v175 i) (fun a => match a with
    | ⟨0, _⟩ => by show (i 1).val = if (160 : Nat) = 1 then 0 else (i 1).val; rw [if_neg (by decide)])

def val_main_v176 (x2 : (⟨S4x160, .f32⟩ : BufTy).Contents (Elt F)) : (⟨S50000x160, .f32⟩ : BufTy).Contents (Elt F) :=
  broadcastInDim S50000x160 ![0, 1] bcast_S1x160_S50000x160_0_1 (val_main_v175 (F := F) x2)
abbrev idx_main_v176 (i : S50000x160.Idx) : S1x160.Idx := fun a => match a with
  | ⟨0, _⟩ => ⟨0, Nat.one_pos⟩
  | ⟨1, _⟩ => ⟨(i 1).val, (i 1).isLt⟩
theorem val_main_v176_apply (x2 : (⟨S4x160, .f32⟩ : BufTy).Contents (Elt F)) (i : S50000x160.Idx) :
    val_main_v176 (F := F) x2 i = val_main_v175 (F := F) x2 (idx_main_v176 i) := by
  unfold val_main_v176
  generalize val_main_v175 (F := F) x2 = y
  exact broadcastInDim_apply _ bcast_S1x160_S50000x160_0_1 y i (idx_main_v176 i) (fun a => match a with
    | ⟨0, _⟩ => by show 0 = if (1 : Nat) = 1 then 0 else (i 0).val; rw [if_pos rfl]
    | ⟨1, _⟩ => by show (i 1).val = if (160 : Nat) = 1 then 0 else (i 1).val; rw [if_neg (by decide)])

def val_main_v177 (x0 : (⟨S200000x384, .f32⟩ : BufTy).Contents (Elt F)) (x1 : (⟨S4x384x160, .f32⟩ : BufTy).Contents (Elt F)) (x2 : (⟨S4x160, .f32⟩ : BufTy).Contents (Elt F)) (x12 : (⟨S50000, .i32⟩ : BufTy).Contents (Elt F)) : (⟨S50000x160, .f32⟩ : BufTy).Contents (Elt F) :=
  addf (val_main_v174 (F := F) x0 x1 x12) (val_main_v176 (F := F) x2)
def val_main_cst_22 : (⟨S_, .f32⟩ : BufTy).Contents (Elt F) :=
  constant S_ .f32 0x3DCCCCCD#32
def val_main_call9_cst : (⟨S_, .f32⟩ : BufTy).Contents (Elt F) :=
  constant S_ .f32 0x00000000#32
def val_main_call9_v0 : (⟨S50000x160, .f32⟩ : BufTy).Contents (Elt F) :=
  broadcastInDim S50000x160 ![] bcast_S_S50000x160 (val_main_call9_cst (F := F))
def val_main_call9_v1 (x0 : (⟨S200000x384, .f32⟩ : BufTy).Contents (Elt F)) (x1 : (⟨S4x384x160, .f32⟩ : BufTy).Contents (Elt F)) (x2 : (⟨S4x160, .f32⟩ : BufTy).Contents (Elt F)) (x12 : (⟨S50000, .i32⟩ : BufTy).Contents (Elt F)) : (⟨S50000x160, .f32⟩ : BufTy).Contents (Elt F) :=
  maximumf (val_main_v177 (F := F) x0 x1 x2 x12) (val_main_call9_v0 (F := F))
def val_main_call9_cst_0 : (⟨S_, .f32⟩ : BufTy).Contents (Elt F) :=
  constant S_ .f32 0x00000000#32
def val_main_call9_v2 : (⟨S50000x160, .f32⟩ : BufTy).Contents (Elt F) :=
  broadcastInDim S50000x160 ![] bcast_S_S50000x160 (val_main_call9_cst_0 (F := F))
def val_main_call9_v3 (x0 : (⟨S200000x384, .f32⟩ : BufTy).Contents (Elt F)) (x1 : (⟨S4x384x160, .f32⟩ : BufTy).Contents (Elt F)) (x2 : (⟨S4x160, .f32⟩ : BufTy).Contents (Elt F)) (x12 : (⟨S50000, .i32⟩ : BufTy).Contents (Elt F)) : (⟨S50000x160, .f32⟩ : BufTy).Contents (Elt F) :=
  minimumf (val_main_v177 (F := F) x0 x1 x2 x12) (val_main_call9_v2 (F := F))
def val_main_call9_v4 : (⟨S_, .f32⟩ : BufTy).Contents (Elt F) :=
  id (val_main_cst_22 (F := F))
def val_main_call9_v5 : (⟨S50000x160, .f32⟩ : BufTy).Contents (Elt F) :=
  broadcastInDim S50000x160 ![] bcast_S_S50000x160 (val_main_call9_v4 (F := F))
def val_main_call9_v6 (x0 : (⟨S200000x384, .f32⟩ : BufTy).Contents (Elt F)) (x1 : (⟨S4x384x160, .f32⟩ : BufTy).Contents (Elt F)) (x2 : (⟨S4x160, .f32⟩ : BufTy).Contents (Elt F)) (x12 : (⟨S50000, .i32⟩ : BufTy).Contents (Elt F)) : (⟨S50000x160, .f32⟩ : BufTy).Contents (Elt F) :=
  Host.divf (val_main_call9_v3 (F := F) x0 x1 x2 x12) (val_main_call9_v5 (F := F))
def val_main_call9_v7 (x0 : (⟨S200000x384, .f32⟩ : BufTy).Contents (Elt F)) (x1 : (⟨S4x384x160, .f32⟩ : BufTy).Contents (Elt F)) (x2 : (⟨S4x160, .f32⟩ : BufTy).Contents (Elt F)) (x12 : (⟨S50000, .i32⟩ : BufTy).Contents (Elt F)) : (⟨S50000x160, .f32⟩ : BufTy).Contents (Elt F) :=
  Host.expm1 (val_main_call9_v6 (F := F) x0 x1 x2 x12)
def val_main_call9_v8 : (⟨S_, .f32⟩ : BufTy).Contents (Elt F) :=
  id (val_main_cst_22 (F := F))
def val_main_call9_v9 : (⟨S50000x160, .f32⟩ : BufTy).Contents (Elt F) :=
  broadcastInDim S50000x160 ![] bcast_S_S50000x160 (val_main_call9_v8 (F := F))
def val_main_call9_v10 (x0 : (⟨S200000x384, .f32⟩ : BufTy).Contents (Elt F)) (x1 : (⟨S4x384x160, .f32⟩ : BufTy).Contents (Elt F)) (x2 : (⟨S4x160, .f32⟩ : BufTy).Contents (Elt F)) (x12 : (⟨S50000, .i32⟩ : BufTy).Contents (Elt F)) : (⟨S50000x160, .f32⟩ : BufTy).Contents (Elt F) :=
  mulf (val_main_call9_v9 (F := F)) (val_main_call9_v7 (F := F) x0 x1 x2 x12)
def val_main_v178 (x0 : (⟨S200000x384, .f32⟩ : BufTy).Contents (Elt F)) (x1 : (⟨S4x384x160, .f32⟩ : BufTy).Contents (Elt F)) (x2 : (⟨S4x160, .f32⟩ : BufTy).Contents (Elt F)) (x12 : (⟨S50000, .i32⟩ : BufTy).Contents (Elt F)) : (⟨S50000x160, .f32⟩ : BufTy).Contents (Elt F) :=
  addf (val_main_call9_v1 (F := F) x0 x1 x2 x12) (val_main_call9_v10 (F := F) x0 x1 x2 x12)
def val_main_v179 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x12 : (⟨S50000, .i32⟩ : BufTy).Contents (Elt F)) : (⟨S50000x128, .f32⟩ : BufTy).Contents (Elt F) :=
  Host.dotGeneral dot_S50000x160_S160x128_S50000x128_1_0_0_1_n_n none (val_main_v178 (F := F) x0 x1 x2 x12) (val_main_v163 (F := F) x3)
theorem lhs_main_v179_0 (i : S50000x128.Idx) (q : dot_S50000x160_S160x128_S50000x128_1_0_0_1_n_n.contr.Idx) :
    (dot_S50000x160_S160x128_S50000x128_1_0_0_1_n_n.lhsIdx i q 0).val = (i 0).val := by
  unfold DotDims.lhsIdx
  rw [dif_neg (show ¬(0 : Fin S50000x160.rank) ∈ dot_S50000x160_S160x128_S50000x128_1_0_0_1_n_n.lhsBatch by decide), dif_pos (show (0 : Fin S50000x160.rank) ∈ dot_S50000x160_S160x128_S50000x128_1_0_0_1_n_n.lhsNonContracting by decide)]
  rfl
theorem lhs_main_v179_1 (i : S50000x128.Idx) (q : dot_S50000x160_S160x128_S50000x128_1_0_0_1_n_n.contr.Idx) :
    (dot_S50000x160_S160x128_S50000x128_1_0_0_1_n_n.lhsIdx i q 1).val = (q ⟨0, by decide⟩).val :=
  dot_S50000x160_S160x128_S50000x128_1_0_0_1_n_n.lhsIdx_val_of_single rfl i q
theorem rhs_main_v179_0 (i : S50000x128.Idx) (q : dot_S50000x160_S160x128_S50000x128_1_0_0_1_n_n.contr.Idx) :
    (dot_S50000x160_S160x128_S50000x128_1_0_0_1_n_n.rhsIdx i q 0).val = (q ⟨0, by decide⟩).val :=
  dot_S50000x160_S160x128_S50000x128_1_0_0_1_n_n.rhsIdx_val_of_single rfl i q
theorem rhs_main_v179_1 (i : S50000x128.Idx) (q : dot_S50000x160_S160x128_S50000x128_1_0_0_1_n_n.contr.Idx) :
    (dot_S50000x160_S160x128_S50000x128_1_0_0_1_n_n.rhsIdx i q 1).val = (i 1).val := by
  unfold DotDims.rhsIdx
  rw [dif_neg (show ¬(1 : Fin S160x128.rank) ∈ dot_S50000x160_S160x128_S50000x128_1_0_0_1_n_n.rhsBatch by decide), dif_pos (show (1 : Fin S160x128.rank) ∈ dot_S50000x160_S160x128_S50000x128_1_0_0_1_n_n.rhsNonContracting by decide)]
  rfl
abbrev lidx_main_v179 (i : S50000x128.Idx) (k : Fin 160) : S50000x160.Idx := fun a => match a with
  | ⟨0, _⟩ => ⟨(i 0).val, (i 0).isLt⟩
  | ⟨1, _⟩ => ⟨k.val, k.isLt⟩
abbrev ridx_main_v179 (i : S50000x128.Idx) (k : Fin 160) : S160x128.Idx := fun a => match a with
  | ⟨0, _⟩ => ⟨k.val, k.isLt⟩
  | ⟨1, _⟩ => ⟨(i 1).val, (i 1).isLt⟩

theorem val_main_v179_apply (x0 : (⟨S200000x384, .f32⟩ : BufTy).Contents (Elt Ideal)) (x1 : (⟨S4x384x160, .f32⟩ : BufTy).Contents (Elt Ideal)) (x2 : (⟨S4x160, .f32⟩ : BufTy).Contents (Elt Ideal)) (x3 : (⟨S4x160x128, .f32⟩ : BufTy).Contents (Elt Ideal)) (x12 : (⟨S50000, .i32⟩ : BufTy).Contents (Elt Ideal)) (i : S50000x128.Idx) :
    val_main_v179 (F := Ideal) x0 x1 x2 x3 x12 i = ∑ k : Fin 160, (val_main_v178 (F := Ideal) x0 x1 x2 x12) (lidx_main_v179 i k) * (val_main_v163 (F := Ideal) x3) (ridx_main_v179 i k) := by
  unfold val_main_v179
  generalize val_main_v178 (F := Ideal) x0 x1 x2 x12 = y0
  generalize val_main_v163 (F := Ideal) x3 = y1
  simp only [Host.dotGeneral]
  rw [Ideal.dotGeneral_apply, ← Equiv.sum_comp (ValueIdx.contrEquiv1 dot_S50000x160_S160x128_S50000x128_1_0_0_1_n_n 160 rfl rfl).symm]
  refine Finset.sum_congr rfl fun k _ => ?_
  have hk := ValueIdx.contrEquiv1_symm_val dot_S50000x160_S160x128_S50000x128_1_0_0_1_n_n 160 rfl rfl k
  have el : dot_S50000x160_S160x128_S50000x128_1_0_0_1_n_n.lhsIdx i ((ValueIdx.contrEquiv1 dot_S50000x160_S160x128_S50000x128_1_0_0_1_n_n 160 rfl rfl).symm k) = lidx_main_v179 i k := funext fun a => Fin.ext (by
    match a with
    | ⟨0, _⟩ => exact lhs_main_v179_0 _ _
    | ⟨1, _⟩ => exact (lhs_main_v179_1 _ _).trans hk)
  have er : dot_S50000x160_S160x128_S50000x128_1_0_0_1_n_n.rhsIdx i ((ValueIdx.contrEquiv1 dot_S50000x160_S160x128_S50000x128_1_0_0_1_n_n 160 rfl rfl).symm k) = ridx_main_v179 i k := funext fun a => Fin.ext (by
    match a with
    | ⟨0, _⟩ => exact (rhs_main_v179_0 _ _).trans hk
    | ⟨1, _⟩ => exact rhs_main_v179_1 _ _)
  rw [el, er]

def val_main_v180 (x4 : (⟨S4x128, .f32⟩ : BufTy).Contents (Elt F)) : (⟨S1x128, .f32⟩ : BufTy).Contents (Elt F) :=
  broadcastInDim S1x128 ![1] bcast_S128_S1x128_1 (val_main_v165 (F := F) x4)
abbrev idx_main_v180 (i : S1x128.Idx) : S128.Idx := fun a => match a with
  | ⟨0, _⟩ => ⟨(i 1).val, (i 1).isLt⟩
theorem val_main_v180_apply (x4 : (⟨S4x128, .f32⟩ : BufTy).Contents (Elt F)) (i : S1x128.Idx) :
    val_main_v180 (F := F) x4 i = val_main_v165 (F := F) x4 (idx_main_v180 i) := by
  unfold val_main_v180
  generalize val_main_v165 (F := F) x4 = y
  exact broadcastInDim_apply _ bcast_S128_S1x128_1 y i (idx_main_v180 i) (fun a => match a with
    | ⟨0, _⟩ => by show (i 1).val = if (128 : Nat) = 1 then 0 else (i 1).val; rw [if_neg (by decide)])

def val_main_v181 (x4 : (⟨S4x128, .f32⟩ : BufTy).Contents (Elt F)) : (⟨S50000x128, .f32⟩ : BufTy).Contents (Elt F) :=
  broadcastInDim S50000x128 ![0, 1] bcast_S1x128_S50000x128_0_1 (val_main_v180 (F := F) x4)
abbrev idx_main_v181 (i : S50000x128.Idx) : S1x128.Idx := fun a => match a with
  | ⟨0, _⟩ => ⟨0, Nat.one_pos⟩
  | ⟨1, _⟩ => ⟨(i 1).val, (i 1).isLt⟩
theorem val_main_v181_apply (x4 : (⟨S4x128, .f32⟩ : BufTy).Contents (Elt F)) (i : S50000x128.Idx) :
    val_main_v181 (F := F) x4 i = val_main_v180 (F := F) x4 (idx_main_v181 i) := by
  unfold val_main_v181
  generalize val_main_v180 (F := F) x4 = y
  exact broadcastInDim_apply _ bcast_S1x128_S50000x128_0_1 y i (idx_main_v181 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v182 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x12 : (⟨S50000, .i32⟩ : BufTy).Contents (Elt F)) : (⟨S50000x128, .f32⟩ : BufTy).Contents (Elt F) :=
  addf (val_main_v179 (F := F) x0 x1 x2 x3 x12) (val_main_v181 (F := F) x4)
def val_main_cst_23 : (⟨S_, .f32⟩ : BufTy).Contents (Elt F) :=
  constant S_ .f32 0x3DCCCCCD#32
def val_main_call10_cst : (⟨S_, .f32⟩ : BufTy).Contents (Elt F) :=
  constant S_ .f32 0x00000000#32
def val_main_call10_v0 : (⟨S50000x128, .f32⟩ : BufTy).Contents (Elt F) :=
  broadcastInDim S50000x128 ![] bcast_S_S50000x128 (val_main_call10_cst (F := F))
def val_main_call10_v1 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x12 : (⟨S50000, .i32⟩ : BufTy).Contents (Elt F)) : (⟨S50000x128, .f32⟩ : BufTy).Contents (Elt F) :=
  maximumf (val_main_v182 (F := F) x0 x1 x2 x3 x4 x12) (val_main_call10_v0 (F := F))
def val_main_call10_cst_0 : (⟨S_, .f32⟩ : BufTy).Contents (Elt F) :=
  constant S_ .f32 0x00000000#32
def val_main_call10_v2 : (⟨S50000x128, .f32⟩ : BufTy).Contents (Elt F) :=
  broadcastInDim S50000x128 ![] bcast_S_S50000x128 (val_main_call10_cst_0 (F := F))
def val_main_call10_v3 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x12 : (⟨S50000, .i32⟩ : BufTy).Contents (Elt F)) : (⟨S50000x128, .f32⟩ : BufTy).Contents (Elt F) :=
  minimumf (val_main_v182 (F := F) x0 x1 x2 x3 x4 x12) (val_main_call10_v2 (F := F))
def val_main_call10_v4 : (⟨S_, .f32⟩ : BufTy).Contents (Elt F) :=
  id (val_main_cst_23 (F := F))
def val_main_call10_v5 : (⟨S50000x128, .f32⟩ : BufTy).Contents (Elt F) :=
  broadcastInDim S50000x128 ![] bcast_S_S50000x128 (val_main_call10_v4 (F := F))
def val_main_call10_v6 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x12 : (⟨S50000, .i32⟩ : BufTy).Contents (Elt F)) : (⟨S50000x128, .f32⟩ : BufTy).Contents (Elt F) :=
  Host.divf (val_main_call10_v3 (F := F) x0 x1 x2 x3 x4 x12) (val_main_call10_v5 (F := F))
def val_main_call10_v7 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x12 : (⟨S50000, .i32⟩ : BufTy).Contents (Elt F)) : (⟨S50000x128, .f32⟩ : BufTy).Contents (Elt F) :=
  Host.expm1 (val_main_call10_v6 (F := F) x0 x1 x2 x3 x4 x12)
def val_main_call10_v8 : (⟨S_, .f32⟩ : BufTy).Contents (Elt F) :=
  id (val_main_cst_23 (F := F))
def val_main_call10_v9 : (⟨S50000x128, .f32⟩ : BufTy).Contents (Elt F) :=
  broadcastInDim S50000x128 ![] bcast_S_S50000x128 (val_main_call10_v8 (F := F))
def val_main_call10_v10 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x12 : (⟨S50000, .i32⟩ : BufTy).Contents (Elt F)) : (⟨S50000x128, .f32⟩ : BufTy).Contents (Elt F) :=
  mulf (val_main_call10_v9 (F := F)) (val_main_call10_v7 (F := F) x0 x1 x2 x3 x4 x12)
def val_main_v183 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x12 : (⟨S50000, .i32⟩ : BufTy).Contents (Elt F)) : (⟨S50000x128, .f32⟩ : BufTy).Contents (Elt F) :=
  addf (val_main_call10_v1 (F := F) x0 x1 x2 x3 x4 x12) (val_main_call10_v10 (F := F) x0 x1 x2 x3 x4 x12)
def val_main_v184 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x12 : (⟨S50000, .i32⟩ : BufTy).Contents (Elt F)) : (⟨S50000x96, .f32⟩ : BufTy).Contents (Elt F) :=
  Host.dotGeneral dot_S50000x128_S128x96_S50000x96_1_0_0_1_n_n none (val_main_v183 (F := F) x0 x1 x2 x3 x4 x12) (val_main_v167 (F := F) x5)
theorem lhs_main_v184_0 (i : S50000x96.Idx) (q : dot_S50000x128_S128x96_S50000x96_1_0_0_1_n_n.contr.Idx) :
    (dot_S50000x128_S128x96_S50000x96_1_0_0_1_n_n.lhsIdx i q 0).val = (i 0).val := by
  unfold DotDims.lhsIdx
  rw [dif_neg (show ¬(0 : Fin S50000x128.rank) ∈ dot_S50000x128_S128x96_S50000x96_1_0_0_1_n_n.lhsBatch by decide), dif_pos (show (0 : Fin S50000x128.rank) ∈ dot_S50000x128_S128x96_S50000x96_1_0_0_1_n_n.lhsNonContracting by decide)]
  rfl
theorem lhs_main_v184_1 (i : S50000x96.Idx) (q : dot_S50000x128_S128x96_S50000x96_1_0_0_1_n_n.contr.Idx) :
    (dot_S50000x128_S128x96_S50000x96_1_0_0_1_n_n.lhsIdx i q 1).val = (q ⟨0, by decide⟩).val :=
  dot_S50000x128_S128x96_S50000x96_1_0_0_1_n_n.lhsIdx_val_of_single rfl i q
theorem rhs_main_v184_0 (i : S50000x96.Idx) (q : dot_S50000x128_S128x96_S50000x96_1_0_0_1_n_n.contr.Idx) :
    (dot_S50000x128_S128x96_S50000x96_1_0_0_1_n_n.rhsIdx i q 0).val = (q ⟨0, by decide⟩).val :=
  dot_S50000x128_S128x96_S50000x96_1_0_0_1_n_n.rhsIdx_val_of_single rfl i q
theorem rhs_main_v184_1 (i : S50000x96.Idx) (q : dot_S50000x128_S128x96_S50000x96_1_0_0_1_n_n.contr.Idx) :
    (dot_S50000x128_S128x96_S50000x96_1_0_0_1_n_n.rhsIdx i q 1).val = (i 1).val := by
  unfold DotDims.rhsIdx
  rw [dif_neg (show ¬(1 : Fin S128x96.rank) ∈ dot_S50000x128_S128x96_S50000x96_1_0_0_1_n_n.rhsBatch by decide), dif_pos (show (1 : Fin S128x96.rank) ∈ dot_S50000x128_S128x96_S50000x96_1_0_0_1_n_n.rhsNonContracting by decide)]
  rfl
abbrev lidx_main_v184 (i : S50000x96.Idx) (k : Fin 128) : S50000x128.Idx := fun a => match a with
  | ⟨0, _⟩ => ⟨(i 0).val, (i 0).isLt⟩
  | ⟨1, _⟩ => ⟨k.val, k.isLt⟩
abbrev ridx_main_v184 (i : S50000x96.Idx) (k : Fin 128) : S128x96.Idx := fun a => match a with
  | ⟨0, _⟩ => ⟨k.val, k.isLt⟩
  | ⟨1, _⟩ => ⟨(i 1).val, (i 1).isLt⟩

theorem val_main_v184_apply (x0 : (⟨S200000x384, .f32⟩ : BufTy).Contents (Elt Ideal)) (x1 : (⟨S4x384x160, .f32⟩ : BufTy).Contents (Elt Ideal)) (x2 : (⟨S4x160, .f32⟩ : BufTy).Contents (Elt Ideal)) (x3 : (⟨S4x160x128, .f32⟩ : BufTy).Contents (Elt Ideal)) (x4 : (⟨S4x128, .f32⟩ : BufTy).Contents (Elt Ideal)) (x5 : (⟨S4x128x96, .f32⟩ : BufTy).Contents (Elt Ideal)) (x12 : (⟨S50000, .i32⟩ : BufTy).Contents (Elt Ideal)) (i : S50000x96.Idx) :
    val_main_v184 (F := Ideal) x0 x1 x2 x3 x4 x5 x12 i = ∑ k : Fin 128, (val_main_v183 (F := Ideal) x0 x1 x2 x3 x4 x12) (lidx_main_v184 i k) * (val_main_v167 (F := Ideal) x5) (ridx_main_v184 i k) := by
  unfold val_main_v184
  generalize val_main_v183 (F := Ideal) x0 x1 x2 x3 x4 x12 = y0
  generalize val_main_v167 (F := Ideal) x5 = y1
  simp only [Host.dotGeneral]
  rw [Ideal.dotGeneral_apply, ← Equiv.sum_comp (ValueIdx.contrEquiv1 dot_S50000x128_S128x96_S50000x96_1_0_0_1_n_n 128 rfl rfl).symm]
  refine Finset.sum_congr rfl fun k _ => ?_
  have hk := ValueIdx.contrEquiv1_symm_val dot_S50000x128_S128x96_S50000x96_1_0_0_1_n_n 128 rfl rfl k
  have el : dot_S50000x128_S128x96_S50000x96_1_0_0_1_n_n.lhsIdx i ((ValueIdx.contrEquiv1 dot_S50000x128_S128x96_S50000x96_1_0_0_1_n_n 128 rfl rfl).symm k) = lidx_main_v184 i k := funext fun a => Fin.ext (by
    match a with
    | ⟨0, _⟩ => exact lhs_main_v184_0 _ _
    | ⟨1, _⟩ => exact (lhs_main_v184_1 _ _).trans hk)
  have er : dot_S50000x128_S128x96_S50000x96_1_0_0_1_n_n.rhsIdx i ((ValueIdx.contrEquiv1 dot_S50000x128_S128x96_S50000x96_1_0_0_1_n_n 128 rfl rfl).symm k) = ridx_main_v184 i k := funext fun a => Fin.ext (by
    match a with
    | ⟨0, _⟩ => exact (rhs_main_v184_0 _ _).trans hk
    | ⟨1, _⟩ => exact rhs_main_v184_1 _ _)
  rw [el, er]

def val_main_v185 (x6 : (⟨S4x96, .f32⟩ : BufTy).Contents (Elt F)) : (⟨S1x96, .f32⟩ : BufTy).Contents (Elt F) :=
  broadcastInDim S1x96 ![1] bcast_S96_S1x96_1 (val_main_v169 (F := F) x6)
abbrev idx_main_v185 (i : S1x96.Idx) : S96.Idx := fun a => match a with
  | ⟨0, _⟩ => ⟨(i 1).val, (i 1).isLt⟩
theorem val_main_v185_apply (x6 : (⟨S4x96, .f32⟩ : BufTy).Contents (Elt F)) (i : S1x96.Idx) :
    val_main_v185 (F := F) x6 i = val_main_v169 (F := F) x6 (idx_main_v185 i) := by
  unfold val_main_v185
  generalize val_main_v169 (F := F) x6 = y
  exact broadcastInDim_apply _ bcast_S96_S1x96_1 y i (idx_main_v185 i) (fun a => match a with
    | ⟨0, _⟩ => by show (i 1).val = if (96 : Nat) = 1 then 0 else (i 1).val; rw [if_neg (by decide)])

def val_main_v186 (x6 : (⟨S4x96, .f32⟩ : BufTy).Contents (Elt F)) : (⟨S50000x96, .f32⟩ : BufTy).Contents (Elt F) :=
  broadcastInDim S50000x96 ![0, 1] bcast_S1x96_S50000x96_0_1 (val_main_v185 (F := F) x6)
abbrev idx_main_v186 (i : S50000x96.Idx) : S1x96.Idx := fun a => match a with
  | ⟨0, _⟩ => ⟨0, Nat.one_pos⟩
  | ⟨1, _⟩ => ⟨(i 1).val, (i 1).isLt⟩
theorem val_main_v186_apply (x6 : (⟨S4x96, .f32⟩ : BufTy).Contents (Elt F)) (i : S50000x96.Idx) :
    val_main_v186 (F := F) x6 i = val_main_v185 (F := F) x6 (idx_main_v186 i) := by
  unfold val_main_v186
  generalize val_main_v185 (F := F) x6 = y
  exact broadcastInDim_apply _ bcast_S1x96_S50000x96_0_1 y i (idx_main_v186 i) (fun a => match a with
    | ⟨0, _⟩ => by show 0 = if (1 : Nat) = 1 then 0 else (i 0).val; rw [if_pos rfl]
    | ⟨1, _⟩ => by show (i 1).val = if (96 : Nat) = 1 then 0 else (i 1).val; rw [if_neg (by decide)])

def val_main_v187 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x12 : (⟨S50000, .i32⟩ : BufTy).Contents (Elt F)) : (⟨S50000x96, .f32⟩ : BufTy).Contents (Elt F) :=
  addf (val_main_v184 (F := F) x0 x1 x2 x3 x4 x5 x12) (val_main_v186 (F := F) x6)
def val_main_cst_24 : (⟨S_, .f32⟩ : BufTy).Contents (Elt F) :=
  constant S_ .f32 0x3DCCCCCD#32
def val_main_call11_cst : (⟨S_, .f32⟩ : BufTy).Contents (Elt F) :=
  constant S_ .f32 0x00000000#32
def val_main_call11_v0 : (⟨S50000x96, .f32⟩ : BufTy).Contents (Elt F) :=
  broadcastInDim S50000x96 ![] bcast_S_S50000x96 (val_main_call11_cst (F := F))
def val_main_call11_v1 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x12 : (⟨S50000, .i32⟩ : BufTy).Contents (Elt F)) : (⟨S50000x96, .f32⟩ : BufTy).Contents (Elt F) :=
  maximumf (val_main_v187 (F := F) x0 x1 x2 x3 x4 x5 x6 x12) (val_main_call11_v0 (F := F))
def val_main_call11_cst_0 : (⟨S_, .f32⟩ : BufTy).Contents (Elt F) :=
  constant S_ .f32 0x00000000#32
def val_main_call11_v2 : (⟨S50000x96, .f32⟩ : BufTy).Contents (Elt F) :=
  broadcastInDim S50000x96 ![] bcast_S_S50000x96 (val_main_call11_cst_0 (F := F))
def val_main_call11_v3 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x12 : (⟨S50000, .i32⟩ : BufTy).Contents (Elt F)) : (⟨S50000x96, .f32⟩ : BufTy).Contents (Elt F) :=
  minimumf (val_main_v187 (F := F) x0 x1 x2 x3 x4 x5 x6 x12) (val_main_call11_v2 (F := F))
def val_main_call11_v4 : (⟨S_, .f32⟩ : BufTy).Contents (Elt F) :=
  id (val_main_cst_24 (F := F))
def val_main_call11_v5 : (⟨S50000x96, .f32⟩ : BufTy).Contents (Elt F) :=
  broadcastInDim S50000x96 ![] bcast_S_S50000x96 (val_main_call11_v4 (F := F))
def val_main_call11_v6 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x12 : (⟨S50000, .i32⟩ : BufTy).Contents (Elt F)) : (⟨S50000x96, .f32⟩ : BufTy).Contents (Elt F) :=
  Host.divf (val_main_call11_v3 (F := F) x0 x1 x2 x3 x4 x5 x6 x12) (val_main_call11_v5 (F := F))
def val_main_call11_v7 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x12 : (⟨S50000, .i32⟩ : BufTy).Contents (Elt F)) : (⟨S50000x96, .f32⟩ : BufTy).Contents (Elt F) :=
  Host.expm1 (val_main_call11_v6 (F := F) x0 x1 x2 x3 x4 x5 x6 x12)
def val_main_call11_v8 : (⟨S_, .f32⟩ : BufTy).Contents (Elt F) :=
  id (val_main_cst_24 (F := F))
def val_main_call11_v9 : (⟨S50000x96, .f32⟩ : BufTy).Contents (Elt F) :=
  broadcastInDim S50000x96 ![] bcast_S_S50000x96 (val_main_call11_v8 (F := F))
def val_main_call11_v10 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x12 : (⟨S50000, .i32⟩ : BufTy).Contents (Elt F)) : (⟨S50000x96, .f32⟩ : BufTy).Contents (Elt F) :=
  mulf (val_main_call11_v9 (F := F)) (val_main_call11_v7 (F := F) x0 x1 x2 x3 x4 x5 x6 x12)
def val_main_v188 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x12 : (⟨S50000, .i32⟩ : BufTy).Contents (Elt F)) : (⟨S50000x96, .f32⟩ : BufTy).Contents (Elt F) :=
  addf (val_main_call11_v1 (F := F) x0 x1 x2 x3 x4 x5 x6 x12) (val_main_call11_v10 (F := F) x0 x1 x2 x3 x4 x5 x6 x12)
def val_main_v189 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x12 : (⟨S50000, .i32⟩ : BufTy).Contents (Elt F)) : (⟨S50000x1, .f32⟩ : BufTy).Contents (Elt F) :=
  Host.dotGeneral dot_S50000x96_S96x1_S50000x1_1_0_0_1_n_n none (val_main_v188 (F := F) x0 x1 x2 x3 x4 x5 x6 x12) (val_main_v171 (F := F) x7)
theorem lhs_main_v189_0 (i : S50000x1.Idx) (q : dot_S50000x96_S96x1_S50000x1_1_0_0_1_n_n.contr.Idx) :
    (dot_S50000x96_S96x1_S50000x1_1_0_0_1_n_n.lhsIdx i q 0).val = (i 0).val := by
  unfold DotDims.lhsIdx
  rw [dif_neg (show ¬(0 : Fin S50000x96.rank) ∈ dot_S50000x96_S96x1_S50000x1_1_0_0_1_n_n.lhsBatch by decide), dif_pos (show (0 : Fin S50000x96.rank) ∈ dot_S50000x96_S96x1_S50000x1_1_0_0_1_n_n.lhsNonContracting by decide)]
  rfl
theorem lhs_main_v189_1 (i : S50000x1.Idx) (q : dot_S50000x96_S96x1_S50000x1_1_0_0_1_n_n.contr.Idx) :
    (dot_S50000x96_S96x1_S50000x1_1_0_0_1_n_n.lhsIdx i q 1).val = (q ⟨0, by decide⟩).val :=
  dot_S50000x96_S96x1_S50000x1_1_0_0_1_n_n.lhsIdx_val_of_single rfl i q
theorem rhs_main_v189_0 (i : S50000x1.Idx) (q : dot_S50000x96_S96x1_S50000x1_1_0_0_1_n_n.contr.Idx) :
    (dot_S50000x96_S96x1_S50000x1_1_0_0_1_n_n.rhsIdx i q 0).val = (q ⟨0, by decide⟩).val :=
  dot_S50000x96_S96x1_S50000x1_1_0_0_1_n_n.rhsIdx_val_of_single rfl i q
theorem rhs_main_v189_1 (i : S50000x1.Idx) (q : dot_S50000x96_S96x1_S50000x1_1_0_0_1_n_n.contr.Idx) :
    (dot_S50000x96_S96x1_S50000x1_1_0_0_1_n_n.rhsIdx i q 1).val = (i 1).val := by
  unfold DotDims.rhsIdx
  rw [dif_neg (show ¬(1 : Fin S96x1.rank) ∈ dot_S50000x96_S96x1_S50000x1_1_0_0_1_n_n.rhsBatch by decide), dif_pos (show (1 : Fin S96x1.rank) ∈ dot_S50000x96_S96x1_S50000x1_1_0_0_1_n_n.rhsNonContracting by decide)]
  rfl
abbrev lidx_main_v189 (i : S50000x1.Idx) (k : Fin 96) : S50000x96.Idx := fun a => match a with
  | ⟨0, _⟩ => ⟨(i 0).val, (i 0).isLt⟩
  | ⟨1, _⟩ => ⟨k.val, k.isLt⟩
abbrev ridx_main_v189 (i : S50000x1.Idx) (k : Fin 96) : S96x1.Idx := fun a => match a with
  | ⟨0, _⟩ => ⟨k.val, k.isLt⟩
  | ⟨1, _⟩ => ⟨(i 1).val, (i 1).isLt⟩

theorem val_main_v189_apply (x0 : (⟨S200000x384, .f32⟩ : BufTy).Contents (Elt Ideal)) (x1 : (⟨S4x384x160, .f32⟩ : BufTy).Contents (Elt Ideal)) (x2 : (⟨S4x160, .f32⟩ : BufTy).Contents (Elt Ideal)) (x3 : (⟨S4x160x128, .f32⟩ : BufTy).Contents (Elt Ideal)) (x4 : (⟨S4x128, .f32⟩ : BufTy).Contents (Elt Ideal)) (x5 : (⟨S4x128x96, .f32⟩ : BufTy).Contents (Elt Ideal)) (x6 : (⟨S4x96, .f32⟩ : BufTy).Contents (Elt Ideal)) (x7 : (⟨S4x96x1, .f32⟩ : BufTy).Contents (Elt Ideal)) (x12 : (⟨S50000, .i32⟩ : BufTy).Contents (Elt Ideal)) (i : S50000x1.Idx) :
    val_main_v189 (F := Ideal) x0 x1 x2 x3 x4 x5 x6 x7 x12 i = ∑ k : Fin 96, (val_main_v188 (F := Ideal) x0 x1 x2 x3 x4 x5 x6 x12) (lidx_main_v189 i k) * (val_main_v171 (F := Ideal) x7) (ridx_main_v189 i k) := by
  unfold val_main_v189
  generalize val_main_v188 (F := Ideal) x0 x1 x2 x3 x4 x5 x6 x12 = y0
  generalize val_main_v171 (F := Ideal) x7 = y1
  simp only [Host.dotGeneral]
  rw [Ideal.dotGeneral_apply, ← Equiv.sum_comp (ValueIdx.contrEquiv1 dot_S50000x96_S96x1_S50000x1_1_0_0_1_n_n 96 rfl rfl).symm]
  refine Finset.sum_congr rfl fun k _ => ?_
  have hk := ValueIdx.contrEquiv1_symm_val dot_S50000x96_S96x1_S50000x1_1_0_0_1_n_n 96 rfl rfl k
  have el : dot_S50000x96_S96x1_S50000x1_1_0_0_1_n_n.lhsIdx i ((ValueIdx.contrEquiv1 dot_S50000x96_S96x1_S50000x1_1_0_0_1_n_n 96 rfl rfl).symm k) = lidx_main_v189 i k := funext fun a => Fin.ext (by
    match a with
    | ⟨0, _⟩ => exact lhs_main_v189_0 _ _
    | ⟨1, _⟩ => exact (lhs_main_v189_1 _ _).trans hk)
  have er : dot_S50000x96_S96x1_S50000x1_1_0_0_1_n_n.rhsIdx i ((ValueIdx.contrEquiv1 dot_S50000x96_S96x1_S50000x1_1_0_0_1_n_n 96 rfl rfl).symm k) = ridx_main_v189 i k := funext fun a => Fin.ext (by
    match a with
    | ⟨0, _⟩ => exact (rhs_main_v189_0 _ _).trans hk
    | ⟨1, _⟩ => exact rhs_main_v189_1 _ _)
  rw [el, er]

def val_main_v190 (x8 : (⟨S4x1, .f32⟩ : BufTy).Contents (Elt F)) : (⟨S1x1, .f32⟩ : BufTy).Contents (Elt F) :=
  broadcastInDim S1x1 ![1] bcast_S1_S1x1_1 (val_main_v173 (F := F) x8)
abbrev idx_main_v190 (i : S1x1.Idx) : S1.Idx := fun a => match a with
  | ⟨0, _⟩ => ⟨0, Nat.one_pos⟩
theorem val_main_v190_apply (x8 : (⟨S4x1, .f32⟩ : BufTy).Contents (Elt F)) (i : S1x1.Idx) :
    val_main_v190 (F := F) x8 i = val_main_v173 (F := F) x8 (idx_main_v190 i) := by
  unfold val_main_v190
  generalize val_main_v173 (F := F) x8 = y
  exact broadcastInDim_apply _ bcast_S1_S1x1_1 y i (idx_main_v190 i) (fun a => match a with
    | ⟨0, _⟩ => by show 0 = if (1 : Nat) = 1 then 0 else (i 1).val; rw [if_pos rfl])

def val_main_v191 (x8 : (⟨S4x1, .f32⟩ : BufTy).Contents (Elt F)) : (⟨S50000x1, .f32⟩ : BufTy).Contents (Elt F) :=
  broadcastInDim S50000x1 ![0, 1] bcast_S1x1_S50000x1_0_1 (val_main_v190 (F := F) x8)
abbrev idx_main_v191 (i : S50000x1.Idx) : S1x1.Idx := fun a => match a with
  | ⟨0, _⟩ => ⟨0, Nat.one_pos⟩
  | ⟨1, _⟩ => ⟨0, Nat.one_pos⟩
theorem val_main_v191_apply (x8 : (⟨S4x1, .f32⟩ : BufTy).Contents (Elt F)) (i : S50000x1.Idx) :
    val_main_v191 (F := F) x8 i = val_main_v190 (F := F) x8 (idx_main_v191 i) := by
  unfold val_main_v191
  generalize val_main_v190 (F := F) x8 = y
  exact broadcastInDim_apply _ bcast_S1x1_S50000x1_0_1 y i (idx_main_v191 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v192 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x8 : (⟨S4x1, .f32⟩ : BufTy).Contents (Elt F)) (x12 : (⟨S50000, .i32⟩ : BufTy).Contents (Elt F)) : (⟨S50000x1, .f32⟩ : BufTy).Contents (Elt F) :=
  addf (val_main_v189 (F := F) x0 x1 x2 x3 x4 x5 x6 x7 x12) (val_main_v191 (F := F) x8)
def val_main_v193 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x8 : (⟨S4x1, .f32⟩ : BufTy).Contents (Elt F)) (x12 : (⟨S50000, .i32⟩ : BufTy).Contents (Elt F)) : (⟨S50000, .f32⟩ : BufTy).Contents (Elt F) :=
  shapeCast _ (val_main_v192 (F := F) x0 x1 x2 x3 x4 x5 x6 x7 x8 x12) shapeCasts_S50000x1_S50000
abbrev idx_main_v193 (i : S50000.Idx) : S50000x1.Idx := fun a => match a with
  | ⟨0, _⟩ => ⟨((i 0).val) / 1, by have h0 : (i 0).val < 50000 := (i 0).isLt; show ((i 0).val) / 1 < 50000; omega⟩
  | ⟨1, _⟩ => ⟨0, Nat.one_pos⟩
theorem val_main_v193_apply (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x8 : (⟨S4x1, .f32⟩ : BufTy).Contents (Elt F)) (x12 : (⟨S50000, .i32⟩ : BufTy).Contents (Elt F)) (i : S50000.Idx) :
    val_main_v193 (F := F) x0 x1 x2 x3 x4 x5 x6 x7 x8 x12 i = val_main_v192 (F := F) x0 x1 x2 x3 x4 x5 x6 x7 x8 x12 (idx_main_v193 i) := by
  unfold val_main_v193
  generalize val_main_v192 (F := F) x0 x1 x2 x3 x4 x5 x6 x7 x8 x12 = y
  exact shapeCast_apply y shapeCasts_S50000x1_S50000 i (idx_main_v193 i)
    (by rewrite [Shape.rowMajor_val_two, Shape.rowMajor_val_one]; have h0 : (i 0).val < 50000 := (i 0).isLt; show ((i 0).val) / 1 * 1 + 0 = (i 0).val; omega)

def val_main_c_25 : (⟨S_, .i32⟩ : BufTy).Contents (Elt F) :=
  constantI S_ 32 0#32
def val_main_v194 : (⟨S50000, .i32⟩ : BufTy).Contents (Elt F) :=
  broadcastInDim S50000 ![] bcast_S_S50000 (val_main_c_25 (F := F))
def val_main_v195 (x12 : (⟨S50000, .i32⟩ : BufTy).Contents (Elt F)) : (⟨S50000, .i1⟩ : BufTy).Contents (Elt F) :=
  cmpi .slt (x12) (val_main_v194 (F := F))
def val_main_c_26 : (⟨S_, .i32⟩ : BufTy).Contents (Elt F) :=
  constantI S_ 32 200000#32
def val_main_v196 : (⟨S50000, .i32⟩ : BufTy).Contents (Elt F) :=
  broadcastInDim S50000 ![] bcast_S_S50000 (val_main_c_26 (F := F))
def val_main_v197 (x12 : (⟨S50000, .i32⟩ : BufTy).Contents (Elt F)) : (⟨S50000, .i32⟩ : BufTy).Contents (Elt F) :=
  addi (x12) (val_main_v196 (F := F))
def val_main_v198 (x12 : (⟨S50000, .i32⟩ : BufTy).Contents (Elt F)) : (⟨S50000, .i32⟩ : BufTy).Contents (Elt F) :=
  select (val_main_v195 (F := F) x12) (val_main_v197 (F := F) x12) (x12)
def val_main_v199 (x12 : (⟨S50000, .i32⟩ : BufTy).Contents (Elt F)) : (⟨S50000x1, .i32⟩ : BufTy).Contents (Elt F) :=
  broadcastInDim S50000x1 ![0] bcast_S50000_S50000x1_0 (val_main_v198 (F := F) x12)
abbrev idx_main_v199 (i : S50000x1.Idx) : S50000.Idx := fun a => match a with
  | ⟨0, _⟩ => ⟨(i 0).val, (i 0).isLt⟩
theorem val_main_v199_apply (x12 : (⟨S50000, .i32⟩ : BufTy).Contents (Elt F)) (i : S50000x1.Idx) :
    val_main_v199 (F := F) x12 i = val_main_v198 (F := F) x12 (idx_main_v199 i) := by
  unfold val_main_v199
  generalize val_main_v198 (F := F) x12 = y
  exact broadcastInDim_apply _ bcast_S50000_S50000x1_0 y i (idx_main_v199 i) (fun a => match a with
    | ⟨0, _⟩ => by show (i 0).val = if (50000 : Nat) = 1 then 0 else (i 0).val; rw [if_neg (by decide)])

def val_main_v200 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x8 : (⟨S4x1, .f32⟩ : BufTy).Contents (Elt F)) (x9 x10 x11 x12 : (⟨S50000, .i32⟩ : BufTy).Contents (Elt F)) : (⟨S200000, .f32⟩ : BufTy).Contents (Elt F) :=
  Host.scatterAdd scatter_S200000_S50000x1_S50000_n_0_0_1 (val_main_v150 (F := F) x0 x1 x2 x3 x4 x5 x6 x7 x8 x9 x10 x11) (val_main_v199 (F := F) x12) (val_main_v193 (F := F) x0 x1 x2 x3 x4 x5 x6 x7 x8 x12)

def val_main_v201 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x8 : (⟨S4x1, .f32⟩ : BufTy).Contents (Elt F)) (x9 x10 x11 x12 : (⟨S50000, .i32⟩ : BufTy).Contents (Elt F)) : (⟨S1x200000, .f32⟩ : BufTy).Contents (Elt F) :=
  broadcastInDim S1x200000 ![1] bcast_S200000_S1x200000_1 (val_main_v200 (F := F) x0 x1 x2 x3 x4 x5 x6 x7 x8 x9 x10 x11 x12)
abbrev idx_main_v201 (i : S1x200000.Idx) : S200000.Idx := fun a => match a with
  | ⟨0, _⟩ => ⟨(i 1).val, (i 1).isLt⟩
theorem val_main_v201_apply (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x8 : (⟨S4x1, .f32⟩ : BufTy).Contents (Elt F)) (x9 x10 x11 x12 : (⟨S50000, .i32⟩ : BufTy).Contents (Elt F)) (i : S1x200000.Idx) :
    val_main_v201 (F := F) x0 x1 x2 x3 x4 x5 x6 x7 x8 x9 x10 x11 x12 i = val_main_v200 (F := F) x0 x1 x2 x3 x4 x5 x6 x7 x8 x9 x10 x11 x12 (idx_main_v201 i) := by
  unfold val_main_v201
  generalize val_main_v200 (F := F) x0 x1 x2 x3 x4 x5 x6 x7 x8 x9 x10 x11 x12 = y
  exact broadcastInDim_apply _ bcast_S200000_S1x200000_1 y i (idx_main_v201 i) (fun a => match a with
    | ⟨0, _⟩ => by show (i 1).val = if (200000 : Nat) = 1 then 0 else (i 1).val; rw [if_neg (by decide)])

def val_main_cst_27 : (⟨S_, .f32⟩ : BufTy).Contents (Elt F) :=
  constant S_ .f32 0x00000000#32
theorem val_main_cst_27_apply (i : S_.Idx) :
    val_main_cst_27 (F := F) i = FloatOps.ofBits .f32 0x00000000#32 := rfl

def val_main_v202 (x0 : (⟨S200000x384, .f32⟩ : BufTy).Contents (Elt F)) (x1 : (⟨S4x384x160, .f32⟩ : BufTy).Contents (Elt F)) (x2 : (⟨S4x160, .f32⟩ : BufTy).Contents (Elt F)) (x3 : (⟨S4x160x128, .f32⟩ : BufTy).Contents (Elt F)) (x4 : (⟨S4x128, .f32⟩ : BufTy).Contents (Elt F)) (x5 : (⟨S4x128x96, .f32⟩ : BufTy).Contents (Elt F)) (x6 : (⟨S4x96, .f32⟩ : BufTy).Contents (Elt F)) (x7 : (⟨S4x96x1, .f32⟩ : BufTy).Contents (Elt F)) (x8 : (⟨S4x1, .f32⟩ : BufTy).Contents (Elt F)) (x9 x10 x11 x12 : (⟨S50000, .i32⟩ : BufTy).Contents (Elt F)) : (⟨S1, .f32⟩ : BufTy).Contents (Elt F) :=
  Host.reduceAdd (val_main_v201 (F := F) x0 x1 x2 x3 x4 x5 x6 x7 x8 x9 x10 x11 x12) (val_main_cst_27 (F := F)) reducesTo_S1x200000_S1_d1 h_S_
abbrev idx_main_v202 (i : S1.Idx) (k : Fin 200000) : S1x200000.Idx := fun a => match a with
  | ⟨0, _⟩ => ⟨(i 0).val, (i 0).isLt⟩
  | ⟨1, _⟩ => ⟨k.val, k.isLt⟩

theorem val_main_v202_apply (x0 : (⟨S200000x384, .f32⟩ : BufTy).Contents (Elt Ideal)) (x1 : (⟨S4x384x160, .f32⟩ : BufTy).Contents (Elt Ideal)) (x2 : (⟨S4x160, .f32⟩ : BufTy).Contents (Elt Ideal)) (x3 : (⟨S4x160x128, .f32⟩ : BufTy).Contents (Elt Ideal)) (x4 : (⟨S4x128, .f32⟩ : BufTy).Contents (Elt Ideal)) (x5 : (⟨S4x128x96, .f32⟩ : BufTy).Contents (Elt Ideal)) (x6 : (⟨S4x96, .f32⟩ : BufTy).Contents (Elt Ideal)) (x7 : (⟨S4x96x1, .f32⟩ : BufTy).Contents (Elt Ideal)) (x8 : (⟨S4x1, .f32⟩ : BufTy).Contents (Elt Ideal)) (x9 x10 x11 x12 : (⟨S50000, .i32⟩ : BufTy).Contents (Elt Ideal)) (i : S1.Idx) :
    val_main_v202 (F := Ideal) x0 x1 x2 x3 x4 x5 x6 x7 x8 x9 x10 x11 x12 i = (val_main_cst_27 (F := Ideal)) (Shape.Idx.first h_S_) + ∑ k : Fin 200000, (val_main_v201 (F := Ideal) x0 x1 x2 x3 x4 x5 x6 x7 x8 x9 x10 x11 x12) (idx_main_v202 i k) := by
  unfold val_main_v202
  generalize val_main_v201 (F := Ideal) x0 x1 x2 x3 x4 x5 x6 x7 x8 x9 x10 x11 x12 = y0
  simp only [Host.reduceAdd, Ideal.hostReduceAdd_def]
  rw [Ideal.hostReduceAdd_single reducesTo_S1x200000_S1_d1 (by decide)]
  refine congrArg (_ + ·) (Finset.sum_congr rfl fun k _ => ?_)
  exact congrArg y0 (funext fun a => Fin.ext (by match a with | ⟨0, _⟩ => rfl | ⟨1, _⟩ => rfl))

theorem val_main_v202_eq (m : (ℓ : Loc nD τ sig) → Buf (Elt F) ℓ) (c : Dev nD) :
    Cert.ReferenceIdeal.ValueP.res_main_v202 m c = val_main_v202 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.ValueP.res_main_v202; rfl

end Cert.ReferenceIdeal.ReadP

end
-- ==== Proof.RefStages.lean ====
import proofs.«428131_j48885317763465_3_alg».proof.Proof.Spec
import Idealize.ShloMosaic.PureOps.Ideal.Laws
import Idealize.ShloMosaic.Lib.ValueIdx

noncomputable section

namespace Cert.RefStages

open Idealize.ShloMosaic Idealize.ShloMosaic.ValueIdx Cert.Spec

/-- `max z 0 + α * expm1 (min z 0 / α)` is `celuR`. -/
theorem celu_stage (z : EReal) :
    FloatOps.addf (F := Ideal) (φ := .f32)
        (FloatOps.maximumf (F := Ideal) (φ := .f32) z (FloatOps.ofBits (F := Ideal) .f32 0x00000000#32))
        (FloatOps.mulf (F := Ideal) (φ := .f32) (FloatOps.ofBits (F := Ideal) .f32 0x3DCCCCCD#32)
          (FloatOps.hostUnary (F := Ideal) (φ := .f32) .expm1
            (FloatOps.hostDivf (F := Ideal) (φ := .f32)
              (FloatOps.minimumf (F := Ideal) (φ := .f32) z (FloatOps.ofBits (F := Ideal) .f32 0x00000000#32))
              (FloatOps.ofBits (F := Ideal) .f32 0x3DCCCCCD#32))))
      = celuR z := by
  simp only [Ideal.addf_def, Ideal.maximumf_def, Ideal.mulf_def, Ideal.hostUnary_expm1_def, Ideal.hostDivf_def,
    Ideal.minimumf_def, Ideal.ofBits_def, Ideal.ofBits_zero_f32]
  rfl

theorem select_wrap (x : BitVec 32) :
    Scalar.select (IntOp.cmpi .slt x 0#32) (IntOp.addi x 200000#32) x = wrapWord x := by
  unfold Scalar.select wrapWord
  rw [show IntOp.cmpi .slt x 0#32 = BitVec.ofBool (x.slt 0#32) from rfl,
    show IntOp.addi x 200000#32 = x + 200000#32 from rfl]
  cases x.slt 0#32
  · rw [if_neg (by decide), if_neg (by decide)]
  · rw [if_pos (by decide), if_pos rfl]

/-- A word in `[-200000, 200000)`, wrapped, is below `200000`. -/
theorem wrap_toNat_lt (x : BitVec 32) (h : -200000 ≤ x.toInt ∧ x.toInt < 200000) :
    (wrapWord x).toNat < 200000 := by
  obtain ⟨h0, h1⟩ := h
  have hx := BitVec.toInt_eq_toNat_cond x
  have hlt := x.isLt
  unfold wrapWord
  by_cases hs : x.slt 0#32 = true
  · rw [if_pos hs]
    have hneg : x.toInt < 0 := by
      have := (BitVec.slt_iff_toInt_lt (x := x) (y := 0#32)).mp hs
      simpa using this
    rw [BitVec.toNat_add]
    show (x.toNat + 200000) % 2 ^ 32 < 200000
    split at hx <;> omega
  · rw [if_neg hs]
    have hnn : 0 ≤ x.toInt := by
      by_contra hc
      exact hs ((BitVec.slt_iff_toInt_lt (x := x) (y := 0#32)).mpr (by simpa using (not_le.mp hc)))
    split at hx <;> omega

theorem wrap_toInt (x : BitVec 32) (h : -200000 ≤ x.toInt ∧ x.toInt < 200000) :
    0 ≤ (wrapWord x).toInt ∧ (wrapWord x).toInt < 200000 := by
  have hlt := wrap_toNat_lt x h
  rw [BitVec.toInt_eq_toNat_of_lt (by omega)]
  constructor <;> omega

theorem idx1_eq {n : Nat} (i : (⟨1, ![n]⟩ : Shape).Idx) (a : Fin n) (h0 : (i 0).val = a.val) : i = ix1 a :=
  funext fun d => match d with | ⟨0, _⟩ => Fin.ext h0

theorem idx2_eq {n0 n1 : Nat} (i : (⟨2, ![n0, n1]⟩ : Shape).Idx) (a : Fin n0) (b : Fin n1)
    (h0 : (i 0).val = a.val) (h1 : (i 1).val = b.val) : i = ix2 a b :=
  funext fun d => match d with | ⟨0, _⟩ => Fin.ext h0 | ⟨1, _⟩ => Fin.ext h1

theorem idx3_eq {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun d => match d with | ⟨0, _⟩ => Fin.ext h0 | ⟨1, _⟩ => Fin.ext h1 | ⟨2, _⟩ => Fin.ext h2

end Cert.RefStages

end
-- ==== Proof.RefSpecies0.lean ====
import proofs.«428131_j48885317763465_3_alg».proof.Proof.RefRead
import proofs.«428131_j48885317763465_3_alg».proof.Proof.RefStages
import proofs.«428131_j48885317763465_3_alg».proof.Proof.LibScatterGather2

noncomputable section

namespace Cert.ReferenceIdeal.Hand

open Cert.ReferenceIdeal Cert.ReferenceIdeal.Gen Cert.ReferenceIdeal.ReadP Idealize.ShloMosaic
  Idealize.ShloMosaic.ValueIdx Idealize.ShloMosaic.StableHlo Cert.Spec Cert.RefStages

variable (x0 : (⟨S200000x384, .f32⟩ : BufTy).Contents (Elt Ideal))
  (x1 : (⟨S4x384x160, .f32⟩ : BufTy).Contents (Elt Ideal)) (x2 : (⟨S4x160, .f32⟩ : BufTy).Contents (Elt Ideal))
  (x3 : (⟨S4x160x128, .f32⟩ : BufTy).Contents (Elt Ideal)) (x4 : (⟨S4x128, .f32⟩ : BufTy).Contents (Elt Ideal))
  (x5 : (⟨S4x128x96, .f32⟩ : BufTy).Contents (Elt Ideal)) (x6 : (⟨S4x96, .f32⟩ : BufTy).Contents (Elt Ideal))
  (x7 : (⟨S4x96x1, .f32⟩ : BufTy).Contents (Elt Ideal)) (x8 : (⟨S4x1, .f32⟩ : BufTy).Contents (Elt Ideal))
  (x9 : (⟨S50000, .i32⟩ : BufTy).Contents (Elt Ideal))

theorem word_s0 (j : Fin 50000) :
    val_main_v6 (F := Ideal) x9 (ix2 j (0 : Fin 1)) = wrapWord (x9 (ix1 j)) := by
  rw [val_main_v6_apply, show idx_main_v6 (ix2 j (0 : Fin 1)) = ix1 j from idx1_eq _ j rfl]
  exact select_wrap _

theorem place_s0 (j : Fin 50000) :
    val_main_v49 (F := Ideal) x9 (ix2 j (0 : Fin 1)) = wrapWord (x9 (ix1 j)) := by
  rw [val_main_v49_apply, show idx_main_v49 (ix2 j (0 : Fin 1)) = ix1 j from idx1_eq _ j rfl]
  exact select_wrap _

/-- Atom `j`'s routed row is the feature table's row its index word names. -/
theorem rows_s0 (j : Fin 50000) (k : Fin 384)
    (h : -200000 ≤ BitVec.toInt (x9 (ix1 j)) ∧ BitVec.toInt (x9 (ix1 j)) < 200000) :
    val_main_v7 (F := Ideal) x0 x9 (ix2 j k) = x0 (ix2 (rowOf (x9 (ix1 j))) k) := by
  have hw := word_s0 x9 j
  have hlt : BitVec.toNat (val_main_v6 (F := Ideal) x9 (ix2 j (0 : Fin 1))) < 200000 := by
    rw [hw]; exact wrap_toNat_lt _ h
  unfold val_main_v7
  refine (Cert.LibScatterGather2.gather_apply gather_S200000x384_S50000x1_S50000x384_1_0_n_n_0_1_1384
    rfl rfl rfl rfl rfl x0 (val_main_v6 (F := Ideal) x9) j k (by norm_num) hlt).trans ?_
  refine congrArg (fun r => x0 (ix2 r k)) (Fin.ext ?_)
  show BitVec.toNat (val_main_v6 (F := Ideal) x9 (ix2 j (0 : Fin 1))) = BitVec.toNat (wrapWord (x9 (ix1 j))) % 200000
  rw [hw, Nat.mod_eq_of_lt (wrap_toNat_lt _ h)]

theorem w1_s0 (k : Fin 384) (a : Fin 160) :
    val_main_v9 (F := Ideal) x1 (ix2 k a) = x1 (ix3 (0 : Fin 4) k a) := by
  have hk := k.isLt
  have ha := a.isLt
  rw [val_main_v9_apply, val_main_v8_apply]
  refine congrArg x1 (idx3_eq _ (0 : Fin 4) k a rfl ?_ ?_)
  · show (k.val * 160 + a.val) / 160 % 384 = k.val
    omega
  · show (k.val * 160 + a.val) % 160 = a.val
    omega

theorem b1_s0 (j : Fin 50000) (a : Fin 160) :
    val_main_v26 (F := Ideal) x2 (ix2 j a) = x2 (ix2 (0 : Fin 4) a) := by
  have ha := a.isLt
  rw [val_main_v26_apply, val_main_v25_apply, val_main_v11_apply, val_main_v10_apply]
  refine congrArg x2 (idx2_eq _ (0 : Fin 4) a rfl ?_)
  show a.val % 160 = a.val
  omega

theorem w2_s0 (k : Fin 160) (a : Fin 128) :
    val_main_v13 (F := Ideal) x3 (ix2 k a) = x3 (ix3 (0 : Fin 4) k a) := by
  have hk := k.isLt
  have ha := a.isLt
  rw [val_main_v13_apply, val_main_v12_apply]
  refine congrArg x3 (idx3_eq _ (0 : Fin 4) k a rfl ?_ ?_)
  · show (k.val * 128 + a.val) / 128 % 160 = k.val
    omega
  · show (k.val * 128 + a.val) % 128 = a.val
    omega

theorem b2_s0 (j : Fin 50000) (a : Fin 128) :
    val_main_v31 (F := Ideal) x4 (ix2 j a) = x4 (ix2 (0 : Fin 4) a) := by
  have ha := a.isLt
  rw [val_main_v31_apply, val_main_v30_apply, val_main_v15_apply, val_main_v14_apply]
  refine congrArg x4 (idx2_eq _ (0 : Fin 4) a rfl ?_)
  show a.val % 128 = a.val
  omega

theorem w3_s0 (k : Fin 128) (a : Fin 96) :
    val_main_v17 (F := Ideal) x5 (ix2 k a) = x5 (ix3 (0 : Fin 4) k a) := by
  have hk := k.isLt
  have ha := a.isLt
  rw [val_main_v17_apply, val_main_v16_apply]
  refine congrArg x5 (idx3_eq _ (0 : Fin 4) k a rfl ?_ ?_)
  · show (k.val * 96 + a.val) / 96 % 128 = k.val
    omega
  · show (k.val * 96 + a.val) % 96 = a.val
    omega

theorem b3_s0 (j : Fin 50000) (a : Fin 96) :
    val_main_v36 (F := Ideal) x6 (ix2 j a) = x6 (ix2 (0 : Fin 4) a) := by
  have ha := a.isLt
  rw [val_main_v36_apply, val_main_v35_apply, val_main_v19_apply, val_main_v18_apply]
  refine congrArg x6 (idx2_eq _ (0 : Fin 4) a rfl ?_)
  show a.val % 96 = a.val
  omega

theorem w4_s0 (k : Fin 96) :
    val_main_v21 (F := Ideal) x7 (ix2 k (0 : Fin 1)) = x7 (ix3 (0 : Fin 4) k (0 : Fin 1)) := by
  have hk := k.isLt
  rw [val_main_v21_apply, val_main_v20_apply]
  refine congrArg x7 (idx3_eq _ (0 : Fin 4) k (0 : Fin 1) rfl ?_ rfl)
  show (k.val * 1 + 0) / 1 % 96 = k.val
  omega

theorem b4_s0 (j : Fin 50000) :
    val_main_v41 (F := Ideal) x8 (ix2 j (0 : Fin 1)) = x8 (ix2 (0 : Fin 4) (0 : Fin 1)) := by
  rw [val_main_v41_apply, val_main_v40_apply, val_main_v23_apply, val_main_v22_apply]
  exact congrArg x8 (idx2_eq _ (0 : Fin 4) (0 : Fin 1) rfl rfl)

theorem act1_s0 (i : S50000x160.Idx) :
    val_main_v28 (F := Ideal) x0 x1 x2 x9 i = celuR (val_main_v27 (F := Ideal) x0 x1 x2 x9 i) := celu_stage _

theorem act2_s0 (i : S50000x128.Idx) :
    val_main_v33 (F := Ideal) x0 x1 x2 x3 x4 x9 i = celuR (val_main_v32 (F := Ideal) x0 x1 x2 x3 x4 x9 i) := celu_stage _

theorem act3_s0 (i : S50000x96.Idx) :
    val_main_v38 (F := Ideal) x0 x1 x2 x3 x4 x5 x6 x9 i
      = celuR (val_main_v37 (F := Ideal) x0 x1 x2 x3 x4 x5 x6 x9 i) := celu_stage _

theorem lin1_s0 (j : Fin 50000) (a : Fin 160) :
    val_main_v27 (F := Ideal) x0 x1 x2 x9 (ix2 j a)
      = lin (fun k : Fin 384 => val_main_v7 (F := Ideal) x0 x9 (ix2 j k))
          (fun k a => x1 (ix3 (0 : Fin 4) k a)) (fun a => x2 (ix2 (0 : Fin 4) a)) a := by
  show val_main_v24 (F := Ideal) x0 x1 x9 (ix2 j a) + val_main_v26 (F := Ideal) x2 (ix2 j a) = _
  rw [val_main_v24_apply, b1_s0 x2 j a]
  refine congrArg (· + x2 (ix2 (0 : Fin 4) a)) (Finset.sum_congr rfl fun k _ => ?_)
  rw [show lidx_main_v24 (ix2 j a) k = ix2 j k from idx2_eq _ j k rfl rfl,
    show ridx_main_v24 (ix2 j a) k = ix2 k a from idx2_eq _ k a rfl rfl, w1_s0 x1 k a]

theorem lin2_s0 (j : Fin 50000) (a : Fin 128) :
    val_main_v32 (F := Ideal) x0 x1 x2 x3 x4 x9 (ix2 j a)
      = lin (fun k : Fin 160 => val_main_v28 (F := Ideal) x0 x1 x2 x9 (ix2 j k))
          (fun k a => x3 (ix3 (0 : Fin 4) k a)) (fun a => x4 (ix2 (0 : Fin 4) a)) a := by
  show val_main_v29 (F := Ideal) x0 x1 x2 x3 x9 (ix2 j a) + val_main_v31 (F := Ideal) x4 (ix2 j a) = _
  rw [val_main_v29_apply, b2_s0 x4 j a]
  refine congrArg (· + x4 (ix2 (0 : Fin 4) a)) (Finset.sum_congr rfl fun k _ => ?_)
  rw [show lidx_main_v29 (ix2 j a) k = ix2 j k from idx2_eq _ j k rfl rfl,
    show ridx_main_v29 (ix2 j a) k = ix2 k a from idx2_eq _ k a rfl rfl, w2_s0 x3 k a]

theorem lin3_s0 (j : Fin 50000) (a : Fin 96) :
    val_main_v37 (F := Ideal) x0 x1 x2 x3 x4 x5 x6 x9 (ix2 j a)
      = lin (fun k : Fin 128 => val_main_v33 (F := Ideal) x0 x1 x2 x3 x4 x9 (ix2 j k))
          (fun k a => x5 (ix3 (0 : Fin 4) k a)) (fun a => x6 (ix2 (0 : Fin 4) a)) a := by
  show val_main_v34 (F := Ideal) x0 x1 x2 x3 x4 x5 x9 (ix2 j a) + val_main_v36 (F := Ideal) x6 (ix2 j a) = _
  rw [val_main_v34_apply, b3_s0 x6 j a]
  refine congrArg (· + x6 (ix2 (0 : Fin 4) a)) (Finset.sum_congr rfl fun k _ => ?_)
  rw [show lidx_main_v34 (ix2 j a) k = ix2 j k from idx2_eq _ j k rfl rfl,
    show ridx_main_v34 (ix2 j a) k = ix2 k a from idx2_eq _ k a rfl rfl, w3_s0 x5 k a]

/-- The three CELUs over the three affine layers are `hidden celuR`. -/
theorem hidden_s0 (j : Fin 50000)
    (h : -200000 ≤ BitVec.toInt (x9 (ix1 j)) ∧ BitVec.toInt (x9 (ix1 j)) < 200000) (c : Fin 96) :
    val_main_v38 (F := Ideal) x0 x1 x2 x3 x4 x5 x6 x9 (ix2 j c)
      = hidden celuR (paramsOf x1 x2 x3 x4 x5 x6 x7 x8) (0 : Fin 4)
          (fun k => x0 (ix2 (rowOf (x9 (ix1 j))) k)) c := by
  have h1 : ∀ a : Fin 160, val_main_v28 (F := Ideal) x0 x1 x2 x9 (ix2 j a)
      = celuR (lin (fun k => x0 (ix2 (rowOf (x9 (ix1 j))) k))
          (fun k a => x1 (ix3 (0 : Fin 4) k a)) (fun a => x2 (ix2 (0 : Fin 4) a)) a) := fun a => by
    rw [act1_s0, lin1_s0]
    exact congrArg (fun f => celuR (lin f _ _ a)) (funext fun k => rows_s0 x0 x9 j k h)
  have h2 : ∀ b : Fin 128, val_main_v33 (F := Ideal) x0 x1 x2 x3 x4 x9 (ix2 j b)
      = celuR (lin (fun a => celuR (lin (fun k => x0 (ix2 (rowOf (x9 (ix1 j))) k))
          (fun k a => x1 (ix3 (0 : Fin 4) k a)) (fun a => x2 (ix2 (0 : Fin 4) a)) a))
          (fun k a => x3 (ix3 (0 : Fin 4) k a)) (fun a => x4 (ix2 (0 : Fin 4) a)) b) := fun b => by
    rw [act2_s0, lin2_s0]
    exact congrArg (fun f => celuR (lin f _ _ b)) (funext fun a => h1 a)
  rw [act3_s0, lin3_s0]
  exact congrArg (fun f => celuR (lin f _ _ c)) (funext fun b => h2 b)

/-- The species' energy vector at atom `j` is `energyR` of the atom's routed row. -/
theorem energy_s0 (j : Fin 50000)
    (h : -200000 ≤ BitVec.toInt (x9 (ix1 j)) ∧ BitVec.toInt (x9 (ix1 j)) < 200000) :
    val_main_v43 (F := Ideal) x0 x1 x2 x3 x4 x5 x6 x7 x8 x9 (ix1 j)
      = energyR (paramsOf x1 x2 x3 x4 x5 x6 x7 x8) (0 : Fin 4) (fun k => x0 (ix2 (rowOf (x9 (ix1 j))) k)) := by
  have hj : idx_main_v43 (ix1 j) = ix2 j (0 : Fin 1) :=
    idx2_eq _ j (0 : Fin 1) (by show j.val / 1 = j.val; exact Nat.div_one _) rfl
  rw [val_main_v43_apply, hj]
  show val_main_v39 (F := Ideal) x0 x1 x2 x3 x4 x5 x6 x7 x9 (ix2 j (0 : Fin 1)) + val_main_v41 (F := Ideal) x8 (ix2 j (0 : Fin 1)) = _
  rw [val_main_v39_apply, b4_s0 x8 j]
  unfold energyR
  refine congrArg (· + x8 (ix2 (0 : Fin 4) (0 : Fin 1))) (Finset.sum_congr rfl fun k _ => ?_)
  have e1 : val_main_v38 (F := Ideal) x0 x1 x2 x3 x4 x5 x6 x9 (lidx_main_v39 (ix2 j (0 : Fin 1)) k)
      = hidden celuR (paramsOf x1 x2 x3 x4 x5 x6 x7 x8) (0 : Fin 4)
          (fun k => x0 (ix2 (rowOf (x9 (ix1 j))) k)) k := by
    rw [show lidx_main_v39 (ix2 j (0 : Fin 1)) k = ix2 j k from idx2_eq _ j k rfl rfl]
    exact hidden_s0 x0 x1 x2 x3 x4 x5 x6 x7 x8 x9 j h k
  have e2 : val_main_v21 (F := Ideal) x7 (ridx_main_v39 (ix2 j (0 : Fin 1)) k)
      = (paramsOf x1 x2 x3 x4 x5 x6 x7 x8).W4 (0 : Fin 4) k := by
    rw [show ridx_main_v39 (ix2 j (0 : Fin 1)) k = ix2 k (0 : Fin 1) from idx2_eq _ k (0 : Fin 1) rfl rfl]
    exact w4_s0 x7 k
  rw [e1, e2]

end Cert.ReferenceIdeal.Hand

end
-- ==== Proof.LibScatterGather1.lean ====
import Idealize.ShloMosaic.PureOps.Ideal
import Idealize.ShloMosaic.PureOps.ShapeOps
import Idealize.ShloMosaic.PureOps.Contract
import Idealize.ShloMosaic.Lib.ValueIdx
import Idealize.ShloMosaic.Lib.StableHlo.Predicate

noncomputable section

namespace Cert.LibScatterGather1

open Idealize.ShloMosaic Idealize.ShloMosaic.ValueIdx

section Scatter

variable {N M w : Nat}

def idxEquiv1 {n : Nat} : (⟨1, ![n]⟩ : Shape).Idx ≃ Fin n where
  toFun i := i 0
  invFun := ix1
  left_inv i := (eq_ix1 i).symm
  right_inv _ := rfl

theorem start_add_window (d : ScatterDims ⟨1, ![N]⟩ ⟨2, ![M, 1]⟩ ⟨1, ![M]⟩)
    (hiw : d.insertedWindowDims = [0]) (hsd : d.scatterDimsToOperandDims = [0]) (hivd : d.indexVectorDim = 1)
    (idx : IVec ⟨2, ![M, 1]⟩ w) (j : (⟨1, ![M]⟩ : Shape).Idx) (a : Fin 1) :
    d.start j idx a + (d.window j a : ℤ) = (idx (ix2 (n0 := M) (n1 := 1) (j 0) 0)).toInt := by
  obtain rfl : a = 0 := Subsingleton.elim _ _
  have hwin : d.window j 0 = 0 := by
    unfold ScatterDims.window
    rw [dif_neg]
    simp [ScatterDims.sKept, Shape.kept, hiw]
  have hm : (0 : Fin 1) ∈ d.scatterDimsToOperandDims := by rw [hsd]; exact List.mem_singleton.mpr rfl
  have hsi : d.siIdx j ⟨d.scatterDimsToOperandDims.idxOf 0, List.idxOf_lt_length_iff.2 hm⟩
      = ix2 (n0 := M) (n1 := 1) (j 0) 0 := by
    funext b
    match b with
    | ⟨0, _⟩ =>
      unfold ScatterDims.siIdx
      rw [dif_neg (by rw [hivd]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp
  have hstart : d.start j idx 0 = (idx (ix2 (n0 := M) (n1 := 1) (j 0) 0)).toInt := by
    unfold ScatterDims.start
    rw [dif_pos hm, hsi]
  rw [hstart, hwin]; simp

theorem resultIdx?_iff (d : ScatterDims ⟨1, ![N]⟩ ⟨2, ![M, 1]⟩ ⟨1, ![M]⟩)
    (hiw : d.insertedWindowDims = [0]) (hsd : d.scatterDimsToOperandDims = [0]) (hivd : d.indexVectorDim = 1)
    (idx : IVec ⟨2, ![M, 1]⟩ w) (j : (⟨1, ![M]⟩ : Shape).Idx) (i : (⟨1, ![N]⟩ : Shape).Idx) :
    d.resultIdx? j idx = some i ↔ (idx (ix2 (n0 := M) (n1 := 1) (j 0) 0)).toInt = ((i 0).val : ℤ) := by
  have hT := start_add_window d hiw hsd hivd idx j
  unfold ScatterDims.resultIdx?
  constructor
  · intro h
    split at h
    · rename_i hc
      have hf := Option.some.inj h
      have h0 : (d.start j idx 0 + (d.window j 0 : ℤ)).toNat = (i 0).val := congrArg (fun f => (f 0).val) hf
      have hc0 := (hc 0).1
      rw [hT 0] at hc0 h0
      omega
    · exact absurd h (by simp)
  · intro h
    have hi : (i 0).val < N := (i 0).isLt
    have hc : ∀ a : Fin 1, 0 ≤ d.start j idx a + (d.window j a : ℤ)
        ∧ d.start j idx a + (d.window j a : ℤ) < ((⟨1, ![N]⟩ : Shape).size a : ℤ) := by
      intro a
      obtain rfl : a = 0 := Subsingleton.elim _ _
      rw [hT 0, h]
      refine ⟨by omega, ?_⟩
      show ((i 0).val : ℤ) < (N : ℤ)
      omega
    rw [dif_pos hc]
    refine congrArg some ?_
    funext a
    obtain rfl : a = 0 := Subsingleton.elim _ _
    apply Fin.ext
    show (d.start j idx 0 + (d.window j 0 : ℤ)).toNat = (i 0).val
    rw [hT 0, h]; simp

/-- The same for a table of single entries: the old value plus the updates whose word names the entry. -/
theorem scatterAdd_apply {φ : FTy} (d : ScatterDims ⟨1, ![N]⟩ ⟨2, ![M, 1]⟩ ⟨1, ![M]⟩)
    (hiw : d.insertedWindowDims = [0]) (hsd : d.scatterDimsToOperandDims = [0]) (hivd : d.indexVectorDim = 1)
    (x : FVec Ideal ⟨1, ![N]⟩ φ) (idx : IVec ⟨2, ![M, 1]⟩ w) (upd : FVec Ideal ⟨1, ![M]⟩ φ)
    (i : (⟨1, ![N]⟩ : Shape).Idx) :
    Host.scatterAdd (F := Ideal) d x idx upd i
      = x i + ∑ j ∈ Finset.univ.filter (fun j : (⟨1, ![M]⟩ : Shape).Idx =>
          (idx (ix2 (n0 := M) (n1 := 1) (j 0) 0)).toInt = ((i 0).val : ℤ)), upd j := by
  show Ideal.hostScatterAdd d x idx upd i = _
  unfold Ideal.hostScatterAdd
  refine congrArg (x i + ·) ?_
  refine Finset.sum_congr ?_ (fun _ _ => rfl)
  ext j
  simp only [Finset.mem_filter, Finset.mem_univ, true_and]
  exact resultIdx?_iff d hiw hsd hivd idx j i

theorem scatterAdd_apply_fin {φ : FTy} (d : ScatterDims ⟨1, ![N]⟩ ⟨2, ![M, 1]⟩ ⟨1, ![M]⟩)
    (hiw : d.insertedWindowDims = [0]) (hsd : d.scatterDimsToOperandDims = [0]) (hivd : d.indexVectorDim = 1)
    (x : FVec Ideal ⟨1, ![N]⟩ φ) (idx : IVec ⟨2, ![M, 1]⟩ w) (upd : FVec Ideal ⟨1, ![M]⟩ φ) (u : Fin N) :
    Host.scatterAdd (F := Ideal) d x idx upd (ix1 u)
      = x (ix1 u) + ∑ j ∈ Finset.univ.filter (fun j : Fin M => (idx (ix2 j (0 : Fin 1))).toInt = (u.val : ℤ)),
          upd (ix1 j) := by
  rw [scatterAdd_apply d hiw hsd hivd]
  refine congrArg (x (ix1 u) + ·) ?_
  rw [Finset.sum_filter, Finset.sum_filter]
  exact (Equiv.sum_comp (idxEquiv1 (n := M)).symm _).symm

end Scatter

end Cert.LibScatterGather1

end
-- ==== Proof.RefTail.lean ====
import proofs.«428131_j48885317763465_3_alg».proof.Proof.LibScatterGather1
import Mathlib.Algebra.BigOperators.Group.Finset.Basic
import Mathlib.Algebra.BigOperators.Group.Finset.Sigma

noncomputable section

namespace Cert.RefTail

open Idealize.ShloMosaic Idealize.ShloMosaic.ValueIdx
open scoped BigOperators

/-- Scattering with accumulation and then summing the table adds the updates' sum to the table's: every update lands on exactly one entry. -/
theorem sum_scatter1 {N M : Nat} (d : ScatterDims ⟨1, ![N]⟩ ⟨2, ![M, 1]⟩ ⟨1, ![M]⟩)
    (hiw : d.insertedWindowDims = [0]) (hsd : d.scatterDimsToOperandDims = [0]) (hivd : d.indexVectorDim = 1)
    (x : FVec Ideal ⟨1, ![N]⟩ .f32) (idx : IVec ⟨2, ![M, 1]⟩ 32) (upd : FVec Ideal ⟨1, ![M]⟩ .f32)
    (hidx : ∀ j : Fin M, 0 ≤ (idx (ix2 j (0 : Fin 1))).toInt ∧ (idx (ix2 j (0 : Fin 1))).toInt < (N : ℤ)) :
    ∑ u : Fin N, Host.scatterAdd (F := Ideal) d x idx upd (ix1 u)
      = (∑ u : Fin N, x (ix1 u)) + ∑ j : Fin M, upd (ix1 j) := by

  have once : ∀ j : Fin M,
      ∑ u : Fin N, (if (idx (ix2 j (0 : Fin 1))).toInt = (u.val : ℤ) then upd (ix1 j) else 0) = upd (ix1 j) := by
    intro j
    obtain ⟨h0, h1⟩ := hidx j
    have hlt : (idx (ix2 j (0 : Fin 1))).toInt.toNat < N := by omega
    rw [Finset.sum_eq_single (⟨_, hlt⟩ : Fin N)]
    · rw [if_pos]
      show (idx (ix2 j (0 : Fin 1))).toInt = (((idx (ix2 j (0 : Fin 1))).toInt.toNat : ℕ) : ℤ)
      omega
    · intro u _ hu
      rw [if_neg]
      intro e
      refine hu (Fin.ext ?_)
      show u.val = (idx (ix2 j (0 : Fin 1))).toInt.toNat
      omega
    · intro h; exact absurd (Finset.mem_univ _) h
  calc ∑ u : Fin N, Host.scatterAdd (F := Ideal) d x idx upd (ix1 u)
      = ∑ u : Fin N, (x (ix1 u) + ∑ j : Fin M,
          (if (idx (ix2 j (0 : Fin 1))).toInt = (u.val : ℤ) then upd (ix1 j) else 0)) := by
        refine Finset.sum_congr rfl (fun u _ => ?_)
        rw [Cert.LibScatterGather1.scatterAdd_apply_fin d hiw hsd hivd, Finset.sum_filter]
    _ = (∑ u : Fin N, x (ix1 u)) + ∑ u : Fin N, ∑ j : Fin M,
          (if (idx (ix2 j (0 : Fin 1))).toInt = (u.val : ℤ) then upd (ix1 j) else 0) := Finset.sum_add_distrib
    _ = (∑ u : Fin N, x (ix1 u)) + ∑ j : Fin M, upd (ix1 j) := by
        rw [Finset.sum_comm]
        exact congrArg _ (Finset.sum_congr rfl (fun j _ => once j))

theorem sum_scatter4 (d : ScatterDims ⟨1, ![200000]⟩ ⟨2, ![50000, 1]⟩ ⟨1, ![50000]⟩)
    (hiw : d.insertedWindowDims = [0]) (hsd : d.scatterDimsToOperandDims = [0]) (hivd : d.indexVectorDim = 1)
    (i0 i1 i2 i3 : IVec ⟨2, ![50000, 1]⟩ 32)
    (h0 : ∀ j : Fin 50000, 0 ≤ (i0 (ix2 j 0)).toInt ∧ (i0 (ix2 j 0)).toInt < 200000)
    (h1 : ∀ j : Fin 50000, 0 ≤ (i1 (ix2 j 0)).toInt ∧ (i1 (ix2 j 0)).toInt < 200000)
    (h2 : ∀ j : Fin 50000, 0 ≤ (i2 (ix2 j 0)).toInt ∧ (i2 (ix2 j 0)).toInt < 200000)
    (h3 : ∀ j : Fin 50000, 0 ≤ (i3 (ix2 j 0)).toInt ∧ (i3 (ix2 j 0)).toInt < 200000)
    (e0 e1 e2 e3 : FVec Ideal ⟨1, ![50000]⟩ .f32) (z : FVec Ideal ⟨1, ![200000]⟩ .f32) (hz : ∀ u, z u = 0) :
    ∑ u : Fin 200000, Host.scatterAdd (F := Ideal) d (Host.scatterAdd (F := Ideal) d (Host.scatterAdd (F := Ideal) d
        (Host.scatterAdd (F := Ideal) d z i0 e0) i1 e1) i2 e2) i3 e3 (ix1 u)
      = (∑ j : Fin 50000, e0 (ix1 j)) + (∑ j, e1 (ix1 j)) + (∑ j, e2 (ix1 j)) + (∑ j, e3 (ix1 j)) := by
  have c : ∀ {i : IVec ⟨2, ![50000, 1]⟩ 32},
      (∀ j : Fin 50000, 0 ≤ (i (ix2 j 0)).toInt ∧ (i (ix2 j 0)).toInt < 200000) →
      ∀ j : Fin 50000, 0 ≤ (i (ix2 j (0 : Fin 1))).toInt ∧ (i (ix2 j (0 : Fin 1))).toInt < ((200000 : ℕ) : ℤ) :=
    fun h j => h j
  rw [sum_scatter1 d hiw hsd hivd _ i3 e3 (c h3), sum_scatter1 d hiw hsd hivd _ i2 e2 (c h2),
    sum_scatter1 d hiw hsd hivd _ i1 e1 (c h1), sum_scatter1 d hiw hsd hivd z i0 e0 (c h0),
    Finset.sum_eq_zero (fun u _ => hz (ix1 u)), zero_add]

end Cert.RefTail

end
-- ==== Proof.RefValue.lean ====
import proofs.«428131_j48885317763465_3_alg».proof.Proof.RefSpecies0
import proofs.«428131_j48885317763465_3_alg».proof.Proof.RefSpecies1
import proofs.«428131_j48885317763465_3_alg».proof.Proof.RefSpecies2
import proofs.«428131_j48885317763465_3_alg».proof.Proof.RefSpecies3
import proofs.«428131_j48885317763465_3_alg».proof.Proof.RefTail
import Mathlib.Algebra.BigOperators.Fin

noncomputable section

namespace Cert.ReferenceIdeal.Hand

open Cert.ReferenceIdeal Cert.ReferenceIdeal.Gen Cert.ReferenceIdeal.ReadP Idealize.ShloMosaic Idealize.ShloMosaic.TcCoe
  Idealize.SL.Sem Idealize.ShloMosaic.ValueIdx Idealize.ShloMosaic.StableHlo Cert.Spec Cert.RefStages

theorem value_total (x0 : (⟨S200000x384, .f32⟩ : BufTy).Contents (Elt Ideal))
    (x1 : (⟨S4x384x160, .f32⟩ : BufTy).Contents (Elt Ideal)) (x2 : (⟨S4x160, .f32⟩ : BufTy).Contents (Elt Ideal))
    (x3 : (⟨S4x160x128, .f32⟩ : BufTy).Contents (Elt Ideal)) (x4 : (⟨S4x128, .f32⟩ : BufTy).Contents (Elt Ideal))
    (x5 : (⟨S4x128x96, .f32⟩ : BufTy).Contents (Elt Ideal)) (x6 : (⟨S4x96, .f32⟩ : BufTy).Contents (Elt Ideal))
    (x7 : (⟨S4x96x1, .f32⟩ : BufTy).Contents (Elt Ideal)) (x8 : (⟨S4x1, .f32⟩ : BufTy).Contents (Elt Ideal))
    (x9 x10 x11 x12 : (⟨S50000, .i32⟩ : BufTy).Contents (Elt Ideal))
    (hidx : ∀ (s : Fin 4) (j : Fin 50000), -200000 ≤ (idxOf x9 x10 x11 x12 s j).toInt
      ∧ (idxOf x9 x10 x11 x12 s j).toInt < 200000) (i : S1.Idx) :
    val_main_v202 (F := Ideal) x0 x1 x2 x3 x4 x5 x6 x7 x8 x9 x10 x11 x12 i
      = totalR (paramsOf x1 x2 x3 x4 x5 x6 x7 x8) (gathered x0 x9 x10 x11 x12) := by

  have r0 : ∀ j : Fin 50000, -200000 ≤ BitVec.toInt (x9 (ix1 j)) ∧ BitVec.toInt (x9 (ix1 j)) < 200000 :=
    fun j => hidx 0 j
  have r1 : ∀ j : Fin 50000, -200000 ≤ BitVec.toInt (x10 (ix1 j)) ∧ BitVec.toInt (x10 (ix1 j)) < 200000 :=
    fun j => hidx 1 j
  have r2 : ∀ j : Fin 50000, -200000 ≤ BitVec.toInt (x11 (ix1 j)) ∧ BitVec.toInt (x11 (ix1 j)) < 200000 :=
    fun j => hidx 2 j
  have r3 : ∀ j : Fin 50000, -200000 ≤ BitVec.toInt (x12 (ix1 j)) ∧ BitVec.toInt (x12 (ix1 j)) < 200000 :=
    fun j => hidx 3 j

  rw [val_main_v202_apply, val_main_cst_27_apply, Ideal.ofBits_def, Ideal.ofBits_zero_f32, zero_add]
  have e : ∀ k : Fin 200000,
      val_main_v201 (F := Ideal) x0 x1 x2 x3 x4 x5 x6 x7 x8 x9 x10 x11 x12 (idx_main_v202 i k)
        = val_main_v200 (F := Ideal) x0 x1 x2 x3 x4 x5 x6 x7 x8 x9 x10 x11 x12 (ix1 k) := fun k => by
    rw [val_main_v201_apply]
    exact congrArg _ (idx1_eq _ k rfl)
  rw [Finset.sum_congr rfl fun k _ => e k]

  have hz : ∀ u, val_main_v0 (F := Ideal) u = 0 := fun u => by
    rw [val_main_v0_apply, val_main_cst_apply, Ideal.ofBits_def, Ideal.ofBits_zero_f32]
  have p0 : ∀ j : Fin 50000, 0 ≤ BitVec.toInt (val_main_v49 (F := Ideal) x9 (ix2 j 0))
      ∧ BitVec.toInt (val_main_v49 (F := Ideal) x9 (ix2 j 0)) < 200000 := fun j => by
    rw [place_s0]; exact wrap_toInt _ (r0 j)
  have p1 : ∀ j : Fin 50000, 0 ≤ BitVec.toInt (val_main_v99 (F := Ideal) x10 (ix2 j 0))
      ∧ BitVec.toInt (val_main_v99 (F := Ideal) x10 (ix2 j 0)) < 200000 := fun j => by
    rw [place_s1]; exact wrap_toInt _ (r1 j)
  have p2 : ∀ j : Fin 50000, 0 ≤ BitVec.toInt (val_main_v149 (F := Ideal) x11 (ix2 j 0))
      ∧ BitVec.toInt (val_main_v149 (F := Ideal) x11 (ix2 j 0)) < 200000 := fun j => by
    rw [place_s2]; exact wrap_toInt _ (r2 j)
  have p3 : ∀ j : Fin 50000, 0 ≤ BitVec.toInt (val_main_v199 (F := Ideal) x12 (ix2 j 0))
      ∧ BitVec.toInt (val_main_v199 (F := Ideal) x12 (ix2 j 0)) < 200000 := fun j => by
    rw [place_s3]; exact wrap_toInt _ (r3 j)
  unfold val_main_v200 val_main_v150 val_main_v100 val_main_v50
  refine (Cert.RefTail.sum_scatter4 scatter_S200000_S50000x1_S50000_n_0_0_1 rfl rfl rfl
    (val_main_v49 (F := Ideal) x9) (val_main_v99 (F := Ideal) x10) (val_main_v149 (F := Ideal) x11)
    (val_main_v199 (F := Ideal) x12) p0 p1 p2 p3
    (val_main_v43 (F := Ideal) x0 x1 x2 x3 x4 x5 x6 x7 x8 x9)
    (val_main_v93 (F := Ideal) x0 x1 x2 x3 x4 x5 x6 x7 x8 x10)
    (val_main_v143 (F := Ideal) x0 x1 x2 x3 x4 x5 x6 x7 x8 x11)
    (val_main_v193 (F := Ideal) x0 x1 x2 x3 x4 x5 x6 x7 x8 x12)
    (val_main_v0 (F := Ideal)) hz).trans ?_

  unfold totalR
  rw [Fin.sum_univ_four]
  have s0 : ∑ j : Fin 50000, val_main_v43 (F := Ideal) x0 x1 x2 x3 x4 x5 x6 x7 x8 x9 (ix1 j)
      = ∑ j, energyR (paramsOf x1 x2 x3 x4 x5 x6 x7 x8) 0 (gathered x0 x9 x10 x11 x12 0 j) :=
    Finset.sum_congr rfl fun j _ => energy_s0 x0 x1 x2 x3 x4 x5 x6 x7 x8 x9 j (r0 j)
  have s1 : ∑ j : Fin 50000, val_main_v93 (F := Ideal) x0 x1 x2 x3 x4 x5 x6 x7 x8 x10 (ix1 j)
      = ∑ j, energyR (paramsOf x1 x2 x3 x4 x5 x6 x7 x8) 1 (gathered x0 x9 x10 x11 x12 1 j) :=
    Finset.sum_congr rfl fun j _ => energy_s1 x0 x1 x2 x3 x4 x5 x6 x7 x8 x10 j (r1 j)
  have s2 : ∑ j : Fin 50000, val_main_v143 (F := Ideal) x0 x1 x2 x3 x4 x5 x6 x7 x8 x11 (ix1 j)
      = ∑ j, energyR (paramsOf x1 x2 x3 x4 x5 x6 x7 x8) 2 (gathered x0 x9 x10 x11 x12 2 j) :=
    Finset.sum_congr rfl fun j _ => energy_s2 x0 x1 x2 x3 x4 x5 x6 x7 x8 x11 j (r2 j)
  have s3 : ∑ j : Fin 50000, val_main_v193 (F := Ideal) x0 x1 x2 x3 x4 x5 x6 x7 x8 x12 (ix1 j)
      = ∑ j, energyR (paramsOf x1 x2 x3 x4 x5 x6 x7 x8) 3 (gathered x0 x9 x10 x11 x12 3 j) :=
    Finset.sum_congr rfl fun j _ => energy_s3 x0 x1 x2 x3 x4 x5 x6 x7 x8 x12 j (r3 j)
  rw [s0, s1, s2, s3]

/-- The reference's result is `totalR` of the parameters and the routed rows. -/
theorem res_value (m : (ℓ : Loc nD τ sig) → Buf (Elt Ideal) ℓ) (c : Dev nD)
    (hidx : ∀ (s : Fin 4) (j : Fin 50000),
      -200000 ≤ (Cert.Spec.idxOf (m ((c.tc : Thread nD τ).loc main_arg9)) (m ((c.tc : Thread nD τ).loc main_arg10))
        (m ((c.tc : Thread nD τ).loc main_arg11)) (m ((c.tc : Thread nD τ).loc main_arg12)) s j).toInt
      ∧ (Cert.Spec.idxOf (m ((c.tc : Thread nD τ).loc main_arg9)) (m ((c.tc : Thread nD τ).loc main_arg10))
        (m ((c.tc : Thread nD τ).loc main_arg11)) (m ((c.tc : Thread nD τ).loc main_arg12)) s j).toInt < 200000) :
    Cert.ReferenceIdeal.ValueP.res_main_v202 (F := Ideal) m c
      = fun _ => Cert.Spec.totalR
          (Cert.Spec.paramsOf (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8)))
          (Cert.Spec.gathered (m ((c.tc : Thread nD τ).loc main_arg0)) (m ((c.tc : Thread nD τ).loc main_arg9))
            (m ((c.tc : Thread nD τ).loc main_arg10)) (m ((c.tc : Thread nD τ).loc main_arg11))
            (m ((c.tc : Thread nD τ).loc main_arg12))) := by
  rw [Cert.ReferenceIdeal.ReadP.val_main_v202_eq]
  funext i
  exact value_total _ _ _ _ _ _ _ _ _ _ _ _ _ hidx i

end Cert.ReferenceIdeal.Hand

end
-- ==== Proof.SpecEq.lean ====
import proofs.«428131_j48885317763465_3_alg».proof.Proof.Spec
import Mathlib.Data.EReal.Operations
import Mathlib.Algebra.BigOperators.Fin
import Mathlib.Algebra.BigOperators.Ring.Finset
import Mathlib.Analysis.SpecialFunctions.Exp

noncomputable section

namespace Cert.Spec

open Idealize.ShloMosaic
open scoped BigOperators

theorem α_eq : α = ((13421773 / 134217728 : ℝ) : EReal) := by
  unfold α
  simp [Ideal.ofBits, Ideal.ieee, -EReal.coe_mul]
  norm_num

def αr : ℝ := 13421773 / 134217728

def celuRe (r : ℝ) : ℝ := if 0 < r then r else αr * (Real.exp (r * (134217728 / 13421773)) - 1)

theorem celuK_coe (r : ℝ) : celuK (r : EReal) = (celuRe r : EReal) := by
  unfold celuK celuRe
  by_cases h : 0 < r
  · rw [if_pos (by exact_mod_cast h), if_pos h]
  · rw [if_neg (by exact_mod_cast h), if_neg h, α_eq, invα, ← EReal.coe_mul, Ideal.exp_coe, ← EReal.coe_one,
      ← EReal.coe_sub, ← EReal.coe_mul, αr]

theorem celuR_coe (r : ℝ) : celuR (r : EReal) = (celuRe r : EReal) := by
  have hα : (13421773 / 134217728 : ℝ) ≠ 0 := by norm_num
  unfold celuR celuRe
  rw [α_eq, Ideal.div_coe hα]
  by_cases h : 0 < r
  · have h' : (0 : EReal) ≤ (r : EReal) := by exact_mod_cast h.le
    rw [if_pos h, max_eq_left h', min_eq_right h', zero_mul, ← EReal.coe_zero, Ideal.exp_coe, Real.exp_zero,
      EReal.coe_one, ← EReal.coe_one, ← EReal.coe_sub, sub_self, EReal.coe_zero, mul_zero, add_zero]
  · have h' : (r : EReal) ≤ (0 : EReal) := by exact_mod_cast (not_lt.mp h)
    rw [if_neg h, max_eq_right h', min_eq_left h', zero_add, ← EReal.coe_mul, Ideal.exp_coe, ← EReal.coe_one,
      ← EReal.coe_sub, ← EReal.coe_mul, αr]
    norm_num

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

def linRe {a b : ℕ} (x : Fin a → ℝ) (W : Fin a → Fin b → ℝ) (c : Fin b → ℝ) (j : Fin b) : ℝ :=
  (∑ k, x k * W k j) + c j

theorem lin_coe {a b : ℕ} (x : Fin a → EReal) (W : Fin a → Fin b → EReal) (c : Fin b → EReal)
    (xr : Fin a → ℝ) (Wr : Fin a → Fin b → ℝ) (cr : Fin b → ℝ)
    (hx : ∀ k, x k = (xr k : EReal)) (hW : ∀ k j, W k j = (Wr k j : EReal)) (hc : ∀ j, c j = (cr j : EReal))
    (j : Fin b) : lin x W c j = (linRe xr Wr cr j : EReal) := by
  unfold lin linRe
  rw [EReal.coe_add, coe_sum, hc j]
  congr 1
  refine Finset.sum_congr rfl fun k _ => ?_
  rw [hx k, hW k j, EReal.coe_mul]

def hiddenRe (w1 : Fin 384 → Fin 160 → ℝ) (b1 : Fin 160 → ℝ) (w2 : Fin 160 → Fin 128 → ℝ) (b2 : Fin 128 → ℝ)
    (w3 : Fin 128 → Fin 96 → ℝ) (b3 : Fin 96 → ℝ) (x : Fin 384 → ℝ) : Fin 96 → ℝ :=
  fun j => celuRe (linRe (fun j2 => celuRe (linRe (fun j1 => celuRe (linRe x w1 b1 j1)) w2 b2 j2)) w3 b3 j)

theorem hidden_coe (celu : EReal → EReal) (hcelu : ∀ r : ℝ, celu (r : EReal) = (celuRe r : EReal))
    (P : Params) (s : Fin 4) (x : Fin 384 → EReal)
    (w1 : Fin 384 → Fin 160 → ℝ) (b1 : Fin 160 → ℝ) (w2 : Fin 160 → Fin 128 → ℝ) (b2 : Fin 128 → ℝ)
    (w3 : Fin 128 → Fin 96 → ℝ) (b3 : Fin 96 → ℝ) (xr : Fin 384 → ℝ)
    (hw1 : ∀ k j, P.W1 s k j = (w1 k j : EReal)) (hb1 : ∀ j, P.b1 s j = (b1 j : EReal))
    (hw2 : ∀ k j, P.W2 s k j = (w2 k j : EReal)) (hb2 : ∀ j, P.b2 s j = (b2 j : EReal))
    (hw3 : ∀ k j, P.W3 s k j = (w3 k j : EReal)) (hb3 : ∀ j, P.b3 s j = (b3 j : EReal))
    (hx : ∀ k, x k = (xr k : EReal)) (j : Fin 96) :
    hidden celu P s x j = (hiddenRe w1 b1 w2 b2 w3 b3 xr j : EReal) := by
  have h1 : ∀ j1, celu (lin x (P.W1 s) (P.b1 s) j1) = ((celuRe (linRe xr w1 b1 j1) : ℝ) : EReal) := fun j1 => by
    rw [lin_coe x (P.W1 s) (P.b1 s) xr w1 b1 hx hw1 hb1 j1, hcelu]
  have h2 : ∀ j2, celu (lin (fun j1 => celu (lin x (P.W1 s) (P.b1 s) j1)) (P.W2 s) (P.b2 s) j2)
      = ((celuRe (linRe (fun j1 => celuRe (linRe xr w1 b1 j1)) w2 b2 j2) : ℝ) : EReal) := fun j2 => by
    rw [lin_coe _ (P.W2 s) (P.b2 s) (fun j1 => celuRe (linRe xr w1 b1 j1)) w2 b2 h1 hw2 hb2 j2, hcelu]
  unfold hidden hiddenRe
  rw [lin_coe _ (P.W3 s) (P.b3 s) (fun j2 => celuRe (linRe (fun j1 => celuRe (linRe xr w1 b1 j1)) w2 b2 j2))
    w3 b3 h2 hw3 hb3 j, hcelu]

/-- `∑ j, ((∑ k, h j k * w k) + b) = (∑ k, (∑ j, h j k) * w k) + 2000 * b` on the reals. -/
theorem block_sum (g : Fin 2000 → Fin 96 → ℝ) (w : Fin 96 → ℝ) (b : ℝ) :
    (∑ k, (∑ r, g r k) * w k) + 2000 * b = ∑ r, ((∑ k, g r k * w k) + b) := by
  rw [Finset.sum_add_distrib, Finset.sum_comm]
  congr 1
  · refine Finset.sum_congr rfl fun k _ => ?_
    rw [Finset.sum_mul]
  · rw [Finset.sum_const, Finset.card_univ, Fintype.card_fin, nsmul_eq_mul]
    norm_num

/-- `50000 = 5 * 5 * 2000`: an atom is a block, a sub-block and a position in it. -/
def rowEquiv : Fin 5 × Fin 5 × Fin 2000 ≃ Fin 50000 where
  toFun p := rowIx p.1 p.2.1 p.2.2
  invFun n := (⟨n.val / 10000, by omega⟩, ⟨n.val % 10000 / 2000, by omega⟩, ⟨n.val % 2000, by omega⟩)
  left_inv := by
    rintro ⟨⟨t, ht⟩, ⟨i, hi⟩, ⟨r, hr⟩⟩
    simp only [rowIx, Prod.mk.injEq, Fin.mk.injEq]
    refine ⟨?_, ?_, ?_⟩ <;> omega
  right_inv := by
    rintro ⟨n, hn⟩
    simp only [rowIx, Fin.mk.injEq]
    omega

theorem sum_rowIx (f : Fin 50000 → ℝ) :
    ∑ t : Fin 5, ∑ i : Fin 5, ∑ r : Fin 2000, f (rowIx t i r) = ∑ j, f j := by
  rw [← Equiv.sum_comp rowEquiv f, Fintype.sum_prod_type]
  refine Finset.sum_congr rfl fun t _ => ?_
  rw [Fintype.sum_prod_type]
  rfl

theorem species_sum (h : Fin 50000 → Fin 96 → ℝ) (w : Fin 96 → ℝ) (b : ℝ) :
    ∑ t : Fin 5, ∑ i : Fin 5, ((∑ k, (∑ r : Fin 2000, h (rowIx t i r) k) * w k) + 2000 * b)
      = ∑ j, ((∑ k, h j k * w k) + b) := by
  refine Eq.trans ?_ (sum_rowIx (fun j => (∑ k, h j k * w k) + b))
  exact Finset.sum_congr rfl fun t _ => Finset.sum_congr rfl fun i _ =>
    block_sum (fun r k => h (rowIx t i r) k) w b

theorem sum_coe_congr {ι : Type*} [Fintype ι] (f : ι → EReal) (fr : ι → ℝ) (hf : ∀ i, f i = (fr i : EReal)) :
    ∑ i, f i = ((∑ i, fr i : ℝ) : EReal) := by
  rw [coe_sum]
  exact Finset.sum_congr rfl fun i _ => hf i

theorem dot_coe {n : ℕ} (u v : Fin n → EReal) (ur vr : Fin n → ℝ) (hu : ∀ k, u k = (ur k : EReal))
    (hv : ∀ k, v k = (vr k : EReal)) : ∑ k, u k * v k = ((∑ k, ur k * vr k : ℝ) : EReal) :=
  sum_coe_congr _ _ fun k => by rw [hu k, hv k, EReal.coe_mul]

theorem coe_2000 : (2000 : EReal) = ((2000 : ℝ) : EReal) := rfl

theorem energy_coe (H W : Fin 96 → EReal) (B : EReal) (hr wr : Fin 96 → ℝ) (br : ℝ)
    (hH : ∀ k, H k = (hr k : EReal)) (hW : ∀ k, W k = (wr k : EReal)) (hB : B = (br : EReal)) :
    (∑ k, H k * W k) + B = (((∑ k, hr k * wr k) + br : ℝ) : EReal) := by
  rw [dot_coe H W hr wr hH hW, hB, ← EReal.coe_add]

theorem contrib_coe (H : Fin 2000 → Fin 96 → EReal) (W : Fin 96 → EReal) (B : EReal)
    (hr : Fin 2000 → Fin 96 → ℝ) (wr : Fin 96 → ℝ) (br : ℝ)
    (hH : ∀ r k, H r k = (hr r k : EReal)) (hW : ∀ k, W k = (wr k : EReal)) (hB : B = (br : EReal)) :
    (∑ k, (∑ r, H r k) * W k) + 2000 * B = (((∑ k, (∑ r, hr r k) * wr k) + 2000 * br : ℝ) : EReal) := by
  have e : ∑ k, (∑ r, H r k) * W k = ((∑ k, (∑ r, hr r k) * wr k : ℝ) : EReal) :=
    dot_coe (fun k => ∑ r, H r k) W (fun k => ∑ r, hr r k) wr
      (fun k => sum_coe_congr (fun r => H r k) (fun r => hr r k) fun r => hH r k) hW
  rw [e, hB, coe_2000, ← EReal.coe_mul, ← EReal.coe_add]

/-- With every weight, bias and feature a real number the two totals are one number. -/
theorem totalK_eq_totalR (P : Params) (x : Fin 4 → Fin 50000 → Fin 384 → EReal) (hP : P.Finite)
    (hx : ∀ s j k, IsReal (x s j k)) : totalK P x = totalR P x := by
  obtain ⟨hW1, hb1, hW2, hb2, hW3, hb3, hW4, hb4⟩ := hP
  choose w1 hw1 using hW1
  choose b1 hb1 using hb1
  choose w2 hw2 using hW2
  choose b2 hb2 using hb2
  choose w3 hw3 using hW3
  choose b3 hb3 using hb3
  choose w4 hw4 using hW4
  choose b4 hb4 using hb4
  choose xr hxr using hx

  have hK : ∀ s j k, hidden celuK P s (x s j) k
      = (hiddenRe (w1 s) (b1 s) (w2 s) (b2 s) (w3 s) (b3 s) (xr s j) k : EReal) := fun s j k =>
    hidden_coe celuK celuK_coe P s (x s j) (w1 s) (b1 s) (w2 s) (b2 s) (w3 s) (b3 s) (xr s j)
      (hw1 s) (hb1 s) (hw2 s) (hb2 s) (hw3 s) (hb3 s) (hxr s j) k
  have hR : ∀ s j k, hidden celuR P s (x s j) k
      = (hiddenRe (w1 s) (b1 s) (w2 s) (b2 s) (w3 s) (b3 s) (xr s j) k : EReal) := fun s j k =>
    hidden_coe celuR celuR_coe P s (x s j) (w1 s) (b1 s) (w2 s) (b2 s) (w3 s) (b3 s) (xr s j)
      (hw1 s) (hb1 s) (hw2 s) (hb2 s) (hw3 s) (hb3 s) (hxr s j) k
  generalize hh : (fun s j => hiddenRe (w1 s) (b1 s) (w2 s) (b2 s) (w3 s) (b3 s) (xr s j)
    : Fin 4 → Fin 50000 → Fin 96 → ℝ) = h
  have hK' : ∀ s j k, hidden celuK P s (x s j) k = (h s j k : EReal) := fun s j k => by rw [← hh]; exact hK s j k
  have hR' : ∀ s j k, hidden celuR P s (x s j) k = (h s j k : EReal) := fun s j k => by rw [← hh]; exact hR s j k

  have eR : totalR P x = ((∑ s, ∑ j, ((∑ k, h s j k * w4 s k) + b4 s) : ℝ) : EReal) :=
    sum_coe_congr _ _ fun s => sum_coe_congr _ _ fun j =>
      energy_coe _ _ _ (h s j) (w4 s) (b4 s) (hR' s j) (hw4 s) (hb4 s)

  have eK : totalK P x
      = ((∑ s, ∑ t : Fin 5, ∑ i : Fin 5,
          ((∑ k, (∑ r : Fin 2000, h s (rowIx t i r) k) * w4 s k) + 2000 * b4 s) : ℝ) : EReal) :=
    sum_coe_congr _ _ fun s => sum_coe_congr _ _ fun t => sum_coe_congr _ _ fun i =>
      contrib_coe _ _ _ (fun r k => h s (rowIx t i r) k) (w4 s) (b4 s)
        (fun r k => hK' s (rowIx t i r) k) (hw4 s) (hb4 s)
  rw [eK, eR]
  exact congrArg _ (Finset.sum_congr rfl fun s _ => species_sum (h s) (w4 s) (b4 s))

end Cert.Spec

end
-- ==== Proof.PreFacts.lean ====
import proofs.«428131_j48885317763465_3_alg».proof.Pre_finite_inputs
import proofs.«428131_j48885317763465_3_alg».proof.Proof.Spec
import Idealize.ShloMosaic.Lib.ReduceAll
import Idealize.ShloMosaic.Lib.StableHlo.Predicate

noncomputable section

namespace Cert.PreFacts

open Idealize.ShloMosaic Cert.Pre_finite_inputs

instance : Subsingleton S_.Idx := ⟨fun _ _ => funext fun d => d.elim0⟩

theorem andi_one {s : Shape} {x y : IVec s 1} {j : s.Idx} : andi x y j = 1#1 ↔ x j = 1#1 ∧ y j = 1#1 :=
  IntOp.andi_eq_one

theorem ofBits_inf : Ideal.ofBits .f32 0x7F800000#32 = ⊤ := by simp [Ideal.ofBits, Ideal.ieee]

theorem isReal_of_abs_lt_top (x : EReal) (h : max x (-x) < ⊤) : Cert.Spec.IsReal x := by
  have h1 : x ≠ ⊤ := fun e => by rw [e] at h; simp at h
  have h2 : x ≠ ⊥ := fun e => by rw [e] at h; simp at h
  exact ⟨x.toReal, (EReal.coe_toReal h1 h2).symm⟩

theorem float_all {s : Shape} {axes : List (Fin s.rank)} (hb : S_.BroadcastsInDim s (![] : Fin 0 → Fin s.rank))
    (hr : s.ReducesTo axes S_) (h0 : 0 < S_.numel) (a : FVec Ideal s .f32) (j : S_.Idx)
    (e : Host.reduce IntOp.andi (cmpf .olt (Host.absf a) (broadcastInDim s ![] hb (constant S_ .f32 0x7F800000#32)))
        (constantI S_ 1 1#1) hr h0 j = 1#1) (i : s.Idx) : Cert.Spec.IsReal (a i) := by
  have hi := Host.reduce_andi_all _ _ hr h0 j e i
  have hc : Ideal.cmp .olt (max (a i) (-(a i)))
      (broadcastInDim s ![] hb (constant (F := Ideal) S_ .f32 0x7F800000#32) i) = 1#1 := hi
  rw [StableHlo.Predicate.bcast_scalar hb h0] at hc
  have hc' : Ideal.cmp .olt (max (a i) (-(a i))) (Ideal.ofBits .f32 0x7F800000#32) = 1#1 := hc
  rw [ofBits_inf] at hc'
  simp only [Ideal.cmp, StableHlo.Predicate.ofBool_eq_one_iff, decide_eq_true_eq] at hc'
  exact isReal_of_abs_lt_top _ hc'

theorem word_range (x : BitVec 32) (h1 : IntOp.cmpi .sge x 4294767296#32 = 1#1) (h2 : IntOp.cmpi .slt x 200000#32 = 1#1) :
    -200000 ≤ x.toInt ∧ x.toInt < 200000 := by
  unfold IntOp.cmpi at h1 h2
  rw [StableHlo.Predicate.ofBool_eq_one_iff] at h1 h2
  rw [BitVec.sle_iff_toInt_le] at h1
  rw [BitVec.slt_iff_toInt_lt] at h2
  have e1 : (4294767296#32 : BitVec 32).toInt = -200000 := by decide
  have e2 : (200000#32 : BitVec 32).toInt = 200000 := by decide
  omega

theorem index_all {s : Shape} {axes : List (Fin s.rank)} (hb : S_.BroadcastsInDim s (![] : Fin 0 → Fin s.rank))
    (hr : s.ReducesTo axes S_) (h0 : 0 < S_.numel) (a : IVec s 32) (j : S_.Idx)
    (e : Host.reduce IntOp.andi
        (andi (cmpi .sge a (broadcastInDim s ![] hb (constantI S_ 32 4294767296#32)))
          (cmpi .slt a (broadcastInDim s ![] hb (constantI S_ 32 200000#32))))
        (constantI S_ 1 1#1) hr h0 j = 1#1) (i : s.Idx) :
    -200000 ≤ (a i).toInt ∧ (a i).toInt < 200000 := by
  have hi := Host.reduce_andi_all _ _ hr h0 j e i
  obtain ⟨h1, h2⟩ := andi_one.1 hi
  have g1 : IntOp.cmpi .sge (a i) (broadcastInDim s ![] hb (constantI S_ 32 4294767296#32) i) = 1#1 := h1
  have g2 : IntOp.cmpi .slt (a i) (broadcastInDim s ![] hb (constantI S_ 32 200000#32) i) = 1#1 := h2
  rw [StableHlo.Predicate.bcast_scalar hb h0] at g1 g2
  exact word_range _ g1 g2

/-- The precondition read back: every float entry is a real number and every index word lies in `[-200000, 200000)`. -/
theorem of_fn [Cert.Pre_finite_inputs.Facts] (a0 : FVec Ideal S200000x384 .f32) (a1 : FVec Ideal S4x384x160 .f32)
    (a2 : FVec Ideal S4x160 .f32) (a3 : FVec Ideal S4x160x128 .f32) (a4 : FVec Ideal S4x128 .f32)
    (a5 : FVec Ideal S4x128x96 .f32) (a6 : FVec Ideal S4x96 .f32) (a7 : FVec Ideal S4x96x1 .f32)
    (a8 : FVec Ideal S4x1 .f32) (a9 a10 a11 a12 : IVec S50000 32)
    (h : Cert.Pre_finite_inputs.fn (F := Ideal) a0 a1 a2 a3 a4 a5 a6 a7 a8 a9 a10 a11 a12 = (fun _ => 1#1)) :
    (∀ i, Cert.Spec.IsReal (a0 i)) ∧ (∀ i, Cert.Spec.IsReal (a1 i)) ∧ (∀ i, Cert.Spec.IsReal (a2 i))
      ∧ (∀ i, Cert.Spec.IsReal (a3 i)) ∧ (∀ i, Cert.Spec.IsReal (a4 i)) ∧ (∀ i, Cert.Spec.IsReal (a5 i))
      ∧ (∀ i, Cert.Spec.IsReal (a6 i)) ∧ (∀ i, Cert.Spec.IsReal (a7 i)) ∧ (∀ i, Cert.Spec.IsReal (a8 i))
      ∧ (∀ i, -200000 ≤ (a9 i).toInt ∧ (a9 i).toInt < 200000)
      ∧ (∀ i, -200000 ≤ (a10 i).toInt ∧ (a10 i).toInt < 200000)
      ∧ (∀ i, -200000 ≤ (a11 i).toInt ∧ (a11 i).toInt < 200000)
      ∧ (∀ i, -200000 ≤ (a12 i).toInt ∧ (a12 i).toInt < 200000) := by
  have e := congrFun h ValueIdx.ix0
  dsimp only [fn, fn_part1, fn_part2, fn_part3, fn_part4] at e
  obtain ⟨e, h12⟩ := andi_one.1 e
  obtain ⟨e, h11⟩ := andi_one.1 e
  obtain ⟨e, h10⟩ := andi_one.1 e
  obtain ⟨e, h9⟩ := andi_one.1 e
  obtain ⟨e, h8⟩ := andi_one.1 e
  obtain ⟨e, h7⟩ := andi_one.1 e
  obtain ⟨e, h6⟩ := andi_one.1 e
  obtain ⟨e, h5⟩ := andi_one.1 e
  obtain ⟨e, h4⟩ := andi_one.1 e
  obtain ⟨e, h3⟩ := andi_one.1 e
  obtain ⟨e, h2⟩ := andi_one.1 e
  obtain ⟨h0, h1⟩ := andi_one.1 e
  exact ⟨float_all _ _ _ a0 _ h0, float_all _ _ _ a1 _ h1, float_all _ _ _ a2 _ h2, float_all _ _ _ a3 _ h3,
    float_all _ _ _ a4 _ h4, float_all _ _ _ a5 _ h5, float_all _ _ _ a6 _ h6, float_all _ _ _ a7 _ h7,
    float_all _ _ _ a8 _ h8, index_all _ _ _ a9 _ h9, index_all _ _ _ a10 _ h10, index_all _ _ _ a11 _ h11,
    index_all _ _ _ a12 _ h12⟩

end Cert.PreFacts

end
-- ==== Proof.lean ====
import proofs.«428131_j48885317763465_3_alg».proof.Defs
import proofs.«428131_j48885317763465_3_alg».proof.Proof.Gen.Kernel
import proofs.«428131_j48885317763465_3_alg».proof.Proof.Gen.KernelIdeal
import proofs.«428131_j48885317763465_3_alg».proof.Proof.Gen.ReferenceIdeal
import proofs.«428131_j48885317763465_3_alg».proof.Proof.Gen.Pre_finite_inputs
import proofs.«428131_j48885317763465_3_alg».proof.Proof.K.Frame
import proofs.«428131_j48885317763465_3_alg».proof.Proof.KI.Frame
import proofs.«428131_j48885317763465_3_alg».proof.Proof.KI.Value
import proofs.«428131_j48885317763465_3_alg».proof.Proof.RefRun
import proofs.«428131_j48885317763465_3_alg».proof.Proof.RefValue
import proofs.«428131_j48885317763465_3_alg».proof.Proof.SpecEq
import proofs.«428131_j48885317763465_3_alg».proof.Proof.PreFacts
import Idealize.ShloMosaic.Adequacy
import Idealize.ShloMosaic.Init

noncomputable section

namespace Cert.Proof

open Idealize.ShloMosaic Idealize.SL.Sem

/-- Each program's run ends with its thirteen arguments as they were. -/
theorem frame_k [Cert.Kernel.Facts] [Cert.Pre_finite_inputs.Facts] : Cert.frame_Kernel :=
  fun m ρ _ => (θ_run Cert.Kernel.defs _ _).mono (fun r h c => Cert.Kernel.Hand.all_args (fun b => r.2.mem ((c.tc : Thread Cert.Kernel.nD Cert.Kernel.τ).loc b) = m ((c.tc : Thread Cert.Kernel.nD Cert.Kernel.τ).loc b)) (h c)) (Cert.Kernel.Hand.frame (F := Bits) m ρ)

theorem frame_ki [Cert.KernelIdeal.Facts] [Cert.Pre_finite_inputs.Facts] : Cert.frame_KernelIdeal :=
  fun m ρ _ => (θ_run Cert.KernelIdeal.defs _ _).mono (fun r h c => Cert.KernelIdeal.Hand.all_args (fun b => r.2.mem ((c.tc : Thread Cert.KernelIdeal.nD Cert.KernelIdeal.τ).loc b) = m ((c.tc : Thread Cert.KernelIdeal.nD Cert.KernelIdeal.τ).loc b)) (h c)) (Cert.KernelIdeal.Hand.frame (F := Ideal) m ρ)

theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- The constant the kernel multiplies by is the exact reciprocal `2^27 / 13421773` of the reference's divisor. -/
theorem preserves : Cert.preserves_Kernel_KernelIdeal :=
  ⟨IdealRules.named_const.statement Cert.KernelIdeal.κ "inv_alpha" .f32 0x41200000#32 ((134217728 / 13421773 : ℝ) : EReal) rfl,
   IdealRules.named_const.statement Cert.KernelIdeal.κ "inv_alpha" .f32 0x41200000#32 ((134217728 / 13421773 : ℝ) : EReal) rfl,
   IdealRules.named_const.statement Cert.KernelIdeal.κ "inv_alpha" .f32 0x41200000#32 ((134217728 / 13421773 : ℝ) : EReal) rfl⟩

/-- Grouped by blocks or not, the atoms' energies add up to the same real number. -/
theorem algebraic [Cert.KernelIdeal.Facts] [Cert.ReferenceIdeal.Facts] [Cert.Pre_finite_inputs.Facts] :
    Cert.algebraic_KernelIdeal_ReferenceIdeal := by
  intro m ρ m' ρ' hpre hagree
  have hp := fun c : Dev Cert.KernelIdeal.nD => Cert.PreFacts.of_fn _ _ _ _ _ _ _ _ _ _ _ _ _ (hpre c)
  have hidx : ∀ (c : Dev Cert.KernelIdeal.nD) (s : Fin 4) (j : Fin 50000),
      -200000 ≤ (Cert.Spec.idxOf (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) s j).toInt
        ∧ (Cert.Spec.idxOf (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) s j).toInt < 200000 := by
    intro c s j
    obtain ⟨-, -, -, -, -, -, -, -, -, h9, h10, h11, h12⟩ := hp c
    match s with
    | ⟨0, _⟩ => exact h9 _
    | ⟨1, _⟩ => exact h10 _
    | ⟨2, _⟩ => exact h11 _
    | ⟨3, _⟩ => exact h12 _
  refine ⟨_, (θ_run Cert.KernelIdeal.defs _ _).mono (fun r h c => ⟨(h c).1, Cert.KernelIdeal.Hand.all_args (fun b => r.2.mem ((c.tc : Thread Cert.KernelIdeal.nD Cert.KernelIdeal.τ).loc b) = m ((c.tc : Thread Cert.KernelIdeal.nD Cert.KernelIdeal.τ).loc b)) (h c).2⟩) (Cert.KernelIdeal.Hand.run_value m ρ hidx), ?_⟩
  refine (θ_run Cert.ReferenceIdeal.defs _ _).mono (fun r h c => ⟨?_, (h c).2⟩)
    (Cert.ReferenceIdeal.ValueP.run (F := Ideal) m' ρ')
  obtain ⟨e0, e1, e2, e3, e4, e5, e6, e7, e8, e9, e10, e11, e12⟩ := hagree c
  obtain ⟨f0, f1, f2, f3, f4, f5, f6, f7, f8, -, -, -, -⟩ := hp c
  rw [(h c).1, Cert.ReferenceIdeal.Hand.res_value m' c (by rw [e9, e10, e11, e12]; exact hidx c)]
  rw [e0, e1, e2, e3, e4, e5, e6, e7, e8, e9, e10, e11, e12]
  funext _
  exact (Cert.Spec.totalK_eq_totalR _ _
    ⟨fun _ _ _ => f1 _, fun _ _ => f2 _, fun _ _ _ => f3 _, fun _ _ => f4 _, fun _ _ _ => f5 _, fun _ _ => f6 _,
      fun _ _ => f7 _, fun _ => f8 _⟩ (fun _ _ _ => f0 _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
